-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S2x128x40 : Shape := ⟨3, ![2, 128, 40]⟩
abbrev S2x40 : Shape := ⟨2, ![2, 40]⟩
abbrev S2x1600000 : Shape := ⟨2, ![2, 1600000]⟩
abbrev S_ : Shape := ⟨0, ![]⟩
abbrev S1x1600000 : Shape := ⟨2, ![1, 1600000]⟩
abbrev S100000 : Shape := ⟨1, ![100000]⟩
abbrev S1600000x1 : Shape := ⟨2, ![1600000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x40 : S_.BroadcastsInDim S2x128x40 (![] : Fin 0 → Fin S2x128x40.rank)
  reducesTo_S2x128x40_S_d0_1_2 : S2x128x40.ReducesTo [0, 1, 2] S_
  bcast_S_S2x40 : S_.BroadcastsInDim S2x40 (![] : Fin 0 → Fin S2x40.rank)
  reducesTo_S2x40_S_d0_1 : S2x40.ReducesTo [0, 1] S_
  slices_S2x1600000_S1x1600000_1_0 : S2x1600000.Slices ![1, 0] S1x1600000
  shapeCasts_S1x1600000_S1600000 : S1x1600000.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part4 {F : FTy → Type} [FloatOps F] (main_v58 : IVec S_ 1) (main_v67 : IVec S100000 1) (main_c_25 : IVec S_ 1) : IVec S_ 1 :=
  let main_v68 : IVec S_ 1 := (fun x v => Host.reduce IntOp.andi x v reducesTo_S100000_S_d0 h_S_) main_v67 main_c_25
  let main_v69 : IVec S_ 1 := andi main_v58 main_v68
  main_v69

def fn_part3 {F : FTy → Type} [FloatOps F] (main_arg1 : FVec F S1600000 .f32) (main_arg11 : FVec F S2x40 .f32) (main_arg12 : IVec S2x1600000 32) (main_v48 : IVec S_ 1) (main_v49 : FVec F S2x128x40 .f32) (main_v50 : FVec F S2x128x40 .f32) : IVec S_ 1 :=
  let main_v51 : IVec S2x128x40 1 := cmpf .olt main_v49 main_v50
  let main_c_19 : IVec S_ 1 := constantI S_ 1 1#1
  let main_v52 : IVec S_ 1 := (fun x v => Host.reduce IntOp.andi x v reducesTo_S2x128x40_S_d0_1_2 h_S_) main_v51 main_c_19
  let main_v53 : IVec S_ 1 := andi main_v48 main_v52
  let main_v54 : FVec F S2x40 .f32 := Host.absf main_arg11
  let main_cst_20 : FVec F S_ .f32 := constant S_ .f32 0x7F800000#32
  let main_v55 : FVec F S2x40 .f32 := broadcastInDim S2x40 ![] bcast_S_S2x40 main_cst_20
  let main_v56 : IVec S2x40 1 := cmpf .olt main_v54 main_v55
  let main_c_21 : IVec S_ 1 := constantI S_ 1 1#1
  let main_v57 : IVec S_ 1 := (fun x v => Host.reduce IntOp.andi x v reducesTo_S2x40_S_d0_1 h_S_) main_v56 main_c_21
  let main_v58 : IVec S_ 1 := andi main_v53 main_v57
  let main_v59 : IVec S1x1600000 32 := (extractStridedSlice S1x1600000 ![1, 0] · slices_S2x1600000_S1x1600000_1_0) main_arg12
  let main_v60 : IVec S1600000 32 := shapeCast S1600000 main_v59 shapeCasts_S1x1600000_S1600000
  let main_cst_22 : FVec F S_ .f32 := constant S_ .f32 0x00000000#32
  let main_v61 : FVec F S100000 .f32 := broadcastInDim S100000 ![] bcast_S_S100000 main_cst_22
  let main_v62 : IVec S1600000x1 32 := broadcastInDim S1600000x1 ![0] bcast_S1600000_S1600000x1_0 main_v60
  let main_v63 : FVec F S100000 .f32 := (fun x i u => Host.scatterAdd scatter_S100000_S1600000x1_S1600000_n_0_0_1 x i u) main_v61 main_v62 main_arg1
  let main_cst_23 : FVec F S_ .f32 := constant S_ .f32 0x3F800000#32
  let main_v64 : FVec F S100000 .f32 := broadcastInDim S100000 ![] bcast_S_S100000 main_cst_23
  let main_v65 : FVec F S100000 .f32 := addf main_v63 main_v64
  let main_cst_24 : FVec F S_ .f32 := constant S_ .f32 0x00000000#32
  let main_v66 : FVec F S100000 .f32 := broadcastInDim S100000 ![] bcast_S_S100000 main_cst_24
  let main_v67 : IVec S100000 1 := cmpf .ogt main_v65 main_v66
  let main_c_25 : IVec S_ 1 := constantI S_ 1 1#1
  fn_part4 (F := F) main_v58 main_v67 main_c_25

def fn_part2 {F : FTy → Type} [FloatOps F] (main_arg1 : FVec F S1600000 .f32) (main_arg7 : FVec F S2x128 .f32) (main_arg8 : FVec F S2x128 .f32) (main_arg9 : FVec F S2x128 .f32) (main_arg10 : FVec F S2x128x40 .f32) (main_arg11 : FVec F S2x40 .f32) (main_arg12 : IVec S2x1600000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x40 .f32 := Host.absf main_arg10
  let main_cst_18 : FVec F S_ .f32 := constant S_ .f32 0x7F800000#32
  let main_v50 : FVec F S2x128x40 .f32 := broadcastInDim S2x128x40 ![] bcast_S_S2x128x40 main_cst_18
  fn_part3 (F := F) main_arg1 main_arg11 main_arg12 main_v48 main_v49 main_v50

def fn_part1 {F : FTy → Type} [FloatOps F] (main_arg1 : FVec F S1600000 .f32) (main_arg4 : FVec F S2x128 .f32) (main_arg5 : FVec F S2x128 .f32) (main_arg6 : FVec F S2x128x128 .f32) (main_arg7 : FVec F S2x128 .f32) (main_arg8 : FVec F S2x128 .f32) (main_arg9 : FVec F S2x128 .f32) (main_arg10 : FVec F S2x128x40 .f32) (main_arg11 : FVec F S2x40 .f32) (main_arg12 : IVec S2x1600000 32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg1 main_arg7 main_arg8 main_arg9 main_arg10 main_arg11 main_arg12 main_v33

def fn {F : FTy → Type} [FloatOps F] (main_arg0 : FVec F S100000x128 .f32) (main_arg1 : FVec F S1600000 .f32) (main_arg2 : FVec F S2x128x128 .f32) (main_arg3 : FVec F S2x128 .f32) (main_arg4 : FVec F S2x128 .f32) (main_arg5 : FVec F S2x128 .f32) (main_arg6 : FVec F S2x128x128 .f32) (main_arg7 : FVec F S2x128 .f32) (main_arg8 : FVec F S2x128 .f32) (main_arg9 : FVec F S2x128 .f32) (main_arg10 : FVec F S2x128x40 .f32) (main_arg11 : FVec F S2x40 .f32) (main_arg12 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg1 main_arg4 main_arg5 main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S2x128x40 : Shape := ⟨3, ![2, 128, 40]⟩
abbrev S2x40 : Shape := ⟨2, ![2, 40]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S128 : Shape := ⟨1, ![128]⟩
abbrev S1x40 : Shape := ⟨2, ![1, 40]⟩
abbrev S40 : Shape := ⟨1, ![40]⟩
abbrev S1x128x128 : Shape := ⟨3, ![1, 128, 128]⟩
abbrev S128x128 : Shape := ⟨2, ![128, 128]⟩
abbrev S5000x128 : Shape := ⟨2, ![5000, 128]⟩
abbrev S1600000x128 : Shape := ⟨2, ![1600000, 128]⟩
abbrev S5000x1 : Shape := ⟨2, ![5000, 1]⟩
abbrev S1x128x40 : Shape := ⟨3, ![1, 128, 40]⟩
abbrev S128x40 : Shape := ⟨2, ![128, 40]⟩
abbrev S100000x40 : Shape := ⟨2, ![100000, 40]⟩
abbrev S5000x40 : Shape := ⟨2, ![5000, 40]⟩
abbrev S1600000x40 : Shape := ⟨2, ![1600000, 40]⟩
abbrev S1x100000x40 : Shape := ⟨3, ![1, 100000, 40]⟩
abbrev S2x100000x40 : Shape := ⟨3, ![2, 100000, 40]⟩

abbrev nBuf : Space → Nat
  | .hbm => 260
  | .vmem => 128
  | .smem => 0
  | _ => 0

abbrev hbmTy0_0 (i : Nat) : BufTy := match i % 128 with
  | 0 => ⟨S100000x128, .f32⟩
  | 1 => ⟨S1600000, .f32⟩
  | 2 => ⟨S2x128x128, .f32⟩
  | 3 => ⟨S2x128, .f32⟩
  | 4 => ⟨S2x128, .f32⟩
  | 5 => ⟨S2x128, .f32⟩
  | 6 => ⟨S2x128x128, .f32⟩
  | 7 => ⟨S2x128, .f32⟩
  | 8 => ⟨S2x128, .f32⟩
  | 9 => ⟨S2x128, .f32⟩
  | 10 => ⟨S2x128x40, .f32⟩
  | 11 => ⟨S2x40, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x1, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S1x128, .f32⟩
  | 63 => ⟨S128, .f32⟩
  | 64 => ⟨S1x128, .f32⟩
  | 65 => ⟨S1x40, .f32⟩
  | 66 => ⟨S40, .f32⟩
  | 67 => ⟨S1x40, .f32⟩
  | 68 => ⟨S1x128x128, .f32⟩
  | 69 => ⟨S128x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x1, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S1x128, .f32⟩
  | 98 => ⟨S100000x128, .f32⟩
  | 99 => ⟨S1x128x128, .f32⟩
  | 100 => ⟨S128x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S1600000x1, .f32⟩
  | 112 => ⟨S1600000x128, .f32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S1x128x40, .f32⟩
  | 3 => ⟨S128x40, .f32⟩
  | 4 => ⟨S100000x40, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x40, .f32⟩
  | 14 => ⟨S1600000x1, .f32⟩
  | 15 => ⟨S1600000x40, .f32⟩
  | 16 => ⟨S1600000x40, .f32⟩
  | 17 => ⟨S_, .f32⟩
  | 18 => ⟨S100000x40, .f32⟩
  | 19 => ⟨S1600000x1, .i32⟩
  | 20 => ⟨S100000x40, .f32⟩
  | 21 => ⟨S100000x40, .f32⟩
  | 22 => ⟨S1x40, .f32⟩
  | 23 => ⟨S1x40, .f32⟩
  | 24 => ⟨S1x128, .f32⟩
  | 25 => ⟨S128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S1x128, .f32⟩
  | 34 => ⟨S128, .f32⟩
  | 35 => ⟨S1x128, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S1x40, .f32⟩
  | 43 => ⟨S40, .f32⟩
  | 44 => ⟨S1x40, .f32⟩
  | 45 => ⟨S1x128x128, .f32⟩
  | 46 => ⟨S128x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S100000x128, .f32⟩
  | 76 => ⟨S1x128x128, .f32⟩
  | 77 => ⟨S128x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x1, .f32⟩
  | 89 => ⟨S1600000x128, .f32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S100000x128, .f32⟩
  | 107 => ⟨S1x128x40, .f32⟩
  | 108 => ⟨S128x40, .f32⟩
  | 109 => ⟨S100000x40, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x40, .f32⟩
  | 119 => ⟨S1600000x1, .f32⟩
  | 120 => ⟨S1600000x40, .f32⟩
  | 121 => ⟨S1600000x40, .f32⟩
  | 122 => ⟨S_, .f32⟩
  | 123 => ⟨S100000x40, .f32⟩
  | 124 => ⟨S1600000x1, .i32⟩
  | 125 => ⟨S100000x40, .f32⟩
  | 126 => ⟨S100000x40, .f32⟩
  | 127 => ⟨S1x40, .f32⟩
  | _ => ⟨S100000x128, .f32⟩

abbrev hbmTy0_2 (i : Nat) : BufTy := match i % 128 with
  | 0 => ⟨S1x40, .f32⟩
  | 1 => ⟨S1x100000x40, .f32⟩
  | 2 => ⟨S1x100000x40, .f32⟩
  | 3 => ⟨S2x100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x40, .f32⟩
  | .local _ .vmem, ⟨51, _⟩ => ⟨S5000x40, .f32⟩
  | .local _ .vmem, ⟨52, _⟩ => ⟨S5000x40, .f32⟩
  | .local _ .vmem, ⟨53, _⟩ => ⟨S5000x40, .f32⟩
  | .local _ .vmem, ⟨54, _⟩ => ⟨S5000x40, .f32⟩
  | .local _ .vmem, ⟨55, _⟩ => ⟨S5000x40, .f32⟩
  | .local _ .vmem, ⟨56, _⟩ => ⟨S5000x40, .f32⟩
  | .local _ .vmem, ⟨57, _⟩ => ⟨S5000x1, .f32⟩
  | .local _ .vmem, ⟨58, _⟩ => ⟨S5000x1, .f32⟩
  | .local _ .vmem, ⟨59, _⟩ => ⟨S1x40, .f32⟩
  | .local _ .vmem, ⟨60, _⟩ => ⟨S5000x40, .f32⟩
  | .local _ .vmem, ⟨61, _⟩ => ⟨S5000x40, .f32⟩
  | .local _ .vmem, ⟨62, _⟩ => ⟨S1x40, .f32⟩
  | .local _ .vmem, ⟨63, _⟩ => ⟨S1x40, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x1, .f32⟩
  | .local _ .vmem, ⟨74, _⟩ => ⟨S5000x1, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S1x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S128x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x1, .f32⟩
  | .local _ .vmem, ⟨98, _⟩ => ⟨S5000x1, .f32⟩
  | .local _ .vmem, ⟨99, _⟩ => ⟨S1x128, .f32⟩
  | .local _ .vmem, ⟨100, _⟩ => ⟨S5000x128, .f32⟩
  | .local _ .vmem, ⟨101, _⟩ => ⟨S5000x128, .f32⟩
  | .local _ .vmem, ⟨102, _⟩ => ⟨S1x128, .f32⟩
  | .local _ .vmem, ⟨103, _⟩ => ⟨S1x128, .f32⟩
  | .local _ .vmem, ⟨104, _⟩ => ⟨S5000x128, .f32⟩
  | .local _ .vmem, ⟨105, _⟩ => ⟨S5000x128, .f32⟩
  | .local _ .vmem, ⟨106, _⟩ => ⟨S1x128, .f32⟩
  | .local _ .vmem, ⟨107, _⟩ => ⟨S1x128, .f32⟩
  | .local _ .vmem, ⟨108, _⟩ => ⟨S1x128, .f32⟩
  | .local _ .vmem, ⟨109, _⟩ => ⟨S1x128, .f32⟩
  | .local _ .vmem, ⟨110, _⟩ => ⟨S5000x128, .f32⟩
  | .local _ .vmem, ⟨111, _⟩ => ⟨S5000x128, .f32⟩
  | .local _ .vmem, ⟨112, _⟩ => ⟨S5000x128, .f32⟩
  | .local _ .vmem, ⟨113, _⟩ => ⟨S5000x128, .f32⟩
  | .local _ .vmem, ⟨114, _⟩ => ⟨S128x40, .f32⟩
  | .local _ .vmem, ⟨115, _⟩ => ⟨S5000x40, .f32⟩
  | .local _ .vmem, ⟨116, _⟩ => ⟨S5000x40, .f32⟩
  | .local _ .vmem, ⟨117, _⟩ => ⟨S5000x40, .f32⟩
  | .local _ .vmem, ⟨118, _⟩ => ⟨S5000x40, .f32⟩
  | .local _ .vmem, ⟨119, _⟩ => ⟨S5000x40, .f32⟩
  | .local _ .vmem, ⟨120, _⟩ => ⟨S5000x40, .f32⟩
  | .local _ .vmem, ⟨121, _⟩ => ⟨S5000x1, .f32⟩
  | .local _ .vmem, ⟨122, _⟩ => ⟨S5000x1, .f32⟩
  | .local _ .vmem, ⟨123, _⟩ => ⟨S1x40, .f32⟩
  | .local _ .vmem, ⟨124, _⟩ => ⟨S5000x40, .f32⟩
  | .local _ .vmem, ⟨125, _⟩ => ⟨S5000x40, .f32⟩
  | .local _ .vmem, ⟨126, _⟩ => ⟨S1x40, .f32⟩
  | .local _ .vmem, ⟨127, _⟩ => ⟨S1x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_4 : Ref sig .tc := ⟨.hbm, 71, rfl⟩
abbrev main_v52 : Ref sig .tc := ⟨.hbm, 72, rfl⟩
abbrev main_v53 : Ref sig .tc := ⟨.hbm, 73, rfl⟩
abbrev main_c_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65_0 : Ref sig .tc := ⟨.hbm, 87, rfl⟩
abbrev main_v65_1 : Ref sig .tc := ⟨.hbm, 88, rfl⟩
abbrev main_v65_2 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_9 : Ref sig .tc := ⟨.hbm, 102, rfl⟩
abbrev main_v76 : Ref sig .tc := ⟨.hbm, 103, rfl⟩
abbrev main_v77 : Ref sig .tc := ⟨.hbm, 104, rfl⟩
abbrev main_c_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89_0 : Ref sig .tc := ⟨.hbm, 118, rfl⟩
abbrev main_v89_1 : Ref sig .tc := ⟨.hbm, 119, rfl⟩
abbrev main_v89_2 : Ref sig .tc := ⟨.hbm, 120, rfl⟩
abbrev main_cst_12 : Ref sig .tc := ⟨.hbm, 121, rfl⟩
abbrev main_v90 : Ref sig .tc := ⟨.hbm, 122, rfl⟩
abbrev main_v91 : Ref sig .tc := ⟨.hbm, 123, rfl⟩
abbrev main_cst_13 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_14 : Ref sig .tc := ⟨.hbm, 133, rfl⟩
abbrev main_v100 : Ref sig .tc := ⟨.hbm, 134, rfl⟩
abbrev main_v101 : Ref sig .tc := ⟨.hbm, 135, rfl⟩
abbrev main_c_15 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_16 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113_0 : Ref sig .tc := ⟨.hbm, 149, rfl⟩
abbrev main_v113_1 : Ref sig .tc := ⟨.hbm, 150, rfl⟩
abbrev main_v113_2 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_c_17 : Ref sig .tc := ⟨.hbm, 176, rfl⟩
abbrev main_v138 : Ref sig .tc := ⟨.hbm, 177, rfl⟩
abbrev main_v139 : Ref sig .tc := ⟨.hbm, 178, rfl⟩
abbrev main_c_18 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_19 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151_0 : Ref sig .tc := ⟨.hbm, 192, rfl⟩
abbrev main_v151_1 : Ref sig .tc := ⟨.hbm, 193, rfl⟩
abbrev main_v151_2 : Ref sig .tc := ⟨.hbm, 194, rfl⟩
abbrev main_cst_20 : Ref sig .tc := ⟨.hbm, 195, rfl⟩
abbrev main_v152 : Ref sig .tc := ⟨.hbm, 196, rfl⟩
abbrev main_v153 : Ref sig .tc := ⟨.hbm, 197, rfl⟩
abbrev main_cst_21 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_22 : Ref sig .tc := ⟨.hbm, 207, rfl⟩
abbrev main_v162 : Ref sig .tc := ⟨.hbm, 208, rfl⟩
abbrev main_v163 : Ref sig .tc := ⟨.hbm, 209, rfl⟩
abbrev main_c_23 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_24 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175_0 : Ref sig .tc := ⟨.hbm, 223, rfl⟩
abbrev main_v175_1 : Ref sig .tc := ⟨.hbm, 224, rfl⟩
abbrev main_v175_2 : Ref sig .tc := ⟨.hbm, 225, rfl⟩
abbrev main_cst_25 : Ref sig .tc := ⟨.hbm, 226, rfl⟩
abbrev main_v176 : Ref sig .tc := ⟨.hbm, 227, rfl⟩
abbrev main_v177 : Ref sig .tc := ⟨.hbm, 228, rfl⟩
abbrev main_cst_26 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_c_27 : Ref sig .tc := ⟨.hbm, 238, rfl⟩
abbrev main_v186 : Ref sig .tc := ⟨.hbm, 239, rfl⟩
abbrev main_v187 : Ref sig .tc := ⟨.hbm, 240, rfl⟩
abbrev main_c_28 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_29 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199_0 : Ref sig .tc := ⟨.hbm, 254, rfl⟩
abbrev main_v199_1 : Ref sig .tc := ⟨.hbm, 255, rfl⟩
abbrev main_v199_2 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc9_stg5_0 : Ref sig .tc := ⟨.vmem, 78, rfl⟩
abbrev cc9_stg6_0 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg4_0 : Ref sig .tc := ⟨.vmem, 85, rfl⟩
abbrev cc10_stg5_0 : Ref sig .tc := ⟨.vmem, 86, rfl⟩
abbrev cc10_stg5_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg2_1 : Ref sig .tc := ⟨.vmem, 92, rfl⟩
abbrev cc12_stg0_0 : Ref sig .tc := ⟨.vmem, 93, rfl⟩
abbrev cc12_stg0_1 : Ref sig .tc := ⟨.vmem, 94, rfl⟩
abbrev cc12_stg1_0 : Ref sig .tc := ⟨.vmem, 95, rfl⟩
abbrev cc12_stg1_1 : Ref sig .tc := ⟨.vmem, 96, rfl⟩
abbrev cc12_stg2_0 : Ref sig .tc := ⟨.vmem, 97, rfl⟩
abbrev cc12_stg2_1 : Ref sig .tc := ⟨.vmem, 98, rfl⟩
abbrev cc12_stg3_0 : Ref sig .tc := ⟨.vmem, 99, rfl⟩
abbrev cc12_stg4_0 : Ref sig .tc := ⟨.vmem, 100, rfl⟩
abbrev cc12_stg4_1 : Ref sig .tc := ⟨.vmem, 101, rfl⟩
abbrev cc12_stg5_0 : Ref sig .tc := ⟨.vmem, 102, rfl⟩
abbrev cc12_stg6_0 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg2_0 : Ref sig .tc := ⟨.vmem, 107, rfl⟩
abbrev cc13_stg3_0 : Ref sig .tc := ⟨.vmem, 108, rfl⟩
abbrev cc13_stg4_0 : Ref sig .tc := ⟨.vmem, 109, rfl⟩
abbrev cc13_stg5_0 : Ref sig .tc := ⟨.vmem, 110, rfl⟩
abbrev cc13_stg5_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg2_1 : Ref sig .tc := ⟨.vmem, 116, rfl⟩
abbrev cc15_stg0_0 : Ref sig .tc := ⟨.vmem, 117, rfl⟩
abbrev cc15_stg0_1 : Ref sig .tc := ⟨.vmem, 118, rfl⟩
abbrev cc15_stg1_0 : Ref sig .tc := ⟨.vmem, 119, rfl⟩
abbrev cc15_stg1_1 : Ref sig .tc := ⟨.vmem, 120, rfl⟩
abbrev cc15_stg2_0 : Ref sig .tc := ⟨.vmem, 121, rfl⟩
abbrev cc15_stg2_1 : Ref sig .tc := ⟨.vmem, 122, rfl⟩
abbrev cc15_stg3_0 : Ref sig .tc := ⟨.vmem, 123, rfl⟩
abbrev cc15_stg4_0 : Ref sig .tc := ⟨.vmem, 124, rfl⟩
abbrev cc15_stg4_1 : Ref sig .tc := ⟨.vmem, 125, rfl⟩
abbrev cc15_stg5_0 : Ref sig .tc := ⟨.vmem, 126, rfl⟩
abbrev cc15_stg6_0 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem4_0 : DmaSem sig := 76
abbrev cc9_sem4_1 : DmaSem sig := 77
abbrev cc9_sem5_0 : DmaSem sig := 78
abbrev cc9_sem6_0 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem4_0 : DmaSem sig := 85
abbrev cc10_sem5_0 : DmaSem sig := 86
abbrev cc10_sem5_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem2_1 : DmaSem sig := 92
abbrev cc12_sem0_0 : DmaSem sig := 93
abbrev cc12_sem0_1 : DmaSem sig := 94
abbrev cc12_sem1_0 : DmaSem sig := 95
abbrev cc12_sem1_1 : DmaSem sig := 96
abbrev cc12_sem2_0 : DmaSem sig := 97
abbrev cc12_sem2_1 : DmaSem sig := 98
abbrev cc12_sem3_0 : DmaSem sig := 99
abbrev cc12_sem4_0 : DmaSem sig := 100
abbrev cc12_sem4_1 : DmaSem sig := 101
abbrev cc12_sem5_0 : DmaSem sig := 102
abbrev cc12_sem6_0 : DmaSem sig := 103
abbrev cc13_sem0_0 : DmaSem sig := 104
abbrev cc13_sem0_1 : DmaSem sig := 105
abbrev cc13_sem1_0 : DmaSem sig := 106
abbrev cc13_sem2_0 : DmaSem sig := 107
abbrev cc13_sem3_0 : DmaSem sig := 108
abbrev cc13_sem4_0 : DmaSem sig := 109
abbrev cc13_sem5_0 : DmaSem sig := 110
abbrev cc13_sem5_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem2_1 : DmaSem sig := 116
abbrev cc15_sem0_0 : DmaSem sig := 117
abbrev cc15_sem0_1 : DmaSem sig := 118
abbrev cc15_sem1_0 : DmaSem sig := 119
abbrev cc15_sem1_1 : DmaSem sig := 120
abbrev cc15_sem2_0 : DmaSem sig := 121
abbrev cc15_sem2_1 : DmaSem sig := 122
abbrev cc15_sem3_0 : DmaSem sig := 123
abbrev cc15_sem4_0 : DmaSem sig := 124
abbrev cc15_sem4_1 : DmaSem sig := 125
abbrev cc15_sem5_0 : DmaSem sig := 126
abbrev cc15_sem6_0 : DmaSem sig := 127

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x40 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x40 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x40 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x40 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x40 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S5000x40 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x40 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S5000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 1 → Memref sig .tc .vmem S1x40 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S5000x40 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 1 → Memref sig .tc .vmem S1x40 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x40 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  slices_S2x40_S1x40_0_0 : S2x40.Slices ![0, 0] S1x40
  shapeCasts_S1x40_S40 : S1x40.ShapeCasts S40
  bcast_S40_S1x40_1 : S40.BroadcastsInDim S1x40 (![1] : Fin 1 → Fin S1x40.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  slices_S2x128x40_S1x128x40_0_0_0 : S2x128x40.Slices ![0, 0, 0] S1x128x40
  shapeCasts_S1x128x40_S128x40 : S1x128x40.ShapeCasts S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  inb_S1x40_S1x40_0_0 : ∀ a, (![0, 0] : Fin 2 → Nat) a + S1x40.size a ≤ S1x40.size a
  h_S1x40 : 0 < S1x40.numel
  shapeCasts_S5000x40_S5000x40 : S5000x40.ShapeCasts S5000x40
  broadcasts_S5000x1_S5000x40 : S5000x1.Broadcasts S5000x40
  shapeCasts_S1x40_S1x40 : S1x40.ShapeCasts S1x40
  broadcasts_S1x40_S5000x40 : S1x40.Broadcasts S5000x40
  reduces_S5000x40_S40 : S5000x40.Reduces [0] S40
  shapeCasts_S40_S1x40 : S40.ShapeCasts S1x40
  slices_S2x128_S1x128_1_0 : S2x128.Slices ![1, 0] S1x128
  slices_S2x40_S1x40_1_0 : S2x40.Slices ![1, 0] S1x40
  slices_S2x128x128_S1x128x128_1_0_0 : S2x128x128.Slices ![1, 0, 0] S1x128x128
  slices_S2x128x40_S1x128x40_1_0_0 : S2x128x40.Slices ![1, 0, 0] S1x128x40
  bcast_S100000x40_S1x100000x40_1_2 : S100000x40.BroadcastsInDim S1x100000x40 (![1, 2] : Fin 2 → Fin S1x100000x40.rank)
  concatenates_S1x100000x40_S1x100000x40_S2x100000x40_d0 : Shape.Concatenates [S1x100000x40, S1x100000x40] S2x100000x40 0
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x40.size a ≤ S100000x40.size a
  hwx6_2 : ∀ i : grid6.Coords, EltTy.bits .f32 = 32 ∨ (Rect.block (s := S100000x40) S5000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x40.size a ≤ S100000x40.size a
  hwx7_0 : ∀ i : grid7.Coords, EltTy.bits .f32 = 32 ∨ (Rect.block (s := S100000x40) S5000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x40.size a ≤ S100000x40.size a
  hwx7_1 : ∀ i : grid7.Coords, EltTy.bits .f32 = 32 ∨ (Rect.block (s := S100000x40) S5000x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x40.size a ≤ S1x40.size a
  hwx7_3 : ∀ i : grid7.Coords, EltTy.bits .f32 = 32 ∨ (Rect.block (s := S1x40) S1x40.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x40.size a ≤ S100000x40.size a
  hwx7_4 : ∀ i : grid7.Coords, EltTy.bits .f32 = 32 ∨ (Rect.block (s := S100000x40) S5000x40.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x40.size a ≤ S1x40.size a
  hwx7_5 : ∀ i : grid7.Coords, EltTy.bits .f32 = 32 ∨ (Rect.block (s := S1x40) S1x40.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x40.size a ≤ S1x40.size a
  hwx7_6 : ∀ i : grid7.Coords, EltTy.bits .f32 = 32 ∨ (Rect.block (s := S1x40) S1x40.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S100000x128.size a
  hwx10_5 : ∀ i : grid10.Coords, EltTy.bits .f32 = 32 ∨ (Rect.block (s := S100000x128) S5000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S100000x128.size a
  hwx11_2 : ∀ i : grid11.Coords, EltTy.bits .f32 = 32 ∨ (Rect.block (s := S100000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S100000x128.size a
  hwx12_1 : ∀ i : grid12.Coords, EltTy.bits .f32 = 32 ∨ (Rect.block (s := S100000x128) S5000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x1.size a ≤ S100000x1.size a
  hwx12_2 : ∀ i : grid12.Coords, EltTy.bits .f32 = 32 ∨ (Rect.block (s := S100000x1) S5000x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S100000x128.size a
  hwx12_4 : ∀ i : grid12.Coords, EltTy.bits .f32 = 32 ∨ (Rect.block (s := S100000x128) S5000x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S100000x128.size a
  hwx13_5 : ∀ i : grid13.Coords, EltTy.bits .f32 = 32 ∨ (Rect.block (s := S100000x128) S5000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x40.size a ≤ S128x40.size a
  hwx14_1 : ∀ i : grid14.Coords, EltTy.bits .f32 = 32 ∨ (Rect.block (s := S128x40) S128x40.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x40.size a ≤ S100000x40.size a
  hwx14_2 : ∀ i : grid14.Coords, EltTy.bits .f32 = 32 ∨ (Rect.block (s := S100000x40) S5000x40.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x40.size a ≤ S100000x40.size a
  hwx15_0 : ∀ i : grid15.Coords, EltTy.bits .f32 = 32 ∨ (Rect.block (s := S100000x40) S5000x40.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x40.size a ≤ S100000x40.size a
  hwx15_1 : ∀ i : grid15.Coords, EltTy.bits .f32 = 32 ∨ (Rect.block (s := S100000x40) S5000x40.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x1.size a ≤ S100000x1.size a
  hwx15_2 : ∀ i : grid15.Coords, EltTy.bits .f32 = 32 ∨ (Rect.block (s := S100000x1) S5000x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x40.size a ≤ S1x40.size a
  hwx15_3 : ∀ i : grid15.Coords, EltTy.bits .f32 = 32 ∨ (Rect.block (s := S1x40) S1x40.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S5000x40.size a ≤ S100000x40.size a
  hwx15_4 : ∀ i : grid15.Coords, EltTy.bits .f32 = 32 ∨ (Rect.block (s := S100000x40) S5000x40.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x40.size a ≤ S1x40.size a
  hwx15_5 : ∀ i : grid15.Coords, EltTy.bits .f32 = 32 ∨ (Rect.block (s := S1x40) S1x40.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x40.size a ≤ S1x40.size a
  hwx15_6 : ∀ i : grid15.Coords, EltTy.bits .f32 = 32 ∨ (Rect.block (s := S1x40) S1x40.size (cc15_transform_6 i) (hinb15_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v64) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v65_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v89_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v89_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v42) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v96) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S5000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v112) S5000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S5000x40.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v48) S1x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v113_0) S5000x40.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v113_1) S1x40.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v113_2) S1x40.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_arg0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v137) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v150) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v137) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v27) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v116) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v151_0) S5000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v151_1) S1x128.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v151_2) S1x128.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v151_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v153) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v157) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v119) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v122) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v158) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v158) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v160) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v161) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v174) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v161) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v27) S5000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v125) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v175_0) S5000x128.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v175_1) S1x128.size cc12_transform_5 reads12_5 true true 1 stage12_5 sem12_5
    hrank12 hreads12_5 hinb12_5 nbuf12_5 (Memref.isWhole_whole _) hwx12_5 hstage12_5

abbrev win12_6 : Pipeline.Window sig grid12 :=
  Pipeline.Window.ofSpec (Memref.whole main_v175_2) S1x128.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v175_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v177) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v181) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v128) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v131) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v182) S5000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v182) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v184) S128x40.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v185) S5000x40.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v198) S5000x40.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v185) S5000x40.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v27) S5000x1.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v134) S1x40.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v199_0) S5000x40.size cc15_transform_4 reads15_4 true false 2 stage15_4 sem15_4
    hrank15 hreads15_4 hinb15_4 nbuf15_4 (Memref.isWhole_whole _) hwx15_4 hstage15_4

abbrev win15_5 : Pipeline.Window sig grid15 :=
  Pipeline.Window.ofSpec (Memref.whole main_v199_1) S1x40.size cc15_transform_5 reads15_5 true true 1 stage15_5 sem15_5
    hrank15 hreads15_5 hinb15_5 nbuf15_5 (Memref.isWhole_whole _) hwx15_5 hstage15_5

abbrev win15_6 : Pipeline.Window sig grid15 :=
  Pipeline.Window.ofSpec (Memref.whole main_v199_2) S1x40.size cc15_transform_6 reads15_6 true true 1 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S2x128x40 : Shape := ⟨3, ![2, 128, 40]⟩
abbrev S2x40 : Shape := ⟨2, ![2, 40]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩
abbrev S1x128x40 : Shape := ⟨3, ![1, 128, 40]⟩
abbrev S128x40 : Shape := ⟨2, ![128, 40]⟩
abbrev S1x40 : Shape := ⟨2, ![1, 40]⟩
abbrev S40 : Shape := ⟨1, ![40]⟩
abbrev S100000x40 : Shape := ⟨2, ![100000, 40]⟩
abbrev S1600000x40 : Shape := ⟨2, ![1600000, 40]⟩
abbrev S1x100000x40 : Shape := ⟨3, ![1, 100000, 40]⟩
abbrev S2x100000x40 : Shape := ⟨3, ![2, 100000, 40]⟩

abbrev nBuf : Space → Nat
  | .hbm => 369
  | .vmem => 0
  | .smem => 0
  | _ => 0

abbrev hbmTy0_0 (i : Nat) : BufTy := match i % 128 with
  | 0 => ⟨S100000x128, .f32⟩
  | 1 => ⟨S1600000, .f32⟩
  | 2 => ⟨S2x128x128, .f32⟩
  | 3 => ⟨S2x128, .f32⟩
  | 4 => ⟨S2x128, .f32⟩
  | 5 => ⟨S2x128, .f32⟩
  | 6 => ⟨S2x128x128, .f32⟩
  | 7 => ⟨S2x128, .f32⟩
  | 8 => ⟨S2x128, .f32⟩
  | 9 => ⟨S2x128, .f32⟩
  | 10 => ⟨S2x128x40, .f32⟩
  | 11 => ⟨S2x40, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000, .f32⟩
  | 50 => ⟨S1x128x128, .f32⟩
  | 51 => ⟨S128x128, .f32⟩
  | 52 => ⟨S1x128, .f32⟩
  | 53 => ⟨S128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S1600000x1, .f32⟩
  | 2 => ⟨S1600000x128, .f32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000x1, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S1x128x40, .f32⟩
  | 53 => ⟨S128x40, .f32⟩
  | 54 => ⟨S1x40, .f32⟩
  | 55 => ⟨S40, .f32⟩
  | 56 => ⟨S100000x40, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x40, .f32⟩
  | 66 => ⟨S1600000x1, .f32⟩
  | 67 => ⟨S1600000x40, .f32⟩
  | 68 => ⟨S1600000x40, .f32⟩
  | 69 => ⟨S_, .f32⟩
  | 70 => ⟨S100000x40, .f32⟩
  | 71 => ⟨S1600000x1, .i32⟩
  | 72 => ⟨S100000x40, .f32⟩
  | 73 => ⟨S100000x1, .f32⟩
  | 74 => ⟨S100000x40, .f32⟩
  | 75 => ⟨S100000x40, .f32⟩
  | 76 => ⟨S100000x40, .f32⟩
  | 77 => ⟨S1x40, .f32⟩
  | 78 => ⟨S100000x40, .f32⟩
  | 79 => ⟨S100000x40, .f32⟩
  | 80 => ⟨S1x128x128, .f32⟩
  | 81 => ⟨S128x128, .f32⟩
  | 82 => ⟨S1x128, .f32⟩
  | 83 => ⟨S128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x1, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S1x128x128, .f32⟩
  | 18 => ⟨S128x128, .f32⟩
  | 19 => ⟨S1x128, .f32⟩
  | 20 => ⟨S128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x1, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x1, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x40, .f32⟩
  | 83 => ⟨S128x40, .f32⟩
  | 84 => ⟨S1x40, .f32⟩
  | 85 => ⟨S40, .f32⟩
  | 86 => ⟨S100000x40, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x40, .f32⟩
  | 96 => ⟨S1600000x1, .f32⟩
  | 97 => ⟨S1600000x40, .f32⟩
  | 98 => ⟨S1600000x40, .f32⟩
  | 99 => ⟨S_, .f32⟩
  | 100 => ⟨S100000x40, .f32⟩
  | 101 => ⟨S1600000x1, .i32⟩
  | 102 => ⟨S100000x40, .f32⟩
  | 103 => ⟨S100000x1, .f32⟩
  | 104 => ⟨S100000x40, .f32⟩
  | 105 => ⟨S100000x40, .f32⟩
  | 106 => ⟨S100000x40, .f32⟩
  | 107 => ⟨S1x40, .f32⟩
  | 108 => ⟨S100000x40, .f32⟩
  | 109 => ⟨S100000x40, .f32⟩
  | 110 => ⟨S1x100000x40, .f32⟩
  | 111 => ⟨S1x100000x40, .f32⟩
  | 112 => ⟨S2x100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_11 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call0_cst : Ref sig .tc := ⟨.hbm, 112, rfl⟩
abbrev main_call0_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_12 : Ref sig .tc := ⟨.hbm, 120, rfl⟩
abbrev main_v91 : Ref sig .tc := ⟨.hbm, 121, rfl⟩
abbrev main_v92 : Ref sig .tc := ⟨.hbm, 122, rfl⟩
abbrev main_c_13 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_14 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_15 : Ref sig .tc := ⟨.hbm, 147, rfl⟩
abbrev main_v115 : Ref sig .tc := ⟨.hbm, 148, rfl⟩
abbrev main_cst_16 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_17 : Ref sig .tc := ⟨.hbm, 156, rfl⟩
abbrev main_v122 : Ref sig .tc := ⟨.hbm, 157, rfl⟩
abbrev main_cst_18 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_19 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_call1_cst : Ref sig .tc := ⟨.hbm, 177, rfl⟩
abbrev main_call1_v0 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_c_20 : Ref sig .tc := ⟨.hbm, 185, rfl⟩
abbrev main_v146 : Ref sig .tc := ⟨.hbm, 186, rfl⟩
abbrev main_v147 : Ref sig .tc := ⟨.hbm, 187, rfl⟩
abbrev main_c_21 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_22 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_c_23 : Ref sig .tc := ⟨.hbm, 213, rfl⟩
abbrev main_v171 : Ref sig .tc := ⟨.hbm, 214, rfl⟩
abbrev main_v172 : Ref sig .tc := ⟨.hbm, 215, rfl⟩
abbrev main_c_24 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_25 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_26 : Ref sig .tc := ⟨.hbm, 240, rfl⟩
abbrev main_v195 : Ref sig .tc := ⟨.hbm, 241, rfl⟩
abbrev main_cst_27 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_cst_28 : Ref sig .tc := ⟨.hbm, 249, rfl⟩
abbrev main_v202 : Ref sig .tc := ⟨.hbm, 250, rfl⟩
abbrev main_cst_29 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_cst_30 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_call2_cst : Ref sig .tc := ⟨.hbm, 270, rfl⟩
abbrev main_call2_v0 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_c_31 : Ref sig .tc := ⟨.hbm, 278, rfl⟩
abbrev main_v226 : Ref sig .tc := ⟨.hbm, 279, rfl⟩
abbrev main_v227 : Ref sig .tc := ⟨.hbm, 280, rfl⟩
abbrev main_c_32 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_cst_33 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_cst_34 : Ref sig .tc := ⟨.hbm, 305, rfl⟩
abbrev main_v250 : Ref sig .tc := ⟨.hbm, 306, rfl⟩
abbrev main_cst_35 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_cst_36 : Ref sig .tc := ⟨.hbm, 314, rfl⟩
abbrev main_v257 : Ref sig .tc := ⟨.hbm, 315, rfl⟩
abbrev main_cst_37 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_cst_38 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_call3_cst : Ref sig .tc := ⟨.hbm, 335, rfl⟩
abbrev main_call3_v0 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_c_39 : Ref sig .tc := ⟨.hbm, 343, rfl⟩
abbrev main_v281 : Ref sig .tc := ⟨.hbm, 344, rfl⟩
abbrev main_v282 : Ref sig .tc := ⟨.hbm, 345, rfl⟩
abbrev main_c_40 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_cst_41 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S2x128x40_S1x128x40_0_0_0 : S2x128x40.Slices ![0, 0, 0] S1x128x40
  shapeCasts_S1x128x40_S128x40 : S1x128x40.ShapeCasts S128x40
  slices_S2x40_S1x40_0_0 : S2x40.Slices ![0, 0] S1x40
  shapeCasts_S1x40_S40 : S1x40.ShapeCasts S40
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  slices_S2x128x128_S1x128x128_1_0_0 : S2x128x128.Slices ![1, 0, 0] S1x128x128
  slices_S2x128_S1x128_1_0 : S2x128.Slices ![1, 0] S1x128
  slices_S2x128x40_S1x128x40_1_0_0 : S2x128x40.Slices ![1, 0, 0] S1x128x40
  slices_S2x40_S1x40_1_0 : S2x40.Slices ![1, 0] S1x40
  bcast_S100000x40_S1x100000x40_1_2 : S100000x40.BroadcastsInDim S1x100000x40 (![1, 2] : Fin 2 → Fin S1x100000x40.rank)
  concatenates_S1x100000x40_S1x100000x40_S2x100000x40_d0 : Shape.Concatenates [S1x100000x40, S1x100000x40] S2x100000x40 0
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.GraphK.lean ====
import proofs.«156818_j43868795961418_1_alg».proof.KernelIdeal
import Idealize.ShloMosaic.PureOps.Ideal

noncomputable section

namespace Cert.Tower

open Idealize.ShloMosaic Cert.KernelIdeal Cert.KernelIdeal.Facts₀

variable [Cert.KernelIdeal.Facts]

def kSrc (a12 : IVec S2x1600000 32) : IVec S1600000 32 :=
  shapeCast S1600000 (extractStridedSlice S1x1600000 ![0, 0] a12 slices_S2x1600000_S1x1600000_0_0) shapeCasts_S1x1600000_S1600000

def kDst (a12 : IVec S2x1600000 32) : IVec S1600000 32 :=
  shapeCast S1600000 (extractStridedSlice S1x1600000 ![1, 0] a12 slices_S2x1600000_S1x1600000_1_0) shapeCasts_S1x1600000_S1600000

def kWrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def kDeg (a1 : FVec Ideal S1600000 .f32) (dst : IVec S1600000 32) : FVec Ideal S100000 .f32 :=
  addf (Host.scatterAdd scatter_S100000_S1600000x1_S1600000_n_0_0_1
      (broadcastInDim S100000 ![] bcast_S_S100000 (constant S_ .f32 0#32))
      (broadcastInDim S1600000x1 ![0] bcast_S1600000_S1600000x1_0 dst) a1)
    (broadcastInDim S100000 ![] bcast_S_S100000 (constant S_ .f32 1065353216#32))

def kDinv (a1 : FVec Ideal S1600000 .f32) (dst : IVec S1600000 32) : FVec Ideal S100000 .f32 :=
  Host.rsqrt (kDeg a1 dst)

def kWn (a1 : FVec Ideal S1600000 .f32) (src dst : IVec S1600000 32) : FVec Ideal S1600000 .f32 :=
  mulf (mulf (Host.gather gather_S100000_S1600000x1_S1600000_n_0_n_n_0_1_1 (kDinv a1 dst) (kWrap src)) a1)
    (Host.gather gather_S100000_S1600000x1_S1600000_n_0_n_n_0_1_1 (kDinv a1 dst) (kWrap dst))

def kSn (a1 : FVec Ideal S1600000 .f32) (dst : IVec S1600000 32) : FVec Ideal S100000 .f32 :=
  mulf (kDinv a1 dst) (kDinv a1 dst)

def kAgg128 (src dst : IVec S1600000 32) (wn : FVec Ideal S1600000 .f32) (h : FVec Ideal S100000x128 .f32) :
    FVec Ideal S100000x128 .f32 :=
  Host.scatterAdd scatter_S100000x128_S1600000x1_S1600000x128_1_0_0_1
    (broadcastInDim S100000x128 ![] bcast_S_S100000x128 (constant S_ .f32 0#32))
    (broadcastInDim S1600000x1 ![0] bcast_S1600000_S1600000x1_0 dst)
    (mulf (Host.gather gather_S100000x128_S1600000x1_S1600000x128_1_0_n_n_0_1_1128 h (kWrap src))
      (broadcastInDim S1600000x128 ![0, 1] bcast_S1600000x1_S1600000x128_0_1
        (broadcastInDim S1600000x1 ![0] bcast_S1600000_S1600000x1_0 wn)))

def kAgg40 (src dst : IVec S1600000 32) (wn : FVec Ideal S1600000 .f32) (h : FVec Ideal S100000x40 .f32) :
    FVec Ideal S100000x40 .f32 :=
  Host.scatterAdd scatter_S100000x40_S1600000x1_S1600000x40_1_0_0_1
    (broadcastInDim S100000x40 ![] bcast_S_S100000x40 (constant S_ .f32 0#32))
    (broadcastInDim S1600000x1 ![0] bcast_S1600000_S1600000x1_0 dst)
    (mulf (Host.gather gather_S100000x40_S1600000x1_S1600000x40_1_0_n_n_0_1_140 h (kWrap src))
      (broadcastInDim S1600000x40 ![0, 1] bcast_S1600000x1_S1600000x40_0_1
        (broadcastInDim S1600000x1 ![0] bcast_S1600000_S1600000x1_0 wn)))

def kRowA (p : FVec Ideal S2x128 .f32) : FVec Ideal S128 .f32 :=
  shapeCast S128 (extractStridedSlice S1x128 ![0, 0] p slices_S2x128_S1x128_0_0) shapeCasts_S1x128_S128
def kRowB (p : FVec Ideal S2x128 .f32) : FVec Ideal S128 .f32 :=
  shapeCast S128 (extractStridedSlice S1x128 ![1, 0] p slices_S2x128_S1x128_1_0) shapeCasts_S1x128_S128

def kRow40A (p : FVec Ideal S2x40 .f32) : FVec Ideal S40 .f32 :=
  shapeCast S40 (extractStridedSlice S1x40 ![0, 0] p slices_S2x40_S1x40_0_0) shapeCasts_S1x40_S40
def kRow40B (p : FVec Ideal S2x40 .f32) : FVec Ideal S40 .f32 :=
  shapeCast S40 (extractStridedSlice S1x40 ![1, 0] p slices_S2x40_S1x40_1_0) shapeCasts_S1x40_S40

def kMatA (p : FVec Ideal S2x128x128 .f32) : FVec Ideal S128x128 .f32 :=
  shapeCast S128x128 (extractStridedSlice S1x128x128 ![0, 0, 0] p slices_S2x128x128_S1x128x128_0_0_0) shapeCasts_S1x128x128_S128x128
def kMatB (p : FVec Ideal S2x128x128 .f32) : FVec Ideal S128x128 .f32 :=
  shapeCast S128x128 (extractStridedSlice S1x128x128 ![1, 0, 0] p slices_S2x128x128_S1x128x128_1_0_0) shapeCasts_S1x128x128_S128x128

def kMat40A (p : FVec Ideal S2x128x40 .f32) : FVec Ideal S128x40 .f32 :=
  shapeCast S128x40 (extractStridedSlice S1x128x40 ![0, 0, 0] p slices_S2x128x40_S1x128x40_0_0_0) shapeCasts_S1x128x40_S128x40
def kMat40B (p : FVec Ideal S2x128x40 .f32) : FVec Ideal S128x40 .f32 :=
  shapeCast S128x40 (extractStridedSlice S1x128x40 ![1, 0, 0] p slices_S2x128x40_S1x128x40_1_0_0) shapeCasts_S1x128x40_S128x40

def kStack (t0 t1 : FVec Ideal S100000x40 .f32) : FVec Ideal S2x100000x40 .f32 :=
  concatenate S2x100000x40 0
    [⟨S1x100000x40, broadcastInDim S1x100000x40 ![1, 2] bcast_S100000x40_S1x100000x40_1_2 t0⟩,
     ⟨S1x100000x40, broadcastInDim S1x100000x40 ![1, 2] bcast_S100000x40_S1x100000x40_1_2 t1⟩]
    concatenates_S1x100000x40_S1x100000x40_S2x100000x40_d0

end Cert.Tower

end
-- ==== Proof.GraphR.lean ====
import proofs.«156818_j43868795961418_1_alg».proof.ReferenceIdeal
import Idealize.ShloMosaic.PureOps.Ideal

noncomputable section

namespace Cert.Tower

open Idealize.ShloMosaic Cert.ReferenceIdeal Cert.ReferenceIdeal.Facts₀

variable [Cert.ReferenceIdeal.Facts]

def rSrc (a12 : IVec S2x1600000 32) : IVec S1600000 32 :=
  shapeCast S1600000 (extractStridedSlice S1x1600000 ![0, 0] a12 slices_S2x1600000_S1x1600000_0_0) shapeCasts_S1x1600000_S1600000

def rDst (a12 : IVec S2x1600000 32) : IVec S1600000 32 :=
  shapeCast S1600000 (extractStridedSlice S1x1600000 ![1, 0] a12 slices_S2x1600000_S1x1600000_1_0) shapeCasts_S1x1600000_S1600000

def rWrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def rDeg (a1 : FVec Ideal S1600000 .f32) (dst : IVec S1600000 32) : FVec Ideal S100000 .f32 :=
  addf (Host.scatterAdd scatter_S100000_S1600000x1_S1600000_n_0_0_1
      (broadcastInDim S100000 ![] bcast_S_S100000 (constant S_ .f32 0#32))
      (broadcastInDim S1600000x1 ![0] bcast_S1600000_S1600000x1_0 dst) a1)
    (broadcastInDim S100000 ![] bcast_S_S100000 (constant S_ .f32 1065353216#32))

def rDinv (a1 : FVec Ideal S1600000 .f32) (dst : IVec S1600000 32) : FVec Ideal S100000 .f32 :=
  Host.rsqrt (rDeg a1 dst)

def rWn (a1 : FVec Ideal S1600000 .f32) (src dst : IVec S1600000 32) : FVec Ideal S1600000 .f32 :=
  mulf (mulf (Host.gather gather_S100000_S1600000x1_S1600000_n_0_n_n_0_1_1 (rDinv a1 dst) (rWrap src)) a1)
    (Host.gather gather_S100000_S1600000x1_S1600000_n_0_n_n_0_1_1 (rDinv a1 dst) (rWrap dst))

def rSn (a1 : FVec Ideal S1600000 .f32) (dst : IVec S1600000 32) : FVec Ideal S100000 .f32 :=
  mulf (rDinv a1 dst) (rDinv a1 dst)

def rAgg128 (src dst : IVec S1600000 32) (wn : FVec Ideal S1600000 .f32) (h : FVec Ideal S100000x128 .f32) :
    FVec Ideal S100000x128 .f32 :=
  Host.scatterAdd scatter_S100000x128_S1600000x1_S1600000x128_1_0_0_1
    (broadcastInDim S100000x128 ![] bcast_S_S100000x128 (constant S_ .f32 0#32))
    (broadcastInDim S1600000x1 ![0] bcast_S1600000_S1600000x1_0 dst)
    (mulf (Host.gather gather_S100000x128_S1600000x1_S1600000x128_1_0_n_n_0_1_1128 h (rWrap src))
      (broadcastInDim S1600000x128 ![0, 1] bcast_S1600000x1_S1600000x128_0_1
        (broadcastInDim S1600000x1 ![0] bcast_S1600000_S1600000x1_0 wn)))

def rAgg40 (src dst : IVec S1600000 32) (wn : FVec Ideal S1600000 .f32) (h : FVec Ideal S100000x40 .f32) :
    FVec Ideal S100000x40 .f32 :=
  Host.scatterAdd scatter_S100000x40_S1600000x1_S1600000x40_1_0_0_1
    (broadcastInDim S100000x40 ![] bcast_S_S100000x40 (constant S_ .f32 0#32))
    (broadcastInDim S1600000x1 ![0] bcast_S1600000_S1600000x1_0 dst)
    (mulf (Host.gather gather_S100000x40_S1600000x1_S1600000x40_1_0_n_n_0_1_140 h (rWrap src))
      (broadcastInDim S1600000x40 ![0, 1] bcast_S1600000x1_S1600000x40_0_1
        (broadcastInDim S1600000x1 ![0] bcast_S1600000_S1600000x1_0 wn)))

def rRowA (p : FVec Ideal S2x128 .f32) : FVec Ideal S128 .f32 :=
  shapeCast S128 (extractStridedSlice S1x128 ![0, 0] p slices_S2x128_S1x128_0_0) shapeCasts_S1x128_S128
def rRowB (p : FVec Ideal S2x128 .f32) : FVec Ideal S128 .f32 :=
  shapeCast S128 (extractStridedSlice S1x128 ![1, 0] p slices_S2x128_S1x128_1_0) shapeCasts_S1x128_S128

def rRow40A (p : FVec Ideal S2x40 .f32) : FVec Ideal S40 .f32 :=
  shapeCast S40 (extractStridedSlice S1x40 ![0, 0] p slices_S2x40_S1x40_0_0) shapeCasts_S1x40_S40
def rRow40B (p : FVec Ideal S2x40 .f32) : FVec Ideal S40 .f32 :=
  shapeCast S40 (extractStridedSlice S1x40 ![1, 0] p slices_S2x40_S1x40_1_0) shapeCasts_S1x40_S40

def rMatA (p : FVec Ideal S2x128x128 .f32) : FVec Ideal S128x128 .f32 :=
  shapeCast S128x128 (extractStridedSlice S1x128x128 ![0, 0, 0] p slices_S2x128x128_S1x128x128_0_0_0) shapeCasts_S1x128x128_S128x128
def rMatB (p : FVec Ideal S2x128x128 .f32) : FVec Ideal S128x128 .f32 :=
  shapeCast S128x128 (extractStridedSlice S1x128x128 ![1, 0, 0] p slices_S2x128x128_S1x128x128_1_0_0) shapeCasts_S1x128x128_S128x128

def rMat40A (p : FVec Ideal S2x128x40 .f32) : FVec Ideal S128x40 .f32 :=
  shapeCast S128x40 (extractStridedSlice S1x128x40 ![0, 0, 0] p slices_S2x128x40_S1x128x40_0_0_0) shapeCasts_S1x128x40_S128x40
def rMat40B (p : FVec Ideal S2x128x40 .f32) : FVec Ideal S128x40 .f32 :=
  shapeCast S128x40 (extractStridedSlice S1x128x40 ![1, 0, 0] p slices_S2x128x40_S1x128x40_1_0_0) shapeCasts_S1x128x40_S128x40

def rStack (t0 t1 : FVec Ideal S100000x40 .f32) : FVec Ideal S2x100000x40 .f32 :=
  concatenate S2x100000x40 0
    [⟨S1x100000x40, broadcastInDim S1x100000x40 ![1, 2] bcast_S100000x40_S1x100000x40_1_2 t0⟩,
     ⟨S1x100000x40, broadcastInDim S1x100000x40 ![1, 2] bcast_S100000x40_S1x100000x40_1_2 t1⟩]
    concatenates_S1x100000x40_S1x100000x40_S2x100000x40_d0

end Cert.Tower

end
-- ==== Proof.GcnSpec.lean ====
import Idealize.ShloMosaic.PureOps.Ideal
import Idealize.ShloMosaic.Lib.ValueIdx

noncomputable section

namespace Cert.GcnSpec

open Idealize.ShloMosaic Idealize.ShloMosaic.ValueIdx

abbrev Mat (r c : Nat) : Type := (⟨2, ![r, c]⟩ : Shape).Idx → EReal

abbrev nNodes : Nat := 100000

def lin {K C : Nat} (X : Mat nNodes K) (W : Mat K C) : Mat nNodes C :=
  fun i => ∑ k : Fin K, X (ix2 (i 0 : Fin nNodes) k) * W (ix2 k (i 1 : Fin C))

def comb {C : Nat} (agg h : Mat nNodes C) (sn : Mat nNodes 1) (b : Mat 1 C) : Mat nNodes C :=
  fun i => agg i + sn (ix2 (i 0 : Fin nNodes) (0 : Fin 1)) * h i + b (ix2 (0 : Fin 1) (i 1 : Fin C))

def colsum {C : Nat} (c : Mat nNodes C) : Mat 1 C :=
  fun j => ∑ r : Fin nNodes, c (ix2 r (j 1 : Fin C))

def colsumsq {C : Nat} (c : Mat nNodes C) : Mat 1 C :=
  fun j => ∑ r : Fin nNodes, c (ix2 r (j 1 : Fin C)) * c (ix2 r (j 1 : Fin C))

abbrev epsBN : EReal := Ideal.ofBits .f32 0x3727C5AC#32

def bnrelu {C : Nat} (c : Mat nNodes C) (mu var g bt : Mat 1 C) : Mat nNodes C :=
  fun i =>
    let j : (⟨2, ![1, C]⟩ : Shape).Idx := ix2 (0 : Fin 1) (i 1 : Fin C)
    max (g j * (c i - mu j) * Ideal.rsqrt (var j + epsBN) + bt j) 0

end Cert.GcnSpec

end
-- ==== Proof.LibERealBatchNorm.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.StageBn.lean ====
import proofs.«156818_j43868795961418_1_alg».proof.KernelIdeal
import proofs.«156818_j43868795961418_1_alg».proof.ReferenceIdeal
import proofs.«156818_j43868795961418_1_alg».proof.Proof.GcnSpec
import proofs.«156818_j43868795961418_1_alg».proof.Proof.LibERealBatchNorm
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Mathlib.Data.EReal.Basic
import Mathlib.Data.EReal.Operations

noncomputable section

namespace Cert.StageLaws

open Idealize.ShloMosaic Idealize.ShloMosaic.ValueIdx

variable [Cert.KernelIdeal.Facts] [Cert.ReferenceIdeal.Facts]

def refBnRelu (c : FVec Ideal Cert.ReferenceIdeal.S100000x128 .f32) (g bt : FVec Ideal Cert.ReferenceIdeal.S128 .f32) :
    FVec Ideal Cert.ReferenceIdeal.S100000x128 .f32 :=
  let up : FVec Ideal Cert.ReferenceIdeal.S128 .f32 → FVec Ideal Cert.ReferenceIdeal.S100000x128 .f32 := fun v =>
    broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 v)
  let mu : FVec Ideal Cert.ReferenceIdeal.S128 .f32 :=
    Host.divf
      (Host.reduceAdd c (constant (F := Ideal) Cert.ReferenceIdeal.S_ .f32 0x00000000#32)
        Cert.ReferenceIdeal.Facts₀.reducesTo_S100000x128_S128_d0 Cert.ReferenceIdeal.Facts₀.h_S_)
      (broadcastInDim Cert.ReferenceIdeal.S128 ![] Cert.ReferenceIdeal.Facts₀.bcast_S_S128
        (constant (F := Ideal) Cert.ReferenceIdeal.S_ .f32 0x47C35000#32))
  let d : FVec Ideal Cert.ReferenceIdeal.S100000x128 .f32 := subf c (up mu)
  let var : FVec Ideal Cert.ReferenceIdeal.S128 .f32 :=
    Host.divf
      (Host.reduceAdd (mulf d d) (constant (F := Ideal) Cert.ReferenceIdeal.S_ .f32 0x00000000#32)
        Cert.ReferenceIdeal.Facts₀.reducesTo_S100000x128_S128_d0 Cert.ReferenceIdeal.Facts₀.h_S_)
      (broadcastInDim Cert.ReferenceIdeal.S128 ![] Cert.ReferenceIdeal.Facts₀.bcast_S_S128
        (constant (F := Ideal) Cert.ReferenceIdeal.S_ .f32 0x47C35000#32))
  let inv : FVec Ideal Cert.ReferenceIdeal.S128 .f32 :=
    Host.rsqrt (addf var (broadcastInDim Cert.ReferenceIdeal.S128 ![] Cert.ReferenceIdeal.Facts₀.bcast_S_S128
      (constant (F := Ideal) Cert.ReferenceIdeal.S_ .f32 0x3727C5AC#32)))
  maximumf (addf (mulf (mulf (up g) (subf c (up mu))) (up inv)) (up bt))
    (broadcastInDim Cert.ReferenceIdeal.S100000x128 ![] Cert.ReferenceIdeal.Facts₀.bcast_S_S100000x128
      (constant (F := Ideal) Cert.ReferenceIdeal.S_ .f32 0x00000000#32))

def kerBnRelu (c : FVec Ideal Cert.KernelIdeal.S100000x128 .f32) (g bt : FVec Ideal Cert.KernelIdeal.S128 .f32) :
    FVec Ideal Cert.KernelIdeal.S100000x128 .f32 :=
  let n : FVec Ideal Cert.KernelIdeal.S1x128 .f32 :=
    broadcastInDim Cert.KernelIdeal.S1x128 ![] Cert.KernelIdeal.Facts₀.bcast_S_S1x128
      (constant (F := Ideal) Cert.KernelIdeal.S_ .f32 0x47C35000#32)
  let mu : FVec Ideal Cert.KernelIdeal.S1x128 .f32 := Host.divf (Cert.GcnSpec.colsum c) n
  let var : FVec Ideal Cert.KernelIdeal.S1x128 .f32 := subf (Host.divf (Cert.GcnSpec.colsumsq c) n) (mulf mu mu)
  Cert.GcnSpec.bnrelu c mu var
    (broadcastInDim Cert.KernelIdeal.S1x128 ![1] Cert.KernelIdeal.Facts₀.bcast_S128_S1x128_1 g)
    (broadcastInDim Cert.KernelIdeal.S1x128 ![1] Cert.KernelIdeal.Facts₀.bcast_S128_S1x128_1 bt)

def colMean (c : Cert.GcnSpec.Mat 100000 128) (q : Fin 128) : EReal :=
  Ideal.div (∑ r : Fin 100000, c (ix2 r q)) ((100000 : ℝ) : EReal)

def colVar (c : Cert.GcnSpec.Mat 100000 128) (q : Fin 128) : EReal :=
  Ideal.div (∑ r : Fin 100000, (c (ix2 r q) - colMean c q) * (c (ix2 r q) - colMean c q)) ((100000 : ℝ) : EReal)

theorem hostRsqrt_apply {s : Shape} {φ : FTy} (a : FVec Ideal s φ) (i : s.Idx) : Host.rsqrt a i = Ideal.rsqrt (a i) := rfl

theorem refUp_apply (v : FVec Ideal Cert.ReferenceIdeal.S128 .f32) (p : Fin 100000) (q : Fin 128) :
    broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 v) (ix2 p q)
      = v (ix1 q) := by
  rw [broadcastInDim_apply _ _ _ _ (ix2 (0 : Fin 1) q) (by intro a; fin_cases a <;> rfl),
    broadcastInDim_apply _ _ _ _ (ix1 q) (by intro a; fin_cases a; rfl)]

theorem hostColsum_apply (x : FVec Ideal Cert.ReferenceIdeal.S100000x128 .f32) (q : Fin 128) :
    Host.reduceAdd x (constant (F := Ideal) Cert.ReferenceIdeal.S_ .f32 0x00000000#32)
      Cert.ReferenceIdeal.Facts₀.reducesTo_S100000x128_S128_d0 Cert.ReferenceIdeal.Facts₀.h_S_ (ix1 q)
      = ∑ r : Fin 100000, x (ix2 r q) := by
  have h : Cert.ReferenceIdeal.S100000x128.Reduces [0] Cert.ReferenceIdeal.S128 := by decide
  rw [hostReduceAdd_apply, Ideal.hostReduceAdd_single _ h, constant_apply, Cert.ERealBN.ofBits_zero, zero_add]
  refine Finset.sum_congr rfl fun r _ => congrArg x ?_
  funext a
  apply Fin.ext
  fin_cases a <;> rfl

theorem ix2_snd {n0 n1 : Nat} (a : Fin n0) (b : Fin n1) : (ix2 a b : (⟨2, ![n0, n1]⟩ : Shape).Idx) 1 = b := rfl

theorem refMean_apply (c : FVec Ideal Cert.ReferenceIdeal.S100000x128 .f32) (q : Fin 128) :
    Host.divf
      (Host.reduceAdd c (constant (F := Ideal) Cert.ReferenceIdeal.S_ .f32 0x00000000#32)
        Cert.ReferenceIdeal.Facts₀.reducesTo_S100000x128_S128_d0 Cert.ReferenceIdeal.Facts₀.h_S_)
      (broadcastInDim Cert.ReferenceIdeal.S128 ![] Cert.ReferenceIdeal.Facts₀.bcast_S_S128
        (constant (F := Ideal) Cert.ReferenceIdeal.S_ .f32 0x47C35000#32)) (ix1 q) = colMean c q := by
  rw [hostDivf_apply, hostColsum_apply, broadcastInDim_scalar_apply, constant_apply, Cert.ERealBN.ofBits_1e5]
  rfl

theorem refVar_apply (c : FVec Ideal Cert.ReferenceIdeal.S100000x128 .f32)
    (m : FVec Ideal Cert.ReferenceIdeal.S128 .f32) (hm : ∀ q, m (ix1 q) = colMean c q) (q : Fin 128) :
    Host.divf
      (Host.reduceAdd
        (mulf
          (subf c (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 m)))
          (subf c (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 m))))
        (constant (F := Ideal) Cert.ReferenceIdeal.S_ .f32 0x00000000#32)
        Cert.ReferenceIdeal.Facts₀.reducesTo_S100000x128_S128_d0 Cert.ReferenceIdeal.Facts₀.h_S_)
      (broadcastInDim Cert.ReferenceIdeal.S128 ![] Cert.ReferenceIdeal.Facts₀.bcast_S_S128
        (constant (F := Ideal) Cert.ReferenceIdeal.S_ .f32 0x47C35000#32)) (ix1 q) = colVar c q := by
  rw [hostDivf_apply, hostColsum_apply, broadcastInDim_scalar_apply, constant_apply, Cert.ERealBN.ofBits_1e5]
  unfold colVar
  refine congrArg (fun s => Ideal.div s (((100000 : ℝ) : EReal))) (Finset.sum_congr rfl fun r _ => ?_)
  rw [mulf_apply, subf_apply, refUp_apply, hm]

theorem refBnRelu_apply (c : FVec Ideal Cert.ReferenceIdeal.S100000x128 .f32)
    (g bt : FVec Ideal Cert.ReferenceIdeal.S128 .f32) (p : Fin 100000) (q : Fin 128) :
    refBnRelu c g bt (ix2 p q)
      = max (g (ix1 q) * (c (ix2 p q) - colMean c q) * Ideal.rsqrt (colVar c q + Cert.GcnSpec.epsBN) + bt (ix1 q)) 0 := by
  simp only [refBnRelu]
  rw [maximumf_apply, addf_apply, mulf_apply, mulf_apply, subf_apply, refUp_apply g, refUp_apply bt, refUp_apply, refUp_apply,
    broadcastInDim_scalar_apply, constant_apply, Cert.ERealBN.ofBits_zero, hostRsqrt_apply, addf_apply,
    refVar_apply c _ (refMean_apply c) q, refMean_apply c q, broadcastInDim_scalar_apply, constant_apply]

theorem kerBnRelu_apply (c : FVec Ideal Cert.KernelIdeal.S100000x128 .f32)
    (g bt : FVec Ideal Cert.KernelIdeal.S128 .f32) (p : Fin 100000) (q : Fin 128) :
    kerBnRelu c g bt (ix2 p q)
      = max (g (ix1 q) * (c (ix2 p q) - colMean c q)
          * Ideal.rsqrt ((Ideal.div (∑ r : Fin 100000, c (ix2 r q) * c (ix2 r q)) ((100000 : ℝ) : EReal)
              - colMean c q * colMean c q) + Cert.GcnSpec.epsBN) + bt (ix1 q)) 0 := by
  simp only [kerBnRelu, Cert.GcnSpec.bnrelu, Cert.GcnSpec.colsum, Cert.GcnSpec.colsumsq, subf_apply, mulf_apply,
    hostDivf_apply, ix2_snd, colMean]
  rw [broadcastInDim_apply _ _ g (ix2 (0 : Fin 1) q) (ix1 q) (by intro a; fin_cases a; rfl),
    broadcastInDim_apply _ _ bt (ix2 (0 : Fin 1) q) (ix1 q) (by intro a; fin_cases a; rfl),
    broadcastInDim_scalar_apply, constant_apply, Cert.ERealBN.ofBits_1e5]

theorem bn_law (c : FVec Ideal Cert.KernelIdeal.S100000x128 .f32) (hc : ∀ i, Cert.ERealBN.IsReal (c i))
    (g bt : FVec Ideal Cert.KernelIdeal.S128 .f32) : kerBnRelu c g bt = refBnRelu c g bt := by
  funext i
  obtain ⟨p, q, rfl⟩ : ∃ (p : Fin 100000) (q : Fin 128), i = ix2 p q := ⟨i 0, i 1, eq_ix2 i⟩
  rw [kerBnRelu_apply, refBnRelu_apply]
  have hv := Cert.ERealBN.var_eq (fun r : Fin 100000 => c (ix2 r q)) (fun r => hc _) 100000 (by simp) (by norm_num)
  unfold colVar colMean
  rw [hv]

theorem refBnRelu_isReal (c : FVec Ideal Cert.ReferenceIdeal.S100000x128 .f32) (hc : ∀ i, Cert.ERealBN.IsReal (c i))
    (g bt : FVec Ideal Cert.ReferenceIdeal.S128 .f32) (hg : ∀ j, Cert.ERealBN.IsReal (g j))
    (hb : ∀ j, Cert.ERealBN.IsReal (bt j)) : ∀ i, Cert.ERealBN.IsReal (refBnRelu c g bt i) := by
  intro i
  obtain ⟨p, q, rfl⟩ : ∃ (p : Fin 100000) (q : Fin 128), i = ix2 p q := ⟨i 0, i 1, eq_ix2 i⟩
  rw [refBnRelu_apply]
  have hcq : ∀ r : Fin 100000, Cert.ERealBN.IsReal (c (ix2 r q)) := fun r => hc _
  obtain ⟨hvr, hv0⟩ := Cert.ERealBN.var_isReal_nonneg (fun r : Fin 100000 => c (ix2 r q)) hcq 100000 (by norm_num)
  obtain ⟨e, he0, hee⟩ := Cert.ERealBN.ofBits_eps_pos
  have hmean : Cert.ERealBN.IsReal (colMean c q) :=
    Cert.ERealBN.IsReal.div_coe (Cert.ERealBN.IsReal.sum _ _ (fun r _ => hcq r)) (by norm_num)
  have hee' : Cert.GcnSpec.epsBN = (e : EReal) := hee
  have hinv : Cert.ERealBN.IsReal (Ideal.rsqrt (colVar c q + Cert.GcnSpec.epsBN)) := by
    rw [hee']
    exact Cert.ERealBN.rsqrt_var_isReal hvr hv0 (Cert.ERealBN.IsReal.coe e) (EReal.coe_pos.mpr he0)
  exact Cert.ERealBN.IsReal.max
    (Cert.ERealBN.IsReal.add
      (Cert.ERealBN.IsReal.mul (Cert.ERealBN.IsReal.mul (hg _) (Cert.ERealBN.IsReal.sub (hc _) hmean)) hinv) (hb _))
    Cert.ERealBN.IsReal.zero

end Cert.StageLaws

end
-- ==== Proof.StageConv.lean ====
import proofs.«156818_j43868795961418_1_alg».proof.KernelIdeal
import proofs.«156818_j43868795961418_1_alg».proof.ReferenceIdeal
import proofs.«156818_j43868795961418_1_alg».proof.Proof.GcnSpec
import proofs.«156818_j43868795961418_1_alg».proof.Proof.LibERealBatchNorm
import Idealize.ShloMosaic.PureOps.Ideal
import Idealize.ShloMosaic.PureOps.Ideal.Laws
import Idealize.ShloMosaic.Lib.ValueIdx
import Idealize.ShloMosaic.Lib.Pipeline.Value

noncomputable section

namespace Cert.StageLaws

open Idealize.ShloMosaic Idealize.ShloMosaic.ValueIdx
open scoped BigOperators

variable [Cert.KernelIdeal.Facts] [Cert.ReferenceIdeal.Facts]

section Dot
variable {K C : Nat} (wf : DotDims.WF (⟨2, ![100000, K]⟩ : Shape) ⟨2, ![K, C]⟩ ⟨2, ![100000, C]⟩ [1] [0] [0] [1] [] [])

/-- The dimension numbers of a plain product: rows by the contracted axis, the contracted axis by columns. -/
abbrev dotKC : DotDims ⟨2, ![100000, K]⟩ ⟨2, ![K, C]⟩ ⟨2, ![100000, C]⟩ := ⟨[1], [0], [0], [1], [], [], wf⟩

theorem dot_lhs_0 (i : (⟨2, ![100000, C]⟩ : Shape).Idx) (k : (dotKC wf).contr.Idx) : ((dotKC wf).lhsIdx i k 0).val = (i 0).val := by
  unfold DotDims.lhsIdx
  rw [dif_neg (show ¬(0 : Fin 2) ∈ (dotKC wf).lhsBatch from List.not_mem_nil),
    dif_pos (show (0 : Fin 2) ∈ (dotKC wf).lhsNonContracting from List.mem_singleton.mpr rfl)]
  rfl

theorem dot_rhs_1 (i : (⟨2, ![100000, C]⟩ : Shape).Idx) (k : (dotKC wf).contr.Idx) : ((dotKC wf).rhsIdx i k 1).val = (i 1).val := by
  unfold DotDims.rhsIdx
  rw [dif_neg (show ¬(1 : Fin 2) ∈ (dotKC wf).rhsBatch from List.not_mem_nil),
    dif_pos (show (1 : Fin 2) ∈ (dotKC wf).rhsNonContracting from List.mem_singleton.mpr rfl)]
  rfl

/-- At output (p, q) and contraction position k the operands are read at (p, k) and (k, q), so the product is `lin`. -/
theorem lin_eq_dot (X : FVec Ideal ⟨2, ![100000, K]⟩ .f32) (W : FVec Ideal ⟨2, ![K, C]⟩ .f32) :
    Cert.GcnSpec.lin X W = Host.dotGeneral (dotKC wf) none X W := by
  funext i
  obtain ⟨p, q, rfl⟩ : ∃ (p : Fin 100000) (q : Fin C), i = ix2 p q := ⟨i 0, i 1, eq_ix2 i⟩
  refine Eq.trans ?_ (Ideal.dotGeneral_apply (dotKC wf) none .single X W (ix2 p q)).symm
  rw [← Equiv.sum_comp (contrEquiv1 (dotKC wf) K rfl rfl).symm]
  unfold Cert.GcnSpec.lin
  refine Finset.sum_congr rfl fun k _ => ?_
  have hk := contrEquiv1_symm_val (dotKC wf) K rfl rfl k
  have el : (dotKC wf).lhsIdx (ix2 p q) ((contrEquiv1 (dotKC wf) K rfl rfl).symm k) = ix2 p k :=
    funext fun a => Fin.ext (by
      match a with
      | ⟨0, _⟩ => exact dot_lhs_0 wf _ _
      | ⟨1, _⟩ => exact ((dotKC wf).lhsIdx_val_of_single rfl _ _).trans hk)
  have er : (dotKC wf).rhsIdx (ix2 p q) ((contrEquiv1 (dotKC wf) K rfl rfl).symm k) = ix2 k q :=
    funext fun a => Fin.ext (by
      match a with
      | ⟨0, _⟩ => exact ((dotKC wf).rhsIdx_val_of_single rfl _ _).trans hk
      | ⟨1, _⟩ => exact dot_rhs_1 wf _ _)
  rw [el, er]
  rfl

end Dot

theorem lin_eq_dot128 (X : FVec Ideal Cert.ReferenceIdeal.S100000x128 .f32) (W : FVec Ideal Cert.ReferenceIdeal.S128x128 .f32) :
    Cert.GcnSpec.lin X W = Host.dotGeneral Cert.ReferenceIdeal.dot_S100000x128_S128x128_S100000x128_1_0_0_1_n_n none X W :=
  lin_eq_dot _ X W

theorem lin_eq_dot40 (X : FVec Ideal Cert.ReferenceIdeal.S100000x128 .f32) (W : FVec Ideal Cert.ReferenceIdeal.S128x40 .f32) :
    Cert.GcnSpec.lin X W = Host.dotGeneral Cert.ReferenceIdeal.dot_S100000x128_S128x40_S100000x40_1_0_0_1_n_n none X W :=
  lin_eq_dot _ X W

theorem bcast_col_mat {C : Nat} (h : (⟨2, ![100000, 1]⟩ : Shape).BroadcastsInDim ⟨2, ![100000, C]⟩ ![0, 1])
    (v : (⟨2, ![100000, 1]⟩ : Shape).Idx → EReal) (p : Fin 100000) (q : Fin C) :
    broadcastInDim ⟨2, ![100000, C]⟩ ![0, 1] h v (ix2 p q) = v (ix2 p (0 : Fin 1)) :=
  broadcastInDim_apply _ h v _ _ (fun a => by
    match a with
    | ⟨0, _⟩ => rfl
    | ⟨1, _⟩ => rfl)

theorem bcast_row_mat {C : Nat} (h : (⟨2, ![1, C]⟩ : Shape).BroadcastsInDim ⟨2, ![100000, C]⟩ ![0, 1])
    (v : (⟨2, ![1, C]⟩ : Shape).Idx → EReal) (p : Fin 100000) (q : Fin C) :
    broadcastInDim ⟨2, ![100000, C]⟩ ![0, 1] h v (ix2 p q) = v (ix2 (0 : Fin 1) q) :=
  broadcastInDim_apply _ h v _ _ (fun a => by
    match a with
    | ⟨0, _⟩ => rfl
    | ⟨1, _⟩ =>
      show q.val = if C = 1 then 0 else q.val
      split
      · have := q.isLt; omega
      · rfl)

theorem comb_eq_chain {C : Nat} (agg h : FVec Ideal ⟨2, ![100000, C]⟩ .f32)
    (sn1 : (⟨2, ![100000, 1]⟩ : Shape).Idx → EReal) (b1 : (⟨2, ![1, C]⟩ : Shape).Idx → EReal)
    (snM bM : FVec Ideal ⟨2, ![100000, C]⟩ .f32)
    (hs : ∀ (p : Fin 100000) (q : Fin C), snM (ix2 p q) = sn1 (ix2 p (0 : Fin 1)))
    (hb : ∀ (p : Fin 100000) (q : Fin C), bM (ix2 p q) = b1 (ix2 (0 : Fin 1) q)) :
    Cert.GcnSpec.comb agg h sn1 b1 = addf (addf agg (mulf snM h)) bM := by
  funext i
  obtain ⟨p, q, rfl⟩ : ∃ (p : Fin 100000) (q : Fin C), i = ix2 p q := ⟨i 0, i 1, eq_ix2 i⟩
  rw [addf_apply, addf_apply, mulf_apply, hs, hb]
  rfl

theorem comb_eq128 (agg h : FVec Ideal Cert.ReferenceIdeal.S100000x128 .f32) (sn : FVec Ideal Cert.ReferenceIdeal.S100000 .f32)
    (b : FVec Ideal Cert.ReferenceIdeal.S128 .f32) :
    Cert.GcnSpec.comb agg h
        (broadcastInDim Cert.KernelIdeal.S100000x1 ![0] Cert.KernelIdeal.Facts₀.bcast_S100000_S100000x1_0 sn)
        (broadcastInDim Cert.KernelIdeal.S1x128 ![1] Cert.KernelIdeal.Facts₀.bcast_S128_S1x128_1 b)
      = addf (addf agg (mulf (broadcastInDim Cert.ReferenceIdeal.S100000x128 ![0, 1] Cert.ReferenceIdeal.Facts₀.bcast_S100000x1_S100000x128_0_1
                (broadcastInDim Cert.ReferenceIdeal.S100000x1 ![0] Cert.ReferenceIdeal.Facts₀.bcast_S100000_S100000x1_0 sn)) h))
             (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b)) :=
  comb_eq_chain agg h _ _ _ _ (fun p q => bcast_col_mat _ _ p q) (fun p q => bcast_row_mat _ _ p q)

theorem comb_eq40 (agg h : FVec Ideal Cert.ReferenceIdeal.S100000x40 .f32) (sn : FVec Ideal Cert.ReferenceIdeal.S100000 .f32)
    (b : FVec Ideal Cert.ReferenceIdeal.S40 .f32) :
    Cert.GcnSpec.comb agg h
        (broadcastInDim Cert.KernelIdeal.S100000x1 ![0] Cert.KernelIdeal.Facts₀.bcast_S100000_S100000x1_0 sn)
        (broadcastInDim Cert.KernelIdeal.S1x40 ![1] Cert.KernelIdeal.Facts₀.bcast_S40_S1x40_1 b)
      = addf (addf agg (mulf (broadcastInDim Cert.ReferenceIdeal.S100000x40 ![0, 1] Cert.ReferenceIdeal.Facts₀.bcast_S100000x1_S100000x40_0_1
                (broadcastInDim Cert.ReferenceIdeal.S100000x1 ![0] Cert.ReferenceIdeal.Facts₀.bcast_S100000_S100000x1_0 sn)) h))
             (broadcastInDim Cert.ReferenceIdeal.S100000x40 ![0, 1] Cert.ReferenceIdeal.Facts₀.bcast_S1x40_S100000x40_0_1
                (broadcastInDim Cert.ReferenceIdeal.S1x40 ![1] Cert.ReferenceIdeal.Facts₀.bcast_S40_S1x40_1 b)) :=
  comb_eq_chain agg h _ _ _ _ (fun p q => bcast_col_mat _ _ p q) (fun p q => bcast_row_mat _ _ p q)

def AllReal {S : Shape} (v : S.Idx → EReal) : Prop := ∀ i, Cert.ERealBN.IsReal (v i)

theorem allReal_addf {S : Shape} (x y : FVec Ideal S .f32) : AllReal x → AllReal y → AllReal (addf x y) := by
  intro hx hy i
  rw [addf_apply]
  exact (hx i).add (hy i)

theorem allReal_subf {S : Shape} (x y : FVec Ideal S .f32) : AllReal x → AllReal y → AllReal (subf x y) := by
  intro hx hy i
  rw [subf_apply]
  exact (hx i).sub (hy i)

theorem allReal_mulf {S : Shape} (x y : FVec Ideal S .f32) : AllReal x → AllReal y → AllReal (mulf x y) := by
  intro hx hy i
  rw [mulf_apply]
  exact (hx i).mul (hy i)

theorem allReal_broadcastInDim {s t : Shape} (dims : Fin s.rank → Fin t.rank) (h : s.BroadcastsInDim t dims) (x : s.Idx → EReal) :
    AllReal x → AllReal (broadcastInDim t dims h x) := by
  intro hx j
  unfold broadcastInDim
  exact hx _

theorem allReal_shapeCast {s t : Shape} (x : s.Idx → EReal) (h : s.ShapeCasts t) : AllReal x → AllReal (shapeCast t x h) := by
  intro hx j
  unfold shapeCast
  exact hx _

theorem allReal_extractStridedSlice {s t : Shape} (off : Fin s.rank → Nat) (x : s.Idx → EReal) (h : s.Slices off t) :
    AllReal x → AllReal (extractStridedSlice t off x h) := by
  intro hx j
  unfold extractStridedSlice
  exact hx _

theorem allReal_gather {s si t : Shape} {w : Nat} (d : GatherDims s si t) (x : s.Idx → EReal) (idx : IVec si w) :
    AllReal x → AllReal (Host.gather d x idx) := by
  intro hx j
  unfold Host.gather
  exact hx _

theorem allReal_scatterAdd {s si u : Shape} {w : Nat} (d : ScatterDims s si u) (x : FVec Ideal s .f32) (idx : IVec si w)
    (upd : FVec Ideal u .f32) : AllReal x → AllReal upd → AllReal (Host.scatterAdd d x idx upd) := by
  intro hx hu i
  show Cert.ERealBN.IsReal (Ideal.hostScatterAdd d x idx upd i)
  unfold Ideal.hostScatterAdd
  exact (hx i).add (Cert.ERealBN.IsReal.sum _ _ fun j _ => hu j)

theorem allReal_lin {K C : Nat} (X : Cert.GcnSpec.Mat Cert.GcnSpec.nNodes K) (W : Cert.GcnSpec.Mat K C) :
    AllReal X → AllReal W → AllReal (Cert.GcnSpec.lin X W) := by
  intro hX hW i
  unfold Cert.GcnSpec.lin
  exact Cert.ERealBN.IsReal.sum _ _ fun k _ => (hX _).mul (hW _)

theorem allReal_dotGeneral128 (X : FVec Ideal Cert.ReferenceIdeal.S100000x128 .f32) (W : FVec Ideal Cert.ReferenceIdeal.S128x128 .f32) :
    AllReal X → AllReal W → AllReal (Host.dotGeneral Cert.ReferenceIdeal.dot_S100000x128_S128x128_S100000x128_1_0_0_1_n_n none X W) := by
  intro hX hW
  rw [← lin_eq_dot128]
  exact allReal_lin X W hX hW

theorem allReal_dotGeneral40 (X : FVec Ideal Cert.ReferenceIdeal.S100000x128 .f32) (W : FVec Ideal Cert.ReferenceIdeal.S128x40 .f32) :
    AllReal X → AllReal W → AllReal (Host.dotGeneral Cert.ReferenceIdeal.dot_S100000x128_S128x40_S100000x40_1_0_0_1_n_n none X W) := by
  intro hX hW
  rw [← lin_eq_dot40]
  exact allReal_lin X W hX hW

theorem allReal_const_zero {S : Shape} : AllReal (constant S .f32 0x00000000#32 : FVec Ideal S .f32) := by
  intro i
  rw [constant_apply, Cert.ERealBN.ofBits_zero]
  exact Cert.ERealBN.IsReal.zero

theorem allReal_const_one {S : Shape} : AllReal (constant S .f32 0x3F800000#32 : FVec Ideal S .f32) := by
  intro i
  rw [constant_apply, Cert.ERealBN.ofBits_one]
  exact Cert.ERealBN.IsReal.coe 1

theorem allReal_hostRsqrt_of_pos {S : Shape} (x : FVec Ideal S .f32) : AllReal x → (∀ i, 0 < x i) → AllReal (Host.rsqrt x) := by
  intro hx hp i
  show Cert.ERealBN.IsReal (Ideal.rsqrt (x i))
  exact (hx i).rsqrt_of_pos (hp i)

end Cert.StageLaws

end
-- ==== Proof.Tower.lean ====
import proofs.«156818_j43868795961418_1_alg».proof.Proof.GraphK
import proofs.«156818_j43868795961418_1_alg».proof.Proof.GraphR
import proofs.«156818_j43868795961418_1_alg».proof.Proof.GcnSpec
import proofs.«156818_j43868795961418_1_alg».proof.Proof.StageBn
import proofs.«156818_j43868795961418_1_alg».proof.Proof.StageConv

noncomputable section

namespace Cert.Tower

open Idealize.ShloMosaic Cert.StageLaws

variable [Cert.KernelIdeal.Facts] [Cert.ReferenceIdeal.Facts]

def kLayer (x : FVec Ideal Cert.KernelIdeal.S100000x128 .f32) (W : FVec Ideal Cert.KernelIdeal.S128x128 .f32) (b g bt : FVec Ideal Cert.KernelIdeal.S128 .f32)
    (src dst : IVec Cert.KernelIdeal.S1600000 32) (wn : FVec Ideal Cert.KernelIdeal.S1600000 .f32) (sn : FVec Ideal Cert.KernelIdeal.S100000 .f32) :
    FVec Ideal Cert.KernelIdeal.S100000x128 .f32 :=
  kerBnRelu
    (Cert.GcnSpec.comb (kAgg128 src dst wn (Cert.GcnSpec.lin x W)) (Cert.GcnSpec.lin x W)
      (broadcastInDim Cert.KernelIdeal.S100000x1 ![0] Cert.KernelIdeal.Facts₀.bcast_S100000_S100000x1_0 sn)
      (broadcastInDim Cert.KernelIdeal.S1x128 ![1] Cert.KernelIdeal.Facts₀.bcast_S128_S1x128_1 b)) g bt

def kLast (x : FVec Ideal Cert.KernelIdeal.S100000x128 .f32) (W : FVec Ideal Cert.KernelIdeal.S128x40 .f32) (b : FVec Ideal Cert.KernelIdeal.S40 .f32)
    (src dst : IVec Cert.KernelIdeal.S1600000 32) (wn : FVec Ideal Cert.KernelIdeal.S1600000 .f32) (sn : FVec Ideal Cert.KernelIdeal.S100000 .f32) :
    FVec Ideal Cert.KernelIdeal.S100000x40 .f32 :=
  Cert.GcnSpec.comb (kAgg40 src dst wn (Cert.GcnSpec.lin x W)) (Cert.GcnSpec.lin x W)
    (broadcastInDim Cert.KernelIdeal.S100000x1 ![0] Cert.KernelIdeal.Facts₀.bcast_S100000_S100000x1_0 sn)
    (broadcastInDim Cert.KernelIdeal.S1x40 ![1] Cert.KernelIdeal.Facts₀.bcast_S40_S1x40_1 b)

def kTower (x : FVec Ideal Cert.KernelIdeal.S100000x128 .f32)
    (W1 : FVec Ideal Cert.KernelIdeal.S128x128 .f32) (b1 g1 bt1 : FVec Ideal Cert.KernelIdeal.S128 .f32)
    (W2 : FVec Ideal Cert.KernelIdeal.S128x128 .f32) (b2 g2 bt2 : FVec Ideal Cert.KernelIdeal.S128 .f32)
    (W3 : FVec Ideal Cert.KernelIdeal.S128x40 .f32) (b3 : FVec Ideal Cert.KernelIdeal.S40 .f32)
    (src dst : IVec Cert.KernelIdeal.S1600000 32) (wn : FVec Ideal Cert.KernelIdeal.S1600000 .f32) (sn : FVec Ideal Cert.KernelIdeal.S100000 .f32) :
    FVec Ideal Cert.KernelIdeal.S100000x40 .f32 :=
  kLast (kLayer (kLayer x W1 b1 g1 bt1 src dst wn sn) W2 b2 g2 bt2 src dst wn sn) W3 b3 src dst wn sn

def rLayer (x : FVec Ideal Cert.ReferenceIdeal.S100000x128 .f32) (W : FVec Ideal Cert.ReferenceIdeal.S128x128 .f32) (b g bt : FVec Ideal Cert.ReferenceIdeal.S128 .f32)
    (src dst : IVec Cert.ReferenceIdeal.S1600000 32) (wn : FVec Ideal Cert.ReferenceIdeal.S1600000 .f32) (sn : FVec Ideal Cert.ReferenceIdeal.S100000 .f32) :
    FVec Ideal Cert.ReferenceIdeal.S100000x128 .f32 :=
  refBnRelu
    (addf (addf (rAgg128 src dst wn (Host.dotGeneral Cert.ReferenceIdeal.dot_S100000x128_S128x128_S100000x128_1_0_0_1_n_n none x W))
        (mulf (broadcastInDim Cert.ReferenceIdeal.S100000x128 ![0, 1] Cert.ReferenceIdeal.Facts₀.bcast_S100000x1_S100000x128_0_1
            (broadcastInDim Cert.ReferenceIdeal.S100000x1 ![0] Cert.ReferenceIdeal.Facts₀.bcast_S100000_S100000x1_0 sn))
          (Host.dotGeneral Cert.ReferenceIdeal.dot_S100000x128_S128x128_S100000x128_1_0_0_1_n_n none x W)))
      (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b))) g bt

def rLast (x : FVec Ideal Cert.ReferenceIdeal.S100000x128 .f32) (W : FVec Ideal Cert.ReferenceIdeal.S128x40 .f32) (b : FVec Ideal Cert.ReferenceIdeal.S40 .f32)
    (src dst : IVec Cert.ReferenceIdeal.S1600000 32) (wn : FVec Ideal Cert.ReferenceIdeal.S1600000 .f32) (sn : FVec Ideal Cert.ReferenceIdeal.S100000 .f32) :
    FVec Ideal Cert.ReferenceIdeal.S100000x40 .f32 :=
  addf (addf (rAgg40 src dst wn (Host.dotGeneral Cert.ReferenceIdeal.dot_S100000x128_S128x40_S100000x40_1_0_0_1_n_n none x W))
      (mulf (broadcastInDim Cert.ReferenceIdeal.S100000x40 ![0, 1] Cert.ReferenceIdeal.Facts₀.bcast_S100000x1_S100000x40_0_1
          (broadcastInDim Cert.ReferenceIdeal.S100000x1 ![0] Cert.ReferenceIdeal.Facts₀.bcast_S100000_S100000x1_0 sn))
        (Host.dotGeneral Cert.ReferenceIdeal.dot_S100000x128_S128x40_S100000x40_1_0_0_1_n_n none x W)))
    (broadcastInDim Cert.ReferenceIdeal.S100000x40 ![0, 1] Cert.ReferenceIdeal.Facts₀.bcast_S1x40_S100000x40_0_1
      (broadcastInDim Cert.ReferenceIdeal.S1x40 ![1] Cert.ReferenceIdeal.Facts₀.bcast_S40_S1x40_1 b))

def rTower (x : FVec Ideal Cert.ReferenceIdeal.S100000x128 .f32)
    (W1 : FVec Ideal Cert.ReferenceIdeal.S128x128 .f32) (b1 g1 bt1 : FVec Ideal Cert.ReferenceIdeal.S128 .f32)
    (W2 : FVec Ideal Cert.ReferenceIdeal.S128x128 .f32) (b2 g2 bt2 : FVec Ideal Cert.ReferenceIdeal.S128 .f32)
    (W3 : FVec Ideal Cert.ReferenceIdeal.S128x40 .f32) (b3 : FVec Ideal Cert.ReferenceIdeal.S40 .f32)
    (src dst : IVec Cert.ReferenceIdeal.S1600000 32) (wn : FVec Ideal Cert.ReferenceIdeal.S1600000 .f32) (sn : FVec Ideal Cert.ReferenceIdeal.S100000 .f32) :
    FVec Ideal Cert.ReferenceIdeal.S100000x40 .f32 :=
  rLast (rLayer (rLayer x W1 b1 g1 bt1 src dst wn sn) W2 b2 g2 bt2 src dst wn sn) W3 b3 src dst wn sn

theorem agg128_eq (src dst : IVec Cert.KernelIdeal.S1600000 32) (wn : FVec Ideal Cert.KernelIdeal.S1600000 .f32) (h : FVec Ideal Cert.KernelIdeal.S100000x128 .f32) :
    kAgg128 src dst wn h = rAgg128 src dst wn h := rfl
theorem agg40_eq (src dst : IVec Cert.KernelIdeal.S1600000 32) (wn : FVec Ideal Cert.KernelIdeal.S1600000 .f32) (h : FVec Ideal Cert.KernelIdeal.S100000x40 .f32) :
    kAgg40 src dst wn h = rAgg40 src dst wn h := rfl

end Cert.Tower

end
-- ==== Proof.TowerEq.lean ====
import proofs.«156818_j43868795961418_1_alg».proof.Proof.Tower
import proofs.«156818_j43868795961418_1_alg».proof.Proof.StageBn
import proofs.«156818_j43868795961418_1_alg».proof.Proof.StageConv

noncomputable section

namespace Cert.Tower

open Idealize.ShloMosaic Cert.StageLaws

variable [Cert.KernelIdeal.Facts] [Cert.ReferenceIdeal.Facts]

theorem allReal_rAgg128 (src dst : IVec Cert.ReferenceIdeal.S1600000 32) (wn : FVec Ideal Cert.ReferenceIdeal.S1600000 .f32) (h : FVec Ideal Cert.ReferenceIdeal.S100000x128 .f32)
    (hwn : AllReal wn) (hh : AllReal h) : AllReal (rAgg128 src dst wn h) := by
  unfold rAgg128
  exact allReal_scatterAdd _ _ _ _ (allReal_broadcastInDim _ _ _ allReal_const_zero)
    (allReal_mulf _ _ (allReal_gather _ _ _ hh) (allReal_broadcastInDim _ _ _ (allReal_broadcastInDim _ _ _ hwn)))

theorem layer_eq (x : FVec Ideal Cert.ReferenceIdeal.S100000x128 .f32) (W : FVec Ideal Cert.ReferenceIdeal.S128x128 .f32) (b g bt : FVec Ideal Cert.ReferenceIdeal.S128 .f32)
    (src dst : IVec Cert.ReferenceIdeal.S1600000 32) (wn : FVec Ideal Cert.ReferenceIdeal.S1600000 .f32) (sn : FVec Ideal Cert.ReferenceIdeal.S100000 .f32)
    (hx : AllReal x) (hW : AllReal W) (hb : AllReal b) (hg : AllReal g) (hbt : AllReal bt) (hwn : AllReal wn) (hsn : AllReal sn) :
    kLayer x W b g bt src dst wn sn = rLayer x W b g bt src dst wn sn ∧ AllReal (rLayer x W b g bt src dst wn sn) := by
  have hh : AllReal (Host.dotGeneral Cert.ReferenceIdeal.dot_S100000x128_S128x128_S100000x128_1_0_0_1_n_n none x W) :=
    allReal_dotGeneral128 x W hx hW
  have hc : AllReal (addf (addf (rAgg128 src dst wn (Host.dotGeneral Cert.ReferenceIdeal.dot_S100000x128_S128x128_S100000x128_1_0_0_1_n_n none x W))
        (mulf (broadcastInDim Cert.ReferenceIdeal.S100000x128 ![0, 1] Cert.ReferenceIdeal.Facts₀.bcast_S100000x1_S100000x128_0_1
            (broadcastInDim Cert.ReferenceIdeal.S100000x1 ![0] Cert.ReferenceIdeal.Facts₀.bcast_S100000_S100000x1_0 sn))
          (Host.dotGeneral Cert.ReferenceIdeal.dot_S100000x128_S128x128_S100000x128_1_0_0_1_n_n none x W)))
      (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b))) :=
    allReal_addf _ _
      (allReal_addf _ _ (allReal_rAgg128 src dst wn _ hwn hh)
        (allReal_mulf _ _ (allReal_broadcastInDim _ _ _ (allReal_broadcastInDim _ _ _ hsn)) hh))
      (allReal_broadcastInDim _ _ _ (allReal_broadcastInDim _ _ _ hb))
  refine ⟨?_, refBnRelu_isReal _ hc g bt hg hbt⟩
  unfold kLayer rLayer
  rw [lin_eq_dot128, agg128_eq, comb_eq128, bn_law _ hc]

theorem last_eq (x : FVec Ideal Cert.ReferenceIdeal.S100000x128 .f32) (W : FVec Ideal Cert.ReferenceIdeal.S128x40 .f32) (b : FVec Ideal Cert.ReferenceIdeal.S40 .f32)
    (src dst : IVec Cert.ReferenceIdeal.S1600000 32) (wn : FVec Ideal Cert.ReferenceIdeal.S1600000 .f32) (sn : FVec Ideal Cert.ReferenceIdeal.S100000 .f32) :
    kLast x W b src dst wn sn = rLast x W b src dst wn sn := by
  unfold kLast rLast
  rw [lin_eq_dot40, agg40_eq, comb_eq40]

theorem tower_eq (x : FVec Ideal Cert.ReferenceIdeal.S100000x128 .f32)
    (W1 : FVec Ideal Cert.ReferenceIdeal.S128x128 .f32) (b1 g1 bt1 : FVec Ideal Cert.ReferenceIdeal.S128 .f32)
    (W2 : FVec Ideal Cert.ReferenceIdeal.S128x128 .f32) (b2 g2 bt2 : FVec Ideal Cert.ReferenceIdeal.S128 .f32)
    (W3 : FVec Ideal Cert.ReferenceIdeal.S128x40 .f32) (b3 : FVec Ideal Cert.ReferenceIdeal.S40 .f32)
    (src dst : IVec Cert.ReferenceIdeal.S1600000 32) (wn : FVec Ideal Cert.ReferenceIdeal.S1600000 .f32) (sn : FVec Ideal Cert.ReferenceIdeal.S100000 .f32)
    (hx : AllReal x) (hW1 : AllReal W1) (hb1 : AllReal b1) (hg1 : AllReal g1) (hbt1 : AllReal bt1)
    (hW2 : AllReal W2) (hb2 : AllReal b2) (hg2 : AllReal g2) (hbt2 : AllReal bt2)
    (hwn : AllReal wn) (hsn : AllReal sn) :
    kTower x W1 b1 g1 bt1 W2 b2 g2 bt2 W3 b3 src dst wn sn = rTower x W1 b1 g1 bt1 W2 b2 g2 bt2 W3 b3 src dst wn sn := by
  obtain ⟨e1, r1⟩ := layer_eq x W1 b1 g1 bt1 src dst wn sn hx hW1 hb1 hg1 hbt1 hwn hsn
  obtain ⟨e2, -⟩ := layer_eq _ W2 b2 g2 bt2 src dst wn sn r1 hW2 hb2 hg2 hbt2 hwn hsn
  unfold kTower rTower
  rw [e1, e2, last_eq]

end Cert.Tower

end
-- ==== Proof.PreDecode.lean ====
import proofs.«156818_j43868795961418_1_alg».proof.Pre_finite_inputs
import Idealize.ShloMosaic.PureOps.Ideal
import Idealize.ShloMosaic.Lib.ReduceAll
import Idealize.ShloMosaic.Lib.ValueIdx

noncomputable section

namespace Cert.PreDecode

open Cert.Pre_finite_inputs Cert.Pre_finite_inputs.Facts Idealize.ShloMosaic

variable [Cert.Pre_finite_inputs.Facts]

def degTerm (a1 : FVec Ideal S1600000 .f32) (a12 : IVec S2x1600000 32) :
    FVec Ideal S100000 .f32 :=
  addf
    ((fun x i u => Host.scatterAdd scatter_S100000_S1600000x1_S1600000_n_0_0_1 x i u)
      (broadcastInDim S100000 ![] bcast_S_S100000 (constant (F := Ideal) S_ .f32 0x00000000#32))
      (broadcastInDim S1600000x1 ![0] bcast_S1600000_S1600000x1_0
        (shapeCast S1600000
          ((extractStridedSlice S1x1600000 ![1, 0] · slices_S2x1600000_S1x1600000_1_0) a12)
          shapeCasts_S1x1600000_S1600000))
      a1)
    (broadcastInDim S100000 ![] bcast_S_S100000 (constant (F := Ideal) S_ .f32 0x3F800000#32))

instance : Subsingleton S_.Idx := ⟨fun a b => funext fun d => d.elim0⟩

theorem ofBool_eq_one (b : Bool) : BitVec.ofBool b = 1#1 ↔ b = true := by cases b <;> decide

theorem ofBits_inf : Ideal.ofBits .f32 0x7F800000#32 = (⊤ : EReal) := by simp [Ideal.ofBits, Ideal.ieee]
theorem ofBits_zero : Ideal.ofBits .f32 0x00000000#32 = (0 : EReal) := by simp [Ideal.ofBits, Ideal.ieee]

theorem real_of_abs_lt_top (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  simp only [Ideal.cmp, ofBool_eq_one, decide_eq_true_eq] at h
  induction x using EReal.rec with
  | bot => simp at h
  | coe r => exact ⟨r, rfl⟩
  | top => simp at h

theorem all_real {s : Shape} {axes : List (Fin s.rank)} {dims : Fin S_.rank → Fin s.rank}
    (hb : S_.BroadcastsInDim s dims) (hr : s.ReducesTo axes S_) (x : FVec Ideal s .f32)
    (h : Host.reduce IntOp.andi
          (cmpf .olt (Host.absf x)
            (broadcastInDim s dims hb (constant (F := Ideal) S_ .f32 0x7F800000#32)))
          (constantI S_ 1 1#1) hr h_S_ ValueIdx.ix0 = 1#1) :
    ∀ i, ∃ r : ℝ, x i = (r : EReal) := fun i =>
  real_of_abs_lt_top (x i) (Host.reduce_andi_all _ _ hr h_S_ _ h i)

theorem bcast_scalar_const {s : Shape} {dims : Fin S_.rank → Fin s.rank} (hb : S_.BroadcastsInDim s dims)
    (φ : FTy) (b : BitVec φ.bits) (i : s.Idx) :
    broadcastInDim s dims hb (constant (F := Ideal) S_ φ b) i = Ideal.ofBits φ b := rfl

theorem pos_of_gt_zero {s : Shape} {dims : Fin S_.rank → Fin s.rank} (hb : S_.BroadcastsInDim s dims)
    (x : FVec Ideal s .f32) (i : s.Idx)
    (h : cmpf .ogt x (broadcastInDim s dims hb (constant (F := Ideal) S_ .f32 0x00000000#32)) i = 1#1) :
    (0 : EReal) < x i := by
  have h' : Ideal.cmp .ogt (x i)
      (broadcastInDim s dims hb (constant (F := Ideal) S_ .f32 0x00000000#32) i) = 1#1 := h
  rw [bcast_scalar_const, ofBits_zero] at h'
  simpa only [Ideal.cmp, ofBool_eq_one, decide_eq_true_eq] using h'

theorem pre_decoded (a0 : FVec Ideal S100000x128 .f32) (a1 : FVec Ideal S1600000 .f32)
    (a2 : FVec Ideal S2x128x128 .f32) (a3 a4 a5 : FVec Ideal S2x128 .f32)
    (a6 : FVec Ideal S2x128x128 .f32) (a7 a8 a9 : FVec Ideal S2x128 .f32)
    (a10 : FVec Ideal S2x128x40 .f32) (a11 : FVec Ideal S2x40 .f32)
    (a12 : IVec S2x1600000 32)
    (h : Cert.Pre_finite_inputs.fn (F := Ideal) a0 a1 a2 a3 a4 a5 a6 a7 a8 a9 a10 a11 a12
      = (fun _ => 1#1)) :
    ((∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal))) ∧
    ∀ i : S100000.Idx, (0 : EReal) < degTerm a1 a12 i := by
  have e := congrFun h ValueIdx.ix0
  dsimp only [fn] at e
  dsimp only [fn_part1] at e
  dsimp only [fn_part2] at e
  dsimp only [fn_part3] at e
  dsimp only [fn_part4] at e
  dsimp only [andi] at e
  simp only [IntOp.andi_eq_one] at e
  obtain ⟨⟨⟨⟨⟨⟨⟨⟨⟨⟨⟨⟨h0, h1⟩, h2⟩, h3⟩, h4⟩, h5⟩, h6⟩, h7⟩, h8⟩, h9⟩, h10⟩, h11⟩, hd⟩ := e
  refine ⟨⟨all_real _ _ a0 h0, all_real _ _ a1 h1, all_real _ _ a2 h2, all_real _ _ a3 h3,
    all_real _ _ a4 h4, all_real _ _ a5 h5, all_real _ _ a6 h6, all_real _ _ a7 h7,
    all_real _ _ a8 h8, all_real _ _ a9 h9, all_real _ _ a10 h10, all_real _ _ a11 h11⟩,
    fun i => ?_⟩
  have hi := Host.reduce_andi_all _ _ reducesTo_S100000_S_d0 h_S_ _ hd i
  exact pos_of_gt_zero _ (degTerm a1 a12) i hi

theorem finite_of_pre (a0 : FVec Ideal S100000x128 .f32) (a1 : FVec Ideal S1600000 .f32)
    (a2 : FVec Ideal S2x128x128 .f32) (a3 a4 a5 : FVec Ideal S2x128 .f32)
    (a6 : FVec Ideal S2x128x128 .f32) (a7 a8 a9 : FVec Ideal S2x128 .f32)
    (a10 : FVec Ideal S2x128x40 .f32) (a11 : FVec Ideal S2x40 .f32)
    (a12 : IVec S2x1600000 32)
    (h : Cert.Pre_finite_inputs.fn (F := Ideal) a0 a1 a2 a3 a4 a5 a6 a7 a8 a9 a10 a11 a12
      = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) :=
  (pre_decoded a0 a1 a2 a3 a4 a5 a6 a7 a8 a9 a10 a11 a12 h).1

theorem deg_pos_of_pre (a0 : FVec Ideal S100000x128 .f32) (a1 : FVec Ideal S1600000 .f32)
    (a2 : FVec Ideal S2x128x128 .f32) (a3 a4 a5 : FVec Ideal S2x128 .f32)
    (a6 : FVec Ideal S2x128x128 .f32) (a7 a8 a9 : FVec Ideal S2x128 .f32)
    (a10 : FVec Ideal S2x128x40 .f32) (a11 : FVec Ideal S2x40 .f32)
    (a12 : IVec S2x1600000 32)
    (h : Cert.Pre_finite_inputs.fn (F := Ideal) a0 a1 a2 a3 a4 a5 a6 a7 a8 a9 a10 a11 a12
      = (fun _ => 1#1)) :
    ∀ i : S100000.Idx, (0 : EReal) < degTerm a1 a12 i :=
  (pre_decoded a0 a1 a2 a3 a4 a5 a6 a7 a8 a9 a10 a11 a12 h).2

end Cert.PreDecode

end
-- ==== Proof.GraphReal.lean ====
import proofs.«156818_j43868795961418_1_alg».proof.Proof.GraphR
import proofs.«156818_j43868795961418_1_alg».proof.Proof.StageConv
import proofs.«156818_j43868795961418_1_alg».proof.Proof.PreDecode

noncomputable section

namespace Cert.Tower

open Idealize.ShloMosaic Cert.StageLaws

variable [Cert.KernelIdeal.Facts] [Cert.ReferenceIdeal.Facts] [Cert.Pre_finite_inputs.Facts]

theorem allReal_rDeg (a1 : FVec Ideal Cert.ReferenceIdeal.S1600000 .f32) (dst : IVec Cert.ReferenceIdeal.S1600000 32) (h1 : AllReal a1) :
    AllReal (rDeg a1 dst) := by
  unfold rDeg
  exact allReal_addf _ _ (allReal_scatterAdd _ _ _ _ (allReal_broadcastInDim _ _ _ allReal_const_zero) h1)
    (allReal_broadcastInDim _ _ _ allReal_const_one)

theorem allReal_rDinv (a1 : FVec Ideal Cert.ReferenceIdeal.S1600000 .f32) (dst : IVec Cert.ReferenceIdeal.S1600000 32) (h1 : AllReal a1)
    (hpos : ∀ i, 0 < rDeg a1 dst i) : AllReal (rDinv a1 dst) := by
  unfold rDinv
  exact allReal_hostRsqrt_of_pos _ (allReal_rDeg a1 dst h1) hpos

theorem allReal_rWn (a1 : FVec Ideal Cert.ReferenceIdeal.S1600000 .f32) (src dst : IVec Cert.ReferenceIdeal.S1600000 32) (h1 : AllReal a1)
    (hpos : ∀ i, 0 < rDeg a1 dst i) : AllReal (rWn a1 src dst) := by
  unfold rWn
  exact allReal_mulf _ _ (allReal_mulf _ _ (allReal_gather _ _ _ (allReal_rDinv a1 dst h1 hpos)) h1)
    (allReal_gather _ _ _ (allReal_rDinv a1 dst h1 hpos))

theorem allReal_rSn (a1 : FVec Ideal Cert.ReferenceIdeal.S1600000 .f32) (dst : IVec Cert.ReferenceIdeal.S1600000 32) (h1 : AllReal a1)
    (hpos : ∀ i, 0 < rDeg a1 dst i) : AllReal (rSn a1 dst) := by
  unfold rSn
  exact allReal_mulf _ _ (allReal_rDinv a1 dst h1 hpos) (allReal_rDinv a1 dst h1 hpos)

theorem allReal_rRowA (p : FVec Ideal Cert.ReferenceIdeal.S2x128 .f32) (hp : AllReal p) : AllReal (rRowA p) := by
  unfold rRowA
  exact allReal_shapeCast _ _ (allReal_extractStridedSlice _ _ _ hp)
theorem allReal_rRowB (p : FVec Ideal Cert.ReferenceIdeal.S2x128 .f32) (hp : AllReal p) : AllReal (rRowB p) := by
  unfold rRowB
  exact allReal_shapeCast _ _ (allReal_extractStridedSlice _ _ _ hp)
theorem allReal_rRow40A (p : FVec Ideal Cert.ReferenceIdeal.S2x40 .f32) (hp : AllReal p) : AllReal (rRow40A p) := by
  unfold rRow40A
  exact allReal_shapeCast _ _ (allReal_extractStridedSlice _ _ _ hp)
theorem allReal_rRow40B (p : FVec Ideal Cert.ReferenceIdeal.S2x40 .f32) (hp : AllReal p) : AllReal (rRow40B p) := by
  unfold rRow40B
  exact allReal_shapeCast _ _ (allReal_extractStridedSlice _ _ _ hp)
theorem allReal_rMatA (p : FVec Ideal Cert.ReferenceIdeal.S2x128x128 .f32) (hp : AllReal p) : AllReal (rMatA p) := by
  unfold rMatA
  exact allReal_shapeCast _ _ (allReal_extractStridedSlice _ _ _ hp)
theorem allReal_rMatB (p : FVec Ideal Cert.ReferenceIdeal.S2x128x128 .f32) (hp : AllReal p) : AllReal (rMatB p) := by
  unfold rMatB
  exact allReal_shapeCast _ _ (allReal_extractStridedSlice _ _ _ hp)
theorem allReal_rMat40A (p : FVec Ideal Cert.ReferenceIdeal.S2x128x40 .f32) (hp : AllReal p) : AllReal (rMat40A p) := by
  unfold rMat40A
  exact allReal_shapeCast _ _ (allReal_extractStridedSlice _ _ _ hp)
theorem allReal_rMat40B (p : FVec Ideal Cert.ReferenceIdeal.S2x128x40 .f32) (hp : AllReal p) : AllReal (rMat40B p) := by
  unfold rMat40B
  exact allReal_shapeCast _ _ (allReal_extractStridedSlice _ _ _ hp)

theorem rDeg_eq_degTerm (a1 : FVec Ideal Cert.ReferenceIdeal.S1600000 .f32) (a12 : IVec Cert.ReferenceIdeal.S2x1600000 32) :
    rDeg a1 (rDst a12) = Cert.PreDecode.degTerm a1 a12 := rfl

end Cert.Tower

end
-- ==== Proof.Net.lean ====
import proofs.«156818_j43868795961418_1_alg».proof.Proof.TowerEq
import proofs.«156818_j43868795961418_1_alg».proof.Proof.GraphReal

noncomputable section

namespace Cert.Tower

open Idealize.ShloMosaic Cert.StageLaws

variable [Cert.KernelIdeal.Facts] [Cert.ReferenceIdeal.Facts] [Cert.Pre_finite_inputs.Facts]

open Cert.KernelIdeal in
/-- The kernel program's result as one function of its thirteen arguments: the towers built from the first and
    from the second slice of every parameter array, stacked. -/
def kNet (a0 : FVec Ideal S100000x128 .f32) (a1 : FVec Ideal S1600000 .f32) (a2 : FVec Ideal S2x128x128 .f32)
    (a3 a4 a5 : FVec Ideal S2x128 .f32) (a6 : FVec Ideal S2x128x128 .f32) (a7 a8 a9 : FVec Ideal S2x128 .f32)
    (a10 : FVec Ideal S2x128x40 .f32) (a11 : FVec Ideal S2x40 .f32) (a12 : IVec S2x1600000 32) :
    FVec Ideal S2x100000x40 .f32 :=
  kStack
    (kTower a0 (kMatA a2) (kRowA a3) (kRowA a4) (kRowA a5) (kMatA a6) (kRowA a7) (kRowA a8)
      (kRowA a9) (kMat40A a10) (kRow40A a11) (kSrc a12) (kDst a12) (kWn a1 (kSrc a12) (kDst a12)) (kSn a1 (kDst a12)))
    (kTower a0 (kMatB a2) (kRowB a3) (kRowB a4) (kRowB a5) (kMatB a6) (kRowB a7) (kRowB a8)
      (kRowB a9) (kMat40B a10) (kRow40B a11) (kSrc a12) (kDst a12) (kWn a1 (kSrc a12) (kDst a12)) (kSn a1 (kDst a12)))

open Cert.KernelIdeal in
/-- Under the precondition every float argument is real and every node's degree is positive, so each tower is one
    function in both spellings, and the stacked results agree. -/
theorem net_eq (a0 : FVec Ideal S100000x128 .f32) (a1 : FVec Ideal S1600000 .f32) (a2 : FVec Ideal S2x128x128 .f32)
    (a3 a4 a5 : FVec Ideal S2x128 .f32) (a6 : FVec Ideal S2x128x128 .f32) (a7 a8 a9 : FVec Ideal S2x128 .f32)
    (a10 : FVec Ideal S2x128x40 .f32) (a11 : FVec Ideal S2x40 .f32) (a12 : IVec S2x1600000 32)
    (h : Cert.Pre_finite_inputs.fn (F := Ideal) a0 a1 a2 a3 a4 a5 a6 a7 a8 a9 a10 a11 a12 = fun _ => 1#1) :
    rStack
        (rTower a0 (rMatA a2) (rRowA a3) (rRowA a4) (rRowA a5) (rMatA a6) (rRowA a7) (rRowA a8)
      (rRowA a9) (rMat40A a10) (rRow40A a11) (rSrc a12) (rDst a12) (rWn a1 (rSrc a12) (rDst a12)) (rSn a1 (rDst a12)))
        (rTower a0 (rMatB a2) (rRowB a3) (rRowB a4) (rRowB a5) (rMatB a6) (rRowB a7) (rRowB a8)
      (rRowB a9) (rMat40B a10) (rRow40B a11) (rSrc a12) (rDst a12) (rWn a1 (rSrc a12) (rDst a12)) (rSn a1 (rDst a12)))
      = kNet a0 a1 a2 a3 a4 a5 a6 a7 a8 a9 a10 a11 a12 := by
  obtain ⟨h0, h1, h2, h3, h4, h5, h6, h7, h8, h9, -, -⟩ :=
    Cert.PreDecode.finite_of_pre a0 a1 a2 a3 a4 a5 a6 a7 a8 a9 a10 a11 a12 h
  have hpos : ∀ i, 0 < rDeg a1 (rDst a12) i := Cert.PreDecode.deg_pos_of_pre a0 a1 a2 a3 a4 a5 a6 a7 a8 a9 a10 a11 a12 h
  have hw := allReal_rWn a1 (rSrc a12) (rDst a12) h1 hpos
  have hs := allReal_rSn a1 (rDst a12) h1 hpos
  rw [← tower_eq a0 (rMatA a2) (rRowA a3) (rRowA a4) (rRowA a5) (rMatA a6) (rRowA a7) (rRowA a8) (rRowA a9)
      (rMat40A a10) (rRow40A a11) (rSrc a12) (rDst a12) (rWn a1 (rSrc a12) (rDst a12)) (rSn a1 (rDst a12)) h0
      (allReal_rMatA _ h2) (allReal_rRowA _ h3) (allReal_rRowA _ h4) (allReal_rRowA _ h5) (allReal_rMatA _ h6)
      (allReal_rRowA _ h7) (allReal_rRowA _ h8) (allReal_rRowA _ h9) hw hs,
    ← tower_eq a0 (rMatB a2) (rRowB a3) (rRowB a4) (rRowB a5) (rMatB a6) (rRowB a7) (rRowB a8) (rRowB a9)
      (rMat40B a10) (rRow40B a11) (rSrc a12) (rDst a12) (rWn a1 (rSrc a12) (rDst a12)) (rSn a1 (rDst a12)) h0
      (allReal_rMatB _ h2) (allReal_rRowB _ h3) (allReal_rRowB _ h4) (allReal_rRowB _ h5) (allReal_rMatB _ h6)
      (allReal_rRowB _ h7) (allReal_rRowB _ h8) (allReal_rRowB _ h9) hw hs]
  rfl

end Cert.Tower

end
-- ==== Proof.KWalkKeep.lean ====
import proofs.«156818_j43868795961418_1_alg».proof.Proof.Gen.KernelIdeal.Frame
import Idealize.ShloMosaic.Lib.StableHlo.Run
import Idealize.ShloMosaic.PureOps.Ideal

noncomputable section

namespace Cert.KernelIdeal.GcnValue

open Cert.KernelIdeal Cert.KernelIdeal.Gen Idealize.ShloMosaic Idealize.ShloMosaic.TcCoe Idealize.SL.Sem Idealize.ShloMosaic.StableHlo

abbrev WritesIn (W : List (Ref sig .tc)) (ops : List (HloOp τ sig (Elt Ideal))) : Prop :=
  ops.Forall fun op => op.writes ⊆ (W.map (Proc.devRef (τ := τ) .tc)).toFinset

theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

macro "writes_in" : tactic =>
  `(tactic| (simp only [WritesIn, List.Forall]; (repeat' apply And.intro) <;> exact writes_sub_of_mem (by decide)))

theorem after_keep {W : List (Ref sig .tc)} {r : Ref sig .tc} {ops : List (HloOp τ sig (Elt Ideal))}
    (hW : WritesIn W ops) (V : Valuation τ sig (Elt Ideal)) (hr : r ∉ W) :
    after ops V (Proc.devRef .tc r) = V (Proc.devRef .tc r) :=
  after_of_writes_sub ops V hW hr

end Cert.KernelIdeal.GcnValue

end
-- ==== Proof.KWalkPrep.lean ====
import proofs.«156818_j43868795961418_1_alg».proof.Proof.Gen.KernelIdeal.Frame
import proofs.«156818_j43868795961418_1_alg».proof.Proof.GraphK
import proofs.«156818_j43868795961418_1_alg».proof.Proof.KWalkKeep
import Idealize.ShloMosaic.Lib.StableHlo.Run

set_option maxRecDepth 16384

noncomputable section

namespace Cert.KernelIdeal.GcnValue

open Cert.KernelIdeal Cert.KernelIdeal.Gen Cert.Tower Idealize.ShloMosaic Idealize.ShloMosaic.TcCoe Idealize.SL.Sem Idealize.ShloMosaic.StableHlo

section Prep
variable (V : Valuation τ sig (Elt Ideal))

theorem h0_v1 : after (hostOps0 (F := Ideal)) V (Proc.devRef .tc main_v1) = kSrc (V (Proc.devRef .tc main_arg12)) := by
  after_results_simp <;> rfl

theorem h0_v3 : after (hostOps0 (F := Ideal)) V (Proc.devRef .tc main_v3) = kDst (V (Proc.devRef .tc main_arg12)) := by
  after_results_simp <;> rfl

theorem h0_v25 : after (hostOps0 (F := Ideal)) V (Proc.devRef .tc main_v25)
    = kWn (V (Proc.devRef .tc main_arg1)) (kSrc (V (Proc.devRef .tc main_arg12))) (kDst (V (Proc.devRef .tc main_arg12))) := by
  after_results_simp <;> rfl

theorem h0_v27 : after (hostOps0 (F := Ideal)) V (Proc.devRef .tc main_v27)
    = broadcastInDim S100000x1 ![0] bcast_S100000_S100000x1_0
        (kSn (V (Proc.devRef .tc main_arg1)) (kDst (V (Proc.devRef .tc main_arg12)))) := by
  after_results_simp <;> rfl

theorem h0_v30 : after (hostOps0 (F := Ideal)) V (Proc.devRef .tc main_v30)
    = broadcastInDim S1x128 ![1] bcast_S128_S1x128_1 (kRowA (V (Proc.devRef .tc main_arg3))) := by
  after_results_simp <;> rfl

theorem h0_v33 : after (hostOps0 (F := Ideal)) V (Proc.devRef .tc main_v33)
    = broadcastInDim S1x128 ![1] bcast_S128_S1x128_1 (kRowA (V (Proc.devRef .tc main_arg4))) := by
  after_results_simp <;> rfl

theorem h0_v36 : after (hostOps0 (F := Ideal)) V (Proc.devRef .tc main_v36)
    = broadcastInDim S1x128 ![1] bcast_S128_S1x128_1 (kRowA (V (Proc.devRef .tc main_arg5))) := by
  after_results_simp <;> rfl

theorem h0_v39 : after (hostOps0 (F := Ideal)) V (Proc.devRef .tc main_v39)
    = broadcastInDim S1x128 ![1] bcast_S128_S1x128_1 (kRowA (V (Proc.devRef .tc main_arg7))) := by
  after_results_simp <;> rfl

theorem h0_v42 : after (hostOps0 (F := Ideal)) V (Proc.devRef .tc main_v42)
    = broadcastInDim S1x128 ![1] bcast_S128_S1x128_1 (kRowA (V (Proc.devRef .tc main_arg8))) := by
  after_results_simp <;> rfl

theorem h0_v45 : after (hostOps0 (F := Ideal)) V (Proc.devRef .tc main_v45)
    = broadcastInDim S1x128 ![1] bcast_S128_S1x128_1 (kRowA (V (Proc.devRef .tc main_arg9))) := by
  after_results_simp <;> rfl

theorem h0_v48 : after (hostOps0 (F := Ideal)) V (Proc.devRef .tc main_v48)
    = broadcastInDim S1x40 ![1] bcast_S40_S1x40_1 (kRow40A (V (Proc.devRef .tc main_arg11))) := by
  after_results_simp <;> rfl

theorem h0_v50 : after (hostOps0 (F := Ideal)) V (Proc.devRef .tc main_v50) = kMatA (V (Proc.devRef .tc main_arg2)) := by
  after_results_simp <;> rfl

abbrev wrH0 : List (Ref sig .tc) :=
  [main_v0, main_v1, main_v2, main_v3, main_cst, main_v4, main_v5, main_v6, main_cst_0, main_v7, main_v8, main_v9,
   main_c, main_v10, main_v11, main_c_1, main_v12, main_v13, main_v14, main_v15, main_v16, main_v17,
   main_c_2, main_v18, main_v19, main_c_3, main_v20, main_v21, main_v22, main_v23, main_v24, main_v25,
   main_v26, main_v27, main_v28, main_v29, main_v30, main_v31, main_v32, main_v33, main_v34, main_v35, main_v36,
   main_v37, main_v38, main_v39, main_v40, main_v41, main_v42, main_v43, main_v44, main_v45, main_v46, main_v47,
   main_v48, main_v49, main_v50]

theorem wrH0_hostOps0 : WritesIn wrH0 (hostOps0 (F := Ideal)) := by writes_in

theorem h0_keep {r : Ref sig .tc} (hr : r ∉ wrH0) :
    after (hostOps0 (F := Ideal)) V (Proc.devRef .tc r) = V (Proc.devRef .tc r) :=
  after_keep wrH0_hostOps0 V hr

theorem h8_v116 : after (hostOps8 (F := Ideal)) V (Proc.devRef .tc main_v116)
    = broadcastInDim S1x128 ![1] bcast_S128_S1x128_1 (kRowB (V (Proc.devRef .tc main_arg3))) := by
  after_results_simp <;> rfl

theorem h8_v119 : after (hostOps8 (F := Ideal)) V (Proc.devRef .tc main_v119)
    = broadcastInDim S1x128 ![1] bcast_S128_S1x128_1 (kRowB (V (Proc.devRef .tc main_arg4))) := by
  after_results_simp <;> rfl

theorem h8_v122 : after (hostOps8 (F := Ideal)) V (Proc.devRef .tc main_v122)
    = broadcastInDim S1x128 ![1] bcast_S128_S1x128_1 (kRowB (V (Proc.devRef .tc main_arg5))) := by
  after_results_simp <;> rfl

theorem h8_v125 : after (hostOps8 (F := Ideal)) V (Proc.devRef .tc main_v125)
    = broadcastInDim S1x128 ![1] bcast_S128_S1x128_1 (kRowB (V (Proc.devRef .tc main_arg7))) := by
  after_results_simp <;> rfl

theorem h8_v128 : after (hostOps8 (F := Ideal)) V (Proc.devRef .tc main_v128)
    = broadcastInDim S1x128 ![1] bcast_S128_S1x128_1 (kRowB (V (Proc.devRef .tc main_arg8))) := by
  after_results_simp <;> rfl

theorem h8_v131 : after (hostOps8 (F := Ideal)) V (Proc.devRef .tc main_v131)
    = broadcastInDim S1x128 ![1] bcast_S128_S1x128_1 (kRowB (V (Proc.devRef .tc main_arg9))) := by
  after_results_simp <;> rfl

theorem h8_v134 : after (hostOps8 (F := Ideal)) V (Proc.devRef .tc main_v134)
    = broadcastInDim S1x40 ![1] bcast_S40_S1x40_1 (kRow40B (V (Proc.devRef .tc main_arg11))) := by
  after_results_simp <;> rfl

theorem h8_v136 : after (hostOps8 (F := Ideal)) V (Proc.devRef .tc main_v136) = kMatB (V (Proc.devRef .tc main_arg2)) := by
  after_results_simp <;> rfl

abbrev wrH8 : List (Ref sig .tc) :=
  [main_v114, main_v115, main_v116, main_v117, main_v118, main_v119, main_v120, main_v121, main_v122, main_v123,
   main_v124, main_v125, main_v126, main_v127, main_v128, main_v129, main_v130, main_v131, main_v132, main_v133,
   main_v134, main_v135, main_v136]

theorem wrH8_hostOps8 : WritesIn wrH8 (hostOps8 (F := Ideal)) := by writes_in

theorem h8_keep {r : Ref sig .tc} (hr : r ∉ wrH8) :
    after (hostOps8 (F := Ideal)) V (Proc.devRef .tc r) = V (Proc.devRef .tc r) :=
  after_keep wrH8_hostOps8 V hr

theorem h16_v202 : after (hostOps16 (F := Ideal)) V (Proc.devRef .tc main_v202)
    = kStack (V (Proc.devRef .tc main_v113_0)) (V (Proc.devRef .tc main_v199_0)) := by
  after_results <;> rfl

end Prep

end Cert.KernelIdeal.GcnValue

end
-- ==== Proof.LinBnLib.lean ====
import proofs.«156818_j43868795961418_1_alg».proof.Proof.Gen.KernelIdeal.Frame
import proofs.«156818_j43868795961418_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnValue

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- Entry j of x·w is entry i of X·W when row j₀ of x is row i₀ of X and column j₁ of w is column i₁ of W. -/
theorem matmul_eq_lin {M K C : ℕ} {φ₁ φ₂ : FTy} (X : Cert.GcnSpec.Mat Cert.GcnSpec.nNodes K) (W : Cert.GcnSpec.Mat K C)
    (x : FVec Ideal ⟨2, ![M, K]⟩ φ₁) (w : FVec Ideal ⟨2, ![K, C]⟩ φ₂) (j : (⟨2, ![M, C]⟩ : Shape).Idx)
    (i : (⟨2, ![Cert.GcnSpec.nNodes, C]⟩ : Shape).Idx)
    (h0 : ∀ k, x (ix2 (j 0) k) = X (ix2 (i 0) k)) (h1 : ∀ k, w (ix2 k (j 1)) = W (ix2 k (i 1))) :
    FloatOps.matmul (DotDims.plain M K C) none x w (constant _ .f32 0x00000000#32) j = Cert.GcnSpec.lin X W i := by
  rw [Ideal.matmul_constant_zero_apply, ← Equiv.sum_comp (contrEquiv1 (DotDims.plain M K C) K rfl rfl).symm]
  refine Finset.sum_congr rfl fun k _ => ?_
  have hk := contrEquiv1_symm_val (DotDims.plain M K C) K rfl rfl k
  rw [← h0 k, ← h1 k]
  exact congrArg₂ (· * ·) (congrArg x (Shape.idx_ext₂ rfl hk)) (congrArg w (Shape.idx_ext₂ hk rfl))

theorem out0_2_eq_lin (X : S100000x128.Idx → EReal) (W : S128x128.Idx → EReal) (x : Vec Ideal S5000x128 .f32)
    (w : Vec Ideal S128x128 .f32) (j : S5000x128.Idx) (i : S100000x128.Idx)
    (h0 : ∀ k : Fin 128, x (ix2 (j 0) k) = X (ix2 (i 0) k)) (h1 : ∀ k : Fin 128, w (ix2 k (j 1)) = W (ix2 k (i 1))) :
    out0_2 (F := Ideal) x w j = Cert.GcnSpec.lin X W i := by
  unfold out0_2 k0_pay1
  rw [View.canon_unit_zero hz]
  simp only [View.ld_unit_zero (S := S5000x128) hz, View.ld_unit_zero (S := S128x128) hz, shapeCast_self]
  exact matmul_eq_lin X W _ _ j i h0 h1

theorem out3_2_eq_lin (X : S100000x128.Idx → EReal) (W : S128x128.Idx → EReal) (x : Vec Ideal S5000x128 .f32)
    (w : Vec Ideal S128x128 .f32) (j : S5000x128.Idx) (i : S100000x128.Idx)
    (h0 : ∀ k : Fin 128, x (ix2 (j 0) k) = X (ix2 (i 0) k)) (h1 : ∀ k : Fin 128, w (ix2 k (j 1)) = W (ix2 k (i 1))) :
    out3_2 (F := Ideal) x w j = Cert.GcnSpec.lin X W i := by
  unfold out3_2 k3_pay1
  rw [View.canon_unit_zero hz]
  simp only [View.ld_unit_zero (S := S5000x128) hz, View.ld_unit_zero (S := S128x128) hz, shapeCast_self]
  exact matmul_eq_lin X W _ _ j i h0 h1

theorem out6_2_eq_lin (X : S100000x128.Idx → EReal) (W : S128x40.Idx → EReal) (x : Vec Ideal S5000x128 .f32)
    (w : Vec Ideal S128x40 .f32) (j : S5000x40.Idx) (i : S100000x40.Idx)
    (h0 : ∀ k : Fin 128, x (ix2 (j 0) k) = X (ix2 (i 0) k)) (h1 : ∀ k : Fin 128, w (ix2 k (j 1)) = W (ix2 k (i 1))) :
    out6_2 (F := Ideal) x w j = Cert.GcnSpec.lin X W i := by
  unfold out6_2 k6_pay1
  rw [View.canon_unit_zero hz]
  simp only [View.ld_unit_zero (S := S5000x128) hz, View.ld_unit_zero (S := S128x40) hz, shapeCast_self]
  exact matmul_eq_lin X W _ _ j i h0 h1

/-- The normalised and rectified entry: the one-row operands are read at the entry's column. -/
theorem out2_5_eq_bnrelu (A : S100000x128.Idx → EReal) (mu var g bt : S1x128.Idx → EReal)
    (xc : S5000x128.Idx → EReal) (xm xv xg xb : S1x128.Idx → EReal)
    (j : S5000x128.Idx) (i : S100000x128.Idx) (hi : (i 1).val = (j 1).val) (hc : xc j = A i)
    (hm : ∀ q, xm (ix2 (0 : Fin 1) q) = mu (ix2 (0 : Fin 1) q)) (hv : ∀ q, xv (ix2 (0 : Fin 1) q) = var (ix2 (0 : Fin 1) q))
    (hg : ∀ q, xg (ix2 (0 : Fin 1) q) = g (ix2 (0 : Fin 1) q)) (hb : ∀ q, xb (ix2 (0 : Fin 1) q) = bt (ix2 (0 : Fin 1) q)) :
    out2_5 (F := Ideal) xc xm xv xg xb j = Cert.GcnSpec.bnrelu A mu var g bt i := by
  obtain ⟨p, q, rfl⟩ : ∃ (p : Fin 5000) (q : Fin 128), j = ix2 p q := ⟨j 0, j 1, eq_ix2 j⟩
  unfold out2_5 k2_pay1
  rw [View.canon_unit_zero hz]
  simp only [View.ld_unit_zero (S := S1x128) hz, View.ld_unit_zero (S := S5000x128) hz, shapeCast_self]
  rw [maximumf_apply, addf_apply, mulf_apply, mulf_apply, subf_apply, broadcastTo_1b_ab_apply xg,
    broadcastTo_1b_ab_apply xm, broadcastTo_1b_ab_apply xb, broadcastTo_1b_ab_apply, broadcast_apply]
  show max (xg (ix2 0 q) * (xc (ix2 p q) - xm (ix2 0 q)) * Ideal.rsqrt (xv (ix2 0 q) + Cert.GcnSpec.epsBN) + xb (ix2 0 q))
    (Ideal.ofBits .f32 0x00000000#32) = _
  rw [Ideal.ofBits_zero_f32, hc, hm, hv, hg, hb, show q = i 1 from Fin.ext hi.symm]
  rfl

/-- Blocks of B rows tile an array of n·B rows: row r lies in block r / B. -/
theorem row_block_cover {n R B C : ℕ} (hR : R = n * B) (hB : 0 < B) (ind : Fin n → Fin 2 → ℕ)
    (h : ∀ t, ind t 0 = t.val ∧ ind t 1 = 0) (i : (⟨2, ![R, C]⟩ : Shape).Idx) :
    ∃ t : Fin n, ∀ a : Fin 2, ind t a * (![B, C] a) ≤ (i a).val ∧ (i a).val < ind t a * (![B, C] a) + ![B, C] a := by
  have h0 : (i 0).val < B * n := Nat.mul_comm n B ▸ hR ▸ (i 0).isLt
  refine ⟨⟨(i 0).val / B, Nat.div_lt_of_lt_mul h0⟩, fun a => ?_⟩
  obtain ⟨e0, e1⟩ := h ⟨(i 0).val / B, Nat.div_lt_of_lt_mul h0⟩
  match a with
  | ⟨0, _⟩ => show ind _ 0 * B ≤ (i 0).val ∧ (i 0).val < ind _ 0 * B + B; rw [e0]; exact ⟨Nat.div_mul_le_self _ _, Nat.lt_div_mul_add hB⟩
  | ⟨1, _⟩ => show ind _ 1 * C ≤ (i 1).val ∧ (i 1).val < ind _ 1 * C + C; rw [e1, Nat.zero_mul, Nat.zero_add]; exact ⟨Nat.zero_le _, (i 1).isLt⟩

/-- Membership in a unit-stride rectangle of a whole array, coordinate by coordinate. -/
theorem mem_slice_whole_unit {κ : Kind} {b : Ref sig κ} {off size : Fin b.ty.shape.rank → ℕ} {inb} {i : b.ty.shape.Idx} :
    i ∈ ((View.whole b).slice (Rect.unit off size inb)).set ↔ ∀ a, off a ≤ (i a).val ∧ (i a).val < off a + size a := by
  rw [View.set_slice_whole, Rect.mem_set_unit]

end Cert.KernelIdeal.GcnValue

end
-- ==== Proof.Lin0.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of point t is rows 5000·t … 5000·t + 4999 of the product of the features by the weights. -/
theorem lin0_flushed (c : Dev nD) (t : Fin cfg0.N) :
    (dat0 (F := Ideal) V c).flushed 2 t = ((cfg0.win 2).blk t).view.read (Elt Ideal)
      (Cert.GcnSpec.lin (V c (Pipeline.arrRef spec0 0) : S100000x128.Idx → EReal) (V c (Pipeline.arrRef spec0 1) : S128x128.Idx → EReal)) := by
  show (cfg0.win 2).cut (grid0.coords t) ((dat0 (F := Ideal) V c).after 2 t) = _
  rw [after0_2]
  obtain ⟨a0, a1, b0, b1, o0, o1⟩ := lin0_idx t
  funext j
  show out0_2 (iblk0 V c 0 t) (iblk0 V c 1 t) ((cfg0.win 2).xinj (grid0.coords t) j)
    = Cert.GcnSpec.lin (V c (Pipeline.arrRef spec0 0) : S100000x128.Idx → EReal) (V c (Pipeline.arrRef spec0 1) : S128x128.Idx → EReal) (((cfg0.win 2).blk t).view.emb j)
  refine out0_2_eq_lin (V c (Pipeline.arrRef spec0 0)) (V c (Pipeline.arrRef spec0 1)) (iblk0 V c 0 t) (iblk0 V c 1 t)
    ((cfg0.win 2).xinj (grid0.coords t) j) (((cfg0.win 2).blk t).view.emb j) (fun k => ?_) (fun k => ?_)
  · unfold iblk0
    rw [View.read_apply]
    refine congrArg (V c (Pipeline.arrRef spec0 0) : S100000x128.Idx → EReal) (Shape.idx_ext₂ ?_ ?_)
    · show win0_0.index t (0 : Fin 2) * 5000 + 1 * (j 0).val = win0_2.index t (0 : Fin 2) * 5000 + 1 * (j 0).val; omega
    · show win0_0.index t (1 : Fin 2) * 128 + 1 * k.val = k.val; omega
  · unfold iblk0
    rw [View.read_apply]
    refine congrArg (V c (Pipeline.arrRef spec0 1) : S128x128.Idx → EReal) (Shape.idx_ext₂ ?_ ?_)
    · show win0_1.index t (0 : Fin 2) * 128 + 1 * k.val = k.val; omega
    · show win0_1.index t (1 : Fin 2) * 128 + 1 * (j 1).val = win0_2.index t (1 : Fin 2) * 128 + 1 * (j 1).val; omega

theorem lin0_cover (i : S100000x128.Idx) :
    ∃ t : Fin cfg0.N, (cfg0.win 2).flush t = true ∧ i ∈ ((cfg0.win 2).blk t).view.set :=
  (row_block_cover (n := cfg0.N) (B := 5000) (by rw [show cfg0.N = 20 from N_0]) (by decide) win0_2.index
    (fun t => (lin0_idx t).2.2.2.2) i).imp fun t ht => ⟨flush0_2 t, mem_slice_whole_unit.mpr ht⟩

/-- The array the region leaves is the features times the weights. -/
theorem lin0_value (c : Dev nD) :
    ((dat0 (F := Ideal) V c).arrAt 2 cfg0.N : S100000x128.Idx → EReal)
      = Cert.GcnSpec.lin (V c (Pipeline.arrRef spec0 0) : S100000x128.Idx → EReal) (V c (Pipeline.arrRef spec0 1) : S128x128.Idx → EReal) :=
  (dat0 (F := Ideal) V c).arrAt_eq_of_cover 2 _ (fun t _ => lin0_flushed V c t) (lin0_cover)

end Cert.KernelIdeal.GcnValue

end
-- ==== Proof.OpsLibLB.lean ====
import Idealize.ShloMosaic.Lib.Pipeline.FrameSuffix
import Idealize.ShloMosaic.Lib.StableHlo.Run

noncomputable section

namespace Idealize.ShloMosaic.Pipeline

open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- With `o` the only output, and `op` writing only `o`'s array and leaving there the value `x` that array ends at, the final arrays over `V` are `V` after `op`. -/
theorem Dat.withArrays_eq_after_one {V : Valuation τ sig Val} {op : HloOp τ sig Val} (hw : WinFacts cfg.spec)
    (hA : ∀ w, dat.A w = V (Proc.devRef .tc (arrRef cfg.spec w))) (o : Fin cfg.W)
    (hin : ∀ w, w ≠ o → (cfg.win w).isOut = false) (hop : op.writes = {Proc.devRef .tc (arrRef cfg.spec o)})
    {x : Buf Val ((cfg.win o).arr.view.loc (c.tc : Thread nD τ))} (hout : dat.arrAt o cfg.N = x)
    (hres : op.result V (Proc.devRef .tc (arrRef cfg.spec o)) = x) :
    withArrays cfg.spec c V (dat.arrAt · cfg.N) = StableHlo.after [op] V := by
  funext b
  rw [StableHlo.after_cons, StableHlo.after_nil]
  by_cases h : ∃ w, Proc.devRef .tc (arrRef cfg.spec w) = b
  · obtain ⟨w, rfl⟩ := h
    rw [withArrays_arr cfg.spec hw.arr_inj]
    by_cases e : w = o
    · subst e
      exact hout.trans hres.symm
    · rw [dat.arrAt_in w (hin w e), hA w, op.result_of_not_mem]
      rw [hop, Finset.mem_singleton]
      exact fun h => e (hw.arr_inj (Proc.devRef_injective _ h))
  · rw [op.result_of_not_mem V (by rw [hop, Finset.mem_singleton]; exact fun e => h ⟨o, e.symm⟩)]
    unfold withArrays
    rw [dif_neg h]

end Idealize.ShloMosaic.Pipeline

end
-- ==== Proof.Ops0.lean ====
import proofs.«156818_j43868795961418_1_alg».proof.Proof.Lin0
import proofs.«156818_j43868795961418_1_alg».proof.Proof.OpsLibLB

noncomputable section

namespace Cert.KernelIdeal.GcnValue

open Cert.KernelIdeal.Gen Idealize.ShloMosaic Idealize.SL.Sem

abbrev rop0 : List (HloOp τ sig (Elt Ideal)) :=
  [StableHlo.binary main_arg0 main_v50 main_v51 (Cert.GcnSpec.lin (K := 128) (C := 128))]

/-- Region 0 acts on the buffers as the single operation `main_v51 := lin main_arg0 main_v50`. -/
theorem W2_eq (m : (ℓ : Loc nD τ sig) → Buf (Elt Ideal) ℓ) (ρ : Dev nD → PrngReg) (c : Dev nD) :
    W2 (F := Ideal) m ρ c = StableHlo.after rop0 (W1 m ρ c) :=
  (dat0 (V1 m ρ) c).withArrays_eq_after_one launch0.win (A_eq0 _ c) 2 (by decide) rfl (lin0_value _ c)
    (StableHlo.binary_result ..)

end Cert.KernelIdeal.GcnValue

end
-- ==== Proof.OpsLib.lean ====
import Idealize.ShloMosaic.Lib.StableHlo.Run
import Idealize.ShloMosaic.Lib.Pipeline.FrameSuffix
import Idealize.ShloMosaic.Lib.Pipeline.Value

noncomputable section

namespace Cert.KernelIdeal.GcnValue

open Idealize.ShloMosaic Idealize.ShloMosaic.TcCoe Idealize.SL.Sem StableHlo Pipeline

variable {nD : Nat} {τ : Topo} {sig : RefSig} {Val : EltTy → Type} {gr : Nat} (R : Fin 7 → WinSpec sig gr)

abbrev FnW (Val : EltTy → Type) (k : Fin 7) : Type :=
  (arrRef R 0).ty.Contents Val → (arrRef R 1).ty.Contents Val → (arrRef R 2).ty.Contents Val → (arrRef R 3).ty.Contents Val → (arrRef R k).ty.Contents Val

variable (hs : ∀ w, (arrRef R w).space ≠ .host ∧ (arrRef R w : DevRef τ sig).isScoped = false)

/-- The operation that reads the first four arrays and writes array `k`. -/
abbrev opW (k : Fin 7) (f : FnW R Val k) : HloOp τ sig Val :=
  quaternary (arrRef R 0) (arrRef R 1) (arrRef R 2) (arrRef R 3) (arrRef R k) f (hs 0) (hs 1) (hs 2) (hs 3) (hs k)

/-- Three operations on the same four operands, none of them a result: each result is its function of the operands as they were and every other buffer is kept. -/
theorem withArrays_eq_after_ops3 (hinj : Function.Injective (arrRef R)) (c : Dev nD) (V : Valuation τ sig Val)
    (A : (w : Fin 7) → Buf Val ((R w).arr.view.loc (c.tc : Thread nD τ))) (f0 : FnW R Val 4) (f1 : FnW R Val 5) (f2 : FnW R Val 6)
    (hin : ∀ w : Fin 7, w.val < 4 → A w = V (arrRef R w))
    (h4 : A 4 = f0 (V (arrRef R 0)) (V (arrRef R 1)) (V (arrRef R 2)) (V (arrRef R 3)))
    (h5 : A 5 = f1 (V (arrRef R 0)) (V (arrRef R 1)) (V (arrRef R 2)) (V (arrRef R 3)))
    (h6 : A 6 = f2 (V (arrRef R 0)) (V (arrRef R 1)) (V (arrRef R 2)) (V (arrRef R 3))) :
    withArrays R c V A = after [opW R hs 4 f0, opW R hs 5 f1, opW R hs 6 f2] V := by
  have ne : ∀ {F : Valuation τ sig Val} {y : Fin 7} {f : FnW R Val y} {w : Fin 7}, w ≠ y →
      (opW R hs y f).result F (arrRef R w) = F (arrRef R w) :=
    fun h => quaternary_result_ne _ _ _ _ _ _ _ _ _ _ _ _ (hinj.ne h)
  have own : ∀ {F : Valuation τ sig Val} {y : Fin 7} (f : FnW R Val y), (∀ w : Fin 7, w.val < 4 → F (arrRef R w) = V (arrRef R w)) →
      (opW R hs y f).result F (arrRef R y) = f (V (arrRef R 0)) (V (arrRef R 1)) (V (arrRef R 2)) (V (arrRef R 3)) :=
    fun f e => (quaternary_result _ _ _ _ _ f _ _ _ _ _ _).trans (by rw [e 0 (by decide), e 1 (by decide), e 2 (by decide), e 3 (by decide)])
  funext x
  by_cases h : ∃ w, Proc.devRef .tc (arrRef R w) = x
  · obtain ⟨w, rfl⟩ := h
    rw [withArrays_arr R hinj c V A w]
    match w with
    | 0 | 1 | 2 | 3 => exact (hin _ (by decide)).trans ((ne (by decide)).trans ((ne (by decide)).trans (ne (by decide)))).symm
    | 4 => exact h4.trans ((ne (by decide)).trans ((ne (by decide)).trans (own f0 fun _ _ => rfl))).symm
    | 5 => exact h5.trans ((ne (by decide)).trans (own f1 fun _ hw => ne (Fin.ne_of_lt hw))).symm
    | 6 => exact h6.trans (own f2 fun _ hw => (ne (Fin.ne_of_lt (Nat.lt_succ_of_lt hw))).trans (ne (Fin.ne_of_lt hw))).symm
  · unfold withArrays
    rw [dif_neg h, after_cons, after_cons, after_cons, after_nil, HloOp.result_of_not_mem, HloOp.result_of_not_mem,
      HloOp.result_of_not_mem] <;> exact fun hx => h ⟨_, (Finset.mem_singleton.mp hx).symm⟩

end Cert.KernelIdeal.GcnValue

end
-- ==== Proof.CombLib.lean ====
import proofs.«156818_j43868795961418_1_alg».proof.Proof.Gen.KernelIdeal.Skeleton
import proofs.«156818_j43868795961418_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

noncomputable section

namespace Cert.KernelIdeal.GcnValue.Comb

open Cert.KernelIdeal Cert.KernelIdeal.Gen Idealize.ShloMosaic Idealize.ShloMosaic.ValueIdx Cert.GcnSpec

theorem zeros2 : (![0, 0] : Fin 2 → ℕ) = fun _ => 0 := funext fun a => by fin_cases a <;> rfl

/-- Summing over 20 blocks of 5000 rows each is summing over all 100000 rows. -/
theorem sum_rows_eq {M : Type*} [AddCommMonoid M] (g : ℕ → M) :
    ∑ s ∈ Finset.range 20, ∑ p : Fin 5000, g (p.val + 5000 * s) = ∑ r : Fin 100000, g r.val := by
  rw [Finset.sum_range fun s => ∑ p : Fin 5000, g (p.val + 5000 * s),
    ← Fintype.sum_prod_type (f := fun x : Fin 20 × Fin 5000 => g (x.2.val + 5000 * x.1.val))]
  exact Equiv.sum_comp finProdFinEquiv fun r : Fin (20 * 5000) => g r.val

/-- A sequence that starts at its first addend and grows by one addend a step is the running sum. -/
theorem run_sum {M : Type*} [AddCommMonoid M] {N : ℕ} (a : (n : ℕ) → n < N → M) (s : ℕ → M)
    (h0 : ∀ h, a 0 h = 0 + s 0) (hs : ∀ n h, a (n + 1) h = a n (Nat.lt_of_succ_lt h) + s (n + 1)) :
    ∀ n h, a n h = ∑ k ∈ Finset.range (n + 1), s k
  | 0, h => by rw [h0, zero_add, Finset.sum_range_one]
  | n + 1, h => by rw [hs, run_sum a s h0 hs n, Finset.sum_range_succ _ (n + 1)]

/-- If block n is rows 5000 n … 5000 n + 4999 of column q of X, the running sum of g over the blocks ends at the sum of g over the column. -/
theorem col_total {C N : ℕ} (hN : N = 20) (X : Mat 100000 C) (g : EReal → EReal) (q : Fin C)
    (blk : (n : ℕ) → n < N → Fin 5000 → EReal)
    (hblk : ∀ n h (p : Fin 5000) hr, blk n h p = X (ix2 (⟨p.val + 5000 * n, hr⟩ : Fin 100000) q))
    (a : (n : ℕ) → n < N → EReal) (h0 : ∀ h, a 0 h = 0 + ∑ p, g (blk 0 h p))
    (hs : ∀ n h, a (n + 1) h = a n (Nat.lt_of_succ_lt h) + ∑ p, g (blk (n + 1) h p)) (h : 19 < N) :
    a 19 h = ∑ r : Fin 100000, g (X (ix2 r q)) := by
  subst hN
  let G : ℕ → EReal := fun r => if hr : r < 100000 then g (X (ix2 ⟨r, hr⟩ q)) else 0
  have hG : ∀ n (hn : n < 20), ∑ p : Fin 5000, g (blk n hn p) = ∑ p : Fin 5000, G (p.val + 5000 * n) := fun n hn =>
    Finset.sum_congr rfl fun p _ => by
      have hr : p.val + 5000 * n < 100000 := by have := p.isLt; omega
      exact Eq.symm (Eq.trans (dif_pos hr) (congrArg g (hblk n hn p hr)).symm)
  exact (run_sum a (fun n => ∑ p : Fin 5000, G (p.val + 5000 * n)) (fun h => by rw [h0, hG]) (fun n h => by rw [hs, hG]) 19 h).trans
    ((sum_rows_eq G).trans (Finset.sum_congr rfl fun r _ => dif_pos r.isLt))

variable {C : ℕ}

/-- A block's column sum at column q is the sum of that column's 5000 entries. -/
theorem colsum_read (src : FVec Ideal ⟨2, ![5000, C]⟩ .f32) (z : BitVec 32)
    (hr : (⟨2, ![5000, C]⟩ : Shape).Reduces [0] ⟨1, ![C]⟩) (hφ) (hz) (q : Fin C) :
    multiReduction .add [0] ⟨1, ![C]⟩ src z hr hφ hz (ix1 q) = ∑ p : Fin 5000, src (ix2 p q) := by
  refine (Ideal.multiReduction_add_single src z hr hφ hz (ix1 q)).trans (Finset.sum_congr rfl fun p _ => congrArg src ?_)
  funext x
  match x with
  | ⟨0, _⟩ => exact Fin.ext rfl
  | ⟨1, _⟩ => exact Fin.ext rfl

/-- Reshaping a vector of C entries to one row keeps entry q at column q. -/
theorem row_read (v : FVec Ideal ⟨1, ![C]⟩ .f32) (h) (q : Fin C) :
    shapeCast ⟨2, ![1, C]⟩ v h (ix2 (0 : Fin 1) q) = v (ix1 q) := by
  refine shapeCast_apply v h (ix2 (0 : Fin 1) q) (ix1 q) ?_
  rw [Shape.rowMajor_val_one, Shape.rowMajor_val_two]
  show q.val = 0 * C + q.val
  omega

/-- aggregate + (coefficient of the row) · feature + (bias of the column), at row p, column q. -/
theorem comb_apply (a h : FVec Ideal ⟨2, ![5000, C]⟩ .f32) (s : FVec Ideal ⟨2, ![5000, 1]⟩ .f32) (b : FVec Ideal ⟨2, ![1, C]⟩ .f32)
    (ha) (hs) (hh) (hb) (hbs) (hbb) (p : Fin 5000) (q : Fin C) :
    addf (addf (shapeCast ⟨2, ![5000, C]⟩ a ha) (mulf (broadcastTo ⟨2, ![5000, C]⟩ (shapeCast ⟨2, ![5000, 1]⟩ s hs) hbs)
        (shapeCast ⟨2, ![5000, C]⟩ h hh))) (broadcastTo ⟨2, ![5000, C]⟩ (shapeCast ⟨2, ![1, C]⟩ b hb) hbb) (ix2 p q)
      = a (ix2 p q) + s (ix2 p (0 : Fin 1)) * h (ix2 p q) + b (ix2 (0 : Fin 1) q) := by
  simp only [shapeCast_self]
  show a (ix2 p q) + broadcastTo ⟨2, ![5000, C]⟩ s hbs (ix2 p q) * h (ix2 p q) + broadcastTo ⟨2, ![5000, C]⟩ b hbb (ix2 p q) = _
  rw [broadcastTo_1b_ab_apply, broadcastTo_apply s hbs (ix2 p q) (ix2 p (0 : Fin 1)) fun x => by
    match x with
    | ⟨0, _⟩ => rfl
    | ⟨1, _⟩ => rfl]

/-- What a one-row accumulator holds after a block's column sums are added to it. -/
theorem colacc_apply (acc : FVec Ideal ⟨2, ![1, C]⟩ .f32) (src : FVec Ideal ⟨2, ![5000, C]⟩ .f32) (z : BitVec 32)
    (hc) (hr) (hφ) (hz) (hs) (q : Fin C) :
    addf (shapeCast ⟨2, ![1, C]⟩ acc hc) (shapeCast ⟨2, ![1, C]⟩ (multiReduction .add [0] ⟨1, ![C]⟩ src z hr hφ hz) hs) (ix2 (0 : Fin 1) q)
      = acc (ix2 (0 : Fin 1) q) + ∑ p : Fin 5000, src (ix2 p q) := by
  rw [shapeCast_self]
  exact congrArg (acc (ix2 (0 : Fin 1) q) + ·) ((row_read _ hs q).trans (colsum_read src z hr hφ hz q))

abbrev Blk (C : ℕ) : Type := Vec Ideal ⟨2, ![5000, C]⟩ .f32
abbrev Col : Type := Vec Ideal ⟨2, ![5000, 1]⟩ .f32
abbrev Row (C : ℕ) : Type := Vec Ideal ⟨2, ![1, C]⟩ .f32

/-- What the body's three stored values and its two reset values are, entry by entry. -/
structure PaySpec (C : ℕ) (P3 : Blk C → Col → Blk C → Row C → Blk C) (P4 P5 : Blk C → Col → Blk C → Row C → Row C → Row C)
    (Z1 Z2 : Row C) : Prop where
  p3 : ∀ a s h b (p : Fin 5000) (q : Fin C),
    P3 a s h b (ix2 p q) = a (ix2 p q) + s (ix2 p (0 : Fin 1)) * h (ix2 p q) + b (ix2 (0 : Fin 1) q)
  p4 : ∀ a s h b acc (q : Fin C),
    P4 a s h b acc (ix2 (0 : Fin 1) q) = acc (ix2 (0 : Fin 1) q) + ∑ p : Fin 5000, P3 a s h b (ix2 p q)
  p5 : ∀ a s h b acc (q : Fin C),
    P5 a s h b acc (ix2 (0 : Fin 1) q) = acc (ix2 (0 : Fin 1) q) + ∑ p : Fin 5000, P3 a s h b (ix2 p q) * P3 a s h b (ix2 p q)
  z1 : ∀ j, Z1 j = 0
  z2 : ∀ j, Z2 j = 0

theorem pay128 : PaySpec 128 (k1_pay3 (F := Ideal)) k1_pay4 k1_pay5 (k1_pay1 (F := Ideal)) (k1_pay2 (F := Ideal)) where
  p3 a s h b p q := comb_apply a h s b _ _ _ _ _ _ p q
  p4 a s h b acc q := colacc_apply acc _ _ _ _ _ _ _ q
  p5 a s h b acc q := colacc_apply acc _ _ _ _ _ _ _ q
  z1 _ := Ideal.ofBits_zero_f32
  z2 _ := Ideal.ofBits_zero_f32

theorem pay40 : PaySpec 40 (k7_pay3 (F := Ideal)) k7_pay4 k7_pay5 (k7_pay1 (F := Ideal)) (k7_pay2 (F := Ideal)) where
  p3 a s h b p q := comb_apply a h s b _ _ _ _ _ _ p q
  p4 a s h b acc q := colacc_apply acc _ _ _ _ _ _ _ q
  p5 a s h b acc q := colacc_apply acc _ _ _ _ _ _ _ q
  z1 _ := Ideal.ofBits_zero_f32
  z2 _ := Ideal.ofBits_zero_f32

/-- One combination region: four input arrays, the block of each at point n, and the three outputs after point n, the two accumulators started from zero and carried on. -/
structure Region (C N : ℕ) (P3 : Blk C → Col → Blk C → Row C → Blk C) (P4 P5 : Blk C → Col → Blk C → Row C → Row C → Row C)
    (Z1 Z2 : Row C) where
  Ag : Mat 100000 C
  Ft : Mat 100000 C
  Sn : Mat 100000 1
  Bi : Mat 1 C
  aB : (n : ℕ) → n < N → Blk C
  fB : (n : ℕ) → n < N → Blk C
  sB : (n : ℕ) → n < N → Col
  bB : (n : ℕ) → n < N → Row C
  outs : (n : ℕ) → n < N → Blk C × Row C × Row C
  ha : ∀ n h (p : Fin 5000) (q : Fin C) hr, aB n h (ix2 p q) = Ag (ix2 (⟨p.val + 5000 * n, hr⟩ : Fin 100000) q)
  hf : ∀ n h (p : Fin 5000) (q : Fin C) hr, fB n h (ix2 p q) = Ft (ix2 (⟨p.val + 5000 * n, hr⟩ : Fin 100000) q)
  hs : ∀ n h (p : Fin 5000) hr, sB n h (ix2 p (0 : Fin 1)) = Sn (ix2 (⟨p.val + 5000 * n, hr⟩ : Fin 100000) (0 : Fin 1))
  hb : ∀ n h (q : Fin C), bB n h (ix2 (0 : Fin 1) q) = Bi (ix2 (0 : Fin 1) q)
  h0 : ∀ h, outs 0 h = (P3 (aB 0 h) (sB 0 h) (fB 0 h) (bB 0 h), P4 (aB 0 h) (sB 0 h) (fB 0 h) (bB 0 h) Z1,
    P5 (aB 0 h) (sB 0 h) (fB 0 h) (bB 0 h) Z2)
  hstep : ∀ n h, outs (n + 1) h = (P3 (aB (n + 1) h) (sB (n + 1) h) (fB (n + 1) h) (bB (n + 1) h),
    P4 (aB (n + 1) h) (sB (n + 1) h) (fB (n + 1) h) (bB (n + 1) h) (outs n (Nat.lt_of_succ_lt h)).2.1,
    P5 (aB (n + 1) h) (sB (n + 1) h) (fB (n + 1) h) (bB (n + 1) h) (outs n (Nat.lt_of_succ_lt h)).2.2)

namespace Region

variable {N : ℕ} {P3 : Blk C → Col → Blk C → Row C → Blk C} {P4 P5 : Blk C → Col → Blk C → Row C → Row C → Row C} {Z1 Z2 : Row C}
  (R : Region C N P3 P4 P5 Z1 Z2) (S : PaySpec C P3 P4 P5 Z1 Z2)

/-- The combination of the four input arrays. -/
abbrev X : Mat 100000 C := comb R.Ag R.Ft R.Sn R.Bi

include S

/-- The body's combined block at point n, row p is row p + 5000 n of the combination. -/
theorem blk (n h) (p : Fin 5000) (q : Fin C) (hr) :
    P3 (R.aB n h) (R.sB n h) (R.fB n h) (R.bB n h) (ix2 p q) = R.X (ix2 (⟨p.val + 5000 * n, hr⟩ : Fin 100000) q) := by
  rw [S.p3, R.ha n h p q hr, R.hf n h p q hr, R.hs n h p hr, R.hb n h q]
  rfl

/-- The first output after point n is rows 5000 n … of the combination. -/
theorem c (n h) (p : Fin 5000) (q : Fin C) (hr) :
    (R.outs n h).1 (ix2 p q) = R.X (ix2 (⟨p.val + 5000 * n, hr⟩ : Fin 100000) q) := by
  cases n with
  | zero => rw [R.h0]; exact R.blk S 0 h p q hr
  | succ n => rw [R.hstep]; exact R.blk S (n + 1) h p q hr

/-- After the last point the second output holds the column sums of the combination, -/
theorem sum (hN : N = 20) (n h) (hn : n = 19) (q : Fin C) :
    (R.outs n h).2.1 (ix2 (0 : Fin 1) q) = ∑ r : Fin 100000, R.X (ix2 r q) := by
  subst hn
  exact col_total hN R.X (fun x => x) q (fun n h p => P3 (R.aB n h) (R.sB n h) (R.fB n h) (R.bB n h) (ix2 p q)) (R.blk S · · · q)
    (fun n h => (R.outs n h).2.1 (ix2 (0 : Fin 1) q)) (fun h => by rw [R.h0]; exact (S.p4 _ _ _ _ _ q).trans (by rw [S.z1])) (fun n h => by rw [R.hstep]; exact S.p4 _ _ _ _ _ q) h

/-- and the third the column sums of its squares. -/
theorem sumsq (hN : N = 20) (n h) (hn : n = 19) (q : Fin C) :
    (R.outs n h).2.2 (ix2 (0 : Fin 1) q) = ∑ r : Fin 100000, R.X (ix2 r q) * R.X (ix2 r q) := by
  subst hn
  exact col_total hN R.X (fun x => x * x) q (fun n h p => P3 (R.aB n h) (R.sB n h) (R.fB n h) (R.bB n h) (ix2 p q)) (R.blk S · · · q)
    (fun n h => (R.outs n h).2.2 (ix2 (0 : Fin 1) q)) (fun h => by rw [R.h0]; exact (S.p5 _ _ _ _ _ q).trans (by rw [S.z2])) (fun n h => by rw [R.hstep]; exact S.p5 _ _ _ _ _ q) h

end Region

/-- colsum and colsumsq at any index in column q are the sums over column q. -/
theorem colsum_at (X : Mat 100000 C) (j : (⟨2, ![1, C]⟩ : Shape).Idx) (q : Fin C) (h : (j 1).val = q.val) :
    colsum X j = ∑ r : Fin 100000, X (ix2 r q) := by
  have e : (j 1 : Fin C) = q := Fin.ext h
  show ∑ r : Fin 100000, X (ix2 r (j 1 : Fin C)) = _
  rw [e]

theorem colsumsq_at (X : Mat 100000 C) (j : (⟨2, ![1, C]⟩ : Shape).Idx) (q : Fin C) (h : (j 1).val = q.val) :
    colsumsq X j = ∑ r : Fin 100000, X (ix2 r q) * X (ix2 r q) := by
  have e : (j 1 : Fin C) = q := Fin.ext h
  show ∑ r : Fin 100000, X (ix2 r (j 1 : Fin C)) * X (ix2 r (j 1 : Fin C)) = _
  rw [e]

end Cert.KernelIdeal.GcnValue.Comb

end
-- ==== Proof.Comb1.lean ====
import proofs.«156818_j43868795961418_1_alg».proof.Proof.Gen.KernelIdeal.Frame
import proofs.«156818_j43868795961418_1_alg».proof.Proof.CombLib
import Idealize.ShloMosaic.Lib.Tactic

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Comb1

open Comb

/-- At the first point the outputs are the combination of the point's blocks and its column sums (of squares) added to zero, -/
theorem outs_first (c : Dev nD) (t : Fin cfg1.N) (h0 : t.val % 20 = 0) :
    outsAt1 V c t.val t.isLt = (k1_pay3 (F := Ideal) (iblk1 V c 0 t) (iblk1 V c 2 t) (iblk1 V c 1 t) (iblk1 V c 3 t),
      k1_pay4 (iblk1 V c 0 t) (iblk1 V c 2 t) (iblk1 V c 1 t) (iblk1 V c 3 t) (k1_pay1 (F := Ideal)), k1_pay5 (iblk1 V c 0 t) (iblk1 V c 2 t) (iblk1 V c 1 t) (iblk1 V c 3 t) (k1_pay2 (F := Ideal))) := by
  rw [outsAt1_A V c t h0]
  unfold out1_A_4 out1_A_5 out1_A_6
  rw [View.read_writes_eq_canon _ _ _ (cover1_A_4 (F := Ideal) _ _ _ _ _ _ _ _ _ _ _ _ _ _ _ _ _ _ _ _ _), View.read_writes_eq_canon _ _ _ (cover1_A_5 (F := Ideal) _ _ _ _ _ _ _ _ _ _ _ _ _ _ _ _ _ _ _ _ _),
    View.read_writes_eq_canon _ _ _ (cover1_A_6 (F := Ideal) _ _ _ _ _ _ _ _ _ _ _ _ _ _ _ _ _ _ _ _ _)]
  unfold kernelRun1_A
  dsimp only
  try sl_unfold_words
  simp only [View.canon_cons_unit_zero (S := S5000x128) zeros2, View.canon_cons_unit_zero (S := S1x128) zeros2, View.readAt_eq_ld,
    Memref.IsWhole.read_unread, View.readCov_unit_zero (S := S1x128) _ zeros2, View.ld_unit_zero (S := S5000x128) zeros2,
    View.ld_unit_zero (S := S5000x1) zeros2, View.ld_unit_zero (S := S1x128) zeros2]

/-- at a later point added to what the point before left. -/
theorem outs_later (c : Dev nD) (t : Fin cfg1.N) (h0 : ¬t.val % 20 = 0) :
    outsAt1 V c t.val t.isLt = (k1_pay3 (F := Ideal) (iblk1 V c 0 t) (iblk1 V c 2 t) (iblk1 V c 1 t) (iblk1 V c 3 t),
      k1_pay4 (iblk1 V c 0 t) (iblk1 V c 2 t) (iblk1 V c 1 t) (iblk1 V c 3 t) (outsAt1 V c (t.val - 1) (Nat.lt_of_le_of_lt (Nat.sub_le _ _) t.isLt)).2.1,
      k1_pay5 (iblk1 V c 0 t) (iblk1 V c 2 t) (iblk1 V c 1 t) (iblk1 V c 3 t) (outsAt1 V c (t.val - 1) (Nat.lt_of_le_of_lt (Nat.sub_le _ _) t.isLt)).2.2) := by
  rw [outsAt1_B V c t h0]
  unfold out1_B_4 out1_B_5 out1_B_6
  rw [View.read_writes_eq_canon _ _ _ (cover1_B_4 (F := Ideal) _ _ _ _ _ _ _ _ _ _ _ _ _ _ _ _ _ _ _ _ _ _ _), View.read_writes_eq_canon _ _ _ (cover1_B_5 (F := Ideal) _ _ _ _ _ _ _ _ _ _ _ _ _ _ _ _ _ _ _ _ _ _ _),
    View.read_writes_eq_canon _ _ _ (cover1_B_6 (F := Ideal) _ _ _ _ _ _ _ _ _ _ _ _ _ _ _ _ _ _ _ _ _ _ _)]
  unfold kernelRun1_B
  dsimp only
  try sl_unfold_words
  simp only [View.canon_cons_unit_zero (S := S5000x128) zeros2, View.canon_cons_unit_zero (S := S1x128) zeros2, View.readAt_eq_ld, Memref.IsWhole.read_unread,
    View.ld_unit_zero (S := S5000x128) zeros2, View.ld_unit_zero (S := S5000x1) zeros2, View.ld_unit_zero (S := S1x128) zeros2]

theorem index_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_4.index t (0 : Fin 2) = t.val ∧ win1_4.index t (1 : Fin 2) = 0 :=
  (by decide +kernel : ∀ t : Fin grid1.N, _)

theorem index_fixed : ∀ t : Fin cfg1.N,
    win1_3.index t (0 : Fin 2) = 0 ∧ win1_3.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row p of a row block at point t is row p + 5000 t of its array; the bias block is the whole bias. -/
theorem rd0 (c : Dev nD) (t : Fin cfg1.N) (p : Fin 5000) (q : Fin 128) (hr) :
    iblk1 V c 0 t (ix2 p q) = V c (Pipeline.arrRef spec1 0) (ix2 (⟨p.val + 5000 * t.val, hr⟩ : Fin 100000) q) := by
  obtain ⟨e0, e1, -⟩ := index_rows t
  unfold iblk1
  rw [View.read_apply]
  show V c (Pipeline.arrRef spec1 0) _ = _
  refine congrArg (V c (Pipeline.arrRef spec1 0)) (funext fun a => Fin.ext ?_)
  match a with
  | ⟨0, _⟩ => show win1_0.index t 0 * 5000 + 1 * p.val = p.val + 5000 * t.val; rw [e0]; omega
  | ⟨1, _⟩ => show win1_0.index t 1 * 128 + 1 * q.val = q.val; rw [e1]; omega

theorem rd1 (c : Dev nD) (t : Fin cfg1.N) (p : Fin 5000) (q : Fin 128) (hr) :
    iblk1 V c 1 t (ix2 p q) = V c (Pipeline.arrRef spec1 1) (ix2 (⟨p.val + 5000 * t.val, hr⟩ : Fin 100000) q) := by
  obtain ⟨-, -, e0, e1, -⟩ := index_rows t
  unfold iblk1
  rw [View.read_apply]
  show V c (Pipeline.arrRef spec1 1) _ = _
  refine congrArg (V c (Pipeline.arrRef spec1 1)) (funext fun a => Fin.ext ?_)
  match a with
  | ⟨0, _⟩ => show win1_1.index t 0 * 5000 + 1 * p.val = p.val + 5000 * t.val; rw [e0]; omega
  | ⟨1, _⟩ => show win1_1.index t 1 * 128 + 1 * q.val = q.val; rw [e1]; omega

theorem rd2 (c : Dev nD) (t : Fin cfg1.N) (p : Fin 5000) (hr) :
    iblk1 V c 2 t (ix2 p (0 : Fin 1)) = V c (Pipeline.arrRef spec1 2) (ix2 (⟨p.val + 5000 * t.val, hr⟩ : Fin 100000) (0 : Fin 1)) := by
  obtain ⟨-, -, -, -, e0, e1, -⟩ := index_rows t
  unfold iblk1
  rw [View.read_apply]
  show V c (Pipeline.arrRef spec1 2) _ = _
  refine congrArg (V c (Pipeline.arrRef spec1 2)) (funext fun a => Fin.ext ?_)
  match a with
  | ⟨0, _⟩ => show win1_2.index t 0 * 5000 + 1 * p.val = p.val + 5000 * t.val; rw [e0]; omega
  | ⟨1, _⟩ => show win1_2.index t 1 * 1 + 1 * 0 = 0; rewrite [e1]; rfl

theorem rd3 (c : Dev nD) (t : Fin cfg1.N) (q : Fin 128) :
    iblk1 V c 3 t (ix2 (0 : Fin 1) q) = V c (Pipeline.arrRef spec1 3) (ix2 (0 : Fin 1) q) := by
  obtain ⟨e0, e1, -⟩ := index_fixed t
  unfold iblk1
  rw [View.read_apply]
  show V c (Pipeline.arrRef spec1 3) _ = _
  refine congrArg (V c (Pipeline.arrRef spec1 3)) (funext fun a => Fin.ext ?_)
  match a with
  | ⟨0, _⟩ => show win1_3.index t 0 * 1 + 1 * 0 = 0; rewrite [e0]; rfl
  | ⟨1, _⟩ => show win1_3.index t 1 * 128 + 1 * q.val = q.val; rw [e1]; omega

def reg (c : Dev nD) : Region 128 cfg1.N (k1_pay3 (F := Ideal)) k1_pay4 k1_pay5 (k1_pay1 (F := Ideal)) (k1_pay2 (F := Ideal)) where
  Ag := V c (Pipeline.arrRef spec1 0)
  Ft := V c (Pipeline.arrRef spec1 1)
  Sn := V c (Pipeline.arrRef spec1 2)
  Bi := V c (Pipeline.arrRef spec1 3)
  aB n h := iblk1 V c 0 ⟨n, h⟩
  fB n h := iblk1 V c 1 ⟨n, h⟩
  sB n h := iblk1 V c 2 ⟨n, h⟩
  bB n h := iblk1 V c 3 ⟨n, h⟩
  outs := outsAt1 V c
  ha n h := rd0 V c ⟨n, h⟩
  hf n h := rd1 V c ⟨n, h⟩
  hs n h := rd2 V c ⟨n, h⟩
  hb n h := rd3 V c ⟨n, h⟩
  h0 h := outs_first V c ⟨0, h⟩ rfl
  hstep n h := outs_later V c ⟨n + 1, h⟩ (by have hN : cfg1.N = 20 := N_1; show ¬(n + 1) % 20 = 0; omega)

theorem flushed_c (c : Dev nD) (t : Fin cfg1.N) :
    (dat1 V c).flushed 4 t = ((cfg1.win 4).blk t).view.read (Elt Ideal) (reg V c).X := by
  have hN : cfg1.N = 20 := N_1
  show (cfg1.win 4).cut (grid1.coords t) ((dat1 V c).after 4 t) = _
  rw [after1_4]
  obtain ⟨-, -, -, -, -, -, e0, e1⟩ := index_rows t
  funext j
  obtain ⟨p, q, rfl⟩ : ∃ (p : Fin 5000) (q : Fin 128), j = ix2 p q := ⟨j 0, j 1, eq_ix2 j⟩
  have hr : p.val + 5000 * t.val < 100000 := by have := t.isLt; have := p.isLt; omega
  show (outsAt1 V c t.val t.isLt).1 (ix2 p q) = (reg V c).X (((cfg1.win 4).blk t).view.emb (ix2 p q))
  refine ((reg V c).c pay128 t.val t.isLt p q hr).trans (congrArg (reg V c).X (funext fun a => Fin.ext ?_))
  match a with
  | ⟨0, _⟩ => show p.val + 5000 * t.val = win1_4.index t 0 * 5000 + 1 * p.val; rw [e0]; omega
  | ⟨1, _⟩ => show q.val = win1_4.index t 1 * 128 + 1 * q.val; rw [e1]; omega

/-- Node row r lies in block r / 5000. -/
theorem cover_c (c : Dev nD) (i : S100000x128.Idx) :
    ∃ t : Fin cfg1.N, (cfg1.win 4).flush t = true ∧ i ∈ ((cfg1.win 4).blk t).view.set := by
  have hN : cfg1.N = 20 := N_1
  have h0 : (i 0 : Nat) < 100000 := (i 0).isLt
  have h1 : (i 1 : Nat) < 128 := (i 1).isLt
  obtain ⟨t, ht⟩ : ∃ t : Fin cfg1.N, t.val = (i 0 : Nat) / 5000 := ⟨⟨_, by rw [hN]; omega⟩, rfl⟩
  obtain ⟨-, -, -, -, -, -, e0, e1⟩ := index_rows t
  refine ⟨t, flush1_4 _, ?_⟩
  show i ∈ ((View.whole main_v65_0).slice (win1_4.rect t)).set
  rw [View.set_slice_whole, Rect.mem_set_unit]
  intro a
  match a with
  | ⟨0, _⟩ => show win1_4.index t 0 * 5000 ≤ (i 0 : Nat) ∧ (i 0 : Nat) < win1_4.index t 0 * 5000 + 5000; rw [e0]; omega
  | ⟨1, _⟩ => show win1_4.index t 1 * 128 ≤ (i 1 : Nat) ∧ (i 1 : Nat) < win1_4.index t 1 * 128 + 128; rw [e1]; omega

/-- After point 19 the sum accumulator is the column sums of the combination, -/
theorem flushed_sum (c : Dev nD) (t : Fin cfg1.N) (hf : (cfg1.win 5).flush t = true) :
    (dat1 V c).flushed 5 t = ((cfg1.win 5).blk t).view.read (Elt Ideal) (Cert.GcnSpec.colsum (reg V c).X) := by
  have hN : cfg1.N = 20 := N_1
  have h19 : t.val = 19 := by have := (flush1_5 t).mp hf; have := t.isLt; omega
  have key : ∀ (q : Fin 128) (j : S1x128.Idx), (j 1).val = q.val →
      (outsAt1 V c t.val t.isLt).2.1 (ix2 (0 : Fin 1) q) = Cert.GcnSpec.colsum (reg V c).X j := fun q j hj =>
    ((reg V c).sum pay128 hN t.val t.isLt h19 q).trans (colsum_at _ j q hj).symm
  show (cfg1.win 5).cut (grid1.coords t) ((dat1 V c).after 5 t) = _
  rw [after1_5]
  generalize (outsAt1 V c t.val t.isLt).2.1 = acc at key ⊢
  generalize Cert.GcnSpec.colsum (reg V c).X = G at key ⊢
  obtain ⟨-, -, e0, e1, -⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg1.win 5).blk t).view.emb (ix2 (0 : Fin 1) q))
  refine key q _ ?_
  show win1_5.index t 1 * 128 + 1 * q.val = q.val
  rw [e1]; omega

/-- and the other accumulator the column sums of its squares. -/
theorem flushed_sumsq (c : Dev nD) (t : Fin cfg1.N) (hf : (cfg1.win 6).flush t = true) :
    (dat1 V c).flushed 6 t = ((cfg1.win 6).blk t).view.read (Elt Ideal) (Cert.GcnSpec.colsumsq (reg V c).X) := by
  have hN : cfg1.N = 20 := N_1
  have h19 : t.val = 19 := by have := (flush1_6 t).mp hf; have := t.isLt; omega
  have key : ∀ (q : Fin 128) (j : S1x128.Idx), (j 1).val = q.val →
      (outsAt1 V c t.val t.isLt).2.2 (ix2 (0 : Fin 1) q) = Cert.GcnSpec.colsumsq (reg V c).X j := fun q j hj =>
    ((reg V c).sumsq pay128 hN t.val t.isLt h19 q).trans (colsumsq_at _ j q hj).symm
  show (cfg1.win 6).cut (grid1.coords t) ((dat1 V c).after 6 t) = _
  rw [after1_6]
  generalize (outsAt1 V c t.val t.isLt).2.2 = acc at key ⊢
  generalize Cert.GcnSpec.colsumsq (reg V c).X = G at key ⊢
  obtain ⟨-, -, -, -, e0, e1⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg1.win 6).blk t).view.emb (ix2 (0 : Fin 1) q))
  refine key q _ ?_
  show win1_6.index t 1 * 128 + 1 * q.val = q.val
  rw [e1]; omega

/-- The block of an accumulator at point 19 is its whole one-row array. -/
theorem cover_sum (c : Dev nD) (i : S1x128.Idx) :
    ∃ t : Fin cfg1.N, (cfg1.win 5).flush t = true ∧ i ∈ ((cfg1.win 5).blk t).view.set := by
  have hN : cfg1.N = 20 := N_1
  have h0 : (i 0 : Nat) < 1 := (i 0).isLt
  have h1 : (i 1 : Nat) < 128 := (i 1).isLt
  obtain ⟨t, ht⟩ : ∃ t : Fin cfg1.N, t.val = 19 := ⟨⟨19, by omega⟩, rfl⟩
  obtain ⟨-, -, e0, e1, -⟩ := index_fixed t
  refine ⟨t, (flush1_5 t).mpr (by omega), ?_⟩
  show i ∈ ((View.whole main_v65_1).slice (win1_5.rect t)).set
  rw [View.set_slice_whole, Rect.mem_set_unit]
  intro a
  match a with
  | ⟨0, _⟩ => show win1_5.index t 0 * 1 ≤ (i 0 : Nat) ∧ (i 0 : Nat) < win1_5.index t 0 * 1 + 1; rw [e0]; omega
  | ⟨1, _⟩ => show win1_5.index t 1 * 128 ≤ (i 1 : Nat) ∧ (i 1 : Nat) < win1_5.index t 1 * 128 + 128; rw [e1]; omega

theorem cover_sumsq (c : Dev nD) (i : S1x128.Idx) :
    ∃ t : Fin cfg1.N, (cfg1.win 6).flush t = true ∧ i ∈ ((cfg1.win 6).blk t).view.set := by
  have hN : cfg1.N = 20 := N_1
  have h0 : (i 0 : Nat) < 1 := (i 0).isLt
  have h1 : (i 1 : Nat) < 128 := (i 1).isLt
  obtain ⟨t, ht⟩ : ∃ t : Fin cfg1.N, t.val = 19 := ⟨⟨19, by omega⟩, rfl⟩
  obtain ⟨-, -, -, -, e0, e1⟩ := index_fixed t
  refine ⟨t, (flush1_6 t).mpr (by omega), ?_⟩
  show i ∈ ((View.whole main_v65_2).slice (win1_6.rect t)).set
  rw [View.set_slice_whole, Rect.mem_set_unit]
  intro a
  match a with
  | ⟨0, _⟩ => show win1_6.index t 0 * 1 ≤ (i 0 : Nat) ∧ (i 0 : Nat) < win1_6.index t 0 * 1 + 1; rw [e0]; omega
  | ⟨1, _⟩ => show win1_6.index t 1 * 128 ≤ (i 1 : Nat) ∧ (i 1 : Nat) < win1_6.index t 1 * 128 + 128; rw [e1]; omega

end Comb1

/-- After the region the first output is the combination of the four input arrays, -/
theorem comb1_c (c : Dev nD) :
    ((dat1 (F := Ideal) V c).arrAt 4 cfg1.N : S100000x128.Idx → EReal)
      = Cert.GcnSpec.comb (V c (Pipeline.arrRef spec1 0) : S100000x128.Idx → EReal) (V c (Pipeline.arrRef spec1 1) : S100000x128.Idx → EReal) (V c (Pipeline.arrRef spec1 2) : S100000x1.Idx → EReal) (V c (Pipeline.arrRef spec1 3) : S1x128.Idx → EReal) :=
  (dat1 V c).arrAt_eq_of_cover 4 (Comb1.reg V c).X (fun t _ => Comb1.flushed_c V c t) (Comb1.cover_c c)

/-- the second its column sums over all nodes, -/
theorem comb1_sum (c : Dev nD) :
    ((dat1 (F := Ideal) V c).arrAt 5 cfg1.N : S1x128.Idx → EReal)
      = Cert.GcnSpec.colsum (Cert.GcnSpec.comb (V c (Pipeline.arrRef spec1 0) : S100000x128.Idx → EReal) (V c (Pipeline.arrRef spec1 1) : S100000x128.Idx → EReal) (V c (Pipeline.arrRef spec1 2) : S100000x1.Idx → EReal) (V c (Pipeline.arrRef spec1 3) : S1x128.Idx → EReal)) :=
  (dat1 V c).arrAt_eq_of_cover 5 (Cert.GcnSpec.colsum (Comb1.reg V c).X) (Comb1.flushed_sum V c) (Comb1.cover_sum c)

/-- and the third the column sums of its squares. -/
theorem comb1_sumsq (c : Dev nD) :
    ((dat1 (F := Ideal) V c).arrAt 6 cfg1.N : S1x128.Idx → EReal)
      = Cert.GcnSpec.colsumsq (Cert.GcnSpec.comb (V c (Pipeline.arrRef spec1 0) : S100000x128.Idx → EReal) (V c (Pipeline.arrRef spec1 1) : S100000x128.Idx → EReal) (V c (Pipeline.arrRef spec1 2) : S100000x1.Idx → EReal) (V c (Pipeline.arrRef spec1 3) : S1x128.Idx → EReal)) :=
  (dat1 V c).arrAt_eq_of_cover 6 (Cert.GcnSpec.colsumsq (Comb1.reg V c).X) (Comb1.flushed_sumsq V c) (Comb1.cover_sumsq c)

end Cert.KernelIdeal.GcnValue

end
-- ==== Proof.Ops1.lean ====
import proofs.«156818_j43868795961418_1_alg».proof.Proof.OpsLib
import proofs.«156818_j43868795961418_1_alg».proof.Proof.Comb1

noncomputable section

namespace Cert.KernelIdeal.GcnValue

open Cert.KernelIdeal Cert.KernelIdeal.Gen Idealize.ShloMosaic Idealize.ShloMosaic.TcCoe Idealize.SL.Sem StableHlo Cert.GcnSpec

abbrev rop1 : List (HloOp τ sig (Elt Ideal)) :=
  [quaternary main_v64 main_v51 main_v27 main_v30 main_v65_0 comb,
   quaternary main_v64 main_v51 main_v27 main_v30 main_v65_1 fun a h s b => colsum (comb a h s b),
   quaternary main_v64 main_v51 main_v27 main_v30 main_v65_2 fun a h s b => colsumsq (comb a h s b)]

variable (m : (ℓ : Loc nD τ sig) → Buf (Elt Ideal) ℓ) (ρ : Dev nD → PrngReg)

/-- The four inputs are kept; the outputs hold the combination, its column sums and the column sums of its squares. -/
theorem W4_eq (c : Dev nD) : W4 (F := Ideal) m ρ c = after rop1 (W3 m ρ c) :=
  withArrays_eq_after_ops3 spec1 (by decide) launch1.win.arr_inj c _ _ _ _ _
    (fun w _ => ((dat1 _ c).arrAt_in w (by revert w; decide) _).trans (A_eq1 _ c w))
    (comb1_c (V3 m ρ) c) (comb1_sum (V3 m ρ) c) (comb1_sumsq (V3 m ρ) c)

end Cert.KernelIdeal.GcnValue

end
-- ==== Proof.Bn2.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem bn2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 2000000 in
/-- The block of point t is rows 5000·t … 5000·t + 4999 of the normalised and rectified features. -/
theorem bn2_flushed (c : Dev nD) (t : Fin cfg2.N) :
    (dat2 (F := Ideal) V c).flushed 5 t = ((cfg2.win 5).blk t).view.read (Elt Ideal)
      (Cert.GcnSpec.bnrelu (V c (Pipeline.arrRef spec2 0) : S100000x128.Idx → EReal)
        (V c (Pipeline.arrRef spec2 1) : S1x128.Idx → EReal) (V c (Pipeline.arrRef spec2 2) : S1x128.Idx → EReal)
        (V c (Pipeline.arrRef spec2 3) : S1x128.Idx → EReal) (V c (Pipeline.arrRef spec2 4) : S1x128.Idx → EReal)) := by
  show (cfg2.win 5).cut (grid2.coords t) ((dat2 V c).after 5 t) = _
  rw [after2_5]
  obtain ⟨e00, e01, e10, e11, e20, e21, e30, e31, e40, e41, e50, e51⟩ := bn2_idx t
  funext j
  rw [View.read_apply, cast_eq]
  show out2_5 (iblk2 V c 0 t) (iblk2 V c 1 t) (iblk2 V c 2 t) (iblk2 V c 3 t) (iblk2 V c 4 t)
    ((cfg2.win 5).xinj (grid2.coords t) j) = _
  refine out2_5_eq_bnrelu (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t)
    ((cfg2.win 5).xinj (grid2.coords t) j) (((cfg2.win 5).blk t).view.emb j) ?_ ?_
    (fun q => ?_) (fun q => ?_) (fun q => ?_) (fun q => ?_)
  · show win2_5.index t (1 : Fin 2) * 128 + 1 * (j 1).val = (j 1).val; omega
  · show V c (Pipeline.arrRef spec2 0) (((cfg2.win 0).blk t).view.emb ((cfg2.win 5).xinj (grid2.coords t) j))
      = V c (Pipeline.arrRef spec2 0) (((cfg2.win 5).blk t).view.emb j)
    refine congrArg _ (Shape.idx_ext₂ ?_ ?_)
    · show win2_0.index t (0 : Fin 2) * 5000 + 1 * (j 0).val = win2_5.index t (0 : Fin 2) * 5000 + 1 * (j 0).val; omega
    · show win2_0.index t (1 : Fin 2) * 128 + 1 * (j 1).val = win2_5.index t (1 : Fin 2) * 128 + 1 * (j 1).val; omega
  · show V c (Pipeline.arrRef spec2 1) (((cfg2.win 1).blk t).view.emb (ix2 (0 : Fin 1) q)) = V c (Pipeline.arrRef spec2 1) (ix2 (0 : Fin 1) q)
    refine congrArg _ (Shape.idx_ext₂ ?_ ?_)
    · show win2_1.index t (0 : Fin 2) * 1 + 1 * 0 = 0; omega
    · show win2_1.index t (1 : Fin 2) * 128 + 1 * q.val = q.val; omega
  · show V c (Pipeline.arrRef spec2 2) (((cfg2.win 2).blk t).view.emb (ix2 (0 : Fin 1) q)) = V c (Pipeline.arrRef spec2 2) (ix2 (0 : Fin 1) q)
    refine congrArg _ (Shape.idx_ext₂ ?_ ?_)
    · show win2_2.index t (0 : Fin 2) * 1 + 1 * 0 = 0; omega
    · show win2_2.index t (1 : Fin 2) * 128 + 1 * q.val = q.val; omega
  · show V c (Pipeline.arrRef spec2 3) (((cfg2.win 3).blk t).view.emb (ix2 (0 : Fin 1) q)) = V c (Pipeline.arrRef spec2 3) (ix2 (0 : Fin 1) q)
    refine congrArg _ (Shape.idx_ext₂ ?_ ?_)
    · show win2_3.index t (0 : Fin 2) * 1 + 1 * 0 = 0; omega
    · show win2_3.index t (1 : Fin 2) * 128 + 1 * q.val = q.val; omega
  · show V c (Pipeline.arrRef spec2 4) (((cfg2.win 4).blk t).view.emb (ix2 (0 : Fin 1) q)) = V c (Pipeline.arrRef spec2 4) (ix2 (0 : Fin 1) q)
    refine congrArg _ (Shape.idx_ext₂ ?_ ?_)
    · show win2_4.index t (0 : Fin 2) * 1 + 1 * 0 = 0; omega
    · show win2_4.index t (1 : Fin 2) * 128 + 1 * q.val = q.val; omega

theorem bn2_cover (i : S100000x128.Idx) :
    ∃ t : Fin cfg2.N, (cfg2.win 5).flush t = true ∧ i ∈ ((cfg2.win 5).blk t).view.set :=
  (row_block_cover (n := cfg2.N) (B := 5000) (by rw [show cfg2.N = 20 from N_2]) (by decide) win2_5.index
    (fun t => (bn2_idx t).2.2.2.2.2.2.2.2.2.2) i).imp fun t ht => ⟨flush2_5 t, mem_slice_whole_unit.mpr ht⟩

/-- The array the region leaves is the normalised and rectified features. -/
theorem bn2_value (c : Dev nD) :
    ((dat2 (F := Ideal) V c).arrAt 5 cfg2.N : S100000x128.Idx → EReal)
      = Cert.GcnSpec.bnrelu (V c (Pipeline.arrRef spec2 0) : S100000x128.Idx → EReal) (V c (Pipeline.arrRef spec2 1) : S1x128.Idx → EReal) (V c (Pipeline.arrRef spec2 2) : S1x128.Idx → EReal) (V c (Pipeline.arrRef spec2 3) : S1x128.Idx → EReal) (V c (Pipeline.arrRef spec2 4) : S1x128.Idx → EReal) :=
  (dat2 (F := Ideal) V c).arrAt_eq_of_cover 5 _ (fun t _ => bn2_flushed V c t) bn2_cover

end Cert.KernelIdeal.GcnValue

end
-- ==== Proof.Ops2.lean ====
import proofs.«156818_j43868795961418_1_alg».proof.Proof.Bn2
import proofs.«156818_j43868795961418_1_alg».proof.Proof.OpsLibLB

noncomputable section

namespace Cert.KernelIdeal.GcnValue

open Cert.KernelIdeal.Gen Idealize.ShloMosaic Idealize.SL.Sem

abbrev rop2 : List (HloOp τ sig (Elt Ideal)) :=
  [StableHlo.nary ![main_v65_0, main_v67, main_v71, main_v33, main_v36] main_v72
    fun v => Cert.GcnSpec.bnrelu (C := 128) (v 0) (v 1) (v 2) (v 3) (v 4)]

/-- Region 2 acts on the buffers as the single operation `main_v72 := bnrelu` of its five operands. -/
theorem W6_eq (m : (ℓ : Loc nD τ sig) → Buf (Elt Ideal) ℓ) (ρ : Dev nD → PrngReg) (c : Dev nD) :
    W6 (F := Ideal) m ρ c = StableHlo.after rop2 (W5 m ρ c) :=
  (dat2 (V5 m ρ) c).withArrays_eq_after_one launch2.win (A_eq2 _ c) 5 (by decide) rfl (bn2_value _ c)
    (StableHlo.nary_result ..)

end Cert.KernelIdeal.GcnValue

end
-- ==== Proof.Lin3.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The block of point t is rows 5000·t … 5000·t + 4999 of the product of the features by the weights. -/
theorem lin3_flushed (c : Dev nD) (t : Fin cfg3.N) :
    (dat3 (F := Ideal) V c).flushed 2 t = ((cfg3.win 2).blk t).view.read (Elt Ideal)
      (Cert.GcnSpec.lin (V c (Pipeline.arrRef spec3 0) : S100000x128.Idx → EReal) (V c (Pipeline.arrRef spec3 1) : S128x128.Idx → EReal)) := by
  show (cfg3.win 2).cut (grid3.coords t) ((dat3 (F := Ideal) V c).after 2 t) = _
  rw [after3_2]
  obtain ⟨a0, a1, b0, b1, o0, o1⟩ := lin3_idx t
  funext j
  show out3_2 (iblk3 V c 0 t) (iblk3 V c 1 t) ((cfg3.win 2).xinj (grid3.coords t) j)
    = Cert.GcnSpec.lin (V c (Pipeline.arrRef spec3 0) : S100000x128.Idx → EReal) (V c (Pipeline.arrRef spec3 1) : S128x128.Idx → EReal) (((cfg3.win 2).blk t).view.emb j)
  refine out3_2_eq_lin (V c (Pipeline.arrRef spec3 0)) (V c (Pipeline.arrRef spec3 1)) (iblk3 V c 0 t) (iblk3 V c 1 t)
    ((cfg3.win 2).xinj (grid3.coords t) j) (((cfg3.win 2).blk t).view.emb j) (fun k => ?_) (fun k => ?_)
  · unfold iblk3
    rw [View.read_apply]
    refine congrArg (V c (Pipeline.arrRef spec3 0) : S100000x128.Idx → EReal) (Shape.idx_ext₂ ?_ ?_)
    · show win3_0.index t (0 : Fin 2) * 5000 + 1 * (j 0).val = win3_2.index t (0 : Fin 2) * 5000 + 1 * (j 0).val; omega
    · show win3_0.index t (1 : Fin 2) * 128 + 1 * k.val = k.val; omega
  · unfold iblk3
    rw [View.read_apply]
    refine congrArg (V c (Pipeline.arrRef spec3 1) : S128x128.Idx → EReal) (Shape.idx_ext₂ ?_ ?_)
    · show win3_1.index t (0 : Fin 2) * 128 + 1 * k.val = k.val; omega
    · show win3_1.index t (1 : Fin 2) * 128 + 1 * (j 1).val = win3_2.index t (1 : Fin 2) * 128 + 1 * (j 1).val; omega

theorem lin3_cover (i : S100000x128.Idx) :
    ∃ t : Fin cfg3.N, (cfg3.win 2).flush t = true ∧ i ∈ ((cfg3.win 2).blk t).view.set :=
  (row_block_cover (n := cfg3.N) (B := 5000) (by rw [show cfg3.N = 20 from N_3]) (by decide) win3_2.index
    (fun t => (lin3_idx t).2.2.2.2) i).imp fun t ht => ⟨flush3_2 t, mem_slice_whole_unit.mpr ht⟩

/-- The array the region leaves is the features times the weights. -/
theorem lin3_value (c : Dev nD) :
    ((dat3 (F := Ideal) V c).arrAt 2 cfg3.N : S100000x128.Idx → EReal)
      = Cert.GcnSpec.lin (V c (Pipeline.arrRef spec3 0) : S100000x128.Idx → EReal) (V c (Pipeline.arrRef spec3 1) : S128x128.Idx → EReal) :=
  (dat3 (F := Ideal) V c).arrAt_eq_of_cover 2 _ (fun t _ => lin3_flushed V c t) (lin3_cover)

end Cert.KernelIdeal.GcnValue

end
-- ==== Proof.Ops3.lean ====
import proofs.«156818_j43868795961418_1_alg».proof.Proof.Lin3
import proofs.«156818_j43868795961418_1_alg».proof.Proof.OpsLibLB

noncomputable section

namespace Cert.KernelIdeal.GcnValue

open Cert.KernelIdeal.Gen Idealize.ShloMosaic Idealize.SL.Sem

abbrev rop3 : List (HloOp τ sig (Elt Ideal)) :=
  [StableHlo.binary main_v72 main_v74 main_v75 (Cert.GcnSpec.lin (K := 128) (C := 128))]

/-- Region 3 acts on the buffers as the single operation `main_v75 := lin main_v72 main_v74`. -/
theorem W8_eq (m : (ℓ : Loc nD τ sig) → Buf (Elt Ideal) ℓ) (ρ : Dev nD → PrngReg) (c : Dev nD) :
    W8 (F := Ideal) m ρ c = StableHlo.after rop3 (W7 m ρ c) :=
  (dat3 (V7 m ρ) c).withArrays_eq_after_one launch3.win (A_eq3 _ c) 2 (by decide) rfl (lin3_value _ c)
    (StableHlo.binary_result ..)

end Cert.KernelIdeal.GcnValue

end
-- ==== Proof.Comb4.lean ====
import proofs.«156818_j43868795961418_1_alg».proof.Proof.Gen.KernelIdeal.Frame
import proofs.«156818_j43868795961418_1_alg».proof.Proof.CombLib
import Idealize.ShloMosaic.Lib.Tactic

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Comb4

open Comb

/-- At the first point the outputs are the combination of the point's blocks and its column sums (of squares) added to zero, -/
theorem outs_first (c : Dev nD) (t : Fin cfg4.N) (h0 : t.val % 20 = 0) :
    outsAt4 V c t.val t.isLt = (k4_pay3 (F := Ideal) (iblk4 V c 0 t) (iblk4 V c 2 t) (iblk4 V c 1 t) (iblk4 V c 3 t),
      k4_pay4 (iblk4 V c 0 t) (iblk4 V c 2 t) (iblk4 V c 1 t) (iblk4 V c 3 t) (k4_pay1 (F := Ideal)), k4_pay5 (iblk4 V c 0 t) (iblk4 V c 2 t) (iblk4 V c 1 t) (iblk4 V c 3 t) (k4_pay2 (F := Ideal))) := by
  rw [outsAt4_A V c t h0]
  unfold out4_A_4 out4_A_5 out4_A_6
  rw [View.read_writes_eq_canon _ _ _ (cover4_A_4 (F := Ideal) _ _ _ _ _ _ _ _ _ _ _ _ _ _ _ _ _ _ _ _ _), View.read_writes_eq_canon _ _ _ (cover4_A_5 (F := Ideal) _ _ _ _ _ _ _ _ _ _ _ _ _ _ _ _ _ _ _ _ _),
    View.read_writes_eq_canon _ _ _ (cover4_A_6 (F := Ideal) _ _ _ _ _ _ _ _ _ _ _ _ _ _ _ _ _ _ _ _ _)]
  unfold kernelRun4_A
  dsimp only
  try sl_unfold_words
  simp only [View.canon_cons_unit_zero (S := S5000x128) zeros2, View.canon_cons_unit_zero (S := S1x128) zeros2, View.readAt_eq_ld,
    Memref.IsWhole.read_unread, View.readCov_unit_zero (S := S1x128) _ zeros2, View.ld_unit_zero (S := S5000x128) zeros2,
    View.ld_unit_zero (S := S5000x1) zeros2, View.ld_unit_zero (S := S1x128) zeros2]

/-- at a later point added to what the point before left. -/
theorem outs_later (c : Dev nD) (t : Fin cfg4.N) (h0 : ¬t.val % 20 = 0) :
    outsAt4 V c t.val t.isLt = (k4_pay3 (F := Ideal) (iblk4 V c 0 t) (iblk4 V c 2 t) (iblk4 V c 1 t) (iblk4 V c 3 t),
      k4_pay4 (iblk4 V c 0 t) (iblk4 V c 2 t) (iblk4 V c 1 t) (iblk4 V c 3 t) (outsAt4 V c (t.val - 1) (Nat.lt_of_le_of_lt (Nat.sub_le _ _) t.isLt)).2.1,
      k4_pay5 (iblk4 V c 0 t) (iblk4 V c 2 t) (iblk4 V c 1 t) (iblk4 V c 3 t) (outsAt4 V c (t.val - 1) (Nat.lt_of_le_of_lt (Nat.sub_le _ _) t.isLt)).2.2) := by
  rw [outsAt4_B V c t h0]
  unfold out4_B_4 out4_B_5 out4_B_6
  rw [View.read_writes_eq_canon _ _ _ (cover4_B_4 (F := Ideal) _ _ _ _ _ _ _ _ _ _ _ _ _ _ _ _ _ _ _ _ _ _ _), View.read_writes_eq_canon _ _ _ (cover4_B_5 (F := Ideal) _ _ _ _ _ _ _ _ _ _ _ _ _ _ _ _ _ _ _ _ _ _ _),
    View.read_writes_eq_canon _ _ _ (cover4_B_6 (F := Ideal) _ _ _ _ _ _ _ _ _ _ _ _ _ _ _ _ _ _ _ _ _ _ _)]
  unfold kernelRun4_B
  dsimp only
  try sl_unfold_words
  simp only [View.canon_cons_unit_zero (S := S5000x128) zeros2, View.canon_cons_unit_zero (S := S1x128) zeros2, View.readAt_eq_ld, Memref.IsWhole.read_unread,
    View.ld_unit_zero (S := S5000x128) zeros2, View.ld_unit_zero (S := S5000x1) zeros2, View.ld_unit_zero (S := S1x128) zeros2]

theorem index_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_4.index t (0 : Fin 2) = t.val ∧ win4_4.index t (1 : Fin 2) = 0 :=
  (by decide +kernel : ∀ t : Fin grid4.N, _)

theorem index_fixed : ∀ t : Fin cfg4.N,
    win4_3.index t (0 : Fin 2) = 0 ∧ win4_3.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row p of a row block at point t is row p + 5000 t of its array; the bias block is the whole bias. -/
theorem rd0 (c : Dev nD) (t : Fin cfg4.N) (p : Fin 5000) (q : Fin 128) (hr) :
    iblk4 V c 0 t (ix2 p q) = V c (Pipeline.arrRef spec4 0) (ix2 (⟨p.val + 5000 * t.val, hr⟩ : Fin 100000) q) := by
  obtain ⟨e0, e1, -⟩ := index_rows t
  unfold iblk4
  rw [View.read_apply]
  show V c (Pipeline.arrRef spec4 0) _ = _
  refine congrArg (V c (Pipeline.arrRef spec4 0)) (funext fun a => Fin.ext ?_)
  match a with
  | ⟨0, _⟩ => show win4_0.index t 0 * 5000 + 1 * p.val = p.val + 5000 * t.val; rw [e0]; omega
  | ⟨1, _⟩ => show win4_0.index t 1 * 128 + 1 * q.val = q.val; rw [e1]; omega

theorem rd1 (c : Dev nD) (t : Fin cfg4.N) (p : Fin 5000) (q : Fin 128) (hr) :
    iblk4 V c 1 t (ix2 p q) = V c (Pipeline.arrRef spec4 1) (ix2 (⟨p.val + 5000 * t.val, hr⟩ : Fin 100000) q) := by
  obtain ⟨-, -, e0, e1, -⟩ := index_rows t
  unfold iblk4
  rw [View.read_apply]
  show V c (Pipeline.arrRef spec4 1) _ = _
  refine congrArg (V c (Pipeline.arrRef spec4 1)) (funext fun a => Fin.ext ?_)
  match a with
  | ⟨0, _⟩ => show win4_1.index t 0 * 5000 + 1 * p.val = p.val + 5000 * t.val; rw [e0]; omega
  | ⟨1, _⟩ => show win4_1.index t 1 * 128 + 1 * q.val = q.val; rw [e1]; omega

theorem rd2 (c : Dev nD) (t : Fin cfg4.N) (p : Fin 5000) (hr) :
    iblk4 V c 2 t (ix2 p (0 : Fin 1)) = V c (Pipeline.arrRef spec4 2) (ix2 (⟨p.val + 5000 * t.val, hr⟩ : Fin 100000) (0 : Fin 1)) := by
  obtain ⟨-, -, -, -, e0, e1, -⟩ := index_rows t
  unfold iblk4
  rw [View.read_apply]
  show V c (Pipeline.arrRef spec4 2) _ = _
  refine congrArg (V c (Pipeline.arrRef spec4 2)) (funext fun a => Fin.ext ?_)
  match a with
  | ⟨0, _⟩ => show win4_2.index t 0 * 5000 + 1 * p.val = p.val + 5000 * t.val; rw [e0]; omega
  | ⟨1, _⟩ => show win4_2.index t 1 * 1 + 1 * 0 = 0; rewrite [e1]; rfl

theorem rd3 (c : Dev nD) (t : Fin cfg4.N) (q : Fin 128) :
    iblk4 V c 3 t (ix2 (0 : Fin 1) q) = V c (Pipeline.arrRef spec4 3) (ix2 (0 : Fin 1) q) := by
  obtain ⟨e0, e1, -⟩ := index_fixed t
  unfold iblk4
  rw [View.read_apply]
  show V c (Pipeline.arrRef spec4 3) _ = _
  refine congrArg (V c (Pipeline.arrRef spec4 3)) (funext fun a => Fin.ext ?_)
  match a with
  | ⟨0, _⟩ => show win4_3.index t 0 * 1 + 1 * 0 = 0; rewrite [e0]; rfl
  | ⟨1, _⟩ => show win4_3.index t 1 * 128 + 1 * q.val = q.val; rw [e1]; omega

def reg (c : Dev nD) : Region 128 cfg4.N (k4_pay3 (F := Ideal)) k4_pay4 k4_pay5 (k4_pay1 (F := Ideal)) (k4_pay2 (F := Ideal)) where
  Ag := V c (Pipeline.arrRef spec4 0)
  Ft := V c (Pipeline.arrRef spec4 1)
  Sn := V c (Pipeline.arrRef spec4 2)
  Bi := V c (Pipeline.arrRef spec4 3)
  aB n h := iblk4 V c 0 ⟨n, h⟩
  fB n h := iblk4 V c 1 ⟨n, h⟩
  sB n h := iblk4 V c 2 ⟨n, h⟩
  bB n h := iblk4 V c 3 ⟨n, h⟩
  outs := outsAt4 V c
  ha n h := rd0 V c ⟨n, h⟩
  hf n h := rd1 V c ⟨n, h⟩
  hs n h := rd2 V c ⟨n, h⟩
  hb n h := rd3 V c ⟨n, h⟩
  h0 h := outs_first V c ⟨0, h⟩ rfl
  hstep n h := outs_later V c ⟨n + 1, h⟩ (by have hN : cfg4.N = 20 := N_4; show ¬(n + 1) % 20 = 0; omega)

theorem flushed_c (c : Dev nD) (t : Fin cfg4.N) :
    (dat4 V c).flushed 4 t = ((cfg4.win 4).blk t).view.read (Elt Ideal) (reg V c).X := by
  have hN : cfg4.N = 20 := N_4
  show (cfg4.win 4).cut (grid4.coords t) ((dat4 V c).after 4 t) = _
  rw [after4_4]
  obtain ⟨-, -, -, -, -, -, e0, e1⟩ := index_rows t
  funext j
  obtain ⟨p, q, rfl⟩ : ∃ (p : Fin 5000) (q : Fin 128), j = ix2 p q := ⟨j 0, j 1, eq_ix2 j⟩
  have hr : p.val + 5000 * t.val < 100000 := by have := t.isLt; have := p.isLt; omega
  show (outsAt4 V c t.val t.isLt).1 (ix2 p q) = (reg V c).X (((cfg4.win 4).blk t).view.emb (ix2 p q))
  refine ((reg V c).c pay128 t.val t.isLt p q hr).trans (congrArg (reg V c).X (funext fun a => Fin.ext ?_))
  match a with
  | ⟨0, _⟩ => show p.val + 5000 * t.val = win4_4.index t 0 * 5000 + 1 * p.val; rw [e0]; omega
  | ⟨1, _⟩ => show q.val = win4_4.index t 1 * 128 + 1 * q.val; rw [e1]; omega

/-- Node row r lies in block r / 5000. -/
theorem cover_c (c : Dev nD) (i : S100000x128.Idx) :
    ∃ t : Fin cfg4.N, (cfg4.win 4).flush t = true ∧ i ∈ ((cfg4.win 4).blk t).view.set := by
  have hN : cfg4.N = 20 := N_4
  have h0 : (i 0 : Nat) < 100000 := (i 0).isLt
  have h1 : (i 1 : Nat) < 128 := (i 1).isLt
  obtain ⟨t, ht⟩ : ∃ t : Fin cfg4.N, t.val = (i 0 : Nat) / 5000 := ⟨⟨_, by rw [hN]; omega⟩, rfl⟩
  obtain ⟨-, -, -, -, -, -, e0, e1⟩ := index_rows t
  refine ⟨t, flush4_4 _, ?_⟩
  show i ∈ ((View.whole main_v89_0).slice (win4_4.rect t)).set
  rw [View.set_slice_whole, Rect.mem_set_unit]
  intro a
  match a with
  | ⟨0, _⟩ => show win4_4.index t 0 * 5000 ≤ (i 0 : Nat) ∧ (i 0 : Nat) < win4_4.index t 0 * 5000 + 5000; rw [e0]; omega
  | ⟨1, _⟩ => show win4_4.index t 1 * 128 ≤ (i 1 : Nat) ∧ (i 1 : Nat) < win4_4.index t 1 * 128 + 128; rw [e1]; omega

/-- After point 19 the sum accumulator is the column sums of the combination, -/
theorem flushed_sum (c : Dev nD) (t : Fin cfg4.N) (hf : (cfg4.win 5).flush t = true) :
    (dat4 V c).flushed 5 t = ((cfg4.win 5).blk t).view.read (Elt Ideal) (Cert.GcnSpec.colsum (reg V c).X) := by
  have hN : cfg4.N = 20 := N_4
  have h19 : t.val = 19 := by have := (flush4_5 t).mp hf; have := t.isLt; omega
  have key : ∀ (q : Fin 128) (j : S1x128.Idx), (j 1).val = q.val →
      (outsAt4 V c t.val t.isLt).2.1 (ix2 (0 : Fin 1) q) = Cert.GcnSpec.colsum (reg V c).X j := fun q j hj =>
    ((reg V c).sum pay128 hN t.val t.isLt h19 q).trans (colsum_at _ j q hj).symm
  show (cfg4.win 5).cut (grid4.coords t) ((dat4 V c).after 5 t) = _
  rw [after4_5]
  generalize (outsAt4 V c t.val t.isLt).2.1 = acc at key ⊢
  generalize Cert.GcnSpec.colsum (reg V c).X = G at key ⊢
  obtain ⟨-, -, e0, e1, -⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg4.win 5).blk t).view.emb (ix2 (0 : Fin 1) q))
  refine key q _ ?_
  show win4_5.index t 1 * 128 + 1 * q.val = q.val
  rw [e1]; omega

/-- and the other accumulator the column sums of its squares. -/
theorem flushed_sumsq (c : Dev nD) (t : Fin cfg4.N) (hf : (cfg4.win 6).flush t = true) :
    (dat4 V c).flushed 6 t = ((cfg4.win 6).blk t).view.read (Elt Ideal) (Cert.GcnSpec.colsumsq (reg V c).X) := by
  have hN : cfg4.N = 20 := N_4
  have h19 : t.val = 19 := by have := (flush4_6 t).mp hf; have := t.isLt; omega
  have key : ∀ (q : Fin 128) (j : S1x128.Idx), (j 1).val = q.val →
      (outsAt4 V c t.val t.isLt).2.2 (ix2 (0 : Fin 1) q) = Cert.GcnSpec.colsumsq (reg V c).X j := fun q j hj =>
    ((reg V c).sumsq pay128 hN t.val t.isLt h19 q).trans (colsumsq_at _ j q hj).symm
  show (cfg4.win 6).cut (grid4.coords t) ((dat4 V c).after 6 t) = _
  rw [after4_6]
  generalize (outsAt4 V c t.val t.isLt).2.2 = acc at key ⊢
  generalize Cert.GcnSpec.colsumsq (reg V c).X = G at key ⊢
  obtain ⟨-, -, -, -, e0, e1⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg4.win 6).blk t).view.emb (ix2 (0 : Fin 1) q))
  refine key q _ ?_
  show win4_6.index t 1 * 128 + 1 * q.val = q.val
  rw [e1]; omega

/-- The block of an accumulator at point 19 is its whole one-row array. -/
theorem cover_sum (c : Dev nD) (i : S1x128.Idx) :
    ∃ t : Fin cfg4.N, (cfg4.win 5).flush t = true ∧ i ∈ ((cfg4.win 5).blk t).view.set := by
  have hN : cfg4.N = 20 := N_4
  have h0 : (i 0 : Nat) < 1 := (i 0).isLt
  have h1 : (i 1 : Nat) < 128 := (i 1).isLt
  obtain ⟨t, ht⟩ : ∃ t : Fin cfg4.N, t.val = 19 := ⟨⟨19, by omega⟩, rfl⟩
  obtain ⟨-, -, e0, e1, -⟩ := index_fixed t
  refine ⟨t, (flush4_5 t).mpr (by omega), ?_⟩
  show i ∈ ((View.whole main_v89_1).slice (win4_5.rect t)).set
  rw [View.set_slice_whole, Rect.mem_set_unit]
  intro a
  match a with
  | ⟨0, _⟩ => show win4_5.index t 0 * 1 ≤ (i 0 : Nat) ∧ (i 0 : Nat) < win4_5.index t 0 * 1 + 1; rw [e0]; omega
  | ⟨1, _⟩ => show win4_5.index t 1 * 128 ≤ (i 1 : Nat) ∧ (i 1 : Nat) < win4_5.index t 1 * 128 + 128; rw [e1]; omega

theorem cover_sumsq (c : Dev nD) (i : S1x128.Idx) :
    ∃ t : Fin cfg4.N, (cfg4.win 6).flush t = true ∧ i ∈ ((cfg4.win 6).blk t).view.set := by
  have hN : cfg4.N = 20 := N_4
  have h0 : (i 0 : Nat) < 1 := (i 0).isLt
  have h1 : (i 1 : Nat) < 128 := (i 1).isLt
  obtain ⟨t, ht⟩ : ∃ t : Fin cfg4.N, t.val = 19 := ⟨⟨19, by omega⟩, rfl⟩
  obtain ⟨-, -, -, -, e0, e1⟩ := index_fixed t
  refine ⟨t, (flush4_6 t).mpr (by omega), ?_⟩
  show i ∈ ((View.whole main_v89_2).slice (win4_6.rect t)).set
  rw [View.set_slice_whole, Rect.mem_set_unit]
  intro a
  match a with
  | ⟨0, _⟩ => show win4_6.index t 0 * 1 ≤ (i 0 : Nat) ∧ (i 0 : Nat) < win4_6.index t 0 * 1 + 1; rw [e0]; omega
  | ⟨1, _⟩ => show win4_6.index t 1 * 128 ≤ (i 1 : Nat) ∧ (i 1 : Nat) < win4_6.index t 1 * 128 + 128; rw [e1]; omega

end Comb4

/-- After the region the first output is the combination of the four input arrays, -/
theorem comb4_c (c : Dev nD) :
    ((dat4 (F := Ideal) V c).arrAt 4 cfg4.N : S100000x128.Idx → EReal)
      = Cert.GcnSpec.comb (V c (Pipeline.arrRef spec4 0) : S100000x128.Idx → EReal) (V c (Pipeline.arrRef spec4 1) : S100000x128.Idx → EReal) (V c (Pipeline.arrRef spec4 2) : S100000x1.Idx → EReal) (V c (Pipeline.arrRef spec4 3) : S1x128.Idx → EReal) :=
  (dat4 V c).arrAt_eq_of_cover 4 (Comb4.reg V c).X (fun t _ => Comb4.flushed_c V c t) (Comb4.cover_c c)

/-- the second its column sums over all nodes, -/
theorem comb4_sum (c : Dev nD) :
    ((dat4 (F := Ideal) V c).arrAt 5 cfg4.N : S1x128.Idx → EReal)
      = Cert.GcnSpec.colsum (Cert.GcnSpec.comb (V c (Pipeline.arrRef spec4 0) : S100000x128.Idx → EReal) (V c (Pipeline.arrRef spec4 1) : S100000x128.Idx → EReal) (V c (Pipeline.arrRef spec4 2) : S100000x1.Idx → EReal) (V c (Pipeline.arrRef spec4 3) : S1x128.Idx → EReal)) :=
  (dat4 V c).arrAt_eq_of_cover 5 (Cert.GcnSpec.colsum (Comb4.reg V c).X) (Comb4.flushed_sum V c) (Comb4.cover_sum c)

/-- and the third the column sums of its squares. -/
theorem comb4_sumsq (c : Dev nD) :
    ((dat4 (F := Ideal) V c).arrAt 6 cfg4.N : S1x128.Idx → EReal)
      = Cert.GcnSpec.colsumsq (Cert.GcnSpec.comb (V c (Pipeline.arrRef spec4 0) : S100000x128.Idx → EReal) (V c (Pipeline.arrRef spec4 1) : S100000x128.Idx → EReal) (V c (Pipeline.arrRef spec4 2) : S100000x1.Idx → EReal) (V c (Pipeline.arrRef spec4 3) : S1x128.Idx → EReal)) :=
  (dat4 V c).arrAt_eq_of_cover 6 (Cert.GcnSpec.colsumsq (Comb4.reg V c).X) (Comb4.flushed_sumsq V c) (Comb4.cover_sumsq c)

end Cert.KernelIdeal.GcnValue

end
-- ==== Proof.Ops4.lean ====
import proofs.«156818_j43868795961418_1_alg».proof.Proof.OpsLib
import proofs.«156818_j43868795961418_1_alg».proof.Proof.Comb4

noncomputable section

namespace Cert.KernelIdeal.GcnValue

open Cert.KernelIdeal Cert.KernelIdeal.Gen Idealize.ShloMosaic Idealize.ShloMosaic.TcCoe Idealize.SL.Sem StableHlo Cert.GcnSpec

abbrev rop4 : List (HloOp τ sig (Elt Ideal)) :=
  [quaternary main_v88 main_v75 main_v27 main_v39 main_v89_0 comb,
   quaternary main_v88 main_v75 main_v27 main_v39 main_v89_1 fun a h s b => colsum (comb a h s b),
   quaternary main_v88 main_v75 main_v27 main_v39 main_v89_2 fun a h s b => colsumsq (comb a h s b)]

variable (m : (ℓ : Loc nD τ sig) → Buf (Elt Ideal) ℓ) (ρ : Dev nD → PrngReg)

/-- The four inputs are kept; the outputs hold the combination, its column sums and the column sums of its squares. -/
theorem W10_eq (c : Dev nD) : W10 (F := Ideal) m ρ c = after rop4 (W9 m ρ c) :=
  withArrays_eq_after_ops3 spec4 (by decide) launch4.win.arr_inj c _ _ _ _ _
    (fun w _ => ((dat4 _ c).arrAt_in w (by revert w; decide) _).trans (A_eq4 _ c w))
    (comb4_c (V9 m ρ) c) (comb4_sum (V9 m ρ) c) (comb4_sumsq (V9 m ρ) c)

end Cert.KernelIdeal.GcnValue

end
-- ==== Proof.Bn5.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem bn5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 2000000 in
/-- The block of point t is rows 5000·t … 5000·t + 4999 of the normalised and rectified features. -/
theorem bn5_flushed (c : Dev nD) (t : Fin cfg5.N) :
    (dat5 (F := Ideal) V c).flushed 5 t = ((cfg5.win 5).blk t).view.read (Elt Ideal)
      (Cert.GcnSpec.bnrelu (V c (Pipeline.arrRef spec5 0) : S100000x128.Idx → EReal)
        (V c (Pipeline.arrRef spec5 1) : S1x128.Idx → EReal) (V c (Pipeline.arrRef spec5 2) : S1x128.Idx → EReal)
        (V c (Pipeline.arrRef spec5 3) : S1x128.Idx → EReal) (V c (Pipeline.arrRef spec5 4) : S1x128.Idx → EReal)) := by
  show (cfg5.win 5).cut (grid5.coords t) ((dat5 V c).after 5 t) = _
  rw [after5_5]
  obtain ⟨e00, e01, e10, e11, e20, e21, e30, e31, e40, e41, e50, e51⟩ := bn5_idx t
  funext j
  rw [View.read_apply, cast_eq]
  show out5_5 (iblk5 V c 0 t) (iblk5 V c 1 t) (iblk5 V c 2 t) (iblk5 V c 3 t) (iblk5 V c 4 t)
    ((cfg5.win 5).xinj (grid5.coords t) j) = _
  refine out2_5_eq_bnrelu (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t)
    ((cfg5.win 5).xinj (grid5.coords t) j) (((cfg5.win 5).blk t).view.emb j) ?_ ?_
    (fun q => ?_) (fun q => ?_) (fun q => ?_) (fun q => ?_)
  · show win5_5.index t (1 : Fin 2) * 128 + 1 * (j 1).val = (j 1).val; omega
  · show V c (Pipeline.arrRef spec5 0) (((cfg5.win 0).blk t).view.emb ((cfg5.win 5).xinj (grid5.coords t) j))
      = V c (Pipeline.arrRef spec5 0) (((cfg5.win 5).blk t).view.emb j)
    refine congrArg _ (Shape.idx_ext₂ ?_ ?_)
    · show win5_0.index t (0 : Fin 2) * 5000 + 1 * (j 0).val = win5_5.index t (0 : Fin 2) * 5000 + 1 * (j 0).val; omega
    · show win5_0.index t (1 : Fin 2) * 128 + 1 * (j 1).val = win5_5.index t (1 : Fin 2) * 128 + 1 * (j 1).val; omega
  · show V c (Pipeline.arrRef spec5 1) (((cfg5.win 1).blk t).view.emb (ix2 (0 : Fin 1) q)) = V c (Pipeline.arrRef spec5 1) (ix2 (0 : Fin 1) q)
    refine congrArg _ (Shape.idx_ext₂ ?_ ?_)
    · show win5_1.index t (0 : Fin 2) * 1 + 1 * 0 = 0; omega
    · show win5_1.index t (1 : Fin 2) * 128 + 1 * q.val = q.val; omega
  · show V c (Pipeline.arrRef spec5 2) (((cfg5.win 2).blk t).view.emb (ix2 (0 : Fin 1) q)) = V c (Pipeline.arrRef spec5 2) (ix2 (0 : Fin 1) q)
    refine congrArg _ (Shape.idx_ext₂ ?_ ?_)
    · show win5_2.index t (0 : Fin 2) * 1 + 1 * 0 = 0; omega
    · show win5_2.index t (1 : Fin 2) * 128 + 1 * q.val = q.val; omega
  · show V c (Pipeline.arrRef spec5 3) (((cfg5.win 3).blk t).view.emb (ix2 (0 : Fin 1) q)) = V c (Pipeline.arrRef spec5 3) (ix2 (0 : Fin 1) q)
    refine congrArg _ (Shape.idx_ext₂ ?_ ?_)
    · show win5_3.index t (0 : Fin 2) * 1 + 1 * 0 = 0; omega
    · show win5_3.index t (1 : Fin 2) * 128 + 1 * q.val = q.val; omega
  · show V c (Pipeline.arrRef spec5 4) (((cfg5.win 4).blk t).view.emb (ix2 (0 : Fin 1) q)) = V c (Pipeline.arrRef spec5 4) (ix2 (0 : Fin 1) q)
    refine congrArg _ (Shape.idx_ext₂ ?_ ?_)
    · show win5_4.index t (0 : Fin 2) * 1 + 1 * 0 = 0; omega
    · show win5_4.index t (1 : Fin 2) * 128 + 1 * q.val = q.val; omega

theorem bn5_cover (i : S100000x128.Idx) :
    ∃ t : Fin cfg5.N, (cfg5.win 5).flush t = true ∧ i ∈ ((cfg5.win 5).blk t).view.set :=
  (row_block_cover (n := cfg5.N) (B := 5000) (by rw [show cfg5.N = 20 from N_5]) (by decide) win5_5.index
    (fun t => (bn5_idx t).2.2.2.2.2.2.2.2.2.2) i).imp fun t ht => ⟨flush5_5 t, mem_slice_whole_unit.mpr ht⟩

/-- The array the region leaves is the normalised and rectified features. -/
theorem bn5_value (c : Dev nD) :
    ((dat5 (F := Ideal) V c).arrAt 5 cfg5.N : S100000x128.Idx → EReal)
      = Cert.GcnSpec.bnrelu (V c (Pipeline.arrRef spec5 0) : S100000x128.Idx → EReal) (V c (Pipeline.arrRef spec5 1) : S1x128.Idx → EReal) (V c (Pipeline.arrRef spec5 2) : S1x128.Idx → EReal) (V c (Pipeline.arrRef spec5 3) : S1x128.Idx → EReal) (V c (Pipeline.arrRef spec5 4) : S1x128.Idx → EReal) :=
  (dat5 (F := Ideal) V c).arrAt_eq_of_cover 5 _ (fun t _ => bn5_flushed V c t) bn5_cover

end Cert.KernelIdeal.GcnValue

end
-- ==== Proof.Ops5.lean ====
import proofs.«156818_j43868795961418_1_alg».proof.Proof.Bn5
import proofs.«156818_j43868795961418_1_alg».proof.Proof.OpsLibLB

noncomputable section

namespace Cert.KernelIdeal.GcnValue

open Cert.KernelIdeal.Gen Idealize.ShloMosaic Idealize.SL.Sem

abbrev rop5 : List (HloOp τ sig (Elt Ideal)) :=
  [StableHlo.nary ![main_v89_0, main_v91, main_v95, main_v42, main_v45] main_v96
    fun v => Cert.GcnSpec.bnrelu (C := 128) (v 0) (v 1) (v 2) (v 3) (v 4)]

/-- Region 5 acts on the buffers as the single operation `main_v96 := bnrelu` of its five operands. -/
theorem W12_eq (m : (ℓ : Loc nD τ sig) → Buf (Elt Ideal) ℓ) (ρ : Dev nD → PrngReg) (c : Dev nD) :
    W12 (F := Ideal) m ρ c = StableHlo.after rop5 (W11 m ρ c) :=
  (dat5 (V11 m ρ) c).withArrays_eq_after_one launch5.win (A_eq5 _ c) 5 (by decide) rfl (bn5_value _ c)
    (StableHlo.nary_result ..)

end Cert.KernelIdeal.GcnValue

end
-- ==== Proof.Lin6.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin6_idx : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The block of point t is rows 5000·t … 5000·t + 4999 of the product of the features by the weights. -/
theorem lin6_flushed (c : Dev nD) (t : Fin cfg6.N) :
    (dat6 (F := Ideal) V c).flushed 2 t = ((cfg6.win 2).blk t).view.read (Elt Ideal)
      (Cert.GcnSpec.lin (V c (Pipeline.arrRef spec6 0) : S100000x128.Idx → EReal) (V c (Pipeline.arrRef spec6 1) : S128x40.Idx → EReal)) := by
  show (cfg6.win 2).cut (grid6.coords t) ((dat6 (F := Ideal) V c).after 2 t) = _
  rw [after6_2]
  obtain ⟨a0, a1, b0, b1, o0, o1⟩ := lin6_idx t
  funext j
  show out6_2 (iblk6 V c 0 t) (iblk6 V c 1 t) ((cfg6.win 2).xinj (grid6.coords t) j)
    = Cert.GcnSpec.lin (V c (Pipeline.arrRef spec6 0) : S100000x128.Idx → EReal) (V c (Pipeline.arrRef spec6 1) : S128x40.Idx → EReal) (((cfg6.win 2).blk t).view.emb j)
  refine out6_2_eq_lin (V c (Pipeline.arrRef spec6 0)) (V c (Pipeline.arrRef spec6 1)) (iblk6 V c 0 t) (iblk6 V c 1 t)
    ((cfg6.win 2).xinj (grid6.coords t) j) (((cfg6.win 2).blk t).view.emb j) (fun k => ?_) (fun k => ?_)
  · unfold iblk6
    rw [View.read_apply]
    refine congrArg (V c (Pipeline.arrRef spec6 0) : S100000x128.Idx → EReal) (Shape.idx_ext₂ ?_ ?_)
    · show win6_0.index t (0 : Fin 2) * 5000 + 1 * (j 0).val = win6_2.index t (0 : Fin 2) * 5000 + 1 * (j 0).val; omega
    · show win6_0.index t (1 : Fin 2) * 128 + 1 * k.val = k.val; omega
  · unfold iblk6
    rw [View.read_apply]
    refine congrArg (V c (Pipeline.arrRef spec6 1) : S128x40.Idx → EReal) (Shape.idx_ext₂ ?_ ?_)
    · show win6_1.index t (0 : Fin 2) * 128 + 1 * k.val = k.val; omega
    · show win6_1.index t (1 : Fin 2) * 40 + 1 * (j 1).val = win6_2.index t (1 : Fin 2) * 40 + 1 * (j 1).val; omega

theorem lin6_cover (i : S100000x40.Idx) :
    ∃ t : Fin cfg6.N, (cfg6.win 2).flush t = true ∧ i ∈ ((cfg6.win 2).blk t).view.set :=
  (row_block_cover (n := cfg6.N) (B := 5000) (by rw [show cfg6.N = 20 from N_6]) (by decide) win6_2.index
    (fun t => (lin6_idx t).2.2.2.2) i).imp fun t ht => ⟨flush6_2 t, mem_slice_whole_unit.mpr ht⟩

/-- The array the region leaves is the features times the weights. -/
theorem lin6_value (c : Dev nD) :
    ((dat6 (F := Ideal) V c).arrAt 2 cfg6.N : S100000x40.Idx → EReal)
      = Cert.GcnSpec.lin (V c (Pipeline.arrRef spec6 0) : S100000x128.Idx → EReal) (V c (Pipeline.arrRef spec6 1) : S128x40.Idx → EReal) :=
  (dat6 (F := Ideal) V c).arrAt_eq_of_cover 2 _ (fun t _ => lin6_flushed V c t) (lin6_cover)

end Cert.KernelIdeal.GcnValue

end
-- ==== Proof.Ops6.lean ====
import proofs.«156818_j43868795961418_1_alg».proof.Proof.Lin6
import proofs.«156818_j43868795961418_1_alg».proof.Proof.OpsLibLB

noncomputable section

namespace Cert.KernelIdeal.GcnValue

open Cert.KernelIdeal.Gen Idealize.ShloMosaic Idealize.SL.Sem

abbrev rop6 : List (HloOp τ sig (Elt Ideal)) :=
  [StableHlo.binary main_v96 main_v98 main_v99 (Cert.GcnSpec.lin (K := 128) (C := 40))]

/-- Region 6 acts on the buffers as the single operation `main_v99 := lin main_v96 main_v98`. -/
theorem W14_eq (m : (ℓ : Loc nD τ sig) → Buf (Elt Ideal) ℓ) (ρ : Dev nD → PrngReg) (c : Dev nD) :
    W14 (F := Ideal) m ρ c = StableHlo.after rop6 (W13 m ρ c) :=
  (dat6 (V13 m ρ) c).withArrays_eq_after_one launch6.win (A_eq6 _ c) 2 (by decide) rfl (lin6_value _ c)
    (StableHlo.binary_result ..)

end Cert.KernelIdeal.GcnValue

end
-- ==== Proof.Comb7.lean ====
import proofs.«156818_j43868795961418_1_alg».proof.Proof.Gen.KernelIdeal.Frame
import proofs.«156818_j43868795961418_1_alg».proof.Proof.CombLib
import Idealize.ShloMosaic.Lib.Tactic

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Comb7

open Comb

/-- At the first point the outputs are the combination of the point's blocks and its column sums (of squares) added to zero, -/
theorem outs_first (c : Dev nD) (t : Fin cfg7.N) (h0 : t.val % 20 = 0) :
    outsAt7 V c t.val t.isLt = (k7_pay3 (F := Ideal) (iblk7 V c 0 t) (iblk7 V c 2 t) (iblk7 V c 1 t) (iblk7 V c 3 t),
      k7_pay4 (iblk7 V c 0 t) (iblk7 V c 2 t) (iblk7 V c 1 t) (iblk7 V c 3 t) (k7_pay1 (F := Ideal)), k7_pay5 (iblk7 V c 0 t) (iblk7 V c 2 t) (iblk7 V c 1 t) (iblk7 V c 3 t) (k7_pay2 (F := Ideal))) := by
  rw [outsAt7_A V c t h0]
  unfold out7_A_4 out7_A_5 out7_A_6
  rw [View.read_writes_eq_canon _ _ _ (cover7_A_4 (F := Ideal) _ _ _ _ _ _ _ _ _ _ _ _ _ _ _ _ _ _ _ _ _), View.read_writes_eq_canon _ _ _ (cover7_A_5 (F := Ideal) _ _ _ _ _ _ _ _ _ _ _ _ _ _ _ _ _ _ _ _ _),
    View.read_writes_eq_canon _ _ _ (cover7_A_6 (F := Ideal) _ _ _ _ _ _ _ _ _ _ _ _ _ _ _ _ _ _ _ _ _)]
  unfold kernelRun7_A
  dsimp only
  try sl_unfold_words
  simp only [View.canon_cons_unit_zero (S := S5000x40) zeros2, View.canon_cons_unit_zero (S := S1x40) zeros2, View.readAt_eq_ld,
    Memref.IsWhole.read_unread, View.readCov_unit_zero (S := S1x40) _ zeros2, View.ld_unit_zero (S := S5000x40) zeros2,
    View.ld_unit_zero (S := S5000x1) zeros2, View.ld_unit_zero (S := S1x40) zeros2]

/-- at a later point added to what the point before left. -/
theorem outs_later (c : Dev nD) (t : Fin cfg7.N) (h0 : ¬t.val % 20 = 0) :
    outsAt7 V c t.val t.isLt = (k7_pay3 (F := Ideal) (iblk7 V c 0 t) (iblk7 V c 2 t) (iblk7 V c 1 t) (iblk7 V c 3 t),
      k7_pay4 (iblk7 V c 0 t) (iblk7 V c 2 t) (iblk7 V c 1 t) (iblk7 V c 3 t) (outsAt7 V c (t.val - 1) (Nat.lt_of_le_of_lt (Nat.sub_le _ _) t.isLt)).2.1,
      k7_pay5 (iblk7 V c 0 t) (iblk7 V c 2 t) (iblk7 V c 1 t) (iblk7 V c 3 t) (outsAt7 V c (t.val - 1) (Nat.lt_of_le_of_lt (Nat.sub_le _ _) t.isLt)).2.2) := by
  rw [outsAt7_B V c t h0]
  unfold out7_B_4 out7_B_5 out7_B_6
  rw [View.read_writes_eq_canon _ _ _ (cover7_B_4 (F := Ideal) _ _ _ _ _ _ _ _ _ _ _ _ _ _ _ _ _ _ _ _ _ _ _), View.read_writes_eq_canon _ _ _ (cover7_B_5 (F := Ideal) _ _ _ _ _ _ _ _ _ _ _ _ _ _ _ _ _ _ _ _ _ _ _),
    View.read_writes_eq_canon _ _ _ (cover7_B_6 (F := Ideal) _ _ _ _ _ _ _ _ _ _ _ _ _ _ _ _ _ _ _ _ _ _ _)]
  unfold kernelRun7_B
  dsimp only
  try sl_unfold_words
  simp only [View.canon_cons_unit_zero (S := S5000x40) zeros2, View.canon_cons_unit_zero (S := S1x40) zeros2, View.readAt_eq_ld, Memref.IsWhole.read_unread,
    View.ld_unit_zero (S := S5000x40) zeros2, View.ld_unit_zero (S := S5000x1) zeros2, View.ld_unit_zero (S := S1x40) zeros2]

theorem index_rows : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_4.index t (0 : Fin 2) = t.val ∧ win7_4.index t (1 : Fin 2) = 0 :=
  (by decide +kernel : ∀ t : Fin grid7.N, _)

theorem index_fixed : ∀ t : Fin cfg7.N,
    win7_3.index t (0 : Fin 2) = 0 ∧ win7_3.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Row p of a row block at point t is row p + 5000 t of its array; the bias block is the whole bias. -/
theorem rd0 (c : Dev nD) (t : Fin cfg7.N) (p : Fin 5000) (q : Fin 40) (hr) :
    iblk7 V c 0 t (ix2 p q) = V c (Pipeline.arrRef spec7 0) (ix2 (⟨p.val + 5000 * t.val, hr⟩ : Fin 100000) q) := by
  obtain ⟨e0, e1, -⟩ := index_rows t
  unfold iblk7
  rw [View.read_apply]
  show V c (Pipeline.arrRef spec7 0) _ = _
  refine congrArg (V c (Pipeline.arrRef spec7 0)) (funext fun a => Fin.ext ?_)
  match a with
  | ⟨0, _⟩ => show win7_0.index t 0 * 5000 + 1 * p.val = p.val + 5000 * t.val; rw [e0]; omega
  | ⟨1, _⟩ => show win7_0.index t 1 * 40 + 1 * q.val = q.val; rw [e1]; omega

theorem rd1 (c : Dev nD) (t : Fin cfg7.N) (p : Fin 5000) (q : Fin 40) (hr) :
    iblk7 V c 1 t (ix2 p q) = V c (Pipeline.arrRef spec7 1) (ix2 (⟨p.val + 5000 * t.val, hr⟩ : Fin 100000) q) := by
  obtain ⟨-, -, e0, e1, -⟩ := index_rows t
  unfold iblk7
  rw [View.read_apply]
  show V c (Pipeline.arrRef spec7 1) _ = _
  refine congrArg (V c (Pipeline.arrRef spec7 1)) (funext fun a => Fin.ext ?_)
  match a with
  | ⟨0, _⟩ => show win7_1.index t 0 * 5000 + 1 * p.val = p.val + 5000 * t.val; rw [e0]; omega
  | ⟨1, _⟩ => show win7_1.index t 1 * 40 + 1 * q.val = q.val; rw [e1]; omega

theorem rd2 (c : Dev nD) (t : Fin cfg7.N) (p : Fin 5000) (hr) :
    iblk7 V c 2 t (ix2 p (0 : Fin 1)) = V c (Pipeline.arrRef spec7 2) (ix2 (⟨p.val + 5000 * t.val, hr⟩ : Fin 100000) (0 : Fin 1)) := by
  obtain ⟨-, -, -, -, e0, e1, -⟩ := index_rows t
  unfold iblk7
  rw [View.read_apply]
  show V c (Pipeline.arrRef spec7 2) _ = _
  refine congrArg (V c (Pipeline.arrRef spec7 2)) (funext fun a => Fin.ext ?_)
  match a with
  | ⟨0, _⟩ => show win7_2.index t 0 * 5000 + 1 * p.val = p.val + 5000 * t.val; rw [e0]; omega
  | ⟨1, _⟩ => show win7_2.index t 1 * 1 + 1 * 0 = 0; rewrite [e1]; rfl

theorem rd3 (c : Dev nD) (t : Fin cfg7.N) (q : Fin 40) :
    iblk7 V c 3 t (ix2 (0 : Fin 1) q) = V c (Pipeline.arrRef spec7 3) (ix2 (0 : Fin 1) q) := by
  obtain ⟨e0, e1, -⟩ := index_fixed t
  unfold iblk7
  rw [View.read_apply]
  show V c (Pipeline.arrRef spec7 3) _ = _
  refine congrArg (V c (Pipeline.arrRef spec7 3)) (funext fun a => Fin.ext ?_)
  match a with
  | ⟨0, _⟩ => show win7_3.index t 0 * 1 + 1 * 0 = 0; rewrite [e0]; rfl
  | ⟨1, _⟩ => show win7_3.index t 1 * 40 + 1 * q.val = q.val; rw [e1]; omega

def reg (c : Dev nD) : Region 40 cfg7.N (k7_pay3 (F := Ideal)) k7_pay4 k7_pay5 (k7_pay1 (F := Ideal)) (k7_pay2 (F := Ideal)) where
  Ag := V c (Pipeline.arrRef spec7 0)
  Ft := V c (Pipeline.arrRef spec7 1)
  Sn := V c (Pipeline.arrRef spec7 2)
  Bi := V c (Pipeline.arrRef spec7 3)
  aB n h := iblk7 V c 0 ⟨n, h⟩
  fB n h := iblk7 V c 1 ⟨n, h⟩
  sB n h := iblk7 V c 2 ⟨n, h⟩
  bB n h := iblk7 V c 3 ⟨n, h⟩
  outs := outsAt7 V c
  ha n h := rd0 V c ⟨n, h⟩
  hf n h := rd1 V c ⟨n, h⟩
  hs n h := rd2 V c ⟨n, h⟩
  hb n h := rd3 V c ⟨n, h⟩
  h0 h := outs_first V c ⟨0, h⟩ rfl
  hstep n h := outs_later V c ⟨n + 1, h⟩ (by have hN : cfg7.N = 20 := N_7; show ¬(n + 1) % 20 = 0; omega)

theorem flushed_c (c : Dev nD) (t : Fin cfg7.N) :
    (dat7 V c).flushed 4 t = ((cfg7.win 4).blk t).view.read (Elt Ideal) (reg V c).X := by
  have hN : cfg7.N = 20 := N_7
  show (cfg7.win 4).cut (grid7.coords t) ((dat7 V c).after 4 t) = _
  rw [after7_4]
  obtain ⟨-, -, -, -, -, -, e0, e1⟩ := index_rows t
  funext j
  obtain ⟨p, q, rfl⟩ : ∃ (p : Fin 5000) (q : Fin 40), j = ix2 p q := ⟨j 0, j 1, eq_ix2 j⟩
  have hr : p.val + 5000 * t.val < 100000 := by have := t.isLt; have := p.isLt; omega
  show (outsAt7 V c t.val t.isLt).1 (ix2 p q) = (reg V c).X (((cfg7.win 4).blk t).view.emb (ix2 p q))
  refine ((reg V c).c pay40 t.val t.isLt p q hr).trans (congrArg (reg V c).X (funext fun a => Fin.ext ?_))
  match a with
  | ⟨0, _⟩ => show p.val + 5000 * t.val = win7_4.index t 0 * 5000 + 1 * p.val; rw [e0]; omega
  | ⟨1, _⟩ => show q.val = win7_4.index t 1 * 40 + 1 * q.val; rw [e1]; omega

/-- Node row r lies in block r / 5000. -/
theorem cover_c (c : Dev nD) (i : S100000x40.Idx) :
    ∃ t : Fin cfg7.N, (cfg7.win 4).flush t = true ∧ i ∈ ((cfg7.win 4).blk t).view.set := by
  have hN : cfg7.N = 20 := N_7
  have h0 : (i 0 : Nat) < 100000 := (i 0).isLt
  have h1 : (i 1 : Nat) < 40 := (i 1).isLt
  obtain ⟨t, ht⟩ : ∃ t : Fin cfg7.N, t.val = (i 0 : Nat) / 5000 := ⟨⟨_, by rw [hN]; omega⟩, rfl⟩
  obtain ⟨-, -, -, -, -, -, e0, e1⟩ := index_rows t
  refine ⟨t, flush7_4 _, ?_⟩
  show i ∈ ((View.whole main_v113_0).slice (win7_4.rect t)).set
  rw [View.set_slice_whole, Rect.mem_set_unit]
  intro a
  match a with
  | ⟨0, _⟩ => show win7_4.index t 0 * 5000 ≤ (i 0 : Nat) ∧ (i 0 : Nat) < win7_4.index t 0 * 5000 + 5000; rw [e0]; omega
  | ⟨1, _⟩ => show win7_4.index t 1 * 40 ≤ (i 1 : Nat) ∧ (i 1 : Nat) < win7_4.index t 1 * 40 + 40; rw [e1]; omega

/-- After point 19 the sum accumulator is the column sums of the combination, -/
theorem flushed_sum (c : Dev nD) (t : Fin cfg7.N) (hf : (cfg7.win 5).flush t = true) :
    (dat7 V c).flushed 5 t = ((cfg7.win 5).blk t).view.read (Elt Ideal) (Cert.GcnSpec.colsum (reg V c).X) := by
  have hN : cfg7.N = 20 := N_7
  have h19 : t.val = 19 := by have := (flush7_5 t).mp hf; have := t.isLt; omega
  have key : ∀ (q : Fin 40) (j : S1x40.Idx), (j 1).val = q.val →
      (outsAt7 V c t.val t.isLt).2.1 (ix2 (0 : Fin 1) q) = Cert.GcnSpec.colsum (reg V c).X j := fun q j hj =>
    ((reg V c).sum pay40 hN t.val t.isLt h19 q).trans (colsum_at _ j q hj).symm
  show (cfg7.win 5).cut (grid7.coords t) ((dat7 V c).after 5 t) = _
  rw [after7_5]
  generalize (outsAt7 V c t.val t.isLt).2.1 = acc at key ⊢
  generalize Cert.GcnSpec.colsum (reg V c).X = G at key ⊢
  obtain ⟨-, -, e0, e1, -⟩ := index_fixed t
  funext j
  obtain ⟨z, q, rfl⟩ : ∃ (z : Fin 1) (q : Fin 40), j = ix2 z q := ⟨j 0, j 1, eq_ix2 j⟩
  obtain rfl : z = 0 := Subsingleton.elim _ _
  show acc (ix2 (0 : Fin 1) q) = G (((cfg7.win 5).blk t).view.emb (ix2 (0 : Fin 1) q))
  refine key q _ ?_
  show win7_5.index t 1 * 40 + 1 * q.val = q.val
  rw [e1]; omega

/-- and the other accumulator the column sums of its squares. -/
theorem flushed_sumsq (c : Dev nD) (t : Fin cfg7.N) (hf : (cfg7.win 6).flush t = true) :
    (dat7 V c).flushed 6 t = ((cfg7.win 6).blk t).view.read (Elt Ideal) (Cert.GcnSpec.colsumsq (reg V c).X) := by
  have hN : cfg7.N = 20 := N_7
  have h19 : t.val = 19 := by have := (flush7_6 t).mp hf; have := t.isLt; omega
  have key : ∀ (q : Fin 40) (j : S1x40.Idx), (j 1).val = q.val →
      (outsAt7 V c t.val t.isLt).2.2 (ix2 (0 : Fin 1) q) = Cert.GcnSpec.colsumsq (reg V c).X j := fun q j hj =>
    ((reg V c).sumsq pay40 hN t.val t.isLt h19 q).trans (colsumsq_at _ j q hj).symm
  show (cfg7.win 6).cut (grid7.coords t) ((dat7 V c).after 6 t) = _
  rw [after7_6]
  generalize (outsAt7 V c t.val t.isLt).2.2 = acc at key ⊢
  generalize Cert.GcnSpec.colsumsq (reg V c).X = G at key ⊢
  obtain ⟨-, -, -, -, e0, e1⟩ := index_fixed t
  funext j
  obtain ⟨z, q, rfl⟩ : ∃ (z : Fin 1) (q : Fin 40), j = ix2 z q := ⟨j 0, j 1, eq_ix2 j⟩
  obtain rfl : z = 0 := Subsingleton.elim _ _
  show acc (ix2 (0 : Fin 1) q) = G (((cfg7.win 6).blk t).view.emb (ix2 (0 : Fin 1) q))
  refine key q _ ?_
  show win7_6.index t 1 * 40 + 1 * q.val = q.val
  rw [e1]; omega

/-- The block of an accumulator at point 19 is its whole one-row array. -/
theorem cover_sum (c : Dev nD) (i : S1x40.Idx) :
    ∃ t : Fin cfg7.N, (cfg7.win 5).flush t = true ∧ i ∈ ((cfg7.win 5).blk t).view.set := by
  have hN : cfg7.N = 20 := N_7
  have h0 : (i 0 : Nat) < 1 := (i 0).isLt
  have h1 : (i 1 : Nat) < 40 := (i 1).isLt
  obtain ⟨t, ht⟩ : ∃ t : Fin cfg7.N, t.val = 19 := ⟨⟨19, by omega⟩, rfl⟩
  obtain ⟨-, -, e0, e1, -⟩ := index_fixed t
  refine ⟨t, (flush7_5 t).mpr (by omega), ?_⟩
  show i ∈ ((View.whole main_v113_1).slice (win7_5.rect t)).set
  rw [View.set_slice_whole, Rect.mem_set_unit]
  intro a
  match a with
  | ⟨0, _⟩ => show win7_5.index t 0 * 1 ≤ (i 0 : Nat) ∧ (i 0 : Nat) < win7_5.index t 0 * 1 + 1; rw [e0]; omega
  | ⟨1, _⟩ => show win7_5.index t 1 * 40 ≤ (i 1 : Nat) ∧ (i 1 : Nat) < win7_5.index t 1 * 40 + 40; rw [e1]; omega

theorem cover_sumsq (c : Dev nD) (i : S1x40.Idx) :
    ∃ t : Fin cfg7.N, (cfg7.win 6).flush t = true ∧ i ∈ ((cfg7.win 6).blk t).view.set := by
  have hN : cfg7.N = 20 := N_7
  have h0 : (i 0 : Nat) < 1 := (i 0).isLt
  have h1 : (i 1 : Nat) < 40 := (i 1).isLt
  obtain ⟨t, ht⟩ : ∃ t : Fin cfg7.N, t.val = 19 := ⟨⟨19, by omega⟩, rfl⟩
  obtain ⟨-, -, -, -, e0, e1⟩ := index_fixed t
  refine ⟨t, (flush7_6 t).mpr (by omega), ?_⟩
  show i ∈ ((View.whole main_v113_2).slice (win7_6.rect t)).set
  rw [View.set_slice_whole, Rect.mem_set_unit]
  intro a
  match a with
  | ⟨0, _⟩ => show win7_6.index t 0 * 1 ≤ (i 0 : Nat) ∧ (i 0 : Nat) < win7_6.index t 0 * 1 + 1; rw [e0]; omega
  | ⟨1, _⟩ => show win7_6.index t 1 * 40 ≤ (i 1 : Nat) ∧ (i 1 : Nat) < win7_6.index t 1 * 40 + 40; rw [e1]; omega

end Comb7

/-- After the region the first output is the combination of the four input arrays, -/
theorem comb7_c (c : Dev nD) :
    ((dat7 (F := Ideal) V c).arrAt 4 cfg7.N : S100000x40.Idx → EReal)
      = Cert.GcnSpec.comb (V c (Pipeline.arrRef spec7 0) : S100000x40.Idx → EReal) (V c (Pipeline.arrRef spec7 1) : S100000x40.Idx → EReal) (V c (Pipeline.arrRef spec7 2) : S100000x1.Idx → EReal) (V c (Pipeline.arrRef spec7 3) : S1x40.Idx → EReal) :=
  (dat7 V c).arrAt_eq_of_cover 4 (Comb7.reg V c).X (fun t _ => Comb7.flushed_c V c t) (Comb7.cover_c c)

/-- the second its column sums over all nodes, -/
theorem comb7_sum (c : Dev nD) :
    ((dat7 (F := Ideal) V c).arrAt 5 cfg7.N : S1x40.Idx → EReal)
      = Cert.GcnSpec.colsum (Cert.GcnSpec.comb (V c (Pipeline.arrRef spec7 0) : S100000x40.Idx → EReal) (V c (Pipeline.arrRef spec7 1) : S100000x40.Idx → EReal) (V c (Pipeline.arrRef spec7 2) : S100000x1.Idx → EReal) (V c (Pipeline.arrRef spec7 3) : S1x40.Idx → EReal)) :=
  (dat7 V c).arrAt_eq_of_cover 5 (Cert.GcnSpec.colsum (Comb7.reg V c).X) (Comb7.flushed_sum V c) (Comb7.cover_sum c)

/-- and the third the column sums of its squares. -/
theorem comb7_sumsq (c : Dev nD) :
    ((dat7 (F := Ideal) V c).arrAt 6 cfg7.N : S1x40.Idx → EReal)
      = Cert.GcnSpec.colsumsq (Cert.GcnSpec.comb (V c (Pipeline.arrRef spec7 0) : S100000x40.Idx → EReal) (V c (Pipeline.arrRef spec7 1) : S100000x40.Idx → EReal) (V c (Pipeline.arrRef spec7 2) : S100000x1.Idx → EReal) (V c (Pipeline.arrRef spec7 3) : S1x40.Idx → EReal)) :=
  (dat7 V c).arrAt_eq_of_cover 6 (Cert.GcnSpec.colsumsq (Comb7.reg V c).X) (Comb7.flushed_sumsq V c) (Comb7.cover_sumsq c)

end Cert.KernelIdeal.GcnValue

end
-- ==== Proof.Ops7.lean ====
import proofs.«156818_j43868795961418_1_alg».proof.Proof.OpsLib
import proofs.«156818_j43868795961418_1_alg».proof.Proof.Comb7

noncomputable section

namespace Cert.KernelIdeal.GcnValue

open Cert.KernelIdeal Cert.KernelIdeal.Gen Idealize.ShloMosaic Idealize.ShloMosaic.TcCoe Idealize.SL.Sem StableHlo Cert.GcnSpec

abbrev rop7 : List (HloOp τ sig (Elt Ideal)) :=
  [quaternary main_v112 main_v99 main_v27 main_v48 main_v113_0 comb,
   quaternary main_v112 main_v99 main_v27 main_v48 main_v113_1 fun a h s b => colsum (comb a h s b),
   quaternary main_v112 main_v99 main_v27 main_v48 main_v113_2 fun a h s b => colsumsq (comb a h s b)]

variable (m : (ℓ : Loc nD τ sig) → Buf (Elt Ideal) ℓ) (ρ : Dev nD → PrngReg)

/-- The four inputs are kept; the outputs hold the combination, its column sums and the column sums of its squares. -/
theorem W16_eq (c : Dev nD) : W16 (F := Ideal) m ρ c = after rop7 (W15 m ρ c) :=
  withArrays_eq_after_ops3 spec7 (by decide) launch7.win.arr_inj c _ _ _ _ _
    (fun w _ => ((dat7 _ c).arrAt_in w (by revert w; decide) _).trans (A_eq7 _ c w))
    (comb7_c (V15 m ρ) c) (comb7_sum (V15 m ρ) c) (comb7_sumsq (V15 m ρ) c)

end Cert.KernelIdeal.GcnValue

end
-- ==== Proof.KWalkA.lean ====
import proofs.«156818_j43868795961418_1_alg».proof.Proof.Gen.KernelIdeal.Frame
import proofs.«156818_j43868795961418_1_alg».proof.Proof.GcnSpec
import proofs.«156818_j43868795961418_1_alg».proof.Proof.Tower
import proofs.«156818_j43868795961418_1_alg».proof.Proof.KWalkKeep
import proofs.«156818_j43868795961418_1_alg».proof.Proof.Ops0
import proofs.«156818_j43868795961418_1_alg».proof.Proof.Ops1
import proofs.«156818_j43868795961418_1_alg».proof.Proof.Ops2
import proofs.«156818_j43868795961418_1_alg».proof.Proof.Ops3
import proofs.«156818_j43868795961418_1_alg».proof.Proof.Ops4
import proofs.«156818_j43868795961418_1_alg».proof.Proof.Ops5
import proofs.«156818_j43868795961418_1_alg».proof.Proof.Ops6
import proofs.«156818_j43868795961418_1_alg».proof.Proof.Ops7
import Idealize.ShloMosaic.Lib.StableHlo.Run

set_option maxRecDepth 16384

noncomputable section

namespace Cert.KernelIdeal.GcnValue

open Cert.KernelIdeal Cert.KernelIdeal.Gen Cert.Tower Idealize.ShloMosaic Idealize.ShloMosaic.TcCoe Idealize.SL.Sem Idealize.ShloMosaic.StableHlo

section Walk
variable (V : Valuation τ sig (Elt Ideal))

theorem rop2_read : after rop2 V (Proc.devRef .tc main_v72)
    = Cert.GcnSpec.bnrelu (V (Proc.devRef .tc main_v65_0)) (V (Proc.devRef .tc main_v67)) (V (Proc.devRef .tc main_v71))
        (V (Proc.devRef .tc main_v33)) (V (Proc.devRef .tc main_v36)) := by
  after_results_simp <;> rfl

abbrev L1A : Valuation τ sig (Elt Ideal) :=
  after rop2 (after (hostOps2 (F := Ideal)) (after rop1 (after (hostOps1 (F := Ideal)) (after rop0 V))))

theorem L1A_value (b g bt : FVec Ideal S128 .f32) (sn : FVec Ideal S100000 .f32)
    (h27 : V (Proc.devRef .tc main_v27) = broadcastInDim S100000x1 ![0] bcast_S100000_S100000x1_0 sn)
    (h30 : V (Proc.devRef .tc main_v30) = broadcastInDim S1x128 ![1] bcast_S128_S1x128_1 b)
    (h33 : V (Proc.devRef .tc main_v33) = broadcastInDim S1x128 ![1] bcast_S128_S1x128_1 g)
    (h36 : V (Proc.devRef .tc main_v36) = broadcastInDim S1x128 ![1] bcast_S128_S1x128_1 bt) :
    L1A V (Proc.devRef .tc main_v72)
      = kLayer (V (Proc.devRef .tc main_arg0)) (V (Proc.devRef .tc main_v50)) b g bt
          (V (Proc.devRef .tc main_v1)) (V (Proc.devRef .tc main_v3)) (V (Proc.devRef .tc main_v25)) sn := by
  refine (rop2_read _).trans ?_
  after_results_simp
  rw [h27, h30, h33, h36]
  rfl

abbrev wrL1A : List (Ref sig .tc) :=
  [main_v51,
   main_c_4, main_v52, main_v53, main_c_5, main_v54, main_v55, main_v56, main_v57, main_v58, main_v59, main_v60,
   main_v61, main_cst_6, main_v62, main_v63, main_v64,
   main_v65_0, main_v65_1, main_v65_2,
   main_cst_7, main_v66, main_v67, main_cst_8, main_v68, main_v69, main_v70, main_v71,
   main_v72]

theorem wrL1A_rop0 : WritesIn wrL1A rop0 := by writes_in
theorem wrL1A_hostOps1 : WritesIn wrL1A (hostOps1 (F := Ideal)) := by writes_in
theorem wrL1A_rop1 : WritesIn wrL1A rop1 := by writes_in
theorem wrL1A_hostOps2 : WritesIn wrL1A (hostOps2 (F := Ideal)) := by writes_in
theorem wrL1A_rop2 : WritesIn wrL1A rop2 := by writes_in

theorem L1A_keep {r : Ref sig .tc} (hr : r ∉ wrL1A) : L1A V (Proc.devRef .tc r) = V (Proc.devRef .tc r) :=
  (after_keep wrL1A_rop2 _ hr).trans ((after_keep wrL1A_hostOps2 _ hr).trans ((after_keep wrL1A_rop1 _ hr).trans
    ((after_keep wrL1A_hostOps1 _ hr).trans (after_keep wrL1A_rop0 V hr))))

theorem rop5_read : after rop5 V (Proc.devRef .tc main_v96)
    = Cert.GcnSpec.bnrelu (V (Proc.devRef .tc main_v89_0)) (V (Proc.devRef .tc main_v91)) (V (Proc.devRef .tc main_v95))
        (V (Proc.devRef .tc main_v42)) (V (Proc.devRef .tc main_v45)) := by
  after_results_simp <;> rfl

abbrev L2A : Valuation τ sig (Elt Ideal) :=
  after rop5 (after (hostOps5 (F := Ideal)) (after rop4 (after (hostOps4 (F := Ideal)) (after rop3 (after (hostOps3 (F := Ideal)) V)))))

set_option maxHeartbeats 1000000 in
theorem L2A_value (b g bt : FVec Ideal S128 .f32) (sn : FVec Ideal S100000 .f32)
    (h27 : V (Proc.devRef .tc main_v27) = broadcastInDim S100000x1 ![0] bcast_S100000_S100000x1_0 sn)
    (h39 : V (Proc.devRef .tc main_v39) = broadcastInDim S1x128 ![1] bcast_S128_S1x128_1 b)
    (h42 : V (Proc.devRef .tc main_v42) = broadcastInDim S1x128 ![1] bcast_S128_S1x128_1 g)
    (h45 : V (Proc.devRef .tc main_v45) = broadcastInDim S1x128 ![1] bcast_S128_S1x128_1 bt) :
    L2A V (Proc.devRef .tc main_v96)
      = kLayer (V (Proc.devRef .tc main_v72)) (kMatA (V (Proc.devRef .tc main_arg6))) b g bt
          (V (Proc.devRef .tc main_v1)) (V (Proc.devRef .tc main_v3)) (V (Proc.devRef .tc main_v25)) sn := by
  refine (rop5_read _).trans ?_
  after_results_simp
  rw [h27, h39, h42, h45]
  rfl

abbrev wrL2A : List (Ref sig .tc) :=
  [main_v73, main_v74,
   main_v75,
   main_c_9, main_v76, main_v77, main_c_10, main_v78, main_v79, main_v80, main_v81, main_v82, main_v83, main_v84,
   main_v85, main_cst_11, main_v86, main_v87, main_v88,
   main_v89_0, main_v89_1, main_v89_2,
   main_cst_12, main_v90, main_v91, main_cst_13, main_v92, main_v93, main_v94, main_v95,
   main_v96]

theorem wrL2A_hostOps3 : WritesIn wrL2A (hostOps3 (F := Ideal)) := by writes_in
theorem wrL2A_rop3 : WritesIn wrL2A rop3 := by writes_in
theorem wrL2A_hostOps4 : WritesIn wrL2A (hostOps4 (F := Ideal)) := by writes_in
theorem wrL2A_rop4 : WritesIn wrL2A rop4 := by writes_in
theorem wrL2A_hostOps5 : WritesIn wrL2A (hostOps5 (F := Ideal)) := by writes_in
theorem wrL2A_rop5 : WritesIn wrL2A rop5 := by writes_in

theorem L2A_keep {r : Ref sig .tc} (hr : r ∉ wrL2A) : L2A V (Proc.devRef .tc r) = V (Proc.devRef .tc r) :=
  (after_keep wrL2A_rop5 _ hr).trans ((after_keep wrL2A_hostOps5 _ hr).trans ((after_keep wrL2A_rop4 _ hr).trans
    ((after_keep wrL2A_hostOps4 _ hr).trans ((after_keep wrL2A_rop3 _ hr).trans (after_keep wrL2A_hostOps3 V hr)))))

abbrev L3A : Valuation τ sig (Elt Ideal) :=
  after rop7 (after (hostOps7 (F := Ideal)) (after rop6 (after (hostOps6 (F := Ideal)) V)))

theorem L3A_value (b : FVec Ideal S40 .f32) (sn : FVec Ideal S100000 .f32)
    (h27 : V (Proc.devRef .tc main_v27) = broadcastInDim S100000x1 ![0] bcast_S100000_S100000x1_0 sn)
    (h48 : V (Proc.devRef .tc main_v48) = broadcastInDim S1x40 ![1] bcast_S40_S1x40_1 b) :
    L3A V (Proc.devRef .tc main_v113_0)
      = kLast (V (Proc.devRef .tc main_v96)) (kMat40A (V (Proc.devRef .tc main_arg10))) b
          (V (Proc.devRef .tc main_v1)) (V (Proc.devRef .tc main_v3)) (V (Proc.devRef .tc main_v25)) sn := by
  after_results_simp
  rw [h27, h48]
  rfl

abbrev wrL3A : List (Ref sig .tc) :=
  [main_v97, main_v98,
   main_v99,
   main_c_14, main_v100, main_v101, main_c_15, main_v102, main_v103, main_v104, main_v105, main_v106, main_v107,
   main_v108, main_v109, main_cst_16, main_v110, main_v111, main_v112,
   main_v113_0, main_v113_1, main_v113_2]

theorem wrL3A_hostOps6 : WritesIn wrL3A (hostOps6 (F := Ideal)) := by writes_in
theorem wrL3A_rop6 : WritesIn wrL3A rop6 := by writes_in
theorem wrL3A_hostOps7 : WritesIn wrL3A (hostOps7 (F := Ideal)) := by writes_in
theorem wrL3A_rop7 : WritesIn wrL3A rop7 := by writes_in

theorem L3A_keep {r : Ref sig .tc} (hr : r ∉ wrL3A) : L3A V (Proc.devRef .tc r) = V (Proc.devRef .tc r) :=
  (after_keep wrL3A_rop7 _ hr).trans ((after_keep wrL3A_hostOps7 _ hr).trans ((after_keep wrL3A_rop6 _ hr).trans
    (after_keep wrL3A_hostOps6 V hr)))

abbrev TA : Valuation τ sig (Elt Ideal) := L3A (L2A (L1A V))

theorem TA_keep {r : Ref sig .tc} (h1 : r ∉ wrL1A) (h2 : r ∉ wrL2A) (h3 : r ∉ wrL3A) :
    TA V (Proc.devRef .tc r) = V (Proc.devRef .tc r) :=
  (L3A_keep _ h3).trans ((L2A_keep _ h2).trans (L1A_keep V h1))

theorem TA_value (b1 g1 bt1 b2 g2 bt2 : FVec Ideal S128 .f32) (b3 : FVec Ideal S40 .f32) (sn : FVec Ideal S100000 .f32)
    (h27 : V (Proc.devRef .tc main_v27) = broadcastInDim S100000x1 ![0] bcast_S100000_S100000x1_0 sn)
    (h30 : V (Proc.devRef .tc main_v30) = broadcastInDim S1x128 ![1] bcast_S128_S1x128_1 b1)
    (h33 : V (Proc.devRef .tc main_v33) = broadcastInDim S1x128 ![1] bcast_S128_S1x128_1 g1)
    (h36 : V (Proc.devRef .tc main_v36) = broadcastInDim S1x128 ![1] bcast_S128_S1x128_1 bt1)
    (h39 : V (Proc.devRef .tc main_v39) = broadcastInDim S1x128 ![1] bcast_S128_S1x128_1 b2)
    (h42 : V (Proc.devRef .tc main_v42) = broadcastInDim S1x128 ![1] bcast_S128_S1x128_1 g2)
    (h45 : V (Proc.devRef .tc main_v45) = broadcastInDim S1x128 ![1] bcast_S128_S1x128_1 bt2)
    (h48 : V (Proc.devRef .tc main_v48) = broadcastInDim S1x40 ![1] bcast_S40_S1x40_1 b3) :
    TA V (Proc.devRef .tc main_v113_0)
      = kTower (V (Proc.devRef .tc main_arg0)) (V (Proc.devRef .tc main_v50)) b1 g1 bt1
          (kMatA (V (Proc.devRef .tc main_arg6))) b2 g2 bt2 (kMat40A (V (Proc.devRef .tc main_arg10))) b3
          (V (Proc.devRef .tc main_v1)) (V (Proc.devRef .tc main_v3)) (V (Proc.devRef .tc main_v25)) sn := by
  refine (L3A_value (L2A (L1A V)) b3 sn
    ((L2A_keep _ (by decide)).trans ((L1A_keep V (by decide)).trans h27))
    ((L2A_keep _ (by decide)).trans ((L1A_keep V (by decide)).trans h48))).trans ?_
  rw [L2A_value (L1A V) b2 g2 bt2 sn ((L1A_keep V (by decide)).trans h27) ((L1A_keep V (by decide)).trans h39)
      ((L1A_keep V (by decide)).trans h42) ((L1A_keep V (by decide)).trans h45),
    L1A_value V b1 g1 bt1 sn h27 h30 h33 h36,
    L2A_keep (L1A V) (r := main_v1) (by decide), L2A_keep (L1A V) (r := main_v3) (by decide),
    L2A_keep (L1A V) (r := main_v25) (by decide), L2A_keep (L1A V) (r := main_arg10) (by decide),
    L1A_keep V (r := main_v1) (by decide), L1A_keep V (r := main_v3) (by decide),
    L1A_keep V (r := main_v25) (by decide), L1A_keep V (r := main_arg6) (by decide),
    L1A_keep V (r := main_arg10) (by decide)]
  rfl

end Walk

end Cert.KernelIdeal.GcnValue

end
-- ==== Proof.Lin8.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The block of point t is rows 5000·t … 5000·t + 4999 of the product of the features by the weights. -/
theorem lin8_flushed (c : Dev nD) (t : Fin cfg8.N) :
    (dat8 (F := Ideal) V c).flushed 2 t = ((cfg8.win 2).blk t).view.read (Elt Ideal)
      (Cert.GcnSpec.lin (V c (Pipeline.arrRef spec8 0) : S100000x128.Idx → EReal) (V c (Pipeline.arrRef spec8 1) : S128x128.Idx → EReal)) := by
  show (cfg8.win 2).cut (grid8.coords t) ((dat8 (F := Ideal) V c).after 2 t) = _
  rw [after8_2]
  obtain ⟨a0, a1, b0, b1, o0, o1⟩ := lin8_idx t
  funext j
  show out8_2 (iblk8 V c 0 t) (iblk8 V c 1 t) ((cfg8.win 2).xinj (grid8.coords t) j)
    = Cert.GcnSpec.lin (V c (Pipeline.arrRef spec8 0) : S100000x128.Idx → EReal) (V c (Pipeline.arrRef spec8 1) : S128x128.Idx → EReal) (((cfg8.win 2).blk t).view.emb j)
  refine out0_2_eq_lin (V c (Pipeline.arrRef spec8 0)) (V c (Pipeline.arrRef spec8 1)) (iblk8 V c 0 t) (iblk8 V c 1 t)
    ((cfg8.win 2).xinj (grid8.coords t) j) (((cfg8.win 2).blk t).view.emb j) (fun k => ?_) (fun k => ?_)
  · unfold iblk8
    rw [View.read_apply]
    refine congrArg (V c (Pipeline.arrRef spec8 0) : S100000x128.Idx → EReal) (Shape.idx_ext₂ ?_ ?_)
    · show win8_0.index t (0 : Fin 2) * 5000 + 1 * (j 0).val = win8_2.index t (0 : Fin 2) * 5000 + 1 * (j 0).val; omega
    · show win8_0.index t (1 : Fin 2) * 128 + 1 * k.val = k.val; omega
  · unfold iblk8
    rw [View.read_apply]
    refine congrArg (V c (Pipeline.arrRef spec8 1) : S128x128.Idx → EReal) (Shape.idx_ext₂ ?_ ?_)
    · show win8_1.index t (0 : Fin 2) * 128 + 1 * k.val = k.val; omega
    · show win8_1.index t (1 : Fin 2) * 128 + 1 * (j 1).val = win8_2.index t (1 : Fin 2) * 128 + 1 * (j 1).val; omega

theorem lin8_cover (i : S100000x128.Idx) :
    ∃ t : Fin cfg8.N, (cfg8.win 2).flush t = true ∧ i ∈ ((cfg8.win 2).blk t).view.set :=
  (row_block_cover (n := cfg8.N) (B := 5000) (by rw [show cfg8.N = 20 from N_8]) (by decide) win8_2.index
    (fun t => (lin8_idx t).2.2.2.2) i).imp fun t ht => ⟨flush8_2 t, mem_slice_whole_unit.mpr ht⟩

/-- The array the region leaves is the features times the weights. -/
theorem lin8_value (c : Dev nD) :
    ((dat8 (F := Ideal) V c).arrAt 2 cfg8.N : S100000x128.Idx → EReal)
      = Cert.GcnSpec.lin (V c (Pipeline.arrRef spec8 0) : S100000x128.Idx → EReal) (V c (Pipeline.arrRef spec8 1) : S128x128.Idx → EReal) :=
  (dat8 (F := Ideal) V c).arrAt_eq_of_cover 2 _ (fun t _ => lin8_flushed V c t) (lin8_cover)

end Cert.KernelIdeal.GcnValue

end
-- ==== Proof.Ops8.lean ====
import proofs.«156818_j43868795961418_1_alg».proof.Proof.Lin8
import proofs.«156818_j43868795961418_1_alg».proof.Proof.OpsLibLB

noncomputable section

namespace Cert.KernelIdeal.GcnValue

open Cert.KernelIdeal.Gen Idealize.ShloMosaic Idealize.SL.Sem

abbrev rop8 : List (HloOp τ sig (Elt Ideal)) :=
  [StableHlo.binary main_arg0 main_v136 main_v137 (Cert.GcnSpec.lin (K := 128) (C := 128))]

/-- Region 8 acts on the buffers as the single operation `main_v137 := lin main_arg0 main_v136`. -/
theorem W18_eq (m : (ℓ : Loc nD τ sig) → Buf (Elt Ideal) ℓ) (ρ : Dev nD → PrngReg) (c : Dev nD) :
    W18 (F := Ideal) m ρ c = StableHlo.after rop8 (W17 m ρ c) :=
  (dat8 (V17 m ρ) c).withArrays_eq_after_one launch8.win (A_eq8 _ c) 2 (by decide) rfl (lin8_value _ c)
    (StableHlo.binary_result ..)

end Cert.KernelIdeal.GcnValue

end
-- ==== Proof.Comb9.lean ====
import proofs.«156818_j43868795961418_1_alg».proof.Proof.Gen.KernelIdeal.Frame
import proofs.«156818_j43868795961418_1_alg».proof.Proof.CombLib
import Idealize.ShloMosaic.Lib.Tactic

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Comb9

open Comb

/-- At the first point the outputs are the combination of the point's blocks and its column sums (of squares) added to zero, -/
theorem outs_first (c : Dev nD) (t : Fin cfg9.N) (h0 : t.val % 20 = 0) :
    outsAt9 V c t.val t.isLt = (k9_pay3 (F := Ideal) (iblk9 V c 0 t) (iblk9 V c 2 t) (iblk9 V c 1 t) (iblk9 V c 3 t),
      k9_pay4 (iblk9 V c 0 t) (iblk9 V c 2 t) (iblk9 V c 1 t) (iblk9 V c 3 t) (k9_pay1 (F := Ideal)), k9_pay5 (iblk9 V c 0 t) (iblk9 V c 2 t) (iblk9 V c 1 t) (iblk9 V c 3 t) (k9_pay2 (F := Ideal))) := by
  rw [outsAt9_A V c t h0]
  unfold out9_A_4 out9_A_5 out9_A_6
  rw [View.read_writes_eq_canon _ _ _ (cover9_A_4 (F := Ideal) _ _ _ _ _ _ _ _ _ _ _ _ _ _ _ _ _ _ _ _ _), View.read_writes_eq_canon _ _ _ (cover9_A_5 (F := Ideal) _ _ _ _ _ _ _ _ _ _ _ _ _ _ _ _ _ _ _ _ _),
    View.read_writes_eq_canon _ _ _ (cover9_A_6 (F := Ideal) _ _ _ _ _ _ _ _ _ _ _ _ _ _ _ _ _ _ _ _ _)]
  unfold kernelRun9_A
  dsimp only
  try sl_unfold_words
  simp only [View.canon_cons_unit_zero (S := S5000x128) zeros2, View.canon_cons_unit_zero (S := S1x128) zeros2, View.readAt_eq_ld,
    Memref.IsWhole.read_unread, View.readCov_unit_zero (S := S1x128) _ zeros2, View.ld_unit_zero (S := S5000x128) zeros2,
    View.ld_unit_zero (S := S5000x1) zeros2, View.ld_unit_zero (S := S1x128) zeros2]

/-- at a later point added to what the point before left. -/
theorem outs_later (c : Dev nD) (t : Fin cfg9.N) (h0 : ¬t.val % 20 = 0) :
    outsAt9 V c t.val t.isLt = (k9_pay3 (F := Ideal) (iblk9 V c 0 t) (iblk9 V c 2 t) (iblk9 V c 1 t) (iblk9 V c 3 t),
      k9_pay4 (iblk9 V c 0 t) (iblk9 V c 2 t) (iblk9 V c 1 t) (iblk9 V c 3 t) (outsAt9 V c (t.val - 1) (Nat.lt_of_le_of_lt (Nat.sub_le _ _) t.isLt)).2.1,
      k9_pay5 (iblk9 V c 0 t) (iblk9 V c 2 t) (iblk9 V c 1 t) (iblk9 V c 3 t) (outsAt9 V c (t.val - 1) (Nat.lt_of_le_of_lt (Nat.sub_le _ _) t.isLt)).2.2) := by
  rw [outsAt9_B V c t h0]
  unfold out9_B_4 out9_B_5 out9_B_6
  rw [View.read_writes_eq_canon _ _ _ (cover9_B_4 (F := Ideal) _ _ _ _ _ _ _ _ _ _ _ _ _ _ _ _ _ _ _ _ _ _ _), View.read_writes_eq_canon _ _ _ (cover9_B_5 (F := Ideal) _ _ _ _ _ _ _ _ _ _ _ _ _ _ _ _ _ _ _ _ _ _ _),
    View.read_writes_eq_canon _ _ _ (cover9_B_6 (F := Ideal) _ _ _ _ _ _ _ _ _ _ _ _ _ _ _ _ _ _ _ _ _ _ _)]
  unfold kernelRun9_B
  dsimp only
  try sl_unfold_words
  simp only [View.canon_cons_unit_zero (S := S5000x128) zeros2, View.canon_cons_unit_zero (S := S1x128) zeros2, View.readAt_eq_ld, Memref.IsWhole.read_unread,
    View.ld_unit_zero (S := S5000x128) zeros2, View.ld_unit_zero (S := S5000x1) zeros2, View.ld_unit_zero (S := S1x128) zeros2]

theorem index_rows : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_4.index t (0 : Fin 2) = t.val ∧ win9_4.index t (1 : Fin 2) = 0 :=
  (by decide +kernel : ∀ t : Fin grid9.N, _)

theorem index_fixed : ∀ t : Fin cfg9.N,
    win9_3.index t (0 : Fin 2) = 0 ∧ win9_3.index t (1 : Fin 2) = 0
    ∧ win9_5.index t (0 : Fin 2) = 0 ∧ win9_5.index t (1 : Fin 2) = 0
    ∧ win9_6.index t (0 : Fin 2) = 0 ∧ win9_6.index t (1 : Fin 2) = 0 :=
  (by decide +kernel : ∀ t : Fin grid9.N, _)

/-- Row p of a row block at point t is row p + 5000 t of its array; the bias block is the whole bias. -/
theorem rd0 (c : Dev nD) (t : Fin cfg9.N) (p : Fin 5000) (q : Fin 128) (hr) :
    iblk9 V c 0 t (ix2 p q) = V c (Pipeline.arrRef spec9 0) (ix2 (⟨p.val + 5000 * t.val, hr⟩ : Fin 100000) q) := by
  obtain ⟨e0, e1, -⟩ := index_rows t
  unfold iblk9
  rw [View.read_apply]
  show V c (Pipeline.arrRef spec9 0) _ = _
  refine congrArg (V c (Pipeline.arrRef spec9 0)) (funext fun a => Fin.ext ?_)
  match a with
  | ⟨0, _⟩ => show win9_0.index t 0 * 5000 + 1 * p.val = p.val + 5000 * t.val; rw [e0]; omega
  | ⟨1, _⟩ => show win9_0.index t 1 * 128 + 1 * q.val = q.val; rw [e1]; omega

theorem rd1 (c : Dev nD) (t : Fin cfg9.N) (p : Fin 5000) (q : Fin 128) (hr) :
    iblk9 V c 1 t (ix2 p q) = V c (Pipeline.arrRef spec9 1) (ix2 (⟨p.val + 5000 * t.val, hr⟩ : Fin 100000) q) := by
  obtain ⟨-, -, e0, e1, -⟩ := index_rows t
  unfold iblk9
  rw [View.read_apply]
  show V c (Pipeline.arrRef spec9 1) _ = _
  refine congrArg (V c (Pipeline.arrRef spec9 1)) (funext fun a => Fin.ext ?_)
  match a with
  | ⟨0, _⟩ => show win9_1.index t 0 * 5000 + 1 * p.val = p.val + 5000 * t.val; rw [e0]; omega
  | ⟨1, _⟩ => show win9_1.index t 1 * 128 + 1 * q.val = q.val; rw [e1]; omega

theorem rd2 (c : Dev nD) (t : Fin cfg9.N) (p : Fin 5000) (hr) :
    iblk9 V c 2 t (ix2 p (0 : Fin 1)) = V c (Pipeline.arrRef spec9 2) (ix2 (⟨p.val + 5000 * t.val, hr⟩ : Fin 100000) (0 : Fin 1)) := by
  obtain ⟨-, -, -, -, e0, e1, -⟩ := index_rows t
  unfold iblk9
  rw [View.read_apply]
  show V c (Pipeline.arrRef spec9 2) _ = _
  refine congrArg (V c (Pipeline.arrRef spec9 2)) (funext fun a => Fin.ext ?_)
  match a with
  | ⟨0, _⟩ => show win9_2.index t 0 * 5000 + 1 * p.val = p.val + 5000 * t.val; rw [e0]; omega
  | ⟨1, _⟩ => show win9_2.index t 1 * 1 + 1 * 0 = 0; rewrite [e1]; rfl

theorem rd3 (c : Dev nD) (t : Fin cfg9.N) (q : Fin 128) :
    iblk9 V c 3 t (ix2 (0 : Fin 1) q) = V c (Pipeline.arrRef spec9 3) (ix2 (0 : Fin 1) q) := by
  obtain ⟨e0, e1, -⟩ := index_fixed t
  unfold iblk9
  rw [View.read_apply]
  show V c (Pipeline.arrRef spec9 3) _ = _
  refine congrArg (V c (Pipeline.arrRef spec9 3)) (funext fun a => Fin.ext ?_)
  match a with
  | ⟨0, _⟩ => show win9_3.index t 0 * 1 + 1 * 0 = 0; rewrite [e0]; rfl
  | ⟨1, _⟩ => show win9_3.index t 1 * 128 + 1 * q.val = q.val; rw [e1]; omega

def reg (c : Dev nD) : Region 128 cfg9.N (k9_pay3 (F := Ideal)) k9_pay4 k9_pay5 (k9_pay1 (F := Ideal)) (k9_pay2 (F := Ideal)) where
  Ag := V c (Pipeline.arrRef spec9 0)
  Ft := V c (Pipeline.arrRef spec9 1)
  Sn := V c (Pipeline.arrRef spec9 2)
  Bi := V c (Pipeline.arrRef spec9 3)
  aB n h := iblk9 V c 0 ⟨n, h⟩
  fB n h := iblk9 V c 1 ⟨n, h⟩
  sB n h := iblk9 V c 2 ⟨n, h⟩
  bB n h := iblk9 V c 3 ⟨n, h⟩
  outs := outsAt9 V c
  ha n h := rd0 V c ⟨n, h⟩
  hf n h := rd1 V c ⟨n, h⟩
  hs n h := rd2 V c ⟨n, h⟩
  hb n h := rd3 V c ⟨n, h⟩
  h0 h := outs_first V c ⟨0, h⟩ rfl
  hstep n h := outs_later V c ⟨n + 1, h⟩ (by have hN : cfg9.N = 20 := N_9; show ¬(n + 1) % 20 = 0; omega)

theorem flushed_c (c : Dev nD) (t : Fin cfg9.N) :
    (dat9 V c).flushed 4 t = ((cfg9.win 4).blk t).view.read (Elt Ideal) (reg V c).X := by
  have hN : cfg9.N = 20 := N_9
  show (cfg9.win 4).cut (grid9.coords t) ((dat9 V c).after 4 t) = _
  rw [after9_4]
  obtain ⟨-, -, -, -, -, -, e0, e1⟩ := index_rows t
  funext j
  obtain ⟨p, q, rfl⟩ : ∃ (p : Fin 5000) (q : Fin 128), j = ix2 p q := ⟨j 0, j 1, eq_ix2 j⟩
  have hr : p.val + 5000 * t.val < 100000 := by have := t.isLt; have := p.isLt; omega
  show (outsAt9 V c t.val t.isLt).1 (ix2 p q) = (reg V c).X (((cfg9.win 4).blk t).view.emb (ix2 p q))
  refine ((reg V c).c pay128 t.val t.isLt p q hr).trans (congrArg (reg V c).X (funext fun a => Fin.ext ?_))
  match a with
  | ⟨0, _⟩ => show p.val + 5000 * t.val = win9_4.index t 0 * 5000 + 1 * p.val; rw [e0]; omega
  | ⟨1, _⟩ => show q.val = win9_4.index t 1 * 128 + 1 * q.val; rw [e1]; omega

/-- Node row r lies in block r / 5000. -/
theorem cover_c (c : Dev nD) (i : S100000x128.Idx) :
    ∃ t : Fin cfg9.N, (cfg9.win 4).flush t = true ∧ i ∈ ((cfg9.win 4).blk t).view.set := by
  have hN : cfg9.N = 20 := N_9
  have h0 : (i 0 : Nat) < 100000 := (i 0).isLt
  have h1 : (i 1 : Nat) < 128 := (i 1).isLt
  obtain ⟨t, ht⟩ : ∃ t : Fin cfg9.N, t.val = (i 0 : Nat) / 5000 := ⟨⟨_, by rw [hN]; omega⟩, rfl⟩
  obtain ⟨-, -, -, -, -, -, e0, e1⟩ := index_rows t
  refine ⟨t, flush9_4 _, ?_⟩
  show i ∈ ((View.whole main_v151_0).slice (win9_4.rect t)).set
  rw [View.set_slice_whole, Rect.mem_set_unit]
  intro a
  match a with
  | ⟨0, _⟩ => show win9_4.index t 0 * 5000 ≤ (i 0 : Nat) ∧ (i 0 : Nat) < win9_4.index t 0 * 5000 + 5000; rw [e0]; omega
  | ⟨1, _⟩ => show win9_4.index t 1 * 128 ≤ (i 1 : Nat) ∧ (i 1 : Nat) < win9_4.index t 1 * 128 + 128; rw [e1]; omega

/-- After point 19 the sum accumulator is the column sums of the combination, -/
theorem flushed_sum (c : Dev nD) (t : Fin cfg9.N) (hf : (cfg9.win 5).flush t = true) :
    (dat9 V c).flushed 5 t = ((cfg9.win 5).blk t).view.read (Elt Ideal) (Cert.GcnSpec.colsum (reg V c).X) := by
  have hN : cfg9.N = 20 := N_9
  have h19 : t.val = 19 := by have := (flush9_5 t).mp hf; have := t.isLt; omega
  have key : ∀ (q : Fin 128) (j : S1x128.Idx), (j 1).val = q.val →
      (outsAt9 V c t.val t.isLt).2.1 (ix2 (0 : Fin 1) q) = Cert.GcnSpec.colsum (reg V c).X j := fun q j hj =>
    ((reg V c).sum pay128 hN t.val t.isLt h19 q).trans (colsum_at _ j q hj).symm
  show (cfg9.win 5).cut (grid9.coords t) ((dat9 V c).after 5 t) = _
  rw [after9_5]
  generalize (outsAt9 V c t.val t.isLt).2.1 = acc at key ⊢
  generalize Cert.GcnSpec.colsum (reg V c).X = G at key ⊢
  obtain ⟨-, -, e0, e1, -⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg9.win 5).blk t).view.emb (ix2 (0 : Fin 1) q))
  refine key q _ ?_
  show win9_5.index t 1 * 128 + 1 * q.val = q.val
  rw [e1]; omega

/-- and the other accumulator the column sums of its squares. -/
theorem flushed_sumsq (c : Dev nD) (t : Fin cfg9.N) (hf : (cfg9.win 6).flush t = true) :
    (dat9 V c).flushed 6 t = ((cfg9.win 6).blk t).view.read (Elt Ideal) (Cert.GcnSpec.colsumsq (reg V c).X) := by
  have hN : cfg9.N = 20 := N_9
  have h19 : t.val = 19 := by have := (flush9_6 t).mp hf; have := t.isLt; omega
  have key : ∀ (q : Fin 128) (j : S1x128.Idx), (j 1).val = q.val →
      (outsAt9 V c t.val t.isLt).2.2 (ix2 (0 : Fin 1) q) = Cert.GcnSpec.colsumsq (reg V c).X j := fun q j hj =>
    ((reg V c).sumsq pay128 hN t.val t.isLt h19 q).trans (colsumsq_at _ j q hj).symm
  show (cfg9.win 6).cut (grid9.coords t) ((dat9 V c).after 6 t) = _
  rw [after9_6]
  generalize (outsAt9 V c t.val t.isLt).2.2 = acc at key ⊢
  generalize Cert.GcnSpec.colsumsq (reg V c).X = G at key ⊢
  obtain ⟨-, -, -, -, e0, e1⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg9.win 6).blk t).view.emb (ix2 (0 : Fin 1) q))
  refine key q _ ?_
  show win9_6.index t 1 * 128 + 1 * q.val = q.val
  rw [e1]; omega

/-- The block of an accumulator at point 19 is its whole one-row array. -/
theorem cover_sum (c : Dev nD) (i : S1x128.Idx) :
    ∃ t : Fin cfg9.N, (cfg9.win 5).flush t = true ∧ i ∈ ((cfg9.win 5).blk t).view.set := by
  have hN : cfg9.N = 20 := N_9
  have h0 : (i 0 : Nat) < 1 := (i 0).isLt
  have h1 : (i 1 : Nat) < 128 := (i 1).isLt
  obtain ⟨t, ht⟩ : ∃ t : Fin cfg9.N, t.val = 19 := ⟨⟨19, by omega⟩, rfl⟩
  obtain ⟨-, -, e0, e1, -⟩ := index_fixed t
  refine ⟨t, (flush9_5 t).mpr (by omega), ?_⟩
  show i ∈ ((View.whole main_v151_1).slice (win9_5.rect t)).set
  rw [View.set_slice_whole, Rect.mem_set_unit]
  intro a
  match a with
  | ⟨0, _⟩ => show win9_5.index t 0 * 1 ≤ (i 0 : Nat) ∧ (i 0 : Nat) < win9_5.index t 0 * 1 + 1; rw [e0]; omega
  | ⟨1, _⟩ => show win9_5.index t 1 * 128 ≤ (i 1 : Nat) ∧ (i 1 : Nat) < win9_5.index t 1 * 128 + 128; rw [e1]; omega

theorem cover_sumsq (c : Dev nD) (i : S1x128.Idx) :
    ∃ t : Fin cfg9.N, (cfg9.win 6).flush t = true ∧ i ∈ ((cfg9.win 6).blk t).view.set := by
  have hN : cfg9.N = 20 := N_9
  have h0 : (i 0 : Nat) < 1 := (i 0).isLt
  have h1 : (i 1 : Nat) < 128 := (i 1).isLt
  obtain ⟨t, ht⟩ : ∃ t : Fin cfg9.N, t.val = 19 := ⟨⟨19, by omega⟩, rfl⟩
  obtain ⟨-, -, -, -, e0, e1⟩ := index_fixed t
  refine ⟨t, (flush9_6 t).mpr (by omega), ?_⟩
  show i ∈ ((View.whole main_v151_2).slice (win9_6.rect t)).set
  rw [View.set_slice_whole, Rect.mem_set_unit]
  intro a
  match a with
  | ⟨0, _⟩ => show win9_6.index t 0 * 1 ≤ (i 0 : Nat) ∧ (i 0 : Nat) < win9_6.index t 0 * 1 + 1; rw [e0]; omega
  | ⟨1, _⟩ => show win9_6.index t 1 * 128 ≤ (i 1 : Nat) ∧ (i 1 : Nat) < win9_6.index t 1 * 128 + 128; rw [e1]; omega

end Comb9

/-- After the region the first output is the combination of the four input arrays, -/
theorem comb9_c (c : Dev nD) :
    ((dat9 (F := Ideal) V c).arrAt 4 cfg9.N : S100000x128.Idx → EReal)
      = Cert.GcnSpec.comb (V c (Pipeline.arrRef spec9 0) : S100000x128.Idx → EReal) (V c (Pipeline.arrRef spec9 1) : S100000x128.Idx → EReal) (V c (Pipeline.arrRef spec9 2) : S100000x1.Idx → EReal) (V c (Pipeline.arrRef spec9 3) : S1x128.Idx → EReal) :=
  (dat9 V c).arrAt_eq_of_cover 4 (Comb9.reg V c).X (fun t _ => Comb9.flushed_c V c t) (Comb9.cover_c c)

/-- the second its column sums over all nodes, -/
theorem comb9_sum (c : Dev nD) :
    ((dat9 (F := Ideal) V c).arrAt 5 cfg9.N : S1x128.Idx → EReal)
      = Cert.GcnSpec.colsum (Cert.GcnSpec.comb (V c (Pipeline.arrRef spec9 0) : S100000x128.Idx → EReal) (V c (Pipeline.arrRef spec9 1) : S100000x128.Idx → EReal) (V c (Pipeline.arrRef spec9 2) : S100000x1.Idx → EReal) (V c (Pipeline.arrRef spec9 3) : S1x128.Idx → EReal)) :=
  (dat9 V c).arrAt_eq_of_cover 5 (Cert.GcnSpec.colsum (Comb9.reg V c).X) (Comb9.flushed_sum V c) (Comb9.cover_sum c)

/-- and the third the column sums of its squares. -/
theorem comb9_sumsq (c : Dev nD) :
    ((dat9 (F := Ideal) V c).arrAt 6 cfg9.N : S1x128.Idx → EReal)
      = Cert.GcnSpec.colsumsq (Cert.GcnSpec.comb (V c (Pipeline.arrRef spec9 0) : S100000x128.Idx → EReal) (V c (Pipeline.arrRef spec9 1) : S100000x128.Idx → EReal) (V c (Pipeline.arrRef spec9 2) : S100000x1.Idx → EReal) (V c (Pipeline.arrRef spec9 3) : S1x128.Idx → EReal)) :=
  (dat9 V c).arrAt_eq_of_cover 6 (Cert.GcnSpec.colsumsq (Comb9.reg V c).X) (Comb9.flushed_sumsq V c) (Comb9.cover_sumsq c)

end Cert.KernelIdeal.GcnValue

end
-- ==== Proof.Ops9.lean ====
import proofs.«156818_j43868795961418_1_alg».proof.Proof.OpsLib
import proofs.«156818_j43868795961418_1_alg».proof.Proof.Comb9

noncomputable section

namespace Cert.KernelIdeal.GcnValue

open Cert.KernelIdeal Cert.KernelIdeal.Gen Idealize.ShloMosaic Idealize.ShloMosaic.TcCoe Idealize.SL.Sem StableHlo Cert.GcnSpec

abbrev rop9 : List (HloOp τ sig (Elt Ideal)) :=
  [quaternary main_v150 main_v137 main_v27 main_v116 main_v151_0 comb,
   quaternary main_v150 main_v137 main_v27 main_v116 main_v151_1 fun a h s b => colsum (comb a h s b),
   quaternary main_v150 main_v137 main_v27 main_v116 main_v151_2 fun a h s b => colsumsq (comb a h s b)]

variable (m : (ℓ : Loc nD τ sig) → Buf (Elt Ideal) ℓ) (ρ : Dev nD → PrngReg)

/-- The four inputs are kept; the outputs hold the combination, its column sums and the column sums of its squares. -/
theorem W20_eq (c : Dev nD) : W20 (F := Ideal) m ρ c = after rop9 (W19 m ρ c) :=
  withArrays_eq_after_ops3 spec9 (by decide) launch9.win.arr_inj c _ _ _ _ _
    (fun w _ => ((dat9 _ c).arrAt_in w (by revert w; decide) _).trans (A_eq9 _ c w))
    (comb9_c (V19 m ρ) c) (comb9_sum (V19 m ρ) c) (comb9_sumsq (V19 m ρ) c)

end Cert.KernelIdeal.GcnValue

end
-- ==== Proof.Bn10.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem bn10_idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

set_option maxHeartbeats 2000000 in
/-- The block of point t is rows 5000·t … 5000·t + 4999 of the normalised and rectified features. -/
theorem bn10_flushed (c : Dev nD) (t : Fin cfg10.N) :
    (dat10 (F := Ideal) V c).flushed 5 t = ((cfg10.win 5).blk t).view.read (Elt Ideal)
      (Cert.GcnSpec.bnrelu (V c (Pipeline.arrRef spec10 0) : S100000x128.Idx → EReal)
        (V c (Pipeline.arrRef spec10 1) : S1x128.Idx → EReal) (V c (Pipeline.arrRef spec10 2) : S1x128.Idx → EReal)
        (V c (Pipeline.arrRef spec10 3) : S1x128.Idx → EReal) (V c (Pipeline.arrRef spec10 4) : S1x128.Idx → EReal)) := by
  show (cfg10.win 5).cut (grid10.coords t) ((dat10 V c).after 5 t) = _
  rw [after10_5]
  obtain ⟨e00, e01, e10, e11, e20, e21, e30, e31, e40, e41, e50, e51⟩ := bn10_idx t
  funext j
  rw [View.read_apply, cast_eq]
  show out10_5 (iblk10 V c 0 t) (iblk10 V c 1 t) (iblk10 V c 2 t) (iblk10 V c 3 t) (iblk10 V c 4 t)
    ((cfg10.win 5).xinj (grid10.coords t) j) = _
  refine out2_5_eq_bnrelu (V c (Pipeline.arrRef spec10 0)) (V c (Pipeline.arrRef spec10 1)) (V c (Pipeline.arrRef spec10 2))
    (V c (Pipeline.arrRef spec10 3)) (V c (Pipeline.arrRef spec10 4))
    (iblk10 V c 0 t) (iblk10 V c 1 t) (iblk10 V c 2 t) (iblk10 V c 3 t) (iblk10 V c 4 t)
    ((cfg10.win 5).xinj (grid10.coords t) j) (((cfg10.win 5).blk t).view.emb j) ?_ ?_
    (fun q => ?_) (fun q => ?_) (fun q => ?_) (fun q => ?_)
  · show win10_5.index t (1 : Fin 2) * 128 + 1 * (j 1).val = (j 1).val; omega
  · show V c (Pipeline.arrRef spec10 0) (((cfg10.win 0).blk t).view.emb ((cfg10.win 5).xinj (grid10.coords t) j))
      = V c (Pipeline.arrRef spec10 0) (((cfg10.win 5).blk t).view.emb j)
    refine congrArg _ (Shape.idx_ext₂ ?_ ?_)
    · show win10_0.index t (0 : Fin 2) * 5000 + 1 * (j 0).val = win10_5.index t (0 : Fin 2) * 5000 + 1 * (j 0).val; omega
    · show win10_0.index t (1 : Fin 2) * 128 + 1 * (j 1).val = win10_5.index t (1 : Fin 2) * 128 + 1 * (j 1).val; omega
  · show V c (Pipeline.arrRef spec10 1) (((cfg10.win 1).blk t).view.emb (ix2 (0 : Fin 1) q)) = V c (Pipeline.arrRef spec10 1) (ix2 (0 : Fin 1) q)
    refine congrArg _ (Shape.idx_ext₂ ?_ ?_)
    · show win10_1.index t (0 : Fin 2) * 1 + 1 * 0 = 0; omega
    · show win10_1.index t (1 : Fin 2) * 128 + 1 * q.val = q.val; omega
  · show V c (Pipeline.arrRef spec10 2) (((cfg10.win 2).blk t).view.emb (ix2 (0 : Fin 1) q)) = V c (Pipeline.arrRef spec10 2) (ix2 (0 : Fin 1) q)
    refine congrArg _ (Shape.idx_ext₂ ?_ ?_)
    · show win10_2.index t (0 : Fin 2) * 1 + 1 * 0 = 0; omega
    · show win10_2.index t (1 : Fin 2) * 128 + 1 * q.val = q.val; omega
  · show V c (Pipeline.arrRef spec10 3) (((cfg10.win 3).blk t).view.emb (ix2 (0 : Fin 1) q)) = V c (Pipeline.arrRef spec10 3) (ix2 (0 : Fin 1) q)
    refine congrArg _ (Shape.idx_ext₂ ?_ ?_)
    · show win10_3.index t (0 : Fin 2) * 1 + 1 * 0 = 0; omega
    · show win10_3.index t (1 : Fin 2) * 128 + 1 * q.val = q.val; omega
  · show V c (Pipeline.arrRef spec10 4) (((cfg10.win 4).blk t).view.emb (ix2 (0 : Fin 1) q)) = V c (Pipeline.arrRef spec10 4) (ix2 (0 : Fin 1) q)
    refine congrArg _ (Shape.idx_ext₂ ?_ ?_)
    · show win10_4.index t (0 : Fin 2) * 1 + 1 * 0 = 0; omega
    · show win10_4.index t (1 : Fin 2) * 128 + 1 * q.val = q.val; omega

theorem bn10_cover (i : S100000x128.Idx) :
    ∃ t : Fin cfg10.N, (cfg10.win 5).flush t = true ∧ i ∈ ((cfg10.win 5).blk t).view.set :=
  (row_block_cover (n := cfg10.N) (B := 5000) (by rw [show cfg10.N = 20 from N_10]) (by decide) win10_5.index
    (fun t => (bn10_idx t).2.2.2.2.2.2.2.2.2.2) i).imp fun t ht => ⟨flush10_5 t, mem_slice_whole_unit.mpr ht⟩

/-- The array the region leaves is the normalised and rectified features. -/
theorem bn10_value (c : Dev nD) :
    ((dat10 (F := Ideal) V c).arrAt 5 cfg10.N : S100000x128.Idx → EReal)
      = Cert.GcnSpec.bnrelu (V c (Pipeline.arrRef spec10 0) : S100000x128.Idx → EReal) (V c (Pipeline.arrRef spec10 1) : S1x128.Idx → EReal) (V c (Pipeline.arrRef spec10 2) : S1x128.Idx → EReal) (V c (Pipeline.arrRef spec10 3) : S1x128.Idx → EReal) (V c (Pipeline.arrRef spec10 4) : S1x128.Idx → EReal) :=
  (dat10 (F := Ideal) V c).arrAt_eq_of_cover 5 _ (fun t _ => bn10_flushed V c t) bn10_cover

end Cert.KernelIdeal.GcnValue

end
-- ==== Proof.Ops10.lean ====
import proofs.«156818_j43868795961418_1_alg».proof.Proof.Bn10
import proofs.«156818_j43868795961418_1_alg».proof.Proof.OpsLibLB

noncomputable section

namespace Cert.KernelIdeal.GcnValue

open Cert.KernelIdeal.Gen Idealize.ShloMosaic Idealize.SL.Sem

abbrev rop10 : List (HloOp τ sig (Elt Ideal)) :=
  [StableHlo.nary ![main_v151_0, main_v153, main_v157, main_v119, main_v122] main_v158
    fun v => Cert.GcnSpec.bnrelu (C := 128) (v 0) (v 1) (v 2) (v 3) (v 4)]

/-- Region 10 acts on the buffers as the single operation `main_v158 := bnrelu` of its five operands. -/
theorem W22_eq (m : (ℓ : Loc nD τ sig) → Buf (Elt Ideal) ℓ) (ρ : Dev nD → PrngReg) (c : Dev nD) :
    W22 (F := Ideal) m ρ c = StableHlo.after rop10 (W21 m ρ c) :=
  (dat10 (V21 m ρ) c).withArrays_eq_after_one launch10.win (A_eq10 _ c) 5 (by decide) rfl (bn10_value _ c)
    (StableHlo.nary_result ..)

end Cert.KernelIdeal.GcnValue

end
-- ==== Proof.Lin11.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin11_idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- The block of point t is rows 5000·t … 5000·t + 4999 of the product of the features by the weights. -/
theorem lin11_flushed (c : Dev nD) (t : Fin cfg11.N) :
    (dat11 (F := Ideal) V c).flushed 2 t = ((cfg11.win 2).blk t).view.read (Elt Ideal)
      (Cert.GcnSpec.lin (V c (Pipeline.arrRef spec11 0) : S100000x128.Idx → EReal) (V c (Pipeline.arrRef spec11 1) : S128x128.Idx → EReal)) := by
  show (cfg11.win 2).cut (grid11.coords t) ((dat11 (F := Ideal) V c).after 2 t) = _
  rw [after11_2]
  obtain ⟨a0, a1, b0, b1, o0, o1⟩ := lin11_idx t
  funext j
  show out11_2 (iblk11 V c 0 t) (iblk11 V c 1 t) ((cfg11.win 2).xinj (grid11.coords t) j)
    = Cert.GcnSpec.lin (V c (Pipeline.arrRef spec11 0) : S100000x128.Idx → EReal) (V c (Pipeline.arrRef spec11 1) : S128x128.Idx → EReal) (((cfg11.win 2).blk t).view.emb j)
  refine out3_2_eq_lin (V c (Pipeline.arrRef spec11 0)) (V c (Pipeline.arrRef spec11 1)) (iblk11 V c 0 t) (iblk11 V c 1 t)
    ((cfg11.win 2).xinj (grid11.coords t) j) (((cfg11.win 2).blk t).view.emb j) (fun k => ?_) (fun k => ?_)
  · unfold iblk11
    rw [View.read_apply]
    refine congrArg (V c (Pipeline.arrRef spec11 0) : S100000x128.Idx → EReal) (Shape.idx_ext₂ ?_ ?_)
    · show win11_0.index t (0 : Fin 2) * 5000 + 1 * (j 0).val = win11_2.index t (0 : Fin 2) * 5000 + 1 * (j 0).val; omega
    · show win11_0.index t (1 : Fin 2) * 128 + 1 * k.val = k.val; omega
  · unfold iblk11
    rw [View.read_apply]
    refine congrArg (V c (Pipeline.arrRef spec11 1) : S128x128.Idx → EReal) (Shape.idx_ext₂ ?_ ?_)
    · show win11_1.index t (0 : Fin 2) * 128 + 1 * k.val = k.val; omega
    · show win11_1.index t (1 : Fin 2) * 128 + 1 * (j 1).val = win11_2.index t (1 : Fin 2) * 128 + 1 * (j 1).val; omega

theorem lin11_cover (i : S100000x128.Idx) :
    ∃ t : Fin cfg11.N, (cfg11.win 2).flush t = true ∧ i ∈ ((cfg11.win 2).blk t).view.set :=
  (row_block_cover (n := cfg11.N) (B := 5000) (by rw [show cfg11.N = 20 from N_11]) (by decide) win11_2.index
    (fun t => (lin11_idx t).2.2.2.2) i).imp fun t ht => ⟨flush11_2 t, mem_slice_whole_unit.mpr ht⟩

/-- The array the region leaves is the features times the weights. -/
theorem lin11_value (c : Dev nD) :
    ((dat11 (F := Ideal) V c).arrAt 2 cfg11.N : S100000x128.Idx → EReal)
      = Cert.GcnSpec.lin (V c (Pipeline.arrRef spec11 0) : S100000x128.Idx → EReal) (V c (Pipeline.arrRef spec11 1) : S128x128.Idx → EReal) :=
  (dat11 (F := Ideal) V c).arrAt_eq_of_cover 2 _ (fun t _ => lin11_flushed V c t) (lin11_cover)

end Cert.KernelIdeal.GcnValue

end
-- ==== Proof.Ops11.lean ====
import proofs.«156818_j43868795961418_1_alg».proof.Proof.Lin11
import proofs.«156818_j43868795961418_1_alg».proof.Proof.OpsLibLB

noncomputable section

namespace Cert.KernelIdeal.GcnValue

open Cert.KernelIdeal.Gen Idealize.ShloMosaic Idealize.SL.Sem

abbrev rop11 : List (HloOp τ sig (Elt Ideal)) :=
  [StableHlo.binary main_v158 main_v160 main_v161 (Cert.GcnSpec.lin (K := 128) (C := 128))]

/-- Region 11 acts on the buffers as the single operation `main_v161 := lin main_v158 main_v160`. -/
theorem W24_eq (m : (ℓ : Loc nD τ sig) → Buf (Elt Ideal) ℓ) (ρ : Dev nD → PrngReg) (c : Dev nD) :
    W24 (F := Ideal) m ρ c = StableHlo.after rop11 (W23 m ρ c) :=
  (dat11 (V23 m ρ) c).withArrays_eq_after_one launch11.win (A_eq11 _ c) 2 (by decide) rfl (lin11_value _ c)
    (StableHlo.binary_result ..)

end Cert.KernelIdeal.GcnValue

end
-- ==== Proof.Comb12.lean ====
import proofs.«156818_j43868795961418_1_alg».proof.Proof.Gen.KernelIdeal.Frame
import proofs.«156818_j43868795961418_1_alg».proof.Proof.CombLib
import Idealize.ShloMosaic.Lib.Tactic

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Comb12

open Comb

/-- At the first point the outputs are the combination of the point's blocks and its column sums (of squares) added to zero, -/
theorem outs_first (c : Dev nD) (t : Fin cfg12.N) (h0 : t.val % 20 = 0) :
    outsAt12 V c t.val t.isLt = (k12_pay3 (F := Ideal) (iblk12 V c 0 t) (iblk12 V c 2 t) (iblk12 V c 1 t) (iblk12 V c 3 t),
      k12_pay4 (iblk12 V c 0 t) (iblk12 V c 2 t) (iblk12 V c 1 t) (iblk12 V c 3 t) (k12_pay1 (F := Ideal)), k12_pay5 (iblk12 V c 0 t) (iblk12 V c 2 t) (iblk12 V c 1 t) (iblk12 V c 3 t) (k12_pay2 (F := Ideal))) := by
  rw [outsAt12_A V c t h0]
  unfold out12_A_4 out12_A_5 out12_A_6
  rw [View.read_writes_eq_canon _ _ _ (cover12_A_4 (F := Ideal) _ _ _ _ _ _ _ _ _ _ _ _ _ _ _ _ _ _ _ _ _), View.read_writes_eq_canon _ _ _ (cover12_A_5 (F := Ideal) _ _ _ _ _ _ _ _ _ _ _ _ _ _ _ _ _ _ _ _ _),
    View.read_writes_eq_canon _ _ _ (cover12_A_6 (F := Ideal) _ _ _ _ _ _ _ _ _ _ _ _ _ _ _ _ _ _ _ _ _)]
  unfold kernelRun12_A
  dsimp only
  try sl_unfold_words
  simp only [View.canon_cons_unit_zero (S := S5000x128) zeros2, View.canon_cons_unit_zero (S := S1x128) zeros2, View.readAt_eq_ld,
    Memref.IsWhole.read_unread, View.readCov_unit_zero (S := S1x128) _ zeros2, View.ld_unit_zero (S := S5000x128) zeros2,
    View.ld_unit_zero (S := S5000x1) zeros2, View.ld_unit_zero (S := S1x128) zeros2]

/-- at a later point added to what the point before left. -/
theorem outs_later (c : Dev nD) (t : Fin cfg12.N) (h0 : ¬t.val % 20 = 0) :
    outsAt12 V c t.val t.isLt = (k12_pay3 (F := Ideal) (iblk12 V c 0 t) (iblk12 V c 2 t) (iblk12 V c 1 t) (iblk12 V c 3 t),
      k12_pay4 (iblk12 V c 0 t) (iblk12 V c 2 t) (iblk12 V c 1 t) (iblk12 V c 3 t) (outsAt12 V c (t.val - 1) (Nat.lt_of_le_of_lt (Nat.sub_le _ _) t.isLt)).2.1,
      k12_pay5 (iblk12 V c 0 t) (iblk12 V c 2 t) (iblk12 V c 1 t) (iblk12 V c 3 t) (outsAt12 V c (t.val - 1) (Nat.lt_of_le_of_lt (Nat.sub_le _ _) t.isLt)).2.2) := by
  rw [outsAt12_B V c t h0]
  unfold out12_B_4 out12_B_5 out12_B_6
  rw [View.read_writes_eq_canon _ _ _ (cover12_B_4 (F := Ideal) _ _ _ _ _ _ _ _ _ _ _ _ _ _ _ _ _ _ _ _ _ _ _), View.read_writes_eq_canon _ _ _ (cover12_B_5 (F := Ideal) _ _ _ _ _ _ _ _ _ _ _ _ _ _ _ _ _ _ _ _ _ _ _),
    View.read_writes_eq_canon _ _ _ (cover12_B_6 (F := Ideal) _ _ _ _ _ _ _ _ _ _ _ _ _ _ _ _ _ _ _ _ _ _ _)]
  unfold kernelRun12_B
  dsimp only
  try sl_unfold_words
  simp only [View.canon_cons_unit_zero (S := S5000x128) zeros2, View.canon_cons_unit_zero (S := S1x128) zeros2, View.readAt_eq_ld, Memref.IsWhole.read_unread,
    View.ld_unit_zero (S := S5000x128) zeros2, View.ld_unit_zero (S := S5000x1) zeros2, View.ld_unit_zero (S := S1x128) zeros2]

theorem index_rows : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_4.index t (0 : Fin 2) = t.val ∧ win12_4.index t (1 : Fin 2) = 0 :=
  (by decide +kernel : ∀ t : Fin grid12.N, _)

theorem index_fixed : ∀ t : Fin cfg12.N,
    win12_3.index t (0 : Fin 2) = 0 ∧ win12_3.index t (1 : Fin 2) = 0
    ∧ win12_5.index t (0 : Fin 2) = 0 ∧ win12_5.index t (1 : Fin 2) = 0
    ∧ win12_6.index t (0 : Fin 2) = 0 ∧ win12_6.index t (1 : Fin 2) = 0 :=
  (by decide +kernel : ∀ t : Fin grid12.N, _)

/-- Row p of a row block at point t is row p + 5000 t of its array; the bias block is the whole bias. -/
theorem rd0 (c : Dev nD) (t : Fin cfg12.N) (p : Fin 5000) (q : Fin 128) (hr) :
    iblk12 V c 0 t (ix2 p q) = V c (Pipeline.arrRef spec12 0) (ix2 (⟨p.val + 5000 * t.val, hr⟩ : Fin 100000) q) := by
  obtain ⟨e0, e1, -⟩ := index_rows t
  unfold iblk12
  rw [View.read_apply]
  show V c (Pipeline.arrRef spec12 0) _ = _
  refine congrArg (V c (Pipeline.arrRef spec12 0)) (funext fun a => Fin.ext ?_)
  match a with
  | ⟨0, _⟩ => show win12_0.index t 0 * 5000 + 1 * p.val = p.val + 5000 * t.val; rw [e0]; omega
  | ⟨1, _⟩ => show win12_0.index t 1 * 128 + 1 * q.val = q.val; rw [e1]; omega

theorem rd1 (c : Dev nD) (t : Fin cfg12.N) (p : Fin 5000) (q : Fin 128) (hr) :
    iblk12 V c 1 t (ix2 p q) = V c (Pipeline.arrRef spec12 1) (ix2 (⟨p.val + 5000 * t.val, hr⟩ : Fin 100000) q) := by
  obtain ⟨-, -, e0, e1, -⟩ := index_rows t
  unfold iblk12
  rw [View.read_apply]
  show V c (Pipeline.arrRef spec12 1) _ = _
  refine congrArg (V c (Pipeline.arrRef spec12 1)) (funext fun a => Fin.ext ?_)
  match a with
  | ⟨0, _⟩ => show win12_1.index t 0 * 5000 + 1 * p.val = p.val + 5000 * t.val; rw [e0]; omega
  | ⟨1, _⟩ => show win12_1.index t 1 * 128 + 1 * q.val = q.val; rw [e1]; omega

theorem rd2 (c : Dev nD) (t : Fin cfg12.N) (p : Fin 5000) (hr) :
    iblk12 V c 2 t (ix2 p (0 : Fin 1)) = V c (Pipeline.arrRef spec12 2) (ix2 (⟨p.val + 5000 * t.val, hr⟩ : Fin 100000) (0 : Fin 1)) := by
  obtain ⟨-, -, -, -, e0, e1, -⟩ := index_rows t
  unfold iblk12
  rw [View.read_apply]
  show V c (Pipeline.arrRef spec12 2) _ = _
  refine congrArg (V c (Pipeline.arrRef spec12 2)) (funext fun a => Fin.ext ?_)
  match a with
  | ⟨0, _⟩ => show win12_2.index t 0 * 5000 + 1 * p.val = p.val + 5000 * t.val; rw [e0]; omega
  | ⟨1, _⟩ => show win12_2.index t 1 * 1 + 1 * 0 = 0; rewrite [e1]; rfl

theorem rd3 (c : Dev nD) (t : Fin cfg12.N) (q : Fin 128) :
    iblk12 V c 3 t (ix2 (0 : Fin 1) q) = V c (Pipeline.arrRef spec12 3) (ix2 (0 : Fin 1) q) := by
  obtain ⟨e0, e1, -⟩ := index_fixed t
  unfold iblk12
  rw [View.read_apply]
  show V c (Pipeline.arrRef spec12 3) _ = _
  refine congrArg (V c (Pipeline.arrRef spec12 3)) (funext fun a => Fin.ext ?_)
  match a with
  | ⟨0, _⟩ => show win12_3.index t 0 * 1 + 1 * 0 = 0; rewrite [e0]; rfl
  | ⟨1, _⟩ => show win12_3.index t 1 * 128 + 1 * q.val = q.val; rw [e1]; omega

def reg (c : Dev nD) : Region 128 cfg12.N (k12_pay3 (F := Ideal)) k12_pay4 k12_pay5 (k12_pay1 (F := Ideal)) (k12_pay2 (F := Ideal)) where
  Ag := V c (Pipeline.arrRef spec12 0)
  Ft := V c (Pipeline.arrRef spec12 1)
  Sn := V c (Pipeline.arrRef spec12 2)
  Bi := V c (Pipeline.arrRef spec12 3)
  aB n h := iblk12 V c 0 ⟨n, h⟩
  fB n h := iblk12 V c 1 ⟨n, h⟩
  sB n h := iblk12 V c 2 ⟨n, h⟩
  bB n h := iblk12 V c 3 ⟨n, h⟩
  outs := outsAt12 V c
  ha n h := rd0 V c ⟨n, h⟩
  hf n h := rd1 V c ⟨n, h⟩
  hs n h := rd2 V c ⟨n, h⟩
  hb n h := rd3 V c ⟨n, h⟩
  h0 h := outs_first V c ⟨0, h⟩ rfl
  hstep n h := outs_later V c ⟨n + 1, h⟩ (by have hN : cfg12.N = 20 := N_12; show ¬(n + 1) % 20 = 0; omega)

theorem flushed_c (c : Dev nD) (t : Fin cfg12.N) :
    (dat12 V c).flushed 4 t = ((cfg12.win 4).blk t).view.read (Elt Ideal) (reg V c).X := by
  have hN : cfg12.N = 20 := N_12
  show (cfg12.win 4).cut (grid12.coords t) ((dat12 V c).after 4 t) = _
  rw [after12_4]
  obtain ⟨-, -, -, -, -, -, e0, e1⟩ := index_rows t
  funext j
  obtain ⟨p, q, rfl⟩ : ∃ (p : Fin 5000) (q : Fin 128), j = ix2 p q := ⟨j 0, j 1, eq_ix2 j⟩
  have hr : p.val + 5000 * t.val < 100000 := by have := t.isLt; have := p.isLt; omega
  show (outsAt12 V c t.val t.isLt).1 (ix2 p q) = (reg V c).X (((cfg12.win 4).blk t).view.emb (ix2 p q))
  refine ((reg V c).c pay128 t.val t.isLt p q hr).trans (congrArg (reg V c).X (funext fun a => Fin.ext ?_))
  match a with
  | ⟨0, _⟩ => show p.val + 5000 * t.val = win12_4.index t 0 * 5000 + 1 * p.val; rw [e0]; omega
  | ⟨1, _⟩ => show q.val = win12_4.index t 1 * 128 + 1 * q.val; rw [e1]; omega

/-- Node row r lies in block r / 5000. -/
theorem cover_c (c : Dev nD) (i : S100000x128.Idx) :
    ∃ t : Fin cfg12.N, (cfg12.win 4).flush t = true ∧ i ∈ ((cfg12.win 4).blk t).view.set := by
  have hN : cfg12.N = 20 := N_12
  have h0 : (i 0 : Nat) < 100000 := (i 0).isLt
  have h1 : (i 1 : Nat) < 128 := (i 1).isLt
  obtain ⟨t, ht⟩ : ∃ t : Fin cfg12.N, t.val = (i 0 : Nat) / 5000 := ⟨⟨_, by rw [hN]; omega⟩, rfl⟩
  obtain ⟨-, -, -, -, -, -, e0, e1⟩ := index_rows t
  refine ⟨t, flush12_4 _, ?_⟩
  show i ∈ ((View.whole main_v175_0).slice (win12_4.rect t)).set
  rw [View.set_slice_whole, Rect.mem_set_unit]
  intro a
  match a with
  | ⟨0, _⟩ => show win12_4.index t 0 * 5000 ≤ (i 0 : Nat) ∧ (i 0 : Nat) < win12_4.index t 0 * 5000 + 5000; rw [e0]; omega
  | ⟨1, _⟩ => show win12_4.index t 1 * 128 ≤ (i 1 : Nat) ∧ (i 1 : Nat) < win12_4.index t 1 * 128 + 128; rw [e1]; omega

/-- After point 19 the sum accumulator is the column sums of the combination, -/
theorem flushed_sum (c : Dev nD) (t : Fin cfg12.N) (hf : (cfg12.win 5).flush t = true) :
    (dat12 V c).flushed 5 t = ((cfg12.win 5).blk t).view.read (Elt Ideal) (Cert.GcnSpec.colsum (reg V c).X) := by
  have hN : cfg12.N = 20 := N_12
  have h19 : t.val = 19 := by have := (flush12_5 t).mp hf; have := t.isLt; omega
  have key : ∀ (q : Fin 128) (j : S1x128.Idx), (j 1).val = q.val →
      (outsAt12 V c t.val t.isLt).2.1 (ix2 (0 : Fin 1) q) = Cert.GcnSpec.colsum (reg V c).X j := fun q j hj =>
    ((reg V c).sum pay128 hN t.val t.isLt h19 q).trans (colsum_at _ j q hj).symm
  show (cfg12.win 5).cut (grid12.coords t) ((dat12 V c).after 5 t) = _
  rw [after12_5]
  generalize (outsAt12 V c t.val t.isLt).2.1 = acc at key ⊢
  generalize Cert.GcnSpec.colsum (reg V c).X = G at key ⊢
  obtain ⟨-, -, e0, e1, -⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg12.win 5).blk t).view.emb (ix2 (0 : Fin 1) q))
  refine key q _ ?_
  show win12_5.index t 1 * 128 + 1 * q.val = q.val
  rw [e1]; omega

/-- and the other accumulator the column sums of its squares. -/
theorem flushed_sumsq (c : Dev nD) (t : Fin cfg12.N) (hf : (cfg12.win 6).flush t = true) :
    (dat12 V c).flushed 6 t = ((cfg12.win 6).blk t).view.read (Elt Ideal) (Cert.GcnSpec.colsumsq (reg V c).X) := by
  have hN : cfg12.N = 20 := N_12
  have h19 : t.val = 19 := by have := (flush12_6 t).mp hf; have := t.isLt; omega
  have key : ∀ (q : Fin 128) (j : S1x128.Idx), (j 1).val = q.val →
      (outsAt12 V c t.val t.isLt).2.2 (ix2 (0 : Fin 1) q) = Cert.GcnSpec.colsumsq (reg V c).X j := fun q j hj =>
    ((reg V c).sumsq pay128 hN t.val t.isLt h19 q).trans (colsumsq_at _ j q hj).symm
  show (cfg12.win 6).cut (grid12.coords t) ((dat12 V c).after 6 t) = _
  rw [after12_6]
  generalize (outsAt12 V c t.val t.isLt).2.2 = acc at key ⊢
  generalize Cert.GcnSpec.colsumsq (reg V c).X = G at key ⊢
  obtain ⟨-, -, -, -, e0, e1⟩ := index_fixed t
  funext j
  obtain ⟨z, q, rfl⟩ : ∃ (z : Fin 1) (q : Fin 128), j = ix2 z q := ⟨j 0, j 1, eq_ix2 j⟩
  obtain rfl : z = 0 := Subsingleton.elim _ _
  show acc (ix2 (0 : Fin 1) q) = G (((cfg12.win 6).blk t).view.emb (ix2 (0 : Fin 1) q))
  refine key q _ ?_
  show win12_6.index t 1 * 128 + 1 * q.val = q.val
  rw [e1]; omega

/-- The block of an accumulator at point 19 is its whole one-row array. -/
theorem cover_sum (c : Dev nD) (i : S1x128.Idx) :
    ∃ t : Fin cfg12.N, (cfg12.win 5).flush t = true ∧ i ∈ ((cfg12.win 5).blk t).view.set := by
  have hN : cfg12.N = 20 := N_12
  have h0 : (i 0 : Nat) < 1 := (i 0).isLt
  have h1 : (i 1 : Nat) < 128 := (i 1).isLt
  obtain ⟨t, ht⟩ : ∃ t : Fin cfg12.N, t.val = 19 := ⟨⟨19, by omega⟩, rfl⟩
  obtain ⟨-, -, e0, e1, -⟩ := index_fixed t
  refine ⟨t, (flush12_5 t).mpr (by omega), ?_⟩
  show i ∈ ((View.whole main_v175_1).slice (win12_5.rect t)).set
  rw [View.set_slice_whole, Rect.mem_set_unit]
  intro a
  match a with
  | ⟨0, _⟩ => show win12_5.index t 0 * 1 ≤ (i 0 : Nat) ∧ (i 0 : Nat) < win12_5.index t 0 * 1 + 1; rw [e0]; omega
  | ⟨1, _⟩ => show win12_5.index t 1 * 128 ≤ (i 1 : Nat) ∧ (i 1 : Nat) < win12_5.index t 1 * 128 + 128; rw [e1]; omega

theorem cover_sumsq (c : Dev nD) (i : S1x128.Idx) :
    ∃ t : Fin cfg12.N, (cfg12.win 6).flush t = true ∧ i ∈ ((cfg12.win 6).blk t).view.set := by
  have hN : cfg12.N = 20 := N_12
  have h0 : (i 0 : Nat) < 1 := (i 0).isLt
  have h1 : (i 1 : Nat) < 128 := (i 1).isLt
  obtain ⟨t, ht⟩ : ∃ t : Fin cfg12.N, t.val = 19 := ⟨⟨19, by omega⟩, rfl⟩
  obtain ⟨-, -, -, -, e0, e1⟩ := index_fixed t
  refine ⟨t, (flush12_6 t).mpr (by omega), ?_⟩
  show i ∈ ((View.whole main_v175_2).slice (win12_6.rect t)).set
  rw [View.set_slice_whole, Rect.mem_set_unit]
  intro a
  match a with
  | ⟨0, _⟩ => show win12_6.index t 0 * 1 ≤ (i 0 : Nat) ∧ (i 0 : Nat) < win12_6.index t 0 * 1 + 1; rw [e0]; omega
  | ⟨1, _⟩ => show win12_6.index t 1 * 128 ≤ (i 1 : Nat) ∧ (i 1 : Nat) < win12_6.index t 1 * 128 + 128; rw [e1]; omega

end Comb12

/-- After the region the first output is the combination of the four input arrays, -/
theorem comb12_c (c : Dev nD) :
    ((dat12 (F := Ideal) V c).arrAt 4 cfg12.N : S100000x128.Idx → EReal)
      = Cert.GcnSpec.comb (V c (Pipeline.arrRef spec12 0) : S100000x128.Idx → EReal) (V c (Pipeline.arrRef spec12 1) : S100000x128.Idx → EReal) (V c (Pipeline.arrRef spec12 2) : S100000x1.Idx → EReal) (V c (Pipeline.arrRef spec12 3) : S1x128.Idx → EReal) :=
  (dat12 V c).arrAt_eq_of_cover 4 (Comb12.reg V c).X (fun t _ => Comb12.flushed_c V c t) (Comb12.cover_c c)

/-- the second its column sums over all nodes, -/
theorem comb12_sum (c : Dev nD) :
    ((dat12 (F := Ideal) V c).arrAt 5 cfg12.N : S1x128.Idx → EReal)
      = Cert.GcnSpec.colsum (Cert.GcnSpec.comb (V c (Pipeline.arrRef spec12 0) : S100000x128.Idx → EReal) (V c (Pipeline.arrRef spec12 1) : S100000x128.Idx → EReal) (V c (Pipeline.arrRef spec12 2) : S100000x1.Idx → EReal) (V c (Pipeline.arrRef spec12 3) : S1x128.Idx → EReal)) :=
  (dat12 V c).arrAt_eq_of_cover 5 (Cert.GcnSpec.colsum (Comb12.reg V c).X) (Comb12.flushed_sum V c) (Comb12.cover_sum c)

/-- and the third the column sums of its squares. -/
theorem comb12_sumsq (c : Dev nD) :
    ((dat12 (F := Ideal) V c).arrAt 6 cfg12.N : S1x128.Idx → EReal)
      = Cert.GcnSpec.colsumsq (Cert.GcnSpec.comb (V c (Pipeline.arrRef spec12 0) : S100000x128.Idx → EReal) (V c (Pipeline.arrRef spec12 1) : S100000x128.Idx → EReal) (V c (Pipeline.arrRef spec12 2) : S100000x1.Idx → EReal) (V c (Pipeline.arrRef spec12 3) : S1x128.Idx → EReal)) :=
  (dat12 V c).arrAt_eq_of_cover 6 (Cert.GcnSpec.colsumsq (Comb12.reg V c).X) (Comb12.flushed_sumsq V c) (Comb12.cover_sumsq c)

end Cert.KernelIdeal.GcnValue

end
-- ==== Proof.Ops12.lean ====
import proofs.«156818_j43868795961418_1_alg».proof.Proof.OpsLib
import proofs.«156818_j43868795961418_1_alg».proof.Proof.Comb12

noncomputable section

namespace Cert.KernelIdeal.GcnValue

open Cert.KernelIdeal Cert.KernelIdeal.Gen Idealize.ShloMosaic Idealize.ShloMosaic.TcCoe Idealize.SL.Sem StableHlo Cert.GcnSpec

abbrev rop12 : List (HloOp τ sig (Elt Ideal)) :=
  [quaternary main_v174 main_v161 main_v27 main_v125 main_v175_0 comb,
   quaternary main_v174 main_v161 main_v27 main_v125 main_v175_1 fun a h s b => colsum (comb a h s b),
   quaternary main_v174 main_v161 main_v27 main_v125 main_v175_2 fun a h s b => colsumsq (comb a h s b)]

variable (m : (ℓ : Loc nD τ sig) → Buf (Elt Ideal) ℓ) (ρ : Dev nD → PrngReg)

/-- The four inputs are kept; the outputs hold the combination, its column sums and the column sums of its squares. -/
theorem W26_eq (c : Dev nD) : W26 (F := Ideal) m ρ c = after rop12 (W25 m ρ c) :=
  withArrays_eq_after_ops3 spec12 (by decide) launch12.win.arr_inj c _ _ _ _ _
    (fun w _ => ((dat12 _ c).arrAt_in w (by revert w; decide) _).trans (A_eq12 _ c w))
    (comb12_c (V25 m ρ) c) (comb12_sum (V25 m ρ) c) (comb12_sumsq (V25 m ρ) c)

end Cert.KernelIdeal.GcnValue

end
-- ==== Proof.Bn13.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem bn13_idx : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

set_option maxHeartbeats 2000000 in
/-- The block of point t is rows 5000·t … 5000·t + 4999 of the normalised and rectified features. -/
theorem bn13_flushed (c : Dev nD) (t : Fin cfg13.N) :
    (dat13 (F := Ideal) V c).flushed 5 t = ((cfg13.win 5).blk t).view.read (Elt Ideal)
      (Cert.GcnSpec.bnrelu (V c (Pipeline.arrRef spec13 0) : S100000x128.Idx → EReal)
        (V c (Pipeline.arrRef spec13 1) : S1x128.Idx → EReal) (V c (Pipeline.arrRef spec13 2) : S1x128.Idx → EReal)
        (V c (Pipeline.arrRef spec13 3) : S1x128.Idx → EReal) (V c (Pipeline.arrRef spec13 4) : S1x128.Idx → EReal)) := by
  show (cfg13.win 5).cut (grid13.coords t) ((dat13 V c).after 5 t) = _
  rw [after13_5]
  obtain ⟨e00, e01, e10, e11, e20, e21, e30, e31, e40, e41, e50, e51⟩ := bn13_idx t
  funext j
  rw [View.read_apply, cast_eq]
  show out13_5 (iblk13 V c 0 t) (iblk13 V c 1 t) (iblk13 V c 2 t) (iblk13 V c 3 t) (iblk13 V c 4 t)
    ((cfg13.win 5).xinj (grid13.coords t) j) = _
  refine out2_5_eq_bnrelu (V c (Pipeline.arrRef spec13 0)) (V c (Pipeline.arrRef spec13 1)) (V c (Pipeline.arrRef spec13 2))
    (V c (Pipeline.arrRef spec13 3)) (V c (Pipeline.arrRef spec13 4))
    (iblk13 V c 0 t) (iblk13 V c 1 t) (iblk13 V c 2 t) (iblk13 V c 3 t) (iblk13 V c 4 t)
    ((cfg13.win 5).xinj (grid13.coords t) j) (((cfg13.win 5).blk t).view.emb j) ?_ ?_
    (fun q => ?_) (fun q => ?_) (fun q => ?_) (fun q => ?_)
  · show win13_5.index t (1 : Fin 2) * 128 + 1 * (j 1).val = (j 1).val; omega
  · show V c (Pipeline.arrRef spec13 0) (((cfg13.win 0).blk t).view.emb ((cfg13.win 5).xinj (grid13.coords t) j))
      = V c (Pipeline.arrRef spec13 0) (((cfg13.win 5).blk t).view.emb j)
    refine congrArg _ (Shape.idx_ext₂ ?_ ?_)
    · show win13_0.index t (0 : Fin 2) * 5000 + 1 * (j 0).val = win13_5.index t (0 : Fin 2) * 5000 + 1 * (j 0).val; omega
    · show win13_0.index t (1 : Fin 2) * 128 + 1 * (j 1).val = win13_5.index t (1 : Fin 2) * 128 + 1 * (j 1).val; omega
  · show V c (Pipeline.arrRef spec13 1) (((cfg13.win 1).blk t).view.emb (ix2 (0 : Fin 1) q)) = V c (Pipeline.arrRef spec13 1) (ix2 (0 : Fin 1) q)
    refine congrArg _ (Shape.idx_ext₂ ?_ ?_)
    · show win13_1.index t (0 : Fin 2) * 1 + 1 * 0 = 0; omega
    · show win13_1.index t (1 : Fin 2) * 128 + 1 * q.val = q.val; omega
  · show V c (Pipeline.arrRef spec13 2) (((cfg13.win 2).blk t).view.emb (ix2 (0 : Fin 1) q)) = V c (Pipeline.arrRef spec13 2) (ix2 (0 : Fin 1) q)
    refine congrArg _ (Shape.idx_ext₂ ?_ ?_)
    · show win13_2.index t (0 : Fin 2) * 1 + 1 * 0 = 0; omega
    · show win13_2.index t (1 : Fin 2) * 128 + 1 * q.val = q.val; omega
  · show V c (Pipeline.arrRef spec13 3) (((cfg13.win 3).blk t).view.emb (ix2 (0 : Fin 1) q)) = V c (Pipeline.arrRef spec13 3) (ix2 (0 : Fin 1) q)
    refine congrArg _ (Shape.idx_ext₂ ?_ ?_)
    · show win13_3.index t (0 : Fin 2) * 1 + 1 * 0 = 0; omega
    · show win13_3.index t (1 : Fin 2) * 128 + 1 * q.val = q.val; omega
  · show V c (Pipeline.arrRef spec13 4) (((cfg13.win 4).blk t).view.emb (ix2 (0 : Fin 1) q)) = V c (Pipeline.arrRef spec13 4) (ix2 (0 : Fin 1) q)
    refine congrArg _ (Shape.idx_ext₂ ?_ ?_)
    · show win13_4.index t (0 : Fin 2) * 1 + 1 * 0 = 0; omega
    · show win13_4.index t (1 : Fin 2) * 128 + 1 * q.val = q.val; omega

theorem bn13_cover (i : S100000x128.Idx) :
    ∃ t : Fin cfg13.N, (cfg13.win 5).flush t = true ∧ i ∈ ((cfg13.win 5).blk t).view.set :=
  (row_block_cover (n := cfg13.N) (B := 5000) (by rw [show cfg13.N = 20 from N_13]) (by decide) win13_5.index
    (fun t => (bn13_idx t).2.2.2.2.2.2.2.2.2.2) i).imp fun t ht => ⟨flush13_5 t, mem_slice_whole_unit.mpr ht⟩

/-- The array the region leaves is the normalised and rectified features. -/
theorem bn13_value (c : Dev nD) :
    ((dat13 (F := Ideal) V c).arrAt 5 cfg13.N : S100000x128.Idx → EReal)
      = Cert.GcnSpec.bnrelu (V c (Pipeline.arrRef spec13 0) : S100000x128.Idx → EReal) (V c (Pipeline.arrRef spec13 1) : S1x128.Idx → EReal) (V c (Pipeline.arrRef spec13 2) : S1x128.Idx → EReal) (V c (Pipeline.arrRef spec13 3) : S1x128.Idx → EReal) (V c (Pipeline.arrRef spec13 4) : S1x128.Idx → EReal) :=
  (dat13 (F := Ideal) V c).arrAt_eq_of_cover 5 _ (fun t _ => bn13_flushed V c t) bn13_cover

end Cert.KernelIdeal.GcnValue

end
-- ==== Proof.Ops13.lean ====
import proofs.«156818_j43868795961418_1_alg».proof.Proof.Bn13
import proofs.«156818_j43868795961418_1_alg».proof.Proof.OpsLibLB

noncomputable section

namespace Cert.KernelIdeal.GcnValue

open Cert.KernelIdeal.Gen Idealize.ShloMosaic Idealize.SL.Sem

abbrev rop13 : List (HloOp τ sig (Elt Ideal)) :=
  [StableHlo.nary ![main_v175_0, main_v177, main_v181, main_v128, main_v131] main_v182
    fun v => Cert.GcnSpec.bnrelu (C := 128) (v 0) (v 1) (v 2) (v 3) (v 4)]

/-- Region 13 acts on the buffers as the single operation `main_v182 := bnrelu` of its five operands. -/
theorem W28_eq (m : (ℓ : Loc nD τ sig) → Buf (Elt Ideal) ℓ) (ρ : Dev nD → PrngReg) (c : Dev nD) :
    W28 (F := Ideal) m ρ c = StableHlo.after rop13 (W27 m ρ c) :=
  (dat13 (V27 m ρ) c).withArrays_eq_after_one launch13.win (A_eq13 _ c) 5 (by decide) rfl (bn13_value _ c)
    (StableHlo.nary_result ..)

end Cert.KernelIdeal.GcnValue

end
-- ==== Proof.Lin14.lean ====
import proofs.«156818_j43868795961418_1_alg».proof.Proof.LinBnLib

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lin14_idx : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- The block of point t is rows 5000·t … 5000·t + 4999 of the product of the features by the weights. -/
theorem lin14_flushed (c : Dev nD) (t : Fin cfg14.N) :
    (dat14 (F := Ideal) V c).flushed 2 t = ((cfg14.win 2).blk t).view.read (Elt Ideal)
      (Cert.GcnSpec.lin (V c (Pipeline.arrRef spec14 0) : S100000x128.Idx → EReal) (V c (Pipeline.arrRef spec14 1) : S128x40.Idx → EReal)) := by
  show (cfg14.win 2).cut (grid14.coords t) ((dat14 (F := Ideal) V c).after 2 t) = _
  rw [after14_2]
  obtain ⟨a0, a1, b0, b1, o0, o1⟩ := lin14_idx t
  funext j
  show out14_2 (iblk14 V c 0 t) (iblk14 V c 1 t) ((cfg14.win 2).xinj (grid14.coords t) j)
    = Cert.GcnSpec.lin (V c (Pipeline.arrRef spec14 0) : S100000x128.Idx → EReal) (V c (Pipeline.arrRef spec14 1) : S128x40.Idx → EReal) (((cfg14.win 2).blk t).view.emb j)
  refine out6_2_eq_lin (V c (Pipeline.arrRef spec14 0)) (V c (Pipeline.arrRef spec14 1)) (iblk14 V c 0 t) (iblk14 V c 1 t)
    ((cfg14.win 2).xinj (grid14.coords t) j) (((cfg14.win 2).blk t).view.emb j) (fun k => ?_) (fun k => ?_)
  · unfold iblk14
    rw [View.read_apply]
    refine congrArg (V c (Pipeline.arrRef spec14 0) : S100000x128.Idx → EReal) (Shape.idx_ext₂ ?_ ?_)
    · show win14_0.index t (0 : Fin 2) * 5000 + 1 * (j 0).val = win14_2.index t (0 : Fin 2) * 5000 + 1 * (j 0).val; omega
    · show win14_0.index t (1 : Fin 2) * 128 + 1 * k.val = k.val; omega
  · unfold iblk14
    rw [View.read_apply]
    refine congrArg (V c (Pipeline.arrRef spec14 1) : S128x40.Idx → EReal) (Shape.idx_ext₂ ?_ ?_)
    · show win14_1.index t (0 : Fin 2) * 128 + 1 * k.val = k.val; omega
    · show win14_1.index t (1 : Fin 2) * 40 + 1 * (j 1).val = win14_2.index t (1 : Fin 2) * 40 + 1 * (j 1).val; omega

theorem lin14_cover (i : S100000x40.Idx) :
    ∃ t : Fin cfg14.N, (cfg14.win 2).flush t = true ∧ i ∈ ((cfg14.win 2).blk t).view.set :=
  (row_block_cover (n := cfg14.N) (B := 5000) (by rw [show cfg14.N = 20 from N_14]) (by decide) win14_2.index
    (fun t => (lin14_idx t).2.2.2.2) i).imp fun t ht => ⟨flush14_2 t, mem_slice_whole_unit.mpr ht⟩

/-- The array the region leaves is the features times the weights. -/
theorem lin14_value (c : Dev nD) :
    ((dat14 (F := Ideal) V c).arrAt 2 cfg14.N : S100000x40.Idx → EReal)
      = Cert.GcnSpec.lin (V c (Pipeline.arrRef spec14 0) : S100000x128.Idx → EReal) (V c (Pipeline.arrRef spec14 1) : S128x40.Idx → EReal) :=
  (dat14 (F := Ideal) V c).arrAt_eq_of_cover 2 _ (fun t _ => lin14_flushed V c t) (lin14_cover)

end Cert.KernelIdeal.GcnValue

end
-- ==== Proof.Ops14.lean ====
import proofs.«156818_j43868795961418_1_alg».proof.Proof.Lin14
import proofs.«156818_j43868795961418_1_alg».proof.Proof.OpsLibLB

noncomputable section

namespace Cert.KernelIdeal.GcnValue

open Cert.KernelIdeal.Gen Idealize.ShloMosaic Idealize.SL.Sem

abbrev rop14 : List (HloOp τ sig (Elt Ideal)) :=
  [StableHlo.binary main_v182 main_v184 main_v185 (Cert.GcnSpec.lin (K := 128) (C := 40))]

/-- Region 14 acts on the buffers as the single operation `main_v185 := lin main_v182 main_v184`. -/
theorem W30_eq (m : (ℓ : Loc nD τ sig) → Buf (Elt Ideal) ℓ) (ρ : Dev nD → PrngReg) (c : Dev nD) :
    W30 (F := Ideal) m ρ c = StableHlo.after rop14 (W29 m ρ c) :=
  (dat14 (V29 m ρ) c).withArrays_eq_after_one launch14.win (A_eq14 _ c) 2 (by decide) rfl (lin14_value _ c)
    (StableHlo.binary_result ..)

end Cert.KernelIdeal.GcnValue

end
-- ==== Proof.Comb15.lean ====
import proofs.«156818_j43868795961418_1_alg».proof.Proof.Gen.KernelIdeal.Frame
import proofs.«156818_j43868795961418_1_alg».proof.Proof.CombLib
import Idealize.ShloMosaic.Lib.Tactic

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Comb15

open Comb

/-- At the first point the outputs are the combination of the point's blocks and its column sums (of squares) added to zero, -/
theorem outs_first (c : Dev nD) (t : Fin cfg15.N) (h0 : t.val % 20 = 0) :
    outsAt15 V c t.val t.isLt = (k15_pay3 (F := Ideal) (iblk15 V c 0 t) (iblk15 V c 2 t) (iblk15 V c 1 t) (iblk15 V c 3 t),
      k15_pay4 (iblk15 V c 0 t) (iblk15 V c 2 t) (iblk15 V c 1 t) (iblk15 V c 3 t) (k15_pay1 (F := Ideal)), k15_pay5 (iblk15 V c 0 t) (iblk15 V c 2 t) (iblk15 V c 1 t) (iblk15 V c 3 t) (k15_pay2 (F := Ideal))) := by
  rw [outsAt15_A V c t h0]
  unfold out15_A_4 out15_A_5 out15_A_6
  rw [View.read_writes_eq_canon _ _ _ (cover15_A_4 (F := Ideal) _ _ _ _ _ _ _ _ _ _ _ _ _ _ _ _ _ _ _ _ _), View.read_writes_eq_canon _ _ _ (cover15_A_5 (F := Ideal) _ _ _ _ _ _ _ _ _ _ _ _ _ _ _ _ _ _ _ _ _),
    View.read_writes_eq_canon _ _ _ (cover15_A_6 (F := Ideal) _ _ _ _ _ _ _ _ _ _ _ _ _ _ _ _ _ _ _ _ _)]
  unfold kernelRun15_A
  dsimp only
  try sl_unfold_words
  simp only [View.canon_cons_unit_zero (S := S5000x40) zeros2, View.canon_cons_unit_zero (S := S1x40) zeros2, View.readAt_eq_ld,
    Memref.IsWhole.read_unread, View.readCov_unit_zero (S := S1x40) _ zeros2, View.ld_unit_zero (S := S5000x40) zeros2,
    View.ld_unit_zero (S := S5000x1) zeros2, View.ld_unit_zero (S := S1x40) zeros2]

/-- at a later point added to what the point before left. -/
theorem outs_later (c : Dev nD) (t : Fin cfg15.N) (h0 : ¬t.val % 20 = 0) :
    outsAt15 V c t.val t.isLt = (k15_pay3 (F := Ideal) (iblk15 V c 0 t) (iblk15 V c 2 t) (iblk15 V c 1 t) (iblk15 V c 3 t),
      k15_pay4 (iblk15 V c 0 t) (iblk15 V c 2 t) (iblk15 V c 1 t) (iblk15 V c 3 t) (outsAt15 V c (t.val - 1) (Nat.lt_of_le_of_lt (Nat.sub_le _ _) t.isLt)).2.1,
      k15_pay5 (iblk15 V c 0 t) (iblk15 V c 2 t) (iblk15 V c 1 t) (iblk15 V c 3 t) (outsAt15 V c (t.val - 1) (Nat.lt_of_le_of_lt (Nat.sub_le _ _) t.isLt)).2.2) := by
  rw [outsAt15_B V c t h0]
  unfold out15_B_4 out15_B_5 out15_B_6
  rw [View.read_writes_eq_canon _ _ _ (cover15_B_4 (F := Ideal) _ _ _ _ _ _ _ _ _ _ _ _ _ _ _ _ _ _ _ _ _ _ _), View.read_writes_eq_canon _ _ _ (cover15_B_5 (F := Ideal) _ _ _ _ _ _ _ _ _ _ _ _ _ _ _ _ _ _ _ _ _ _ _),
    View.read_writes_eq_canon _ _ _ (cover15_B_6 (F := Ideal) _ _ _ _ _ _ _ _ _ _ _ _ _ _ _ _ _ _ _ _ _ _ _)]
  unfold kernelRun15_B
  dsimp only
  try sl_unfold_words
  simp only [View.canon_cons_unit_zero (S := S5000x40) zeros2, View.canon_cons_unit_zero (S := S1x40) zeros2, View.readAt_eq_ld, Memref.IsWhole.read_unread,
    View.ld_unit_zero (S := S5000x40) zeros2, View.ld_unit_zero (S := S5000x1) zeros2, View.ld_unit_zero (S := S1x40) zeros2]

theorem index_rows : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_4.index t (0 : Fin 2) = t.val ∧ win15_4.index t (1 : Fin 2) = 0 :=
  (by decide +kernel : ∀ t : Fin grid15.N, _)

theorem index_fixed : ∀ t : Fin cfg15.N,
    win15_3.index t (0 : Fin 2) = 0 ∧ win15_3.index t (1 : Fin 2) = 0
    ∧ win15_5.index t (0 : Fin 2) = 0 ∧ win15_5.index t (1 : Fin 2) = 0
    ∧ win15_6.index t (0 : Fin 2) = 0 ∧ win15_6.index t (1 : Fin 2) = 0 :=
  (by decide +kernel : ∀ t : Fin grid15.N, _)

/-- Row p of a row block at point t is row p + 5000 t of its array; the bias block is the whole bias. -/
theorem rd0 (c : Dev nD) (t : Fin cfg15.N) (p : Fin 5000) (q : Fin 40) (hr) :
    iblk15 V c 0 t (ix2 p q) = V c (Pipeline.arrRef spec15 0) (ix2 (⟨p.val + 5000 * t.val, hr⟩ : Fin 100000) q) := by
  obtain ⟨e0, e1, -⟩ := index_rows t
  unfold iblk15
  rw [View.read_apply]
  show V c (Pipeline.arrRef spec15 0) _ = _
  refine congrArg (V c (Pipeline.arrRef spec15 0)) (funext fun a => Fin.ext ?_)
  match a with
  | ⟨0, _⟩ => show win15_0.index t 0 * 5000 + 1 * p.val = p.val + 5000 * t.val; rw [e0]; omega
  | ⟨1, _⟩ => show win15_0.index t 1 * 40 + 1 * q.val = q.val; rw [e1]; omega

theorem rd1 (c : Dev nD) (t : Fin cfg15.N) (p : Fin 5000) (q : Fin 40) (hr) :
    iblk15 V c 1 t (ix2 p q) = V c (Pipeline.arrRef spec15 1) (ix2 (⟨p.val + 5000 * t.val, hr⟩ : Fin 100000) q) := by
  obtain ⟨-, -, e0, e1, -⟩ := index_rows t
  unfold iblk15
  rw [View.read_apply]
  show V c (Pipeline.arrRef spec15 1) _ = _
  refine congrArg (V c (Pipeline.arrRef spec15 1)) (funext fun a => Fin.ext ?_)
  match a with
  | ⟨0, _⟩ => show win15_1.index t 0 * 5000 + 1 * p.val = p.val + 5000 * t.val; rw [e0]; omega
  | ⟨1, _⟩ => show win15_1.index t 1 * 40 + 1 * q.val = q.val; rw [e1]; omega

theorem rd2 (c : Dev nD) (t : Fin cfg15.N) (p : Fin 5000) (hr) :
    iblk15 V c 2 t (ix2 p (0 : Fin 1)) = V c (Pipeline.arrRef spec15 2) (ix2 (⟨p.val + 5000 * t.val, hr⟩ : Fin 100000) (0 : Fin 1)) := by
  obtain ⟨-, -, -, -, e0, e1, -⟩ := index_rows t
  unfold iblk15
  rw [View.read_apply]
  show V c (Pipeline.arrRef spec15 2) _ = _
  refine congrArg (V c (Pipeline.arrRef spec15 2)) (funext fun a => Fin.ext ?_)
  match a with
  | ⟨0, _⟩ => show win15_2.index t 0 * 5000 + 1 * p.val = p.val + 5000 * t.val; rw [e0]; omega
  | ⟨1, _⟩ => show win15_2.index t 1 * 1 + 1 * 0 = 0; rewrite [e1]; rfl

theorem rd3 (c : Dev nD) (t : Fin cfg15.N) (q : Fin 40) :
    iblk15 V c 3 t (ix2 (0 : Fin 1) q) = V c (Pipeline.arrRef spec15 3) (ix2 (0 : Fin 1) q) := by
  obtain ⟨e0, e1, -⟩ := index_fixed t
  unfold iblk15
  rw [View.read_apply]
  show V c (Pipeline.arrRef spec15 3) _ = _
  refine congrArg (V c (Pipeline.arrRef spec15 3)) (funext fun a => Fin.ext ?_)
  match a with
  | ⟨0, _⟩ => show win15_3.index t 0 * 1 + 1 * 0 = 0; rewrite [e0]; rfl
  | ⟨1, _⟩ => show win15_3.index t 1 * 40 + 1 * q.val = q.val; rw [e1]; omega

def reg (c : Dev nD) : Region 40 cfg15.N (k15_pay3 (F := Ideal)) k15_pay4 k15_pay5 (k15_pay1 (F := Ideal)) (k15_pay2 (F := Ideal)) where
  Ag := V c (Pipeline.arrRef spec15 0)
  Ft := V c (Pipeline.arrRef spec15 1)
  Sn := V c (Pipeline.arrRef spec15 2)
  Bi := V c (Pipeline.arrRef spec15 3)
  aB n h := iblk15 V c 0 ⟨n, h⟩
  fB n h := iblk15 V c 1 ⟨n, h⟩
  sB n h := iblk15 V c 2 ⟨n, h⟩
  bB n h := iblk15 V c 3 ⟨n, h⟩
  outs := outsAt15 V c
  ha n h := rd0 V c ⟨n, h⟩
  hf n h := rd1 V c ⟨n, h⟩
  hs n h := rd2 V c ⟨n, h⟩
  hb n h := rd3 V c ⟨n, h⟩
  h0 h := outs_first V c ⟨0, h⟩ rfl
  hstep n h := outs_later V c ⟨n + 1, h⟩ (by have hN : cfg15.N = 20 := N_15; show ¬(n + 1) % 20 = 0; omega)

theorem flushed_c (c : Dev nD) (t : Fin cfg15.N) :
    (dat15 V c).flushed 4 t = ((cfg15.win 4).blk t).view.read (Elt Ideal) (reg V c).X := by
  have hN : cfg15.N = 20 := N_15
  show (cfg15.win 4).cut (grid15.coords t) ((dat15 V c).after 4 t) = _
  rw [after15_4]
  obtain ⟨-, -, -, -, -, -, e0, e1⟩ := index_rows t
  funext j
  obtain ⟨p, q, rfl⟩ : ∃ (p : Fin 5000) (q : Fin 40), j = ix2 p q := ⟨j 0, j 1, eq_ix2 j⟩
  have hr : p.val + 5000 * t.val < 100000 := by have := t.isLt; have := p.isLt; omega
  show (outsAt15 V c t.val t.isLt).1 (ix2 p q) = (reg V c).X (((cfg15.win 4).blk t).view.emb (ix2 p q))
  refine ((reg V c).c pay40 t.val t.isLt p q hr).trans (congrArg (reg V c).X (funext fun a => Fin.ext ?_))
  match a with
  | ⟨0, _⟩ => show p.val + 5000 * t.val = win15_4.index t 0 * 5000 + 1 * p.val; rw [e0]; omega
  | ⟨1, _⟩ => show q.val = win15_4.index t 1 * 40 + 1 * q.val; rw [e1]; omega

/-- Node row r lies in block r / 5000. -/
theorem cover_c (c : Dev nD) (i : S100000x40.Idx) :
    ∃ t : Fin cfg15.N, (cfg15.win 4).flush t = true ∧ i ∈ ((cfg15.win 4).blk t).view.set := by
  have hN : cfg15.N = 20 := N_15
  have h0 : (i 0 : Nat) < 100000 := (i 0).isLt
  have h1 : (i 1 : Nat) < 40 := (i 1).isLt
  obtain ⟨t, ht⟩ : ∃ t : Fin cfg15.N, t.val = (i 0 : Nat) / 5000 := ⟨⟨_, by rw [hN]; omega⟩, rfl⟩
  obtain ⟨-, -, -, -, -, -, e0, e1⟩ := index_rows t
  refine ⟨t, flush15_4 _, ?_⟩
  show i ∈ ((View.whole main_v199_0).slice (win15_4.rect t)).set
  rw [View.set_slice_whole, Rect.mem_set_unit]
  intro a
  match a with
  | ⟨0, _⟩ => show win15_4.index t 0 * 5000 ≤ (i 0 : Nat) ∧ (i 0 : Nat) < win15_4.index t 0 * 5000 + 5000; rw [e0]; omega
  | ⟨1, _⟩ => show win15_4.index t 1 * 40 ≤ (i 1 : Nat) ∧ (i 1 : Nat) < win15_4.index t 1 * 40 + 40; rw [e1]; omega

/-- After point 19 the sum accumulator is the column sums of the combination, -/
theorem flushed_sum (c : Dev nD) (t : Fin cfg15.N) (hf : (cfg15.win 5).flush t = true) :
    (dat15 V c).flushed 5 t = ((cfg15.win 5).blk t).view.read (Elt Ideal) (Cert.GcnSpec.colsum (reg V c).X) := by
  have hN : cfg15.N = 20 := N_15
  have h19 : t.val = 19 := by have := (flush15_5 t).mp hf; have := t.isLt; omega
  have key : ∀ (q : Fin 40) (j : S1x40.Idx), (j 1).val = q.val →
      (outsAt15 V c t.val t.isLt).2.1 (ix2 (0 : Fin 1) q) = Cert.GcnSpec.colsum (reg V c).X j := fun q j hj =>
    ((reg V c).sum pay40 hN t.val t.isLt h19 q).trans (colsum_at _ j q hj).symm
  show (cfg15.win 5).cut (grid15.coords t) ((dat15 V c).after 5 t) = _
  rw [after15_5]
  generalize (outsAt15 V c t.val t.isLt).2.1 = acc at key ⊢
  generalize Cert.GcnSpec.colsum (reg V c).X = G at key ⊢
  obtain ⟨-, -, e0, e1, -⟩ := index_fixed t
  funext j
  obtain ⟨z, q, rfl⟩ : ∃ (z : Fin 1) (q : Fin 40), j = ix2 z q := ⟨j 0, j 1, eq_ix2 j⟩
  obtain rfl : z = 0 := Subsingleton.elim _ _
  show acc (ix2 (0 : Fin 1) q) = G (((cfg15.win 5).blk t).view.emb (ix2 (0 : Fin 1) q))
  refine key q _ ?_
  show win15_5.index t 1 * 40 + 1 * q.val = q.val
  rw [e1]; omega

/-- and the other accumulator the column sums of its squares. -/
theorem flushed_sumsq (c : Dev nD) (t : Fin cfg15.N) (hf : (cfg15.win 6).flush t = true) :
    (dat15 V c).flushed 6 t = ((cfg15.win 6).blk t).view.read (Elt Ideal) (Cert.GcnSpec.colsumsq (reg V c).X) := by
  have hN : cfg15.N = 20 := N_15
  have h19 : t.val = 19 := by have := (flush15_6 t).mp hf; have := t.isLt; omega
  have key : ∀ (q : Fin 40) (j : S1x40.Idx), (j 1).val = q.val →
      (outsAt15 V c t.val t.isLt).2.2 (ix2 (0 : Fin 1) q) = Cert.GcnSpec.colsumsq (reg V c).X j := fun q j hj =>
    ((reg V c).sumsq pay40 hN t.val t.isLt h19 q).trans (colsumsq_at _ j q hj).symm
  show (cfg15.win 6).cut (grid15.coords t) ((dat15 V c).after 6 t) = _
  rw [after15_6]
  generalize (outsAt15 V c t.val t.isLt).2.2 = acc at key ⊢
  generalize Cert.GcnSpec.colsumsq (reg V c).X = G at key ⊢
  obtain ⟨-, -, -, -, e0, e1⟩ := index_fixed t
  funext j
  obtain ⟨z, q, rfl⟩ : ∃ (z : Fin 1) (q : Fin 40), j = ix2 z q := ⟨j 0, j 1, eq_ix2 j⟩
  obtain rfl : z = 0 := Subsingleton.elim _ _
  show acc (ix2 (0 : Fin 1) q) = G (((cfg15.win 6).blk t).view.emb (ix2 (0 : Fin 1) q))
  refine key q _ ?_
  show win15_6.index t 1 * 40 + 1 * q.val = q.val
  rw [e1]; omega

/-- The block of an accumulator at point 19 is its whole one-row array. -/
theorem cover_sum (c : Dev nD) (i : S1x40.Idx) :
    ∃ t : Fin cfg15.N, (cfg15.win 5).flush t = true ∧ i ∈ ((cfg15.win 5).blk t).view.set := by
  have hN : cfg15.N = 20 := N_15
  have h0 : (i 0 : Nat) < 1 := (i 0).isLt
  have h1 : (i 1 : Nat) < 40 := (i 1).isLt
  obtain ⟨t, ht⟩ : ∃ t : Fin cfg15.N, t.val = 19 := ⟨⟨19, by omega⟩, rfl⟩
  obtain ⟨-, -, e0, e1, -⟩ := index_fixed t
  refine ⟨t, (flush15_5 t).mpr (by omega), ?_⟩
  show i ∈ ((View.whole main_v199_1).slice (win15_5.rect t)).set
  rw [View.set_slice_whole, Rect.mem_set_unit]
  intro a
  match a with
  | ⟨0, _⟩ => show win15_5.index t 0 * 1 ≤ (i 0 : Nat) ∧ (i 0 : Nat) < win15_5.index t 0 * 1 + 1; rw [e0]; omega
  | ⟨1, _⟩ => show win15_5.index t 1 * 40 ≤ (i 1 : Nat) ∧ (i 1 : Nat) < win15_5.index t 1 * 40 + 40; rw [e1]; omega

theorem cover_sumsq (c : Dev nD) (i : S1x40.Idx) :
    ∃ t : Fin cfg15.N, (cfg15.win 6).flush t = true ∧ i ∈ ((cfg15.win 6).blk t).view.set := by
  have hN : cfg15.N = 20 := N_15
  have h0 : (i 0 : Nat) < 1 := (i 0).isLt
  have h1 : (i 1 : Nat) < 40 := (i 1).isLt
  obtain ⟨t, ht⟩ : ∃ t : Fin cfg15.N, t.val = 19 := ⟨⟨19, by omega⟩, rfl⟩
  obtain ⟨-, -, -, -, e0, e1⟩ := index_fixed t
  refine ⟨t, (flush15_6 t).mpr (by omega), ?_⟩
  show i ∈ ((View.whole main_v199_2).slice (win15_6.rect t)).set
  rw [View.set_slice_whole, Rect.mem_set_unit]
  intro a
  match a with
  | ⟨0, _⟩ => show win15_6.index t 0 * 1 ≤ (i 0 : Nat) ∧ (i 0 : Nat) < win15_6.index t 0 * 1 + 1; rw [e0]; omega
  | ⟨1, _⟩ => show win15_6.index t 1 * 40 ≤ (i 1 : Nat) ∧ (i 1 : Nat) < win15_6.index t 1 * 40 + 40; rw [e1]; omega

end Comb15

/-- After the region the first output is the combination of the four input arrays, -/
theorem comb15_c (c : Dev nD) :
    ((dat15 (F := Ideal) V c).arrAt 4 cfg15.N : S100000x40.Idx → EReal)
      = Cert.GcnSpec.comb (V c (Pipeline.arrRef spec15 0) : S100000x40.Idx → EReal) (V c (Pipeline.arrRef spec15 1) : S100000x40.Idx → EReal) (V c (Pipeline.arrRef spec15 2) : S100000x1.Idx → EReal) (V c (Pipeline.arrRef spec15 3) : S1x40.Idx → EReal) :=
  (dat15 V c).arrAt_eq_of_cover 4 (Comb15.reg V c).X (fun t _ => Comb15.flushed_c V c t) (Comb15.cover_c c)

/-- the second its column sums over all nodes, -/
theorem comb15_sum (c : Dev nD) :
    ((dat15 (F := Ideal) V c).arrAt 5 cfg15.N : S1x40.Idx → EReal)
      = Cert.GcnSpec.colsum (Cert.GcnSpec.comb (V c (Pipeline.arrRef spec15 0) : S100000x40.Idx → EReal) (V c (Pipeline.arrRef spec15 1) : S100000x40.Idx → EReal) (V c (Pipeline.arrRef spec15 2) : S100000x1.Idx → EReal) (V c (Pipeline.arrRef spec15 3) : S1x40.Idx → EReal)) :=
  (dat15 V c).arrAt_eq_of_cover 5 (Cert.GcnSpec.colsum (Comb15.reg V c).X) (Comb15.flushed_sum V c) (Comb15.cover_sum c)

/-- and the third the column sums of its squares. -/
theorem comb15_sumsq (c : Dev nD) :
    ((dat15 (F := Ideal) V c).arrAt 6 cfg15.N : S1x40.Idx → EReal)
      = Cert.GcnSpec.colsumsq (Cert.GcnSpec.comb (V c (Pipeline.arrRef spec15 0) : S100000x40.Idx → EReal) (V c (Pipeline.arrRef spec15 1) : S100000x40.Idx → EReal) (V c (Pipeline.arrRef spec15 2) : S100000x1.Idx → EReal) (V c (Pipeline.arrRef spec15 3) : S1x40.Idx → EReal)) :=
  (dat15 V c).arrAt_eq_of_cover 6 (Cert.GcnSpec.colsumsq (Comb15.reg V c).X) (Comb15.flushed_sumsq V c) (Comb15.cover_sumsq c)

end Cert.KernelIdeal.GcnValue

end
-- ==== Proof.Ops15.lean ====
import proofs.«156818_j43868795961418_1_alg».proof.Proof.OpsLib
import proofs.«156818_j43868795961418_1_alg».proof.Proof.Comb15

noncomputable section

namespace Cert.KernelIdeal.GcnValue

open Cert.KernelIdeal Cert.KernelIdeal.Gen Idealize.ShloMosaic Idealize.ShloMosaic.TcCoe Idealize.SL.Sem StableHlo Cert.GcnSpec

abbrev rop15 : List (HloOp τ sig (Elt Ideal)) :=
  [quaternary main_v198 main_v185 main_v27 main_v134 main_v199_0 comb,
   quaternary main_v198 main_v185 main_v27 main_v134 main_v199_1 fun a h s b => colsum (comb a h s b),
   quaternary main_v198 main_v185 main_v27 main_v134 main_v199_2 fun a h s b => colsumsq (comb a h s b)]

variable (m : (ℓ : Loc nD τ sig) → Buf (Elt Ideal) ℓ) (ρ : Dev nD → PrngReg)

/-- The four inputs are kept; the outputs hold the combination, its column sums and the column sums of its squares. -/
theorem W32_eq (c : Dev nD) : W32 (F := Ideal) m ρ c = after rop15 (W31 m ρ c) :=
  withArrays_eq_after_ops3 spec15 (by decide) launch15.win.arr_inj c _ _ _ _ _
    (fun w _ => ((dat15 _ c).arrAt_in w (by revert w; decide) _).trans (A_eq15 _ c w))
    (comb15_c (V31 m ρ) c) (comb15_sum (V31 m ρ) c) (comb15_sumsq (V31 m ρ) c)

end Cert.KernelIdeal.GcnValue

end
-- ==== Proof.KWalkB.lean ====
import proofs.«156818_j43868795961418_1_alg».proof.Proof.Gen.KernelIdeal.Frame
import proofs.«156818_j43868795961418_1_alg».proof.Proof.GcnSpec
import proofs.«156818_j43868795961418_1_alg».proof.Proof.Tower
import proofs.«156818_j43868795961418_1_alg».proof.Proof.KWalkKeep
import proofs.«156818_j43868795961418_1_alg».proof.Proof.Ops8
import proofs.«156818_j43868795961418_1_alg».proof.Proof.Ops9
import proofs.«156818_j43868795961418_1_alg».proof.Proof.Ops10
import proofs.«156818_j43868795961418_1_alg».proof.Proof.Ops11
import proofs.«156818_j43868795961418_1_alg».proof.Proof.Ops12
import proofs.«156818_j43868795961418_1_alg».proof.Proof.Ops13
import proofs.«156818_j43868795961418_1_alg».proof.Proof.Ops14
import proofs.«156818_j43868795961418_1_alg».proof.Proof.Ops15
import Idealize.ShloMosaic.Lib.StableHlo.Run

set_option maxRecDepth 16384

noncomputable section

namespace Cert.KernelIdeal.GcnValue

open Cert.KernelIdeal Cert.KernelIdeal.Gen Cert.Tower Idealize.ShloMosaic Idealize.ShloMosaic.TcCoe Idealize.SL.Sem Idealize.ShloMosaic.StableHlo

section Walk
variable (V : Valuation τ sig (Elt Ideal))

theorem rop10_read : after rop10 V (Proc.devRef .tc main_v158)
    = Cert.GcnSpec.bnrelu (V (Proc.devRef .tc main_v151_0)) (V (Proc.devRef .tc main_v153)) (V (Proc.devRef .tc main_v157))
        (V (Proc.devRef .tc main_v119)) (V (Proc.devRef .tc main_v122)) := by
  after_results_simp <;> rfl

abbrev L1B : Valuation τ sig (Elt Ideal) :=
  after rop10 (after (hostOps10 (F := Ideal)) (after rop9 (after (hostOps9 (F := Ideal)) (after rop8 V))))

theorem L1B_value (b g bt : FVec Ideal S128 .f32) (sn : FVec Ideal S100000 .f32)
    (h27 : V (Proc.devRef .tc main_v27) = broadcastInDim S100000x1 ![0] bcast_S100000_S100000x1_0 sn)
    (h30 : V (Proc.devRef .tc main_v116) = broadcastInDim S1x128 ![1] bcast_S128_S1x128_1 b)
    (h33 : V (Proc.devRef .tc main_v119) = broadcastInDim S1x128 ![1] bcast_S128_S1x128_1 g)
    (h36 : V (Proc.devRef .tc main_v122) = broadcastInDim S1x128 ![1] bcast_S128_S1x128_1 bt) :
    L1B V (Proc.devRef .tc main_v158)
      = kLayer (V (Proc.devRef .tc main_arg0)) (V (Proc.devRef .tc main_v136)) b g bt
          (V (Proc.devRef .tc main_v1)) (V (Proc.devRef .tc main_v3)) (V (Proc.devRef .tc main_v25)) sn := by
  refine (rop10_read _).trans ?_
  after_results_simp
  rw [h27, h30, h33, h36]
  rfl

abbrev wrL1B : List (Ref sig .tc) :=
  [main_v137,
   main_c_17, main_v138, main_v139, main_c_18, main_v140, main_v141, main_v142, main_v143, main_v144, main_v145, main_v146,
   main_v147, main_cst_19, main_v148, main_v149, main_v150,
   main_v151_0, main_v151_1, main_v151_2,
   main_cst_20, main_v152, main_v153, main_cst_21, main_v154, main_v155, main_v156, main_v157,
   main_v158]

theorem wrL1B_rop8 : WritesIn wrL1B rop8 := by writes_in
theorem wrL1B_hostOps9 : WritesIn wrL1B (hostOps9 (F := Ideal)) := by writes_in
theorem wrL1B_rop9 : WritesIn wrL1B rop9 := by writes_in
theorem wrL1B_hostOps10 : WritesIn wrL1B (hostOps10 (F := Ideal)) := by writes_in
theorem wrL1B_rop10 : WritesIn wrL1B rop10 := by writes_in

theorem L1B_keep {r : Ref sig .tc} (hr : r ∉ wrL1B) : L1B V (Proc.devRef .tc r) = V (Proc.devRef .tc r) :=
  (after_keep wrL1B_rop10 _ hr).trans ((after_keep wrL1B_hostOps10 _ hr).trans ((after_keep wrL1B_rop9 _ hr).trans
    ((after_keep wrL1B_hostOps9 _ hr).trans (after_keep wrL1B_rop8 V hr))))

theorem rop13_read : after rop13 V (Proc.devRef .tc main_v182)
    = Cert.GcnSpec.bnrelu (V (Proc.devRef .tc main_v175_0)) (V (Proc.devRef .tc main_v177)) (V (Proc.devRef .tc main_v181))
        (V (Proc.devRef .tc main_v128)) (V (Proc.devRef .tc main_v131)) := by
  after_results_simp <;> rfl

abbrev L2B : Valuation τ sig (Elt Ideal) :=
  after rop13 (after (hostOps13 (F := Ideal)) (after rop12 (after (hostOps12 (F := Ideal)) (after rop11 (after (hostOps11 (F := Ideal)) V)))))

set_option maxHeartbeats 1000000 in
theorem L2B_value (b g bt : FVec Ideal S128 .f32) (sn : FVec Ideal S100000 .f32)
    (h27 : V (Proc.devRef .tc main_v27) = broadcastInDim S100000x1 ![0] bcast_S100000_S100000x1_0 sn)
    (h39 : V (Proc.devRef .tc main_v125) = broadcastInDim S1x128 ![1] bcast_S128_S1x128_1 b)
    (h42 : V (Proc.devRef .tc main_v128) = broadcastInDim S1x128 ![1] bcast_S128_S1x128_1 g)
    (h45 : V (Proc.devRef .tc main_v131) = broadcastInDim S1x128 ![1] bcast_S128_S1x128_1 bt) :
    L2B V (Proc.devRef .tc main_v182)
      = kLayer (V (Proc.devRef .tc main_v158)) (kMatB (V (Proc.devRef .tc main_arg6))) b g bt
          (V (Proc.devRef .tc main_v1)) (V (Proc.devRef .tc main_v3)) (V (Proc.devRef .tc main_v25)) sn := by
  refine (rop13_read _).trans ?_
  after_results_simp
  rw [h27, h39, h42, h45]
  rfl

abbrev wrL2B : List (Ref sig .tc) :=
  [main_v159, main_v160,
   main_v161,
   main_c_22, main_v162, main_v163, main_c_23, main_v164, main_v165, main_v166, main_v167, main_v168, main_v169, main_v170,
   main_v171, main_cst_24, main_v172, main_v173, main_v174,
   main_v175_0, main_v175_1, main_v175_2,
   main_cst_25, main_v176, main_v177, main_cst_26, main_v178, main_v179, main_v180, main_v181,
   main_v182]

theorem wrL2B_hostOps11 : WritesIn wrL2B (hostOps11 (F := Ideal)) := by writes_in
theorem wrL2B_rop11 : WritesIn wrL2B rop11 := by writes_in
theorem wrL2B_hostOps12 : WritesIn wrL2B (hostOps12 (F := Ideal)) := by writes_in
theorem wrL2B_rop12 : WritesIn wrL2B rop12 := by writes_in
theorem wrL2B_hostOps13 : WritesIn wrL2B (hostOps13 (F := Ideal)) := by writes_in
theorem wrL2B_rop13 : WritesIn wrL2B rop13 := by writes_in

theorem L2B_keep {r : Ref sig .tc} (hr : r ∉ wrL2B) : L2B V (Proc.devRef .tc r) = V (Proc.devRef .tc r) :=
  (after_keep wrL2B_rop13 _ hr).trans ((after_keep wrL2B_hostOps13 _ hr).trans ((after_keep wrL2B_rop12 _ hr).trans
    ((after_keep wrL2B_hostOps12 _ hr).trans ((after_keep wrL2B_rop11 _ hr).trans (after_keep wrL2B_hostOps11 V hr)))))

abbrev L3B : Valuation τ sig (Elt Ideal) :=
  after rop15 (after (hostOps15 (F := Ideal)) (after rop14 (after (hostOps14 (F := Ideal)) V)))

theorem L3B_value (b : FVec Ideal S40 .f32) (sn : FVec Ideal S100000 .f32)
    (h27 : V (Proc.devRef .tc main_v27) = broadcastInDim S100000x1 ![0] bcast_S100000_S100000x1_0 sn)
    (h48 : V (Proc.devRef .tc main_v134) = broadcastInDim S1x40 ![1] bcast_S40_S1x40_1 b) :
    L3B V (Proc.devRef .tc main_v199_0)
      = kLast (V (Proc.devRef .tc main_v182)) (kMat40B (V (Proc.devRef .tc main_arg10))) b
          (V (Proc.devRef .tc main_v1)) (V (Proc.devRef .tc main_v3)) (V (Proc.devRef .tc main_v25)) sn := by
  after_results_simp
  rw [h27, h48]
  rfl

abbrev wrL3B : List (Ref sig .tc) :=
  [main_v183, main_v184,
   main_v185,
   main_c_27, main_v186, main_v187, main_c_28, main_v188, main_v189, main_v190, main_v191, main_v192, main_v193,
   main_v194, main_v195, main_cst_29, main_v196, main_v197, main_v198,
   main_v199_0, main_v199_1, main_v199_2]

theorem wrL3B_hostOps14 : WritesIn wrL3B (hostOps14 (F := Ideal)) := by writes_in
theorem wrL3B_rop14 : WritesIn wrL3B rop14 := by writes_in
theorem wrL3B_hostOps15 : WritesIn wrL3B (hostOps15 (F := Ideal)) := by writes_in
theorem wrL3B_rop15 : WritesIn wrL3B rop15 := by writes_in

theorem L3B_keep {r : Ref sig .tc} (hr : r ∉ wrL3B) : L3B V (Proc.devRef .tc r) = V (Proc.devRef .tc r) :=
  (after_keep wrL3B_rop15 _ hr).trans ((after_keep wrL3B_hostOps15 _ hr).trans ((after_keep wrL3B_rop14 _ hr).trans
    (after_keep wrL3B_hostOps14 V hr)))

abbrev TB : Valuation τ sig (Elt Ideal) := L3B (L2B (L1B V))

theorem TB_keep {r : Ref sig .tc} (h1 : r ∉ wrL1B) (h2 : r ∉ wrL2B) (h3 : r ∉ wrL3B) :
    TB V (Proc.devRef .tc r) = V (Proc.devRef .tc r) :=
  (L3B_keep _ h3).trans ((L2B_keep _ h2).trans (L1B_keep V h1))

theorem TB_value (b1 g1 bt1 b2 g2 bt2 : FVec Ideal S128 .f32) (b3 : FVec Ideal S40 .f32) (sn : FVec Ideal S100000 .f32)
    (h27 : V (Proc.devRef .tc main_v27) = broadcastInDim S100000x1 ![0] bcast_S100000_S100000x1_0 sn)
    (h30 : V (Proc.devRef .tc main_v116) = broadcastInDim S1x128 ![1] bcast_S128_S1x128_1 b1)
    (h33 : V (Proc.devRef .tc main_v119) = broadcastInDim S1x128 ![1] bcast_S128_S1x128_1 g1)
    (h36 : V (Proc.devRef .tc main_v122) = broadcastInDim S1x128 ![1] bcast_S128_S1x128_1 bt1)
    (h39 : V (Proc.devRef .tc main_v125) = broadcastInDim S1x128 ![1] bcast_S128_S1x128_1 b2)
    (h42 : V (Proc.devRef .tc main_v128) = broadcastInDim S1x128 ![1] bcast_S128_S1x128_1 g2)
    (h45 : V (Proc.devRef .tc main_v131) = broadcastInDim S1x128 ![1] bcast_S128_S1x128_1 bt2)
    (h48 : V (Proc.devRef .tc main_v134) = broadcastInDim S1x40 ![1] bcast_S40_S1x40_1 b3) :
    TB V (Proc.devRef .tc main_v199_0)
      = kTower (V (Proc.devRef .tc main_arg0)) (V (Proc.devRef .tc main_v136)) b1 g1 bt1
          (kMatB (V (Proc.devRef .tc main_arg6))) b2 g2 bt2 (kMat40B (V (Proc.devRef .tc main_arg10))) b3
          (V (Proc.devRef .tc main_v1)) (V (Proc.devRef .tc main_v3)) (V (Proc.devRef .tc main_v25)) sn := by
  refine (L3B_value (L2B (L1B V)) b3 sn
    ((L2B_keep _ (by decide)).trans ((L1B_keep V (by decide)).trans h27))
    ((L2B_keep _ (by decide)).trans ((L1B_keep V (by decide)).trans h48))).trans ?_
  rw [L2B_value (L1B V) b2 g2 bt2 sn ((L1B_keep V (by decide)).trans h27) ((L1B_keep V (by decide)).trans h39)
      ((L1B_keep V (by decide)).trans h42) ((L1B_keep V (by decide)).trans h45),
    L1B_value V b1 g1 bt1 sn h27 h30 h33 h36,
    L2B_keep (L1B V) (r := main_v1) (by decide), L2B_keep (L1B V) (r := main_v3) (by decide),
    L2B_keep (L1B V) (r := main_v25) (by decide), L2B_keep (L1B V) (r := main_arg10) (by decide),
    L1B_keep V (r := main_v1) (by decide), L1B_keep V (r := main_v3) (by decide),
    L1B_keep V (r := main_v25) (by decide), L1B_keep V (r := main_arg6) (by decide),
    L1B_keep V (r := main_arg10) (by decide)]
  rfl

end Walk

end Cert.KernelIdeal.GcnValue

end
-- ==== Proof.KWalk.lean ====
import proofs.«156818_j43868795961418_1_alg».proof.Proof.Gen.KernelIdeal.Frame
import proofs.«156818_j43868795961418_1_alg».proof.Proof.GraphK
import proofs.«156818_j43868795961418_1_alg».proof.Proof.Tower
import proofs.«156818_j43868795961418_1_alg».proof.Proof.Net
import proofs.«156818_j43868795961418_1_alg».proof.Proof.KWalkKeep
import proofs.«156818_j43868795961418_1_alg».proof.Proof.KWalkPrep
import proofs.«156818_j43868795961418_1_alg».proof.Proof.KWalkA
import proofs.«156818_j43868795961418_1_alg».proof.Proof.KWalkB
import Idealize.ShloMosaic.Lib.StableHlo.Run

set_option maxRecDepth 16384

noncomputable section

namespace Cert.KernelIdeal.GcnValue

open Cert.KernelIdeal Cert.KernelIdeal.Gen Cert.Tower Idealize.ShloMosaic Idealize.ShloMosaic.TcCoe Idealize.SL.Sem Idealize.ShloMosaic.StableHlo

section Whole
variable (V : Valuation τ sig (Elt Ideal))

abbrev KRun : Valuation τ sig (Elt Ideal) :=
  after (hostOps16 (F := Ideal)) (TB (after (hostOps8 (F := Ideal)) (TA (after (hostOps0 (F := Ideal)) V))))

theorem towerA_value :
    TA (after (hostOps0 (F := Ideal)) V) (Proc.devRef .tc main_v113_0)
      = kTower (V (Proc.devRef .tc main_arg0)) (kMatA (V (Proc.devRef .tc main_arg2)))
          (kRowA (V (Proc.devRef .tc main_arg3))) (kRowA (V (Proc.devRef .tc main_arg4))) (kRowA (V (Proc.devRef .tc main_arg5)))
          (kMatA (V (Proc.devRef .tc main_arg6)))
          (kRowA (V (Proc.devRef .tc main_arg7))) (kRowA (V (Proc.devRef .tc main_arg8))) (kRowA (V (Proc.devRef .tc main_arg9)))
          (kMat40A (V (Proc.devRef .tc main_arg10))) (kRow40A (V (Proc.devRef .tc main_arg11)))
          (kSrc (V (Proc.devRef .tc main_arg12))) (kDst (V (Proc.devRef .tc main_arg12)))
          (kWn (V (Proc.devRef .tc main_arg1)) (kSrc (V (Proc.devRef .tc main_arg12))) (kDst (V (Proc.devRef .tc main_arg12))))
          (kSn (V (Proc.devRef .tc main_arg1)) (kDst (V (Proc.devRef .tc main_arg12)))) := by
  rw [TA_value (after (hostOps0 (F := Ideal)) V) _ _ _ _ _ _ _ _
      (h0_v27 V) (h0_v30 V) (h0_v33 V) (h0_v36 V) (h0_v39 V) (h0_v42 V) (h0_v45 V) (h0_v48 V),
    h0_v50, h0_v1, h0_v3, h0_v25, h0_keep V (r := main_arg0) (by decide), h0_keep V (r := main_arg6) (by decide),
    h0_keep V (r := main_arg10) (by decide)]

theorem mid_keep {r : Ref sig .tc} (h0 : r ∉ wrH0) (h1 : r ∉ wrL1A) (h2 : r ∉ wrL2A) (h3 : r ∉ wrL3A) :
    TA (after (hostOps0 (F := Ideal)) V) (Proc.devRef .tc r) = V (Proc.devRef .tc r) :=
  (TA_keep _ h1 h2 h3).trans (h0_keep V h0)

theorem mid_arg0 : TA (after (hostOps0 (F := Ideal)) V) (Proc.devRef .tc main_arg0) = V (Proc.devRef .tc main_arg0) :=
  mid_keep V (by decide) (by decide) (by decide) (by decide)
theorem mid_arg2 : TA (after (hostOps0 (F := Ideal)) V) (Proc.devRef .tc main_arg2) = V (Proc.devRef .tc main_arg2) :=
  mid_keep V (by decide) (by decide) (by decide) (by decide)
theorem mid_arg3 : TA (after (hostOps0 (F := Ideal)) V) (Proc.devRef .tc main_arg3) = V (Proc.devRef .tc main_arg3) :=
  mid_keep V (by decide) (by decide) (by decide) (by decide)
theorem mid_arg4 : TA (after (hostOps0 (F := Ideal)) V) (Proc.devRef .tc main_arg4) = V (Proc.devRef .tc main_arg4) :=
  mid_keep V (by decide) (by decide) (by decide) (by decide)
theorem mid_arg5 : TA (after (hostOps0 (F := Ideal)) V) (Proc.devRef .tc main_arg5) = V (Proc.devRef .tc main_arg5) :=
  mid_keep V (by decide) (by decide) (by decide) (by decide)
theorem mid_arg6 : TA (after (hostOps0 (F := Ideal)) V) (Proc.devRef .tc main_arg6) = V (Proc.devRef .tc main_arg6) :=
  mid_keep V (by decide) (by decide) (by decide) (by decide)
theorem mid_arg7 : TA (after (hostOps0 (F := Ideal)) V) (Proc.devRef .tc main_arg7) = V (Proc.devRef .tc main_arg7) :=
  mid_keep V (by decide) (by decide) (by decide) (by decide)
theorem mid_arg8 : TA (after (hostOps0 (F := Ideal)) V) (Proc.devRef .tc main_arg8) = V (Proc.devRef .tc main_arg8) :=
  mid_keep V (by decide) (by decide) (by decide) (by decide)
theorem mid_arg9 : TA (after (hostOps0 (F := Ideal)) V) (Proc.devRef .tc main_arg9) = V (Proc.devRef .tc main_arg9) :=
  mid_keep V (by decide) (by decide) (by decide) (by decide)
theorem mid_arg10 : TA (after (hostOps0 (F := Ideal)) V) (Proc.devRef .tc main_arg10) = V (Proc.devRef .tc main_arg10) :=
  mid_keep V (by decide) (by decide) (by decide) (by decide)
theorem mid_arg11 : TA (after (hostOps0 (F := Ideal)) V) (Proc.devRef .tc main_arg11) = V (Proc.devRef .tc main_arg11) :=
  mid_keep V (by decide) (by decide) (by decide) (by decide)

abbrev Y : Valuation τ sig (Elt Ideal) := after (hostOps8 (F := Ideal)) (TA (after (hostOps0 (F := Ideal)) V))

theorem y_v1 : Y V (Proc.devRef .tc main_v1) = kSrc (V (Proc.devRef .tc main_arg12)) :=
  (h8_keep _ (by decide)).trans ((TA_keep _ (by decide) (by decide) (by decide)).trans (h0_v1 V))
theorem y_v3 : Y V (Proc.devRef .tc main_v3) = kDst (V (Proc.devRef .tc main_arg12)) :=
  (h8_keep _ (by decide)).trans ((TA_keep _ (by decide) (by decide) (by decide)).trans (h0_v3 V))
theorem y_v25 : Y V (Proc.devRef .tc main_v25)
    = kWn (V (Proc.devRef .tc main_arg1)) (kSrc (V (Proc.devRef .tc main_arg12))) (kDst (V (Proc.devRef .tc main_arg12))) :=
  (h8_keep _ (by decide)).trans ((TA_keep _ (by decide) (by decide) (by decide)).trans (h0_v25 V))
theorem y_v27 : Y V (Proc.devRef .tc main_v27)
    = broadcastInDim S100000x1 ![0] bcast_S100000_S100000x1_0
        (kSn (V (Proc.devRef .tc main_arg1)) (kDst (V (Proc.devRef .tc main_arg12)))) :=
  (h8_keep _ (by decide)).trans ((TA_keep _ (by decide) (by decide) (by decide)).trans (h0_v27 V))
theorem y_arg0 : Y V (Proc.devRef .tc main_arg0) = V (Proc.devRef .tc main_arg0) :=
  (h8_keep _ (by decide)).trans (mid_arg0 V)
theorem y_arg6 : Y V (Proc.devRef .tc main_arg6) = V (Proc.devRef .tc main_arg6) :=
  (h8_keep _ (by decide)).trans (mid_arg6 V)
theorem y_arg10 : Y V (Proc.devRef .tc main_arg10) = V (Proc.devRef .tc main_arg10) :=
  (h8_keep _ (by decide)).trans (mid_arg10 V)
theorem y_v113_0 : Y V (Proc.devRef .tc main_v113_0)
    = TA (after (hostOps0 (F := Ideal)) V) (Proc.devRef .tc main_v113_0) :=
  h8_keep _ (by decide)
theorem y_v116 : Y V (Proc.devRef .tc main_v116)
    = broadcastInDim S1x128 ![1] bcast_S128_S1x128_1 (kRowB (V (Proc.devRef .tc main_arg3))) :=
  (h8_v116 _).trans (by rw [mid_arg3])
theorem y_v119 : Y V (Proc.devRef .tc main_v119)
    = broadcastInDim S1x128 ![1] bcast_S128_S1x128_1 (kRowB (V (Proc.devRef .tc main_arg4))) :=
  (h8_v119 _).trans (by rw [mid_arg4])
theorem y_v122 : Y V (Proc.devRef .tc main_v122)
    = broadcastInDim S1x128 ![1] bcast_S128_S1x128_1 (kRowB (V (Proc.devRef .tc main_arg5))) :=
  (h8_v122 _).trans (by rw [mid_arg5])
theorem y_v125 : Y V (Proc.devRef .tc main_v125)
    = broadcastInDim S1x128 ![1] bcast_S128_S1x128_1 (kRowB (V (Proc.devRef .tc main_arg7))) :=
  (h8_v125 _).trans (by rw [mid_arg7])
theorem y_v128 : Y V (Proc.devRef .tc main_v128)
    = broadcastInDim S1x128 ![1] bcast_S128_S1x128_1 (kRowB (V (Proc.devRef .tc main_arg8))) :=
  (h8_v128 _).trans (by rw [mid_arg8])
theorem y_v131 : Y V (Proc.devRef .tc main_v131)
    = broadcastInDim S1x128 ![1] bcast_S128_S1x128_1 (kRowB (V (Proc.devRef .tc main_arg9))) :=
  (h8_v131 _).trans (by rw [mid_arg9])
theorem y_v134 : Y V (Proc.devRef .tc main_v134)
    = broadcastInDim S1x40 ![1] bcast_S40_S1x40_1 (kRow40B (V (Proc.devRef .tc main_arg11))) :=
  (h8_v134 _).trans (by rw [mid_arg11])
theorem y_v136 : Y V (Proc.devRef .tc main_v136) = kMatB (V (Proc.devRef .tc main_arg2)) :=
  (h8_v136 _).trans (by rw [mid_arg2])

theorem towerB_value :
    TB (Y V) (Proc.devRef .tc main_v199_0)
      = kTower (V (Proc.devRef .tc main_arg0)) (kMatB (V (Proc.devRef .tc main_arg2)))
          (kRowB (V (Proc.devRef .tc main_arg3))) (kRowB (V (Proc.devRef .tc main_arg4))) (kRowB (V (Proc.devRef .tc main_arg5)))
          (kMatB (V (Proc.devRef .tc main_arg6)))
          (kRowB (V (Proc.devRef .tc main_arg7))) (kRowB (V (Proc.devRef .tc main_arg8))) (kRowB (V (Proc.devRef .tc main_arg9)))
          (kMat40B (V (Proc.devRef .tc main_arg10))) (kRow40B (V (Proc.devRef .tc main_arg11)))
          (kSrc (V (Proc.devRef .tc main_arg12))) (kDst (V (Proc.devRef .tc main_arg12)))
          (kWn (V (Proc.devRef .tc main_arg1)) (kSrc (V (Proc.devRef .tc main_arg12))) (kDst (V (Proc.devRef .tc main_arg12))))
          (kSn (V (Proc.devRef .tc main_arg1)) (kDst (V (Proc.devRef .tc main_arg12)))) := by
  rw [TB_value (Y V) _ _ _ _ _ _ _ _
      (y_v27 V) (y_v116 V) (y_v119 V) (y_v122 V) (y_v125 V) (y_v128 V) (y_v131 V) (y_v134 V),
    y_v136, y_v1, y_v3, y_v25, y_arg0, y_arg6, y_arg10]

theorem run_value :
    KRun V (Proc.devRef .tc main_v202)
      = kNet (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) := by
  unfold kNet
  refine (h16_v202 (TB (Y V))).trans ?_
  rw [towerB_value V, TB_keep (Y V) (r := main_v113_0) (by decide) (by decide) (by decide),
    y_v113_0 V, towerA_value V]

end Whole

variable (m : (ℓ : Loc nD τ sig) → Buf (Elt Ideal) ℓ) (ρ : Dev nD → PrngReg)

theorem W33_walk (c : Dev nD) : W33 (F := Ideal) m ρ c = KRun (W0 m ρ c) := by
  rw [show W33 (F := Ideal) m ρ c = after hostOps16 (W32 m ρ c) from rfl, W32_eq,
    show W31 (F := Ideal) m ρ c = after hostOps15 (W30 m ρ c) from rfl, W30_eq,
    show W29 (F := Ideal) m ρ c = after hostOps14 (W28 m ρ c) from rfl, W28_eq,
    show W27 (F := Ideal) m ρ c = after hostOps13 (W26 m ρ c) from rfl, W26_eq,
    show W25 (F := Ideal) m ρ c = after hostOps12 (W24 m ρ c) from rfl, W24_eq,
    show W23 (F := Ideal) m ρ c = after hostOps11 (W22 m ρ c) from rfl, W22_eq,
    show W21 (F := Ideal) m ρ c = after hostOps10 (W20 m ρ c) from rfl, W20_eq,
    show W19 (F := Ideal) m ρ c = after hostOps9 (W18 m ρ c) from rfl, W18_eq,
    show W17 (F := Ideal) m ρ c = after hostOps8 (W16 m ρ c) from rfl, W16_eq,
    show W15 (F := Ideal) m ρ c = after hostOps7 (W14 m ρ c) from rfl, W14_eq,
    show W13 (F := Ideal) m ρ c = after hostOps6 (W12 m ρ c) from rfl, W12_eq,
    show W11 (F := Ideal) m ρ c = after hostOps5 (W10 m ρ c) from rfl, W10_eq,
    show W9 (F := Ideal) m ρ c = after hostOps4 (W8 m ρ c) from rfl, W8_eq,
    show W7 (F := Ideal) m ρ c = after hostOps3 (W6 m ρ c) from rfl, W6_eq,
    show W5 (F := Ideal) m ρ c = after hostOps2 (W4 m ρ c) from rfl, W4_eq,
    show W3 (F := Ideal) m ρ c = after hostOps1 (W2 m ρ c) from rfl, W2_eq,
    show W1 (F := Ideal) m ρ c = after hostOps0 (W0 m ρ c) from rfl]

/-- The result function at the argument arrays of device c in the launch memory. -/
def kOut (c : Dev nD) : FVec Ideal S2x100000x40 .f32 :=
  kNet (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

theorem kernel_value (c : Dev nD) : W33 (F := Ideal) m ρ c (Proc.devRef .tc main_v202) = kOut m c := by
  rw [W33_walk]
  exact run_value (W0 m ρ c)

end Cert.KernelIdeal.GcnValue

end
-- ==== Proof.RefRunLib.lean ====
import proofs.«156818_j43868795961418_1_alg».proof.Proof.Gen.ReferenceIdeal
import Idealize.ShloMosaic.Lib.Pipeline.Regions
import Idealize.ShloMosaic.Lib.Pipeline.Frame

noncomputable section

namespace Cert.RefLine

open Idealize.ShloMosaic Idealize.SL.Sem Idealize.ShloMosaic.StableHlo

variable {τ : Topo} {sig : RefSig} {Val : EltTy → Type}

/-- What the run of a line needs of one operation; `y` is the one reference it writes. -/
structure Ok (y : Ref sig .tc) (op : HloOp τ sig Val) : Prop where
  sub : op.bufs ⊆ tcRefs τ sig
  fresh : op.fresh = ∅
  writes : op.writes = {Proc.devRef .tc y}

section Builders

variable (x a b c y : Ref sig .tc)

theorem ok_nullary (v : y.ty.Contents Val) (hy) : Ok y (nullary (τ := τ) y v hy) := ⟨nullary_bufs_sub .., rfl, rfl⟩
theorem ok_unary (f : x.ty.Contents Val → y.ty.Contents Val) (hx hy) : Ok y (unary (τ := τ) x y f hx hy) :=
  ⟨unary_bufs_sub .., rfl, rfl⟩
theorem ok_binary (f : a.ty.Contents Val → b.ty.Contents Val → y.ty.Contents Val) (ha hb hy) :
    Ok y (binary (τ := τ) a b y f ha hb hy) := ⟨binary_bufs_sub .., rfl, rfl⟩
theorem ok_ternary (f : c.ty.Contents Val → a.ty.Contents Val → b.ty.Contents Val → y.ty.Contents Val) (hc ha hb hy) :
    Ok y (ternary (τ := τ) c a b y f hc ha hb hy) := ⟨ternary_bufs_sub .., rfl, rfl⟩
theorem ok_reshape (he hn hx hy) : Ok y (reshape (τ := τ) (Val := Val) x y he hn hx hy) := ⟨reshape_bufs_sub .., rfl, rfl⟩

end Builders

/-- Each operation is `Ok` at the entry of `W` in its place. -/
abbrev Line (W : List (Ref sig .tc)) (ops : List (HloOp τ sig Val)) : Prop := List.Forall₂ Ok W ops

namespace Line

variable {W W' : List (Ref sig .tc)} {ops ops' : List (HloOp τ sig Val)}

theorem append (h : Line W ops) (h' : Line W' ops') : Line (W ++ W') (ops ++ ops') := by
  induction h with
  | nil => exact h'
  | cons hy _ ih => exact .cons hy ih

theorem mem (h : Line W ops) {op} (hop : op ∈ ops) : ∃ y ∈ W, Ok y op := by
  induction h with
  | nil => cases hop
  | cons hy _ ih =>
    rcases List.mem_cons.mp hop with rfl | hop
    · exact ⟨_, List.mem_cons_self, hy⟩
    · obtain ⟨y, hm, hy⟩ := ih hop
      exact ⟨y, List.mem_cons_of_mem _ hm, hy⟩

theorem sub (h : Line W ops) : ops.Forall fun op => op.bufs ⊆ tcRefs τ sig :=
  List.forall_iff_forall_mem.mpr fun _ hop => (h.mem hop).choose_spec.2.sub

theorem fresh (h : Line W ops) : ∀ op ∈ ops, op.fresh = ∅ := fun _ hop => (h.mem hop).choose_spec.2.fresh

/-- A reference outside `W` is written by no operation, so its contents pass through. -/
theorem keep (h : Line W ops) (V : Valuation τ sig Val) {r : Ref sig .tc} (hr : r ∉ W) :
    after ops V (Proc.devRef .tc r) = V (Proc.devRef .tc r) :=
  after_of_forall_not_mem ops V fun _ hop hb => by
    obtain ⟨y, hy, ho⟩ := h.mem hop
    rw [ho.writes, Finset.mem_singleton] at hb
    exact hr (Proc.devRef_injective _ hb ▸ hy)

end Line

end Cert.RefLine

end
-- ==== Proof.RefRunSt.lean ====
import proofs.«156818_j43868795961418_1_alg».proof.Proof.Tower
import proofs.«156818_j43868795961418_1_alg».proof.Proof.RefRunLib

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

def dot128 (x : FVec Ideal S100000x128 .f32) (W : FVec Ideal S128x128 .f32) : FVec Ideal S100000x128 .f32 :=
  Host.dotGeneral dot_S100000x128_S128x128_S100000x128_1_0_0_1_n_n none x W
def dot40 (x : FVec Ideal S100000x128 .f32) (W : FVec Ideal S128x40 .f32) : FVec Ideal S100000x40 .f32 :=
  Host.dotGeneral dot_S100000x128_S128x40_S100000x40_1_0_0_1_n_n none x W

def zeros128 : FVec Ideal S100000x128 .f32 := broadcastInDim S100000x128 ![] bcast_S_S100000x128 (constant S_ .f32 0#32)
def dstCol (dst : IVec S1600000 32) : IVec S1600000x1 32 := broadcastInDim S1600000x1 ![0] bcast_S1600000_S1600000x1_0 dst
def msg128 (src : IVec S1600000 32) (wn : FVec Ideal S1600000 .f32) (h : FVec Ideal S100000x128 .f32) : FVec Ideal S1600000x128 .f32 :=
  mulf (Host.gather gather_S100000x128_S1600000x1_S1600000x128_1_0_n_n_0_1_1128 h (rWrap src))
    (broadcastInDim S1600000x128 ![0, 1] bcast_S1600000x1_S1600000x128_0_1
      (broadcastInDim S1600000x1 ![0] bcast_S1600000_S1600000x1_0 wn))
def msg40 (src : IVec S1600000 32) (wn : FVec Ideal S1600000 .f32) (h : FVec Ideal S100000x40 .f32) : FVec Ideal S1600000x40 .f32 :=
  mulf (Host.gather gather_S100000x40_S1600000x1_S1600000x40_1_0_n_n_0_1_140 h (rWrap src))
    (broadcastInDim S1600000x40 ![0, 1] bcast_S1600000x1_S1600000x40_0_1
      (broadcastInDim S1600000x1 ![0] bcast_S1600000_S1600000x1_0 wn))

def snB128 (sn : FVec Ideal S100000 .f32) : FVec Ideal S100000x128 .f32 :=
  broadcastInDim S100000x128 ![0, 1] bcast_S100000x1_S100000x128_0_1 (broadcastInDim S100000x1 ![0] bcast_S100000_S100000x1_0 sn)
def up128 (v : FVec Ideal S128 .f32) : FVec Ideal S100000x128 .f32 :=
  broadcastInDim S100000x128 ![0, 1] bcast_S1x128_S100000x128_0_1 (broadcastInDim S1x128 ![1] bcast_S128_S1x128_1 v)

def comb128 (agg h : FVec Ideal S100000x128 .f32) (sn : FVec Ideal S100000 .f32) (b : FVec Ideal S128 .f32) :
    FVec Ideal S100000x128 .f32 := addf (addf agg (mulf (snB128 sn) h)) (up128 b)

def nodeCount : FVec Ideal S128 .f32 := broadcastInDim S128 ![] bcast_S_S128 (constant (F := Ideal) S_ .f32 0x47C35000#32)
def colSum (c : FVec Ideal S100000x128 .f32) : FVec Ideal S128 .f32 :=
  Host.reduceAdd c (constant (F := Ideal) S_ .f32 0x00000000#32) reducesTo_S100000x128_S128_d0 h_S_
def bnMean (c : FVec Ideal S100000x128 .f32) : FVec Ideal S128 .f32 := Host.divf (colSum c) nodeCount
def bnCentre (c : FVec Ideal S100000x128 .f32) : FVec Ideal S100000x128 .f32 := subf c (up128 (bnMean c))
def bnVar (c : FVec Ideal S100000x128 .f32) : FVec Ideal S128 .f32 :=
  Host.divf (colSum (mulf (bnCentre c) (bnCentre c))) nodeCount

structure Inputs where
  x : FVec Ideal S100000x128 .f32
  w : FVec Ideal S1600000 .f32
  W1 : FVec Ideal S2x128x128 .f32
  b1 : FVec Ideal S2x128 .f32
  g1 : FVec Ideal S2x128 .f32
  bt1 : FVec Ideal S2x128 .f32
  W2 : FVec Ideal S2x128x128 .f32
  b2 : FVec Ideal S2x128 .f32
  g2 : FVec Ideal S2x128 .f32
  bt2 : FVec Ideal S2x128 .f32
  W3 : FVec Ideal S2x128x40 .f32
  b3 : FVec Ideal S2x40 .f32
  e : IVec S2x1600000 32

namespace Inputs

def src (I : Inputs) : IVec S1600000 32 := rSrc I.e
def dst (I : Inputs) : IVec S1600000 32 := rDst I.e
def wn (I : Inputs) : FVec Ideal S1600000 .f32 := rWn I.w I.src I.dst
def sn (I : Inputs) : FVec Ideal S100000 .f32 := rSn I.w I.dst

def hA1 (I : Inputs) : FVec Ideal S100000x128 .f32 := dot128 I.x (rMatA I.W1)
def LA1 (I : Inputs) : FVec Ideal S100000x128 .f32 :=
  rLayer I.x (rMatA I.W1) (rRowA I.b1) (rRowA I.g1) (rRowA I.bt1) I.src I.dst I.wn I.sn
def hA2 (I : Inputs) : FVec Ideal S100000x128 .f32 := dot128 I.LA1 (rMatA I.W2)
def LA2 (I : Inputs) : FVec Ideal S100000x128 .f32 :=
  rLayer I.LA1 (rMatA I.W2) (rRowA I.b2) (rRowA I.g2) (rRowA I.bt2) I.src I.dst I.wn I.sn
def hA3 (I : Inputs) : FVec Ideal S100000x40 .f32 := dot40 I.LA2 (rMat40A I.W3)
def TA (I : Inputs) : FVec Ideal S100000x40 .f32 :=
  rLast I.LA2 (rMat40A I.W3) (rRow40A I.b3) I.src I.dst I.wn I.sn

def hB1 (I : Inputs) : FVec Ideal S100000x128 .f32 := dot128 I.x (rMatB I.W1)
def LB1 (I : Inputs) : FVec Ideal S100000x128 .f32 :=
  rLayer I.x (rMatB I.W1) (rRowB I.b1) (rRowB I.g1) (rRowB I.bt1) I.src I.dst I.wn I.sn
def hB2 (I : Inputs) : FVec Ideal S100000x128 .f32 := dot128 I.LB1 (rMatB I.W2)
def LB2 (I : Inputs) : FVec Ideal S100000x128 .f32 :=
  rLayer I.LB1 (rMatB I.W2) (rRowB I.b2) (rRowB I.g2) (rRowB I.bt2) I.src I.dst I.wn I.sn
def TB (I : Inputs) : FVec Ideal S100000x40 .f32 :=
  rLast I.LB2 (rMat40B I.W3) (rRow40B I.b3) I.src I.dst I.wn I.sn

end Inputs

structure Args (V : Valuation τ sig (Elt Ideal)) (I : Inputs) : Prop where
  arg0 : V (Proc.devRef .tc main_arg0) = I.x
  arg1 : V (Proc.devRef .tc main_arg1) = I.w
  arg2 : V (Proc.devRef .tc main_arg2) = I.W1
  arg3 : V (Proc.devRef .tc main_arg3) = I.b1
  arg4 : V (Proc.devRef .tc main_arg4) = I.g1
  arg5 : V (Proc.devRef .tc main_arg5) = I.bt1
  arg6 : V (Proc.devRef .tc main_arg6) = I.W2
  arg7 : V (Proc.devRef .tc main_arg7) = I.b2
  arg8 : V (Proc.devRef .tc main_arg8) = I.g2
  arg9 : V (Proc.devRef .tc main_arg9) = I.bt2
  arg10 : V (Proc.devRef .tc main_arg10) = I.W3
  arg11 : V (Proc.devRef .tc main_arg11) = I.b3
  arg12 : V (Proc.devRef .tc main_arg12) = I.e

structure Graph (V : Valuation τ sig (Elt Ideal)) (I : Inputs) : Prop where
  v1 : V (Proc.devRef .tc main_v1) = I.src
  v3 : V (Proc.devRef .tc main_v3) = I.dst
  v29 : V (Proc.devRef .tc main_v29) = I.wn
  v30 : V (Proc.devRef .tc main_v30) = I.sn

structure St1 (V : Valuation τ sig (Elt Ideal)) (I : Inputs) : Prop where
  v34 : V (Proc.devRef .tc main_v34) = rRowA I.b1
  v35 : V (Proc.devRef .tc main_v35) = I.hA1
  v48 : V (Proc.devRef .tc main_v48) = rAgg128 I.src I.dst I.wn I.hA1
  v50 : V (Proc.devRef .tc main_v50) = snB128 I.sn

structure St2 (V : Valuation τ sig (Elt Ideal)) (I : Inputs) : Prop where
  v89 : V (Proc.devRef .tc main_v89) = rRowA I.b2
  v90 : V (Proc.devRef .tc main_v90) = I.hA2
  v100 : V (Proc.devRef .tc main_v100) = msg128 I.src I.wn I.hA2
  v101 : V (Proc.devRef .tc main_v101) = zeros128
  v102 : V (Proc.devRef .tc main_v102) = dstCol I.dst

structure St3 (V : Valuation τ sig (Elt Ideal)) (I : Inputs) : Prop where
  v144 : V (Proc.devRef .tc main_v144) = rRow40A I.b3
  v145 : V (Proc.devRef .tc main_v145) = I.hA3
  v155 : V (Proc.devRef .tc main_v155) = msg40 I.src I.wn I.hA3

def Inputs.cB1 (I : Inputs) : FVec Ideal S100000x128 .f32 :=
  comb128 (rAgg128 I.src I.dst I.wn I.hB1) I.hB1 I.sn (rRowB I.b1)
def Inputs.cB2 (I : Inputs) : FVec Ideal S100000x128 .f32 :=
  comb128 (rAgg128 I.src I.dst I.wn I.hB2) I.hB2 I.sn (rRowB I.b2)

structure St4 (V : Valuation τ sig (Elt Ideal)) (I : Inputs) : Prop where
  v165 : V (Proc.devRef .tc main_v165) = I.TA
  v192 : V (Proc.devRef .tc main_v192) = rRowB I.g1
  v194 : V (Proc.devRef .tc main_v194) = rRowB I.bt1
  v204 : V (Proc.devRef .tc main_v204) = bnVar I.cB1
  v207 : V (Proc.devRef .tc main_v207) = bnCentre I.cB1

structure St5 (V : Valuation τ sig (Elt Ideal)) (I : Inputs) : Prop where
  v165 : V (Proc.devRef .tc main_v165) = I.TA
  v245 : V (Proc.devRef .tc main_v245) = I.cB2
  v247 : V (Proc.devRef .tc main_v247) = rRowB I.g2
  v249 : V (Proc.devRef .tc main_v249) = rRowB I.bt2
  v252 : V (Proc.devRef .tc main_v252) = bnMean I.cB2
  v259 : V (Proc.devRef .tc main_v259) = bnVar I.cB2

/-- The arguments a valuation holds. -/
noncomputable def Inputs.of (V : Valuation τ sig (Elt Ideal)) : Inputs :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12)⟩

theorem Args.of (V : Valuation τ sig (Elt Ideal)) : Args V (.of V) := ⟨rfl, rfl, rfl, rfl, rfl, rfl, rfl, rfl, rfl, rfl, rfl, rfl, rfl⟩

abbrev argRefs : List (Ref sig .tc) := [main_arg0, main_arg1, main_arg2, main_arg3, main_arg4, main_arg5, main_arg6, main_arg7, main_arg8, main_arg9, main_arg10, main_arg11, main_arg12]
abbrev graphRefs : List (Ref sig .tc) := [main_v1, main_v3, main_v29, main_v30]

variable {V : Valuation τ sig (Elt Ideal)} {I : Inputs} {W : List (Ref sig .tc)} {ops : List (HloOp τ sig (Elt Ideal))}

/-- A line that writes no argument keeps the arguments. -/
theorem Args.keep (hA : Args V I) (h : Line W ops) (hW : ∀ r ∈ argRefs, r ∉ W) : Args (after ops V) I where
  arg0 := (h.keep V (hW main_arg0 (by decide))).trans hA.arg0
  arg1 := (h.keep V (hW main_arg1 (by decide))).trans hA.arg1
  arg2 := (h.keep V (hW main_arg2 (by decide))).trans hA.arg2
  arg3 := (h.keep V (hW main_arg3 (by decide))).trans hA.arg3
  arg4 := (h.keep V (hW main_arg4 (by decide))).trans hA.arg4
  arg5 := (h.keep V (hW main_arg5 (by decide))).trans hA.arg5
  arg6 := (h.keep V (hW main_arg6 (by decide))).trans hA.arg6
  arg7 := (h.keep V (hW main_arg7 (by decide))).trans hA.arg7
  arg8 := (h.keep V (hW main_arg8 (by decide))).trans hA.arg8
  arg9 := (h.keep V (hW main_arg9 (by decide))).trans hA.arg9
  arg10 := (h.keep V (hW main_arg10 (by decide))).trans hA.arg10
  arg11 := (h.keep V (hW main_arg11 (by decide))).trans hA.arg11
  arg12 := (h.keep V (hW main_arg12 (by decide))).trans hA.arg12

/-- A line that writes none of the graph normalisation's buffers keeps them. -/
theorem Graph.keep (hG : Graph V I) (h : Line W ops) (hW : ∀ r ∈ graphRefs, r ∉ W) : Graph (after ops V) I where
  v1 := (h.keep V (hW main_v1 (by decide))).trans hG.v1
  v3 := (h.keep V (hW main_v3 (by decide))).trans hG.v3
  v29 := (h.keep V (hW main_v29 (by decide))).trans hG.v29
  v30 := (h.keep V (hW main_v30 (by decide))).trans hG.v30

end Cert.ReferenceIdeal.GcnValue

end
-- ==== Proof.RefRunW0.lean ====
import proofs.«156818_j43868795961418_1_alg».proof.Proof.RefRunLib

noncomputable section

namespace Cert.ReferenceIdeal.GcnValue

open Cert.ReferenceIdeal Cert.ReferenceIdeal.Gen Idealize.ShloMosaic Idealize.ShloMosaic.TcCoe Idealize.SL.Sem Idealize.ShloMosaic.StableHlo Cert.RefLine

variable {F : FTy → Type} [FloatOps F]

noncomputable abbrev ops0 : List (HloOp τ sig (Elt F)) :=
  [ StableHlo.unary main_arg12 main_v0 ((extractStridedSlice S1x1600000 ![0, 0] · slices_S2x1600000_S1x1600000_0_0) : IVec S2x1600000 32 → IVec S1x1600000 32),
    StableHlo.reshape main_v0 main_v1 rfl shapeCasts_S1x1600000_S1600000,
    StableHlo.unary main_arg12 main_v2 ((extractStridedSlice S1x1600000 ![1, 0] · slices_S2x1600000_S1x1600000_1_0) : IVec S2x1600000 32 → IVec S1x1600000 32),
    StableHlo.reshape main_v2 main_v3 rfl shapeCasts_S1x1600000_S1600000,
    StableHlo.unary main_arg12 main_v4 ((extractStridedSlice S1x1600000 ![0, 0] · slices_S2x1600000_S1x1600000_0_0) : IVec S2x1600000 32 → IVec S1x1600000 32),
    StableHlo.reshape main_v4 main_v5 rfl shapeCasts_S1x1600000_S1600000,
    StableHlo.unary main_arg12 main_v6 ((extractStridedSlice S1x1600000 ![1, 0] · slices_S2x1600000_S1x1600000_1_0) : IVec S2x1600000 32 → IVec S1x1600000 32),
    StableHlo.reshape main_v6 main_v7 rfl shapeCasts_S1x1600000_S1600000,
    StableHlo.nullary main_cst (constant S_ .f32 0x00000000#32),
    StableHlo.unary main_cst main_v8 (broadcastInDim S100000 ![] bcast_S_S100000 : FVec F S_ .f32 → FVec F S100000 .f32),
    StableHlo.unary main_v7 main_v9 (broadcastInDim S1600000x1 ![0] bcast_S1600000_S1600000x1_0 : IVec S1600000 32 → IVec S1600000x1 32),
    StableHlo.ternary main_v8 main_v9 main_arg1 main_v10 ((fun x i u => Host.scatterAdd scatter_S100000_S1600000x1_S1600000_n_0_0_1 x i u) : FVec F S100000 .f32 → IVec S1600000x1 32 → FVec F S1600000 .f32 → FVec F S100000 .f32),
    StableHlo.nullary main_cst_0 (constant S_ .f32 0x3F800000#32),
    StableHlo.unary main_cst_0 main_v11 (broadcastInDim S100000 ![] bcast_S_S100000 : FVec F S_ .f32 → FVec F S100000 .f32),
    StableHlo.binary main_v10 main_v11 main_v12 (addf : FVec F S100000 .f32 → FVec F S100000 .f32 → FVec F S100000 .f32),
    StableHlo.unary main_v12 main_v13 (Host.rsqrt : FVec F S100000 .f32 → FVec F S100000 .f32),
    StableHlo.nullary main_c (constantI S_ 32 0#32),
    StableHlo.unary main_c main_v14 (broadcastInDim S1600000 ![] bcast_S_S1600000 : IVec S_ 32 → IVec S1600000 32),
    StableHlo.binary main_v5 main_v14 main_v15 (cmpi .slt : IVec S1600000 32 → IVec S1600000 32 → IVec S1600000 1),
    StableHlo.nullary main_c_1 (constantI S_ 32 100000#32),
    StableHlo.unary main_c_1 main_v16 (broadcastInDim S1600000 ![] bcast_S_S1600000 : IVec S_ 32 → IVec S1600000 32),
    StableHlo.binary main_v5 main_v16 main_v17 (addi : IVec S1600000 32 → IVec S1600000 32 → IVec S1600000 32),
    StableHlo.ternary main_v15 main_v17 main_v5 main_v18 (select : IVec S1600000 1 → IVec S1600000 32 → IVec S1600000 32 → IVec S1600000 32),
    StableHlo.unary main_v18 main_v19 (broadcastInDim S1600000x1 ![0] bcast_S1600000_S1600000x1_0 : IVec S1600000 32 → IVec S1600000x1 32),
    StableHlo.binary main_v13 main_v19 main_v20 ((fun x i => Host.gather gather_S100000_S1600000x1_S1600000_n_0_n_n_0_1_1 x i) : FVec F S100000 .f32 → IVec S1600000x1 32 → FVec F S1600000 .f32),
    StableHlo.binary main_v20 main_arg1 main_v21 (mulf : FVec F S1600000 .f32 → FVec F S1600000 .f32 → FVec F S1600000 .f32),
    StableHlo.nullary main_c_2 (constantI S_ 32 0#32),
    StableHlo.unary main_c_2 main_v22 (broadcastInDim S1600000 ![] bcast_S_S1600000 : IVec S_ 32 → IVec S1600000 32),
    StableHlo.binary main_v7 main_v22 main_v23 (cmpi .slt : IVec S1600000 32 → IVec S1600000 32 → IVec S1600000 1),
    StableHlo.nullary main_c_3 (constantI S_ 32 100000#32),
    StableHlo.unary main_c_3 main_v24 (broadcastInDim S1600000 ![] bcast_S_S1600000 : IVec S_ 32 → IVec S1600000 32),
    StableHlo.binary main_v7 main_v24 main_v25 (addi : IVec S1600000 32 → IVec S1600000 32 → IVec S1600000 32),
    StableHlo.ternary main_v23 main_v25 main_v7 main_v26 (select : IVec S1600000 1 → IVec S1600000 32 → IVec S1600000 32 → IVec S1600000 32),
    StableHlo.unary main_v26 main_v27 (broadcastInDim S1600000x1 ![0] bcast_S1600000_S1600000x1_0 : IVec S1600000 32 → IVec S1600000x1 32),
    StableHlo.binary main_v13 main_v27 main_v28 ((fun x i => Host.gather gather_S100000_S1600000x1_S1600000_n_0_n_n_0_1_1 x i) : FVec F S100000 .f32 → IVec S1600000x1 32 → FVec F S1600000 .f32),
    StableHlo.binary main_v21 main_v28 main_v29 (mulf : FVec F S1600000 .f32 → FVec F S1600000 .f32 → FVec F S1600000 .f32),
    StableHlo.binary main_v13 main_v13 main_v30 (mulf : FVec F S100000 .f32 → FVec F S100000 .f32 → FVec F S100000 .f32),
    StableHlo.unary main_arg2 main_v31 ((extractStridedSlice S1x128x128 ![0, 0, 0] · slices_S2x128x128_S1x128x128_0_0_0) : FVec F S2x128x128 .f32 → FVec F S1x128x128 .f32),
    StableHlo.reshape main_v31 main_v32 rfl shapeCasts_S1x128x128_S128x128,
    StableHlo.unary main_arg3 main_v33 ((extractStridedSlice S1x128 ![0, 0] · slices_S2x128_S1x128_0_0) : FVec F S2x128 .f32 → FVec F S1x128 .f32),
    StableHlo.reshape main_v33 main_v34 rfl shapeCasts_S1x128_S128,
    StableHlo.binary main_arg0 main_v32 main_v35 ((fun l r => Host.dotGeneral dot_S100000x128_S128x128_S100000x128_1_0_0_1_n_n none l r) : FVec F S100000x128 .f32 → FVec F S128x128 .f32 → FVec F S100000x128 .f32),
    StableHlo.nullary main_c_4 (constantI S_ 32 0#32),
    StableHlo.unary main_c_4 main_v36 (broadcastInDim S1600000 ![] bcast_S_S1600000 : IVec S_ 32 → IVec S1600000 32),
    StableHlo.binary main_v1 main_v36 main_v37 (cmpi .slt : IVec S1600000 32 → IVec S1600000 32 → IVec S1600000 1),
    StableHlo.nullary main_c_5 (constantI S_ 32 100000#32),
    StableHlo.unary main_c_5 main_v38 (broadcastInDim S1600000 ![] bcast_S_S1600000 : IVec S_ 32 → IVec S1600000 32),
    StableHlo.binary main_v1 main_v38 main_v39 (addi : IVec S1600000 32 → IVec S1600000 32 → IVec S1600000 32),
    StableHlo.ternary main_v37 main_v39 main_v1 main_v40 (select : IVec S1600000 1 → IVec S1600000 32 → IVec S1600000 32 → IVec S1600000 32),
    StableHlo.unary main_v40 main_v41 (broadcastInDim S1600000x1 ![0] bcast_S1600000_S1600000x1_0 : IVec S1600000 32 → IVec S1600000x1 32),
    StableHlo.binary main_v35 main_v41 main_v42 ((fun x i => Host.gather gather_S100000x128_S1600000x1_S1600000x128_1_0_n_n_0_1_1128 x i) : FVec F S100000x128 .f32 → IVec S1600000x1 32 → FVec F S1600000x128 .f32),
    StableHlo.unary main_v29 main_v43 (broadcastInDim S1600000x1 ![0] bcast_S1600000_S1600000x1_0 : FVec F S1600000 .f32 → FVec F S1600000x1 .f32),
    StableHlo.unary main_v43 main_v44 (broadcastInDim S1600000x128 ![0, 1] bcast_S1600000x1_S1600000x128_0_1 : FVec F S1600000x1 .f32 → FVec F S1600000x128 .f32),
    StableHlo.binary main_v42 main_v44 main_v45 (mulf : FVec F S1600000x128 .f32 → FVec F S1600000x128 .f32 → FVec F S1600000x128 .f32),
    StableHlo.nullary main_cst_6 (constant S_ .f32 0x00000000#32),
    StableHlo.unary main_cst_6 main_v46 (broadcastInDim S100000x128 ![] bcast_S_S100000x128 : FVec F S_ .f32 → FVec F S100000x128 .f32),
    StableHlo.unary main_v3 main_v47 (broadcastInDim S1600000x1 ![0] bcast_S1600000_S1600000x1_0 : IVec S1600000 32 → IVec S1600000x1 32),
    StableHlo.ternary main_v46 main_v47 main_v45 main_v48 ((fun x i u => Host.scatterAdd scatter_S100000x128_S1600000x1_S1600000x128_1_0_0_1 x i u) : FVec F S100000x128 .f32 → IVec S1600000x1 32 → FVec F S1600000x128 .f32 → FVec F S100000x128 .f32),
    StableHlo.unary main_v30 main_v49 (broadcastInDim S100000x1 ![0] bcast_S100000_S100000x1_0 : FVec F S100000 .f32 → FVec F S100000x1 .f32),
    StableHlo.unary main_v49 main_v50 (broadcastInDim S100000x128 ![0, 1] bcast_S100000x1_S100000x128_0_1 : FVec F S100000x1 .f32 → FVec F S100000x128 .f32) ]

noncomputable abbrev ops0_W : List (Ref sig .tc) :=
  [main_v0, main_v1, main_v2, main_v3, main_v4, main_v5, main_v6, main_v7, main_cst, main_v8, main_v9, main_v10,
   main_cst_0, main_v11, main_v12, main_v13, main_c, main_v14, main_v15, main_c_1, main_v16, main_v17, main_v18, main_v19,
   main_v20, main_v21, main_c_2, main_v22, main_v23, main_c_3, main_v24, main_v25, main_v26, main_v27, main_v28, main_v29,
   main_v30, main_v31, main_v32, main_v33, main_v34, main_v35, main_c_4, main_v36, main_v37, main_c_5, main_v38, main_v39,
   main_v40, main_v41, main_v42, main_v43, main_v44, main_v45, main_cst_6, main_v46, main_v47, main_v48, main_v49, main_v50]

theorem ops0_ok : Line ops0_W (ops0 : List (HloOp τ sig (Elt F))) := by
  repeat' first
    | exact .nil | apply List.Forall₂.cons | exact ok_nullary .. | exact ok_unary .. | exact ok_binary ..
    | exact ok_ternary .. | exact ok_reshape ..

end Cert.ReferenceIdeal.GcnValue

end
-- ==== Proof.RefRunV0.lean ====
import proofs.«156818_j43868795961418_1_alg».proof.Proof.RefRunSt
import proofs.«156818_j43868795961418_1_alg».proof.Proof.RefRunW0

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

theorem args1 {V : Valuation τ sig (Elt Ideal)} {I : Inputs} (hA : Args V I) : Args (after (ops0 (F := Ideal)) V) I :=
  hA.keep ops0_ok (by decide)

variable {V : Valuation τ sig (Elt Ideal)} {I : Inputs} (hA : Args V I)
include hA

theorem graph1_v1 : after (ops0 (F := Ideal)) V (Proc.devRef .tc main_v1) = I.src := by
  after_results_simp; rw [hA.arg12]; rfl

theorem graph1_v3 : after (ops0 (F := Ideal)) V (Proc.devRef .tc main_v3) = I.dst := by
  after_results_simp; rw [hA.arg12]; rfl

theorem graph1_v29 : after (ops0 (F := Ideal)) V (Proc.devRef .tc main_v29) = I.wn := by
  after_results_simp; rw [hA.arg12, hA.arg1]; rfl

theorem graph1_v30 : after (ops0 (F := Ideal)) V (Proc.devRef .tc main_v30) = I.sn := by
  after_results_simp; rw [hA.arg12, hA.arg1]; rfl

theorem graph1 : Graph (after (ops0 (F := Ideal)) V) I :=
  ⟨graph1_v1 hA, graph1_v3 hA, graph1_v29 hA, graph1_v30 hA⟩

theorem st1_v34 : after (ops0 (F := Ideal)) V (Proc.devRef .tc main_v34) = rRowA I.b1 := by
  after_results_simp; rw [hA.arg3]; rfl

theorem st1_v35 : after (ops0 (F := Ideal)) V (Proc.devRef .tc main_v35) = I.hA1 := by
  after_results_simp; rw [hA.arg0, hA.arg2]; rfl

theorem st1_v48 : after (ops0 (F := Ideal)) V (Proc.devRef .tc main_v48) = rAgg128 I.src I.dst I.wn I.hA1 := by
  after_results_simp; rw [hA.arg12, hA.arg1, hA.arg0, hA.arg2]; rfl

theorem st1_v50 : after (ops0 (F := Ideal)) V (Proc.devRef .tc main_v50) = snB128 I.sn := by
  after_results_simp; rw [hA.arg12, hA.arg1]; rfl

theorem st1 : St1 (after (ops0 (F := Ideal)) V) I := ⟨st1_v34 hA, st1_v35 hA, st1_v48 hA, st1_v50 hA⟩

end Cert.ReferenceIdeal.GcnValue

end
-- ==== Proof.RefRunW1.lean ====
import proofs.«156818_j43868795961418_1_alg».proof.Proof.RefRunLib

noncomputable section

namespace Cert.ReferenceIdeal.GcnValue

open Cert.ReferenceIdeal Cert.ReferenceIdeal.Gen Idealize.ShloMosaic Idealize.ShloMosaic.TcCoe Idealize.SL.Sem Idealize.ShloMosaic.StableHlo Cert.RefLine

variable {F : FTy → Type} [FloatOps F]

noncomputable abbrev ops1 : List (HloOp τ sig (Elt F)) :=
  [ StableHlo.binary main_v50 main_v35 main_v51 (mulf : FVec F S100000x128 .f32 → FVec F S100000x128 .f32 → FVec F S100000x128 .f32),
    StableHlo.binary main_v48 main_v51 main_v52 (addf : FVec F S100000x128 .f32 → FVec F S100000x128 .f32 → FVec F S100000x128 .f32),
    StableHlo.unary main_v34 main_v53 (broadcastInDim S1x128 ![1] bcast_S128_S1x128_1 : FVec F S128 .f32 → FVec F S1x128 .f32),
    StableHlo.unary main_v53 main_v54 (broadcastInDim S100000x128 ![0, 1] bcast_S1x128_S100000x128_0_1 : FVec F S1x128 .f32 → FVec F S100000x128 .f32),
    StableHlo.binary main_v52 main_v54 main_v55 (addf : FVec F S100000x128 .f32 → FVec F S100000x128 .f32 → FVec F S100000x128 .f32),
    StableHlo.unary main_arg4 main_v56 ((extractStridedSlice S1x128 ![0, 0] · slices_S2x128_S1x128_0_0) : FVec F S2x128 .f32 → FVec F S1x128 .f32),
    StableHlo.reshape main_v56 main_v57 rfl shapeCasts_S1x128_S128,
    StableHlo.unary main_arg5 main_v58 ((extractStridedSlice S1x128 ![0, 0] · slices_S2x128_S1x128_0_0) : FVec F S2x128 .f32 → FVec F S1x128 .f32),
    StableHlo.reshape main_v58 main_v59 rfl shapeCasts_S1x128_S128,
    StableHlo.nullary main_cst_7 (constant S_ .f32 0x00000000#32),
    StableHlo.binary main_v55 main_cst_7 main_v60 ((fun x v => Host.reduceAdd x v reducesTo_S100000x128_S128_d0 h_S_) : FVec F S100000x128 .f32 → FVec F S_ .f32 → FVec F S128 .f32),
    StableHlo.nullary main_cst_8 (constant S_ .f32 0x47C35000#32),
    StableHlo.unary main_cst_8 main_v61 (broadcastInDim S128 ![] bcast_S_S128 : FVec F S_ .f32 → FVec F S128 .f32),
    StableHlo.binary main_v60 main_v61 main_v62 (Host.divf : FVec F S128 .f32 → FVec F S128 .f32 → FVec F S128 .f32),
    StableHlo.unary main_v62 main_v63 (broadcastInDim S1x128 ![1] bcast_S128_S1x128_1 : FVec F S128 .f32 → FVec F S1x128 .f32),
    StableHlo.unary main_v63 main_v64 (broadcastInDim S100000x128 ![0, 1] bcast_S1x128_S100000x128_0_1 : FVec F S1x128 .f32 → FVec F S100000x128 .f32),
    StableHlo.binary main_v55 main_v64 main_v65 (subf : FVec F S100000x128 .f32 → FVec F S100000x128 .f32 → FVec F S100000x128 .f32),
    StableHlo.binary main_v65 main_v65 main_v66 (mulf : FVec F S100000x128 .f32 → FVec F S100000x128 .f32 → FVec F S100000x128 .f32),
    StableHlo.nullary main_cst_9 (constant S_ .f32 0x00000000#32),
    StableHlo.binary main_v66 main_cst_9 main_v67 ((fun x v => Host.reduceAdd x v reducesTo_S100000x128_S128_d0 h_S_) : FVec F S100000x128 .f32 → FVec F S_ .f32 → FVec F S128 .f32),
    StableHlo.nullary main_cst_10 (constant S_ .f32 0x47C35000#32),
    StableHlo.unary main_cst_10 main_v68 (broadcastInDim S128 ![] bcast_S_S128 : FVec F S_ .f32 → FVec F S128 .f32),
    StableHlo.binary main_v67 main_v68 main_v69 (Host.divf : FVec F S128 .f32 → FVec F S128 .f32 → FVec F S128 .f32),
    StableHlo.unary main_v62 main_v70 (broadcastInDim S1x128 ![1] bcast_S128_S1x128_1 : FVec F S128 .f32 → FVec F S1x128 .f32),
    StableHlo.unary main_v70 main_v71 (broadcastInDim S100000x128 ![0, 1] bcast_S1x128_S100000x128_0_1 : FVec F S1x128 .f32 → FVec F S100000x128 .f32),
    StableHlo.binary main_v55 main_v71 main_v72 (subf : FVec F S100000x128 .f32 → FVec F S100000x128 .f32 → FVec F S100000x128 .f32),
    StableHlo.unary main_v57 main_v73 (broadcastInDim S1x128 ![1] bcast_S128_S1x128_1 : FVec F S128 .f32 → FVec F S1x128 .f32),
    StableHlo.unary main_v73 main_v74 (broadcastInDim S100000x128 ![0, 1] bcast_S1x128_S100000x128_0_1 : FVec F S1x128 .f32 → FVec F S100000x128 .f32),
    StableHlo.binary main_v74 main_v72 main_v75 (mulf : FVec F S100000x128 .f32 → FVec F S100000x128 .f32 → FVec F S100000x128 .f32),
    StableHlo.nullary main_cst_11 (constant S_ .f32 0x3727C5AC#32),
    StableHlo.unary main_cst_11 main_v76 (broadcastInDim S128 ![] bcast_S_S128 : FVec F S_ .f32 → FVec F S128 .f32),
    StableHlo.binary main_v69 main_v76 main_v77 (addf : FVec F S128 .f32 → FVec F S128 .f32 → FVec F S128 .f32),
    StableHlo.unary main_v77 main_v78 (Host.rsqrt : FVec F S128 .f32 → FVec F S128 .f32),
    StableHlo.unary main_v78 main_v79 (broadcastInDim S1x128 ![1] bcast_S128_S1x128_1 : FVec F S128 .f32 → FVec F S1x128 .f32),
    StableHlo.unary main_v79 main_v80 (broadcastInDim S100000x128 ![0, 1] bcast_S1x128_S100000x128_0_1 : FVec F S1x128 .f32 → FVec F S100000x128 .f32),
    StableHlo.binary main_v75 main_v80 main_v81 (mulf : FVec F S100000x128 .f32 → FVec F S100000x128 .f32 → FVec F S100000x128 .f32),
    StableHlo.unary main_v59 main_v82 (broadcastInDim S1x128 ![1] bcast_S128_S1x128_1 : FVec F S128 .f32 → FVec F S1x128 .f32),
    StableHlo.unary main_v82 main_v83 (broadcastInDim S100000x128 ![0, 1] bcast_S1x128_S100000x128_0_1 : FVec F S1x128 .f32 → FVec F S100000x128 .f32),
    StableHlo.binary main_v81 main_v83 main_v84 (addf : FVec F S100000x128 .f32 → FVec F S100000x128 .f32 → FVec F S100000x128 .f32),
    StableHlo.TRef.nullary main_call0.cst (constant S_ .f32 0x00000000#32),
    StableHlo.TRef.unary main_call0.cst main_call0.v0 (broadcastInDim S100000x128 ![] bcast_S_S100000x128),
    StableHlo.TRef.binary (.of main_v84) main_call0.v0 main_call0.v1 maximumf,
    StableHlo.unary main_arg6 main_v86 ((extractStridedSlice S1x128x128 ![0, 0, 0] · slices_S2x128x128_S1x128x128_0_0_0) : FVec F S2x128x128 .f32 → FVec F S1x128x128 .f32),
    StableHlo.reshape main_v86 main_v87 rfl shapeCasts_S1x128x128_S128x128,
    StableHlo.unary main_arg7 main_v88 ((extractStridedSlice S1x128 ![0, 0] · slices_S2x128_S1x128_0_0) : FVec F S2x128 .f32 → FVec F S1x128 .f32),
    StableHlo.reshape main_v88 main_v89 rfl shapeCasts_S1x128_S128,
    StableHlo.binary main_v85 main_v87 main_v90 ((fun l r => Host.dotGeneral dot_S100000x128_S128x128_S100000x128_1_0_0_1_n_n none l r) : FVec F S100000x128 .f32 → FVec F S128x128 .f32 → FVec F S100000x128 .f32),
    StableHlo.nullary main_c_12 (constantI S_ 32 0#32),
    StableHlo.unary main_c_12 main_v91 (broadcastInDim S1600000 ![] bcast_S_S1600000 : IVec S_ 32 → IVec S1600000 32),
    StableHlo.binary main_v1 main_v91 main_v92 (cmpi .slt : IVec S1600000 32 → IVec S1600000 32 → IVec S1600000 1),
    StableHlo.nullary main_c_13 (constantI S_ 32 100000#32),
    StableHlo.unary main_c_13 main_v93 (broadcastInDim S1600000 ![] bcast_S_S1600000 : IVec S_ 32 → IVec S1600000 32),
    StableHlo.binary main_v1 main_v93 main_v94 (addi : IVec S1600000 32 → IVec S1600000 32 → IVec S1600000 32),
    StableHlo.ternary main_v92 main_v94 main_v1 main_v95 (select : IVec S1600000 1 → IVec S1600000 32 → IVec S1600000 32 → IVec S1600000 32),
    StableHlo.unary main_v95 main_v96 (broadcastInDim S1600000x1 ![0] bcast_S1600000_S1600000x1_0 : IVec S1600000 32 → IVec S1600000x1 32),
    StableHlo.binary main_v90 main_v96 main_v97 ((fun x i => Host.gather gather_S100000x128_S1600000x1_S1600000x128_1_0_n_n_0_1_1128 x i) : FVec F S100000x128 .f32 → IVec S1600000x1 32 → FVec F S1600000x128 .f32),
    StableHlo.unary main_v29 main_v98 (broadcastInDim S1600000x1 ![0] bcast_S1600000_S1600000x1_0 : FVec F S1600000 .f32 → FVec F S1600000x1 .f32),
    StableHlo.unary main_v98 main_v99 (broadcastInDim S1600000x128 ![0, 1] bcast_S1600000x1_S1600000x128_0_1 : FVec F S1600000x1 .f32 → FVec F S1600000x128 .f32),
    StableHlo.binary main_v97 main_v99 main_v100 (mulf : FVec F S1600000x128 .f32 → FVec F S1600000x128 .f32 → FVec F S1600000x128 .f32),
    StableHlo.nullary main_cst_14 (constant S_ .f32 0x00000000#32),
    StableHlo.unary main_cst_14 main_v101 (broadcastInDim S100000x128 ![] bcast_S_S100000x128 : FVec F S_ .f32 → FVec F S100000x128 .f32),
    StableHlo.unary main_v3 main_v102 (broadcastInDim S1600000x1 ![0] bcast_S1600000_S1600000x1_0 : IVec S1600000 32 → IVec S1600000x1 32) ]

noncomputable abbrev ops1_W : List (Ref sig .tc) :=
  [main_v51, main_v52, main_v53, main_v54, main_v55, main_v56, main_v57, main_v58, main_v59, main_cst_7, main_v60, main_cst_8,
   main_v61, main_v62, main_v63, main_v64, main_v65, main_v66, main_cst_9, main_v67, main_cst_10, main_v68, main_v69, main_v70,
   main_v71, main_v72, main_v73, main_v74, main_v75, main_cst_11, main_v76, main_v77, main_v78, main_v79, main_v80, main_v81,
   main_v82, main_v83, main_v84, main_call0_cst, main_call0_v0, main_v85, main_v86, main_v87, main_v88, main_v89, main_v90, main_c_12,
   main_v91, main_v92, main_c_13, main_v93, main_v94, main_v95, main_v96, main_v97, main_v98, main_v99, main_v100, main_cst_14,
   main_v101, main_v102]

theorem ops1_ok : Line ops1_W (ops1 : List (HloOp τ sig (Elt F))) := by
  repeat' first
    | exact .nil | apply List.Forall₂.cons | exact ok_nullary .. | exact ok_unary .. | exact ok_binary ..
    | exact ok_ternary .. | exact ok_reshape ..

end Cert.ReferenceIdeal.GcnValue

end
-- ==== Proof.RefRunV1.lean ====
import proofs.«156818_j43868795961418_1_alg».proof.Proof.RefRunSt
import proofs.«156818_j43868795961418_1_alg».proof.Proof.RefRunW1

set_option maxHeartbeats 1000000

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

theorem args2 {V : Valuation τ sig (Elt Ideal)} {I : Inputs} (hA : Args V I) : Args (after (ops1 (F := Ideal)) V) I :=
  hA.keep ops1_ok (by decide)

theorem graph2 {V : Valuation τ sig (Elt Ideal)} {I : Inputs} (hG : Graph V I) : Graph (after (ops1 (F := Ideal)) V) I :=
  hG.keep ops1_ok (by decide)

variable {V : Valuation τ sig (Elt Ideal)} {I : Inputs} (hA : Args V I) (hG : Graph V I) (h : St1 V I)
include hA hG h

theorem st2_v89 : after (ops1 (F := Ideal)) V (Proc.devRef .tc main_v89) = rRowA I.b2 := by
  after_results_simp
  rw [hA.arg7]
  rfl

theorem st2_v90 : after (ops1 (F := Ideal)) V (Proc.devRef .tc main_v90) = I.hA2 := by
  after_results_simp
  rw [h.v48, h.v50, h.v35, h.v34, hA.arg4, hA.arg5, hA.arg6]
  rfl

theorem st2_v100 : after (ops1 (F := Ideal)) V (Proc.devRef .tc main_v100) = msg128 I.src I.wn I.hA2 := by
  after_results_simp
  rw [h.v48, h.v50, h.v35, h.v34, hA.arg4, hA.arg5, hA.arg6, hG.v1, hG.v29]
  rfl

theorem st2_v101 : after (ops1 (F := Ideal)) V (Proc.devRef .tc main_v101) = zeros128 := by
  after_results_simp
  rfl

theorem st2_v102 : after (ops1 (F := Ideal)) V (Proc.devRef .tc main_v102) = dstCol I.dst := by
  after_results_simp
  rw [hG.v3]
  rfl

theorem st2 : St2 (after (ops1 (F := Ideal)) V) I where
  v89 := st2_v89 hA hG h
  v90 := st2_v90 hA hG h
  v100 := st2_v100 hA hG h
  v101 := st2_v101 hA hG h
  v102 := st2_v102 hA hG h

end Cert.ReferenceIdeal.GcnValue

end
-- ==== Proof.RefRunW2.lean ====
import proofs.«156818_j43868795961418_1_alg».proof.Proof.RefRunLib

noncomputable section

namespace Cert.ReferenceIdeal.GcnValue

open Cert.ReferenceIdeal Cert.ReferenceIdeal.Gen Idealize.ShloMosaic Idealize.ShloMosaic.TcCoe Idealize.SL.Sem Idealize.ShloMosaic.StableHlo Cert.RefLine

variable {F : FTy → Type} [FloatOps F]

noncomputable abbrev ops2 : List (HloOp τ sig (Elt F)) :=
  [ StableHlo.ternary main_v101 main_v102 main_v100 main_v103 ((fun x i u => Host.scatterAdd scatter_S100000x128_S1600000x1_S1600000x128_1_0_0_1 x i u) : FVec F S100000x128 .f32 → IVec S1600000x1 32 → FVec F S1600000x128 .f32 → FVec F S100000x128 .f32),
    StableHlo.unary main_v30 main_v104 (broadcastInDim S100000x1 ![0] bcast_S100000_S100000x1_0 : FVec F S100000 .f32 → FVec F S100000x1 .f32),
    StableHlo.unary main_v104 main_v105 (broadcastInDim S100000x128 ![0, 1] bcast_S100000x1_S100000x128_0_1 : FVec F S100000x1 .f32 → FVec F S100000x128 .f32),
    StableHlo.binary main_v105 main_v90 main_v106 (mulf : FVec F S100000x128 .f32 → FVec F S100000x128 .f32 → FVec F S100000x128 .f32),
    StableHlo.binary main_v103 main_v106 main_v107 (addf : FVec F S100000x128 .f32 → FVec F S100000x128 .f32 → FVec F S100000x128 .f32),
    StableHlo.unary main_v89 main_v108 (broadcastInDim S1x128 ![1] bcast_S128_S1x128_1 : FVec F S128 .f32 → FVec F S1x128 .f32),
    StableHlo.unary main_v108 main_v109 (broadcastInDim S100000x128 ![0, 1] bcast_S1x128_S100000x128_0_1 : FVec F S1x128 .f32 → FVec F S100000x128 .f32),
    StableHlo.binary main_v107 main_v109 main_v110 (addf : FVec F S100000x128 .f32 → FVec F S100000x128 .f32 → FVec F S100000x128 .f32),
    StableHlo.unary main_arg8 main_v111 ((extractStridedSlice S1x128 ![0, 0] · slices_S2x128_S1x128_0_0) : FVec F S2x128 .f32 → FVec F S1x128 .f32),
    StableHlo.reshape main_v111 main_v112 rfl shapeCasts_S1x128_S128,
    StableHlo.unary main_arg9 main_v113 ((extractStridedSlice S1x128 ![0, 0] · slices_S2x128_S1x128_0_0) : FVec F S2x128 .f32 → FVec F S1x128 .f32),
    StableHlo.reshape main_v113 main_v114 rfl shapeCasts_S1x128_S128,
    StableHlo.nullary main_cst_15 (constant S_ .f32 0x00000000#32),
    StableHlo.binary main_v110 main_cst_15 main_v115 ((fun x v => Host.reduceAdd x v reducesTo_S100000x128_S128_d0 h_S_) : FVec F S100000x128 .f32 → FVec F S_ .f32 → FVec F S128 .f32),
    StableHlo.nullary main_cst_16 (constant S_ .f32 0x47C35000#32),
    StableHlo.unary main_cst_16 main_v116 (broadcastInDim S128 ![] bcast_S_S128 : FVec F S_ .f32 → FVec F S128 .f32),
    StableHlo.binary main_v115 main_v116 main_v117 (Host.divf : FVec F S128 .f32 → FVec F S128 .f32 → FVec F S128 .f32),
    StableHlo.unary main_v117 main_v118 (broadcastInDim S1x128 ![1] bcast_S128_S1x128_1 : FVec F S128 .f32 → FVec F S1x128 .f32),
    StableHlo.unary main_v118 main_v119 (broadcastInDim S100000x128 ![0, 1] bcast_S1x128_S100000x128_0_1 : FVec F S1x128 .f32 → FVec F S100000x128 .f32),
    StableHlo.binary main_v110 main_v119 main_v120 (subf : FVec F S100000x128 .f32 → FVec F S100000x128 .f32 → FVec F S100000x128 .f32),
    StableHlo.binary main_v120 main_v120 main_v121 (mulf : FVec F S100000x128 .f32 → FVec F S100000x128 .f32 → FVec F S100000x128 .f32),
    StableHlo.nullary main_cst_17 (constant S_ .f32 0x00000000#32),
    StableHlo.binary main_v121 main_cst_17 main_v122 ((fun x v => Host.reduceAdd x v reducesTo_S100000x128_S128_d0 h_S_) : FVec F S100000x128 .f32 → FVec F S_ .f32 → FVec F S128 .f32),
    StableHlo.nullary main_cst_18 (constant S_ .f32 0x47C35000#32),
    StableHlo.unary main_cst_18 main_v123 (broadcastInDim S128 ![] bcast_S_S128 : FVec F S_ .f32 → FVec F S128 .f32),
    StableHlo.binary main_v122 main_v123 main_v124 (Host.divf : FVec F S128 .f32 → FVec F S128 .f32 → FVec F S128 .f32),
    StableHlo.unary main_v117 main_v125 (broadcastInDim S1x128 ![1] bcast_S128_S1x128_1 : FVec F S128 .f32 → FVec F S1x128 .f32),
    StableHlo.unary main_v125 main_v126 (broadcastInDim S100000x128 ![0, 1] bcast_S1x128_S100000x128_0_1 : FVec F S1x128 .f32 → FVec F S100000x128 .f32),
    StableHlo.binary main_v110 main_v126 main_v127 (subf : FVec F S100000x128 .f32 → FVec F S100000x128 .f32 → FVec F S100000x128 .f32),
    StableHlo.unary main_v112 main_v128 (broadcastInDim S1x128 ![1] bcast_S128_S1x128_1 : FVec F S128 .f32 → FVec F S1x128 .f32),
    StableHlo.unary main_v128 main_v129 (broadcastInDim S100000x128 ![0, 1] bcast_S1x128_S100000x128_0_1 : FVec F S1x128 .f32 → FVec F S100000x128 .f32),
    StableHlo.binary main_v129 main_v127 main_v130 (mulf : FVec F S100000x128 .f32 → FVec F S100000x128 .f32 → FVec F S100000x128 .f32),
    StableHlo.nullary main_cst_19 (constant S_ .f32 0x3727C5AC#32),
    StableHlo.unary main_cst_19 main_v131 (broadcastInDim S128 ![] bcast_S_S128 : FVec F S_ .f32 → FVec F S128 .f32),
    StableHlo.binary main_v124 main_v131 main_v132 (addf : FVec F S128 .f32 → FVec F S128 .f32 → FVec F S128 .f32),
    StableHlo.unary main_v132 main_v133 (Host.rsqrt : FVec F S128 .f32 → FVec F S128 .f32),
    StableHlo.unary main_v133 main_v134 (broadcastInDim S1x128 ![1] bcast_S128_S1x128_1 : FVec F S128 .f32 → FVec F S1x128 .f32),
    StableHlo.unary main_v134 main_v135 (broadcastInDim S100000x128 ![0, 1] bcast_S1x128_S100000x128_0_1 : FVec F S1x128 .f32 → FVec F S100000x128 .f32),
    StableHlo.binary main_v130 main_v135 main_v136 (mulf : FVec F S100000x128 .f32 → FVec F S100000x128 .f32 → FVec F S100000x128 .f32),
    StableHlo.unary main_v114 main_v137 (broadcastInDim S1x128 ![1] bcast_S128_S1x128_1 : FVec F S128 .f32 → FVec F S1x128 .f32),
    StableHlo.unary main_v137 main_v138 (broadcastInDim S100000x128 ![0, 1] bcast_S1x128_S100000x128_0_1 : FVec F S1x128 .f32 → FVec F S100000x128 .f32),
    StableHlo.binary main_v136 main_v138 main_v139 (addf : FVec F S100000x128 .f32 → FVec F S100000x128 .f32 → FVec F S100000x128 .f32),
    StableHlo.TRef.nullary main_call1.cst (constant S_ .f32 0x00000000#32),
    StableHlo.TRef.unary main_call1.cst main_call1.v0 (broadcastInDim S100000x128 ![] bcast_S_S100000x128),
    StableHlo.TRef.binary (.of main_v139) main_call1.v0 main_call1.v1 maximumf,
    StableHlo.unary main_arg10 main_v141 ((extractStridedSlice S1x128x40 ![0, 0, 0] · slices_S2x128x40_S1x128x40_0_0_0) : FVec F S2x128x40 .f32 → FVec F S1x128x40 .f32),
    StableHlo.reshape main_v141 main_v142 rfl shapeCasts_S1x128x40_S128x40,
    StableHlo.unary main_arg11 main_v143 ((extractStridedSlice S1x40 ![0, 0] · slices_S2x40_S1x40_0_0) : FVec F S2x40 .f32 → FVec F S1x40 .f32),
    StableHlo.reshape main_v143 main_v144 rfl shapeCasts_S1x40_S40,
    StableHlo.binary main_v140 main_v142 main_v145 ((fun l r => Host.dotGeneral dot_S100000x128_S128x40_S100000x40_1_0_0_1_n_n none l r) : FVec F S100000x128 .f32 → FVec F S128x40 .f32 → FVec F S100000x40 .f32),
    StableHlo.nullary main_c_20 (constantI S_ 32 0#32),
    StableHlo.unary main_c_20 main_v146 (broadcastInDim S1600000 ![] bcast_S_S1600000 : IVec S_ 32 → IVec S1600000 32),
    StableHlo.binary main_v1 main_v146 main_v147 (cmpi .slt : IVec S1600000 32 → IVec S1600000 32 → IVec S1600000 1),
    StableHlo.nullary main_c_21 (constantI S_ 32 100000#32),
    StableHlo.unary main_c_21 main_v148 (broadcastInDim S1600000 ![] bcast_S_S1600000 : IVec S_ 32 → IVec S1600000 32),
    StableHlo.binary main_v1 main_v148 main_v149 (addi : IVec S1600000 32 → IVec S1600000 32 → IVec S1600000 32),
    StableHlo.ternary main_v147 main_v149 main_v1 main_v150 (select : IVec S1600000 1 → IVec S1600000 32 → IVec S1600000 32 → IVec S1600000 32),
    StableHlo.unary main_v150 main_v151 (broadcastInDim S1600000x1 ![0] bcast_S1600000_S1600000x1_0 : IVec S1600000 32 → IVec S1600000x1 32),
    StableHlo.binary main_v145 main_v151 main_v152 ((fun x i => Host.gather gather_S100000x40_S1600000x1_S1600000x40_1_0_n_n_0_1_140 x i) : FVec F S100000x40 .f32 → IVec S1600000x1 32 → FVec F S1600000x40 .f32),
    StableHlo.unary main_v29 main_v153 (broadcastInDim S1600000x1 ![0] bcast_S1600000_S1600000x1_0 : FVec F S1600000 .f32 → FVec F S1600000x1 .f32),
    StableHlo.unary main_v153 main_v154 (broadcastInDim S1600000x40 ![0, 1] bcast_S1600000x1_S1600000x40_0_1 : FVec F S1600000x1 .f32 → FVec F S1600000x40 .f32),
    StableHlo.binary main_v152 main_v154 main_v155 (mulf : FVec F S1600000x40 .f32 → FVec F S1600000x40 .f32 → FVec F S1600000x40 .f32) ]

noncomputable abbrev ops2_W : List (Ref sig .tc) :=
  [main_v103, main_v104, main_v105, main_v106, main_v107, main_v108, main_v109, main_v110, main_v111, main_v112, main_v113, main_v114,
   main_cst_15, main_v115, main_cst_16, main_v116, main_v117, main_v118, main_v119, main_v120, main_v121, main_cst_17, main_v122, main_cst_18,
   main_v123, main_v124, main_v125, main_v126, main_v127, main_v128, main_v129, main_v130, main_cst_19, main_v131, main_v132, main_v133,
   main_v134, main_v135, main_v136, main_v137, main_v138, main_v139, main_call1_cst, main_call1_v0, main_v140, main_v141, main_v142, main_v143,
   main_v144, main_v145, main_c_20, main_v146, main_v147, main_c_21, main_v148, main_v149, main_v150, main_v151, main_v152, main_v153,
   main_v154, main_v155]

theorem ops2_ok : Line ops2_W (ops2 : List (HloOp τ sig (Elt F))) := by
  repeat' first
    | exact .nil | apply List.Forall₂.cons | exact ok_nullary .. | exact ok_unary .. | exact ok_binary ..
    | exact ok_ternary .. | exact ok_reshape ..

end Cert.ReferenceIdeal.GcnValue

end
-- ==== Proof.RefRunV2.lean ====
import proofs.«156818_j43868795961418_1_alg».proof.Proof.RefRunSt
import proofs.«156818_j43868795961418_1_alg».proof.Proof.RefRunW2

set_option maxHeartbeats 1000000

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

theorem args3 {V : Valuation τ sig (Elt Ideal)} {I : Inputs} (hA : Args V I) : Args (after (ops2 (F := Ideal)) V) I :=
  hA.keep ops2_ok (by decide)

theorem graph3 {V : Valuation τ sig (Elt Ideal)} {I : Inputs} (hG : Graph V I) : Graph (after (ops2 (F := Ideal)) V) I :=
  hG.keep ops2_ok (by decide)

variable {V : Valuation τ sig (Elt Ideal)} {I : Inputs} (hA : Args V I) (hG : Graph V I) (h : St2 V I)
include hA hG h

theorem st3_v144 : after (ops2 (F := Ideal)) V (Proc.devRef .tc main_v144) = rRow40A I.b3 := by
  after_results_simp
  rw [hA.arg11]
  rfl

theorem st3_v145 : after (ops2 (F := Ideal)) V (Proc.devRef .tc main_v145) = I.hA3 := by
  after_results_simp
  rw [h.v101, h.v102, h.v100, h.v90, h.v89, hG.v30, hA.arg8, hA.arg9, hA.arg10]
  rfl

theorem st3_v155 : after (ops2 (F := Ideal)) V (Proc.devRef .tc main_v155) = msg40 I.src I.wn I.hA3 := by
  after_results_simp
  rw [h.v101, h.v102, h.v100, h.v90, h.v89, hG.v30, hA.arg8, hA.arg9, hA.arg10, hG.v1, hG.v29]
  rfl

theorem st3 : St3 (after (ops2 (F := Ideal)) V) I where
  v144 := st3_v144 hA hG h
  v145 := st3_v145 hA hG h
  v155 := st3_v155 hA hG h

end Cert.ReferenceIdeal.GcnValue

end
-- ==== Proof.RefRunW3.lean ====
import proofs.«156818_j43868795961418_1_alg».proof.Proof.RefRunLib

noncomputable section

namespace Cert.ReferenceIdeal.GcnValue

open Cert.ReferenceIdeal Cert.ReferenceIdeal.Gen Idealize.ShloMosaic Idealize.ShloMosaic.TcCoe Idealize.SL.Sem Idealize.ShloMosaic.StableHlo Cert.RefLine

variable {F : FTy → Type} [FloatOps F]

noncomputable abbrev ops3 : List (HloOp τ sig (Elt F)) :=
  [ StableHlo.nullary main_cst_22 (constant S_ .f32 0x00000000#32),
    StableHlo.unary main_cst_22 main_v156 (broadcastInDim S100000x40 ![] bcast_S_S100000x40 : FVec F S_ .f32 → FVec F S100000x40 .f32),
    StableHlo.unary main_v3 main_v157 (broadcastInDim S1600000x1 ![0] bcast_S1600000_S1600000x1_0 : IVec S1600000 32 → IVec S1600000x1 32),
    StableHlo.ternary main_v156 main_v157 main_v155 main_v158 ((fun x i u => Host.scatterAdd scatter_S100000x40_S1600000x1_S1600000x40_1_0_0_1 x i u) : FVec F S100000x40 .f32 → IVec S1600000x1 32 → FVec F S1600000x40 .f32 → FVec F S100000x40 .f32),
    StableHlo.unary main_v30 main_v159 (broadcastInDim S100000x1 ![0] bcast_S100000_S100000x1_0 : FVec F S100000 .f32 → FVec F S100000x1 .f32),
    StableHlo.unary main_v159 main_v160 (broadcastInDim S100000x40 ![0, 1] bcast_S100000x1_S100000x40_0_1 : FVec F S100000x1 .f32 → FVec F S100000x40 .f32),
    StableHlo.binary main_v160 main_v145 main_v161 (mulf : FVec F S100000x40 .f32 → FVec F S100000x40 .f32 → FVec F S100000x40 .f32),
    StableHlo.binary main_v158 main_v161 main_v162 (addf : FVec F S100000x40 .f32 → FVec F S100000x40 .f32 → FVec F S100000x40 .f32),
    StableHlo.unary main_v144 main_v163 (broadcastInDim S1x40 ![1] bcast_S40_S1x40_1 : FVec F S40 .f32 → FVec F S1x40 .f32),
    StableHlo.unary main_v163 main_v164 (broadcastInDim S100000x40 ![0, 1] bcast_S1x40_S100000x40_0_1 : FVec F S1x40 .f32 → FVec F S100000x40 .f32),
    StableHlo.binary main_v162 main_v164 main_v165 (addf : FVec F S100000x40 .f32 → FVec F S100000x40 .f32 → FVec F S100000x40 .f32),
    StableHlo.unary main_arg2 main_v166 ((extractStridedSlice S1x128x128 ![1, 0, 0] · slices_S2x128x128_S1x128x128_1_0_0) : FVec F S2x128x128 .f32 → FVec F S1x128x128 .f32),
    StableHlo.reshape main_v166 main_v167 rfl shapeCasts_S1x128x128_S128x128,
    StableHlo.unary main_arg3 main_v168 ((extractStridedSlice S1x128 ![1, 0] · slices_S2x128_S1x128_1_0) : FVec F S2x128 .f32 → FVec F S1x128 .f32),
    StableHlo.reshape main_v168 main_v169 rfl shapeCasts_S1x128_S128,
    StableHlo.binary main_arg0 main_v167 main_v170 ((fun l r => Host.dotGeneral dot_S100000x128_S128x128_S100000x128_1_0_0_1_n_n none l r) : FVec F S100000x128 .f32 → FVec F S128x128 .f32 → FVec F S100000x128 .f32),
    StableHlo.nullary main_c_23 (constantI S_ 32 0#32),
    StableHlo.unary main_c_23 main_v171 (broadcastInDim S1600000 ![] bcast_S_S1600000 : IVec S_ 32 → IVec S1600000 32),
    StableHlo.binary main_v1 main_v171 main_v172 (cmpi .slt : IVec S1600000 32 → IVec S1600000 32 → IVec S1600000 1),
    StableHlo.nullary main_c_24 (constantI S_ 32 100000#32),
    StableHlo.unary main_c_24 main_v173 (broadcastInDim S1600000 ![] bcast_S_S1600000 : IVec S_ 32 → IVec S1600000 32),
    StableHlo.binary main_v1 main_v173 main_v174 (addi : IVec S1600000 32 → IVec S1600000 32 → IVec S1600000 32),
    StableHlo.ternary main_v172 main_v174 main_v1 main_v175 (select : IVec S1600000 1 → IVec S1600000 32 → IVec S1600000 32 → IVec S1600000 32),
    StableHlo.unary main_v175 main_v176 (broadcastInDim S1600000x1 ![0] bcast_S1600000_S1600000x1_0 : IVec S1600000 32 → IVec S1600000x1 32),
    StableHlo.binary main_v170 main_v176 main_v177 ((fun x i => Host.gather gather_S100000x128_S1600000x1_S1600000x128_1_0_n_n_0_1_1128 x i) : FVec F S100000x128 .f32 → IVec S1600000x1 32 → FVec F S1600000x128 .f32),
    StableHlo.unary main_v29 main_v178 (broadcastInDim S1600000x1 ![0] bcast_S1600000_S1600000x1_0 : FVec F S1600000 .f32 → FVec F S1600000x1 .f32),
    StableHlo.unary main_v178 main_v179 (broadcastInDim S1600000x128 ![0, 1] bcast_S1600000x1_S1600000x128_0_1 : FVec F S1600000x1 .f32 → FVec F S1600000x128 .f32),
    StableHlo.binary main_v177 main_v179 main_v180 (mulf : FVec F S1600000x128 .f32 → FVec F S1600000x128 .f32 → FVec F S1600000x128 .f32),
    StableHlo.nullary main_cst_25 (constant S_ .f32 0x00000000#32),
    StableHlo.unary main_cst_25 main_v181 (broadcastInDim S100000x128 ![] bcast_S_S100000x128 : FVec F S_ .f32 → FVec F S100000x128 .f32),
    StableHlo.unary main_v3 main_v182 (broadcastInDim S1600000x1 ![0] bcast_S1600000_S1600000x1_0 : IVec S1600000 32 → IVec S1600000x1 32),
    StableHlo.ternary main_v181 main_v182 main_v180 main_v183 ((fun x i u => Host.scatterAdd scatter_S100000x128_S1600000x1_S1600000x128_1_0_0_1 x i u) : FVec F S100000x128 .f32 → IVec S1600000x1 32 → FVec F S1600000x128 .f32 → FVec F S100000x128 .f32),
    StableHlo.unary main_v30 main_v184 (broadcastInDim S100000x1 ![0] bcast_S100000_S100000x1_0 : FVec F S100000 .f32 → FVec F S100000x1 .f32),
    StableHlo.unary main_v184 main_v185 (broadcastInDim S100000x128 ![0, 1] bcast_S100000x1_S100000x128_0_1 : FVec F S100000x1 .f32 → FVec F S100000x128 .f32),
    StableHlo.binary main_v185 main_v170 main_v186 (mulf : FVec F S100000x128 .f32 → FVec F S100000x128 .f32 → FVec F S100000x128 .f32),
    StableHlo.binary main_v183 main_v186 main_v187 (addf : FVec F S100000x128 .f32 → FVec F S100000x128 .f32 → FVec F S100000x128 .f32),
    StableHlo.unary main_v169 main_v188 (broadcastInDim S1x128 ![1] bcast_S128_S1x128_1 : FVec F S128 .f32 → FVec F S1x128 .f32),
    StableHlo.unary main_v188 main_v189 (broadcastInDim S100000x128 ![0, 1] bcast_S1x128_S100000x128_0_1 : FVec F S1x128 .f32 → FVec F S100000x128 .f32),
    StableHlo.binary main_v187 main_v189 main_v190 (addf : FVec F S100000x128 .f32 → FVec F S100000x128 .f32 → FVec F S100000x128 .f32),
    StableHlo.unary main_arg4 main_v191 ((extractStridedSlice S1x128 ![1, 0] · slices_S2x128_S1x128_1_0) : FVec F S2x128 .f32 → FVec F S1x128 .f32),
    StableHlo.reshape main_v191 main_v192 rfl shapeCasts_S1x128_S128,
    StableHlo.unary main_arg5 main_v193 ((extractStridedSlice S1x128 ![1, 0] · slices_S2x128_S1x128_1_0) : FVec F S2x128 .f32 → FVec F S1x128 .f32),
    StableHlo.reshape main_v193 main_v194 rfl shapeCasts_S1x128_S128,
    StableHlo.nullary main_cst_26 (constant S_ .f32 0x00000000#32),
    StableHlo.binary main_v190 main_cst_26 main_v195 ((fun x v => Host.reduceAdd x v reducesTo_S100000x128_S128_d0 h_S_) : FVec F S100000x128 .f32 → FVec F S_ .f32 → FVec F S128 .f32),
    StableHlo.nullary main_cst_27 (constant S_ .f32 0x47C35000#32),
    StableHlo.unary main_cst_27 main_v196 (broadcastInDim S128 ![] bcast_S_S128 : FVec F S_ .f32 → FVec F S128 .f32),
    StableHlo.binary main_v195 main_v196 main_v197 (Host.divf : FVec F S128 .f32 → FVec F S128 .f32 → FVec F S128 .f32),
    StableHlo.unary main_v197 main_v198 (broadcastInDim S1x128 ![1] bcast_S128_S1x128_1 : FVec F S128 .f32 → FVec F S1x128 .f32),
    StableHlo.unary main_v198 main_v199 (broadcastInDim S100000x128 ![0, 1] bcast_S1x128_S100000x128_0_1 : FVec F S1x128 .f32 → FVec F S100000x128 .f32),
    StableHlo.binary main_v190 main_v199 main_v200 (subf : FVec F S100000x128 .f32 → FVec F S100000x128 .f32 → FVec F S100000x128 .f32),
    StableHlo.binary main_v200 main_v200 main_v201 (mulf : FVec F S100000x128 .f32 → FVec F S100000x128 .f32 → FVec F S100000x128 .f32),
    StableHlo.nullary main_cst_28 (constant S_ .f32 0x00000000#32),
    StableHlo.binary main_v201 main_cst_28 main_v202 ((fun x v => Host.reduceAdd x v reducesTo_S100000x128_S128_d0 h_S_) : FVec F S100000x128 .f32 → FVec F S_ .f32 → FVec F S128 .f32),
    StableHlo.nullary main_cst_29 (constant S_ .f32 0x47C35000#32),
    StableHlo.unary main_cst_29 main_v203 (broadcastInDim S128 ![] bcast_S_S128 : FVec F S_ .f32 → FVec F S128 .f32),
    StableHlo.binary main_v202 main_v203 main_v204 (Host.divf : FVec F S128 .f32 → FVec F S128 .f32 → FVec F S128 .f32),
    StableHlo.unary main_v197 main_v205 (broadcastInDim S1x128 ![1] bcast_S128_S1x128_1 : FVec F S128 .f32 → FVec F S1x128 .f32),
    StableHlo.unary main_v205 main_v206 (broadcastInDim S100000x128 ![0, 1] bcast_S1x128_S100000x128_0_1 : FVec F S1x128 .f32 → FVec F S100000x128 .f32),
    StableHlo.binary main_v190 main_v206 main_v207 (subf : FVec F S100000x128 .f32 → FVec F S100000x128 .f32 → FVec F S100000x128 .f32) ]

noncomputable abbrev ops3_W : List (Ref sig .tc) :=
  [main_cst_22, main_v156, main_v157, main_v158, main_v159, main_v160, main_v161, main_v162, main_v163, main_v164, main_v165, main_v166,
   main_v167, main_v168, main_v169, main_v170, main_c_23, main_v171, main_v172, main_c_24, main_v173, main_v174, main_v175, main_v176,
   main_v177, main_v178, main_v179, main_v180, main_cst_25, main_v181, main_v182, main_v183, main_v184, main_v185, main_v186, main_v187,
   main_v188, main_v189, main_v190, main_v191, main_v192, main_v193, main_v194, main_cst_26, main_v195, main_cst_27, main_v196, main_v197,
   main_v198, main_v199, main_v200, main_v201, main_cst_28, main_v202, main_cst_29, main_v203, main_v204, main_v205, main_v206, main_v207]

theorem ops3_ok : Line ops3_W (ops3 : List (HloOp τ sig (Elt F))) := by
  repeat' first
    | exact .nil | apply List.Forall₂.cons | exact ok_nullary .. | exact ok_unary .. | exact ok_binary ..
    | exact ok_ternary .. | exact ok_reshape ..

end Cert.ReferenceIdeal.GcnValue

end
-- ==== Proof.RefRunV3.lean ====
import proofs.«156818_j43868795961418_1_alg».proof.Proof.RefRunSt
import proofs.«156818_j43868795961418_1_alg».proof.Proof.RefRunW3

set_option maxHeartbeats 1000000

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

theorem args4 {V : Valuation τ sig (Elt Ideal)} {I : Inputs} (hA : Args V I) : Args (after (ops3 (F := Ideal)) V) I :=
  hA.keep ops3_ok (by decide)

theorem graph4 {V : Valuation τ sig (Elt Ideal)} {I : Inputs} (hG : Graph V I) : Graph (after (ops3 (F := Ideal)) V) I :=
  hG.keep ops3_ok (by decide)

variable {V : Valuation τ sig (Elt Ideal)} {I : Inputs} (hA : Args V I) (hG : Graph V I) (h : St3 V I)
include hA hG h

theorem st4_v165 : after (ops3 (F := Ideal)) V (Proc.devRef .tc main_v165) = I.TA := by
  after_results_simp
  rw [h.v155, h.v145, h.v144, hG.v3, hG.v30]
  rfl

theorem st4_v192 : after (ops3 (F := Ideal)) V (Proc.devRef .tc main_v192) = rRowB I.g1 := by
  after_results_simp
  rw [hA.arg4]
  rfl

theorem st4_v194 : after (ops3 (F := Ideal)) V (Proc.devRef .tc main_v194) = rRowB I.bt1 := by
  after_results_simp
  rw [hA.arg5]
  rfl

theorem st4_v204 : after (ops3 (F := Ideal)) V (Proc.devRef .tc main_v204) = bnVar I.cB1 := by
  after_results_simp
  rw [hA.arg0, hA.arg2, hA.arg3, hG.v1, hG.v29, hG.v3, hG.v30]
  rfl

theorem st4_v207 : after (ops3 (F := Ideal)) V (Proc.devRef .tc main_v207) = bnCentre I.cB1 := by
  after_results_simp
  rw [hA.arg0, hA.arg2, hA.arg3, hG.v1, hG.v29, hG.v3, hG.v30]
  rfl

theorem st4 : St4 (after (ops3 (F := Ideal)) V) I where
  v165 := st4_v165 hA hG h
  v192 := st4_v192 hA hG h
  v194 := st4_v194 hA hG h
  v204 := st4_v204 hA hG h
  v207 := st4_v207 hA hG h

end Cert.ReferenceIdeal.GcnValue

end
-- ==== Proof.RefRunW4.lean ====
import proofs.«156818_j43868795961418_1_alg».proof.Proof.RefRunLib

noncomputable section

namespace Cert.ReferenceIdeal.GcnValue

open Cert.ReferenceIdeal Cert.ReferenceIdeal.Gen Idealize.ShloMosaic Idealize.ShloMosaic.TcCoe Idealize.SL.Sem Idealize.ShloMosaic.StableHlo Cert.RefLine

variable {F : FTy → Type} [FloatOps F]

noncomputable abbrev ops4 : List (HloOp τ sig (Elt F)) :=
  [ StableHlo.unary main_v192 main_v208 (broadcastInDim S1x128 ![1] bcast_S128_S1x128_1 : FVec F S128 .f32 → FVec F S1x128 .f32),
    StableHlo.unary main_v208 main_v209 (broadcastInDim S100000x128 ![0, 1] bcast_S1x128_S100000x128_0_1 : FVec F S1x128 .f32 → FVec F S100000x128 .f32),
    StableHlo.binary main_v209 main_v207 main_v210 (mulf : FVec F S100000x128 .f32 → FVec F S100000x128 .f32 → FVec F S100000x128 .f32),
    StableHlo.nullary main_cst_30 (constant S_ .f32 0x3727C5AC#32),
    StableHlo.unary main_cst_30 main_v211 (broadcastInDim S128 ![] bcast_S_S128 : FVec F S_ .f32 → FVec F S128 .f32),
    StableHlo.binary main_v204 main_v211 main_v212 (addf : FVec F S128 .f32 → FVec F S128 .f32 → FVec F S128 .f32),
    StableHlo.unary main_v212 main_v213 (Host.rsqrt : FVec F S128 .f32 → FVec F S128 .f32),
    StableHlo.unary main_v213 main_v214 (broadcastInDim S1x128 ![1] bcast_S128_S1x128_1 : FVec F S128 .f32 → FVec F S1x128 .f32),
    StableHlo.unary main_v214 main_v215 (broadcastInDim S100000x128 ![0, 1] bcast_S1x128_S100000x128_0_1 : FVec F S1x128 .f32 → FVec F S100000x128 .f32),
    StableHlo.binary main_v210 main_v215 main_v216 (mulf : FVec F S100000x128 .f32 → FVec F S100000x128 .f32 → FVec F S100000x128 .f32),
    StableHlo.unary main_v194 main_v217 (broadcastInDim S1x128 ![1] bcast_S128_S1x128_1 : FVec F S128 .f32 → FVec F S1x128 .f32),
    StableHlo.unary main_v217 main_v218 (broadcastInDim S100000x128 ![0, 1] bcast_S1x128_S100000x128_0_1 : FVec F S1x128 .f32 → FVec F S100000x128 .f32),
    StableHlo.binary main_v216 main_v218 main_v219 (addf : FVec F S100000x128 .f32 → FVec F S100000x128 .f32 → FVec F S100000x128 .f32),
    StableHlo.TRef.nullary main_call2.cst (constant S_ .f32 0x00000000#32),
    StableHlo.TRef.unary main_call2.cst main_call2.v0 (broadcastInDim S100000x128 ![] bcast_S_S100000x128),
    StableHlo.TRef.binary (.of main_v219) main_call2.v0 main_call2.v1 maximumf,
    StableHlo.unary main_arg6 main_v221 ((extractStridedSlice S1x128x128 ![1, 0, 0] · slices_S2x128x128_S1x128x128_1_0_0) : FVec F S2x128x128 .f32 → FVec F S1x128x128 .f32),
    StableHlo.reshape main_v221 main_v222 rfl shapeCasts_S1x128x128_S128x128,
    StableHlo.unary main_arg7 main_v223 ((extractStridedSlice S1x128 ![1, 0] · slices_S2x128_S1x128_1_0) : FVec F S2x128 .f32 → FVec F S1x128 .f32),
    StableHlo.reshape main_v223 main_v224 rfl shapeCasts_S1x128_S128,
    StableHlo.binary main_v220 main_v222 main_v225 ((fun l r => Host.dotGeneral dot_S100000x128_S128x128_S100000x128_1_0_0_1_n_n none l r) : FVec F S100000x128 .f32 → FVec F S128x128 .f32 → FVec F S100000x128 .f32),
    StableHlo.nullary main_c_31 (constantI S_ 32 0#32),
    StableHlo.unary main_c_31 main_v226 (broadcastInDim S1600000 ![] bcast_S_S1600000 : IVec S_ 32 → IVec S1600000 32),
    StableHlo.binary main_v1 main_v226 main_v227 (cmpi .slt : IVec S1600000 32 → IVec S1600000 32 → IVec S1600000 1),
    StableHlo.nullary main_c_32 (constantI S_ 32 100000#32),
    StableHlo.unary main_c_32 main_v228 (broadcastInDim S1600000 ![] bcast_S_S1600000 : IVec S_ 32 → IVec S1600000 32),
    StableHlo.binary main_v1 main_v228 main_v229 (addi : IVec S1600000 32 → IVec S1600000 32 → IVec S1600000 32),
    StableHlo.ternary main_v227 main_v229 main_v1 main_v230 (select : IVec S1600000 1 → IVec S1600000 32 → IVec S1600000 32 → IVec S1600000 32),
    StableHlo.unary main_v230 main_v231 (broadcastInDim S1600000x1 ![0] bcast_S1600000_S1600000x1_0 : IVec S1600000 32 → IVec S1600000x1 32),
    StableHlo.binary main_v225 main_v231 main_v232 ((fun x i => Host.gather gather_S100000x128_S1600000x1_S1600000x128_1_0_n_n_0_1_1128 x i) : FVec F S100000x128 .f32 → IVec S1600000x1 32 → FVec F S1600000x128 .f32),
    StableHlo.unary main_v29 main_v233 (broadcastInDim S1600000x1 ![0] bcast_S1600000_S1600000x1_0 : FVec F S1600000 .f32 → FVec F S1600000x1 .f32),
    StableHlo.unary main_v233 main_v234 (broadcastInDim S1600000x128 ![0, 1] bcast_S1600000x1_S1600000x128_0_1 : FVec F S1600000x1 .f32 → FVec F S1600000x128 .f32),
    StableHlo.binary main_v232 main_v234 main_v235 (mulf : FVec F S1600000x128 .f32 → FVec F S1600000x128 .f32 → FVec F S1600000x128 .f32),
    StableHlo.nullary main_cst_33 (constant S_ .f32 0x00000000#32),
    StableHlo.unary main_cst_33 main_v236 (broadcastInDim S100000x128 ![] bcast_S_S100000x128 : FVec F S_ .f32 → FVec F S100000x128 .f32),
    StableHlo.unary main_v3 main_v237 (broadcastInDim S1600000x1 ![0] bcast_S1600000_S1600000x1_0 : IVec S1600000 32 → IVec S1600000x1 32),
    StableHlo.ternary main_v236 main_v237 main_v235 main_v238 ((fun x i u => Host.scatterAdd scatter_S100000x128_S1600000x1_S1600000x128_1_0_0_1 x i u) : FVec F S100000x128 .f32 → IVec S1600000x1 32 → FVec F S1600000x128 .f32 → FVec F S100000x128 .f32),
    StableHlo.unary main_v30 main_v239 (broadcastInDim S100000x1 ![0] bcast_S100000_S100000x1_0 : FVec F S100000 .f32 → FVec F S100000x1 .f32),
    StableHlo.unary main_v239 main_v240 (broadcastInDim S100000x128 ![0, 1] bcast_S100000x1_S100000x128_0_1 : FVec F S100000x1 .f32 → FVec F S100000x128 .f32),
    StableHlo.binary main_v240 main_v225 main_v241 (mulf : FVec F S100000x128 .f32 → FVec F S100000x128 .f32 → FVec F S100000x128 .f32),
    StableHlo.binary main_v238 main_v241 main_v242 (addf : FVec F S100000x128 .f32 → FVec F S100000x128 .f32 → FVec F S100000x128 .f32),
    StableHlo.unary main_v224 main_v243 (broadcastInDim S1x128 ![1] bcast_S128_S1x128_1 : FVec F S128 .f32 → FVec F S1x128 .f32),
    StableHlo.unary main_v243 main_v244 (broadcastInDim S100000x128 ![0, 1] bcast_S1x128_S100000x128_0_1 : FVec F S1x128 .f32 → FVec F S100000x128 .f32),
    StableHlo.binary main_v242 main_v244 main_v245 (addf : FVec F S100000x128 .f32 → FVec F S100000x128 .f32 → FVec F S100000x128 .f32),
    StableHlo.unary main_arg8 main_v246 ((extractStridedSlice S1x128 ![1, 0] · slices_S2x128_S1x128_1_0) : FVec F S2x128 .f32 → FVec F S1x128 .f32),
    StableHlo.reshape main_v246 main_v247 rfl shapeCasts_S1x128_S128,
    StableHlo.unary main_arg9 main_v248 ((extractStridedSlice S1x128 ![1, 0] · slices_S2x128_S1x128_1_0) : FVec F S2x128 .f32 → FVec F S1x128 .f32),
    StableHlo.reshape main_v248 main_v249 rfl shapeCasts_S1x128_S128,
    StableHlo.nullary main_cst_34 (constant S_ .f32 0x00000000#32),
    StableHlo.binary main_v245 main_cst_34 main_v250 ((fun x v => Host.reduceAdd x v reducesTo_S100000x128_S128_d0 h_S_) : FVec F S100000x128 .f32 → FVec F S_ .f32 → FVec F S128 .f32),
    StableHlo.nullary main_cst_35 (constant S_ .f32 0x47C35000#32),
    StableHlo.unary main_cst_35 main_v251 (broadcastInDim S128 ![] bcast_S_S128 : FVec F S_ .f32 → FVec F S128 .f32),
    StableHlo.binary main_v250 main_v251 main_v252 (Host.divf : FVec F S128 .f32 → FVec F S128 .f32 → FVec F S128 .f32),
    StableHlo.unary main_v252 main_v253 (broadcastInDim S1x128 ![1] bcast_S128_S1x128_1 : FVec F S128 .f32 → FVec F S1x128 .f32),
    StableHlo.unary main_v253 main_v254 (broadcastInDim S100000x128 ![0, 1] bcast_S1x128_S100000x128_0_1 : FVec F S1x128 .f32 → FVec F S100000x128 .f32),
    StableHlo.binary main_v245 main_v254 main_v255 (subf : FVec F S100000x128 .f32 → FVec F S100000x128 .f32 → FVec F S100000x128 .f32),
    StableHlo.binary main_v255 main_v255 main_v256 (mulf : FVec F S100000x128 .f32 → FVec F S100000x128 .f32 → FVec F S100000x128 .f32),
    StableHlo.nullary main_cst_36 (constant S_ .f32 0x00000000#32),
    StableHlo.binary main_v256 main_cst_36 main_v257 ((fun x v => Host.reduceAdd x v reducesTo_S100000x128_S128_d0 h_S_) : FVec F S100000x128 .f32 → FVec F S_ .f32 → FVec F S128 .f32),
    StableHlo.nullary main_cst_37 (constant S_ .f32 0x47C35000#32),
    StableHlo.unary main_cst_37 main_v258 (broadcastInDim S128 ![] bcast_S_S128 : FVec F S_ .f32 → FVec F S128 .f32),
    StableHlo.binary main_v257 main_v258 main_v259 (Host.divf : FVec F S128 .f32 → FVec F S128 .f32 → FVec F S128 .f32) ]

noncomputable abbrev ops4_W : List (Ref sig .tc) :=
  [main_v208, main_v209, main_v210, main_cst_30, main_v211, main_v212, main_v213, main_v214, main_v215, main_v216, main_v217, main_v218,
   main_v219, main_call2_cst, main_call2_v0, main_v220, main_v221, main_v222, main_v223, main_v224, main_v225, main_c_31, main_v226, main_v227,
   main_c_32, main_v228, main_v229, main_v230, main_v231, main_v232, main_v233, main_v234, main_v235, main_cst_33, main_v236, main_v237,
   main_v238, main_v239, main_v240, main_v241, main_v242, main_v243, main_v244, main_v245, main_v246, main_v247, main_v248, main_v249,
   main_cst_34, main_v250, main_cst_35, main_v251, main_v252, main_v253, main_v254, main_v255, main_v256, main_cst_36, main_v257, main_cst_37,
   main_v258, main_v259]

theorem ops4_ok : Line ops4_W (ops4 : List (HloOp τ sig (Elt F))) := by
  repeat' first
    | exact .nil | apply List.Forall₂.cons | exact ok_nullary .. | exact ok_unary .. | exact ok_binary ..
    | exact ok_ternary .. | exact ok_reshape ..

end Cert.ReferenceIdeal.GcnValue

end
-- ==== Proof.RefRunV4.lean ====
import proofs.«156818_j43868795961418_1_alg».proof.Proof.RefRunSt
import proofs.«156818_j43868795961418_1_alg».proof.Proof.RefRunW4

set_option maxHeartbeats 1000000

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

theorem args5 {V : Valuation τ sig (Elt Ideal)} {I : Inputs} (hA : Args V I) : Args (after (ops4 (F := Ideal)) V) I :=
  hA.keep ops4_ok (by decide)

theorem graph5 {V : Valuation τ sig (Elt Ideal)} {I : Inputs} (hG : Graph V I) : Graph (after (ops4 (F := Ideal)) V) I :=
  hG.keep ops4_ok (by decide)

variable {V : Valuation τ sig (Elt Ideal)} {I : Inputs} (hA : Args V I) (hG : Graph V I) (h : St4 V I)
include hA hG h

theorem st5_v245 : after (ops4 (F := Ideal)) V (Proc.devRef .tc main_v245) = I.cB2 := by
  after_results_simp
  rw [h.v192, h.v194, h.v204, h.v207, hA.arg6, hA.arg7, hG.v1, hG.v29, hG.v3, hG.v30]
  rfl

theorem st5_v247 : after (ops4 (F := Ideal)) V (Proc.devRef .tc main_v247) = rRowB I.g2 := by
  after_results_simp
  rw [hA.arg8]
  rfl

theorem st5_v249 : after (ops4 (F := Ideal)) V (Proc.devRef .tc main_v249) = rRowB I.bt2 := by
  after_results_simp
  rw [hA.arg9]
  rfl

theorem st5_v252 : after (ops4 (F := Ideal)) V (Proc.devRef .tc main_v252) = bnMean I.cB2 := by
  after_results_simp
  rw [h.v192, h.v194, h.v204, h.v207, hA.arg6, hA.arg7, hG.v1, hG.v29, hG.v3, hG.v30]
  rfl

theorem st5_v259 : after (ops4 (F := Ideal)) V (Proc.devRef .tc main_v259) = bnVar I.cB2 := by
  after_results_simp
  rw [h.v192, h.v194, h.v204, h.v207, hA.arg6, hA.arg7, hG.v1, hG.v29, hG.v3, hG.v30]
  rfl

theorem st5 : St5 (after (ops4 (F := Ideal)) V) I where
  v165 := (ops4_ok.keep V (by decide)).trans h.v165
  v245 := st5_v245 hA hG h
  v247 := st5_v247 hA hG h
  v249 := st5_v249 hA hG h
  v252 := st5_v252 hA hG h
  v259 := st5_v259 hA hG h

end Cert.ReferenceIdeal.GcnValue

end
-- ==== Proof.RefRunW5.lean ====
import proofs.«156818_j43868795961418_1_alg».proof.Proof.RefRunLib

noncomputable section

namespace Cert.ReferenceIdeal.GcnValue

open Cert.ReferenceIdeal Cert.ReferenceIdeal.Gen Idealize.ShloMosaic Idealize.ShloMosaic.TcCoe Idealize.SL.Sem Idealize.ShloMosaic.StableHlo Cert.RefLine

variable {F : FTy → Type} [FloatOps F]

noncomputable abbrev ops5a : List (HloOp τ sig (Elt F)) :=
  [ StableHlo.unary main_v252 main_v260 (broadcastInDim S1x128 ![1] bcast_S128_S1x128_1 : FVec F S128 .f32 → FVec F S1x128 .f32),
    StableHlo.unary main_v260 main_v261 (broadcastInDim S100000x128 ![0, 1] bcast_S1x128_S100000x128_0_1 : FVec F S1x128 .f32 → FVec F S100000x128 .f32),
    StableHlo.binary main_v245 main_v261 main_v262 (subf : FVec F S100000x128 .f32 → FVec F S100000x128 .f32 → FVec F S100000x128 .f32),
    StableHlo.unary main_v247 main_v263 (broadcastInDim S1x128 ![1] bcast_S128_S1x128_1 : FVec F S128 .f32 → FVec F S1x128 .f32),
    StableHlo.unary main_v263 main_v264 (broadcastInDim S100000x128 ![0, 1] bcast_S1x128_S100000x128_0_1 : FVec F S1x128 .f32 → FVec F S100000x128 .f32),
    StableHlo.binary main_v264 main_v262 main_v265 (mulf : FVec F S100000x128 .f32 → FVec F S100000x128 .f32 → FVec F S100000x128 .f32),
    StableHlo.nullary main_cst_38 (constant S_ .f32 0x3727C5AC#32),
    StableHlo.unary main_cst_38 main_v266 (broadcastInDim S128 ![] bcast_S_S128 : FVec F S_ .f32 → FVec F S128 .f32),
    StableHlo.binary main_v259 main_v266 main_v267 (addf : FVec F S128 .f32 → FVec F S128 .f32 → FVec F S128 .f32),
    StableHlo.unary main_v267 main_v268 (Host.rsqrt : FVec F S128 .f32 → FVec F S128 .f32),
    StableHlo.unary main_v268 main_v269 (broadcastInDim S1x128 ![1] bcast_S128_S1x128_1 : FVec F S128 .f32 → FVec F S1x128 .f32),
    StableHlo.unary main_v269 main_v270 (broadcastInDim S100000x128 ![0, 1] bcast_S1x128_S100000x128_0_1 : FVec F S1x128 .f32 → FVec F S100000x128 .f32),
    StableHlo.binary main_v265 main_v270 main_v271 (mulf : FVec F S100000x128 .f32 → FVec F S100000x128 .f32 → FVec F S100000x128 .f32),
    StableHlo.unary main_v249 main_v272 (broadcastInDim S1x128 ![1] bcast_S128_S1x128_1 : FVec F S128 .f32 → FVec F S1x128 .f32),
    StableHlo.unary main_v272 main_v273 (broadcastInDim S100000x128 ![0, 1] bcast_S1x128_S100000x128_0_1 : FVec F S1x128 .f32 → FVec F S100000x128 .f32),
    StableHlo.binary main_v271 main_v273 main_v274 (addf : FVec F S100000x128 .f32 → FVec F S100000x128 .f32 → FVec F S100000x128 .f32),
    StableHlo.TRef.nullary main_call3.cst (constant S_ .f32 0x00000000#32),
    StableHlo.TRef.unary main_call3.cst main_call3.v0 (broadcastInDim S100000x128 ![] bcast_S_S100000x128),
    StableHlo.TRef.binary (.of main_v274) main_call3.v0 main_call3.v1 maximumf,
    StableHlo.unary main_arg10 main_v276 ((extractStridedSlice S1x128x40 ![1, 0, 0] · slices_S2x128x40_S1x128x40_1_0_0) : FVec F S2x128x40 .f32 → FVec F S1x128x40 .f32),
    StableHlo.reshape main_v276 main_v277 rfl shapeCasts_S1x128x40_S128x40,
    StableHlo.unary main_arg11 main_v278 ((extractStridedSlice S1x40 ![1, 0] · slices_S2x40_S1x40_1_0) : FVec F S2x40 .f32 → FVec F S1x40 .f32),
    StableHlo.reshape main_v278 main_v279 rfl shapeCasts_S1x40_S40,
    StableHlo.binary main_v275 main_v277 main_v280 ((fun l r => Host.dotGeneral dot_S100000x128_S128x40_S100000x40_1_0_0_1_n_n none l r) : FVec F S100000x128 .f32 → FVec F S128x40 .f32 → FVec F S100000x40 .f32),
    StableHlo.nullary main_c_39 (constantI S_ 32 0#32),
    StableHlo.unary main_c_39 main_v281 (broadcastInDim S1600000 ![] bcast_S_S1600000 : IVec S_ 32 → IVec S1600000 32),
    StableHlo.binary main_v1 main_v281 main_v282 (cmpi .slt : IVec S1600000 32 → IVec S1600000 32 → IVec S1600000 1),
    StableHlo.nullary main_c_40 (constantI S_ 32 100000#32),
    StableHlo.unary main_c_40 main_v283 (broadcastInDim S1600000 ![] bcast_S_S1600000 : IVec S_ 32 → IVec S1600000 32),
    StableHlo.binary main_v1 main_v283 main_v284 (addi : IVec S1600000 32 → IVec S1600000 32 → IVec S1600000 32),
    StableHlo.ternary main_v282 main_v284 main_v1 main_v285 (select : IVec S1600000 1 → IVec S1600000 32 → IVec S1600000 32 → IVec S1600000 32),
    StableHlo.unary main_v285 main_v286 (broadcastInDim S1600000x1 ![0] bcast_S1600000_S1600000x1_0 : IVec S1600000 32 → IVec S1600000x1 32),
    StableHlo.binary main_v280 main_v286 main_v287 ((fun x i => Host.gather gather_S100000x40_S1600000x1_S1600000x40_1_0_n_n_0_1_140 x i) : FVec F S100000x40 .f32 → IVec S1600000x1 32 → FVec F S1600000x40 .f32),
    StableHlo.unary main_v29 main_v288 (broadcastInDim S1600000x1 ![0] bcast_S1600000_S1600000x1_0 : FVec F S1600000 .f32 → FVec F S1600000x1 .f32),
    StableHlo.unary main_v288 main_v289 (broadcastInDim S1600000x40 ![0, 1] bcast_S1600000x1_S1600000x40_0_1 : FVec F S1600000x1 .f32 → FVec F S1600000x40 .f32),
    StableHlo.binary main_v287 main_v289 main_v290 (mulf : FVec F S1600000x40 .f32 → FVec F S1600000x40 .f32 → FVec F S1600000x40 .f32),
    StableHlo.nullary main_cst_41 (constant S_ .f32 0x00000000#32),
    StableHlo.unary main_cst_41 main_v291 (broadcastInDim S100000x40 ![] bcast_S_S100000x40 : FVec F S_ .f32 → FVec F S100000x40 .f32),
    StableHlo.unary main_v3 main_v292 (broadcastInDim S1600000x1 ![0] bcast_S1600000_S1600000x1_0 : IVec S1600000 32 → IVec S1600000x1 32),
    StableHlo.ternary main_v291 main_v292 main_v290 main_v293 ((fun x i u => Host.scatterAdd scatter_S100000x40_S1600000x1_S1600000x40_1_0_0_1 x i u) : FVec F S100000x40 .f32 → IVec S1600000x1 32 → FVec F S1600000x40 .f32 → FVec F S100000x40 .f32),
    StableHlo.unary main_v30 main_v294 (broadcastInDim S100000x1 ![0] bcast_S100000_S100000x1_0 : FVec F S100000 .f32 → FVec F S100000x1 .f32),
    StableHlo.unary main_v294 main_v295 (broadcastInDim S100000x40 ![0, 1] bcast_S100000x1_S100000x40_0_1 : FVec F S100000x1 .f32 → FVec F S100000x40 .f32),
    StableHlo.binary main_v295 main_v280 main_v296 (mulf : FVec F S100000x40 .f32 → FVec F S100000x40 .f32 → FVec F S100000x40 .f32),
    StableHlo.binary main_v293 main_v296 main_v297 (addf : FVec F S100000x40 .f32 → FVec F S100000x40 .f32 → FVec F S100000x40 .f32),
    StableHlo.unary main_v279 main_v298 (broadcastInDim S1x40 ![1] bcast_S40_S1x40_1 : FVec F S40 .f32 → FVec F S1x40 .f32),
    StableHlo.unary main_v298 main_v299 (broadcastInDim S100000x40 ![0, 1] bcast_S1x40_S100000x40_0_1 : FVec F S1x40 .f32 → FVec F S100000x40 .f32),
    StableHlo.binary main_v297 main_v299 main_v300 (addf : FVec F S100000x40 .f32 → FVec F S100000x40 .f32 → FVec F S100000x40 .f32) ]

noncomputable abbrev ops5a_W : List (Ref sig .tc) :=
  [main_v260, main_v261, main_v262, main_v263, main_v264, main_v265, main_cst_38, main_v266, main_v267, main_v268, main_v269, main_v270,
   main_v271, main_v272, main_v273, main_v274, main_call3_cst, main_call3_v0, main_v275, main_v276, main_v277, main_v278, main_v279, main_v280,
   main_c_39, main_v281, main_v282, main_c_40, main_v283, main_v284, main_v285, main_v286, main_v287, main_v288, main_v289, main_v290,
   main_cst_41, main_v291, main_v292, main_v293, main_v294, main_v295, main_v296, main_v297, main_v298, main_v299, main_v300]

theorem ops5a_ok : Line ops5a_W (ops5a : List (HloOp τ sig (Elt F))) := by
  repeat' first
    | exact .nil | apply List.Forall₂.cons | exact ok_nullary .. | exact ok_unary .. | exact ok_binary ..
    | exact ok_ternary .. | exact ok_reshape ..

noncomputable abbrev ops5b : List (HloOp τ sig (Elt F)) :=
  [ StableHlo.unary main_v165 main_v301 (broadcastInDim S1x100000x40 ![1, 2] bcast_S100000x40_S1x100000x40_1_2 : FVec F S100000x40 .f32 → FVec F S1x100000x40 .f32),
    StableHlo.unary main_v300 main_v302 (broadcastInDim S1x100000x40 ![1, 2] bcast_S100000x40_S1x100000x40_1_2 : FVec F S100000x40 .f32 → FVec F S1x100000x40 .f32),
    StableHlo.binary main_v301 main_v302 main_v303 ((fun a b => concatenate S2x100000x40 0 [⟨S1x100000x40, a⟩, ⟨S1x100000x40, b⟩] concatenates_S1x100000x40_S1x100000x40_S2x100000x40_d0) : FVec F S1x100000x40 .f32 → FVec F S1x100000x40 .f32 → FVec F S2x100000x40 .f32) ]

noncomputable abbrev ops5b_W : List (Ref sig .tc) := [main_v301, main_v302, main_v303]

theorem ops5b_ok : Line ops5b_W (ops5b : List (HloOp τ sig (Elt F))) := by
  repeat' first
    | exact .nil | apply List.Forall₂.cons | exact ok_nullary .. | exact ok_unary .. | exact ok_binary ..
    | exact ok_ternary .. | exact ok_reshape ..

end Cert.ReferenceIdeal.GcnValue

end
-- ==== Proof.RefRunV5.lean ====
import proofs.«156818_j43868795961418_1_alg».proof.Proof.RefRunSt
import proofs.«156818_j43868795961418_1_alg».proof.Proof.RefRunW5

set_option maxHeartbeats 1000000

noncomputable section

namespace Cert.ReferenceIdeal.GcnValue

open Cert.ReferenceIdeal Cert.ReferenceIdeal.Gen Cert.Tower Cert.StageLaws Idealize.ShloMosaic Idealize.ShloMosaic.TcCoe Idealize.SL.Sem Idealize.ShloMosaic.StableHlo Cert.RefLine

/-- The last three operations stack the two towers' buffers, whatever they hold. -/
theorem stack_read (V : Valuation τ sig (Elt Ideal)) :
    after (ops5b (F := Ideal)) V (Proc.devRef .tc main_v303)
      = rStack (V (Proc.devRef .tc main_v165)) (V (Proc.devRef .tc main_v300)) := by
  after_results
  rfl

theorem args6 {V : Valuation τ sig (Elt Ideal)} {I : Inputs} (hA : Args V I) :
    Args (after (ops5b (F := Ideal)) (after ops5a V)) I :=
  (hA.keep ops5a_ok (by decide)).keep ops5b_ok (by decide)

variable {V : Valuation τ sig (Elt Ideal)} {I : Inputs} (hA : Args V I) (hG : Graph V I) (h : St5 V I)
include hA hG h

theorem towerB : after (ops5a (F := Ideal)) V (Proc.devRef .tc main_v300) = I.TB := by
  after_results_simp
  rw [h.v245, h.v247, h.v249, h.v252, h.v259, hA.arg10, hA.arg11, hG.v1, hG.v29, hG.v3, hG.v30]
  rfl

theorem st6 : after (ops5b (F := Ideal)) (after ops5a V) (Proc.devRef .tc main_v303) = rStack I.TA I.TB := by
  rw [stack_read, ops5a_ok.keep V (by decide), towerB hA hG h, h.v165]

end Cert.ReferenceIdeal.GcnValue

end
-- ==== Proof.RefRun.lean ====
import proofs.«156818_j43868795961418_1_alg».proof.Proof.RefRunV0
import proofs.«156818_j43868795961418_1_alg».proof.Proof.RefRunV1
import proofs.«156818_j43868795961418_1_alg».proof.Proof.RefRunV2
import proofs.«156818_j43868795961418_1_alg».proof.Proof.RefRunV3
import proofs.«156818_j43868795961418_1_alg».proof.Proof.RefRunV4
import proofs.«156818_j43868795961418_1_alg».proof.Proof.RefRunV5

noncomputable section

namespace Cert.ReferenceIdeal.GcnValue

open Cert.ReferenceIdeal Cert.ReferenceIdeal.Gen Cert.Tower Idealize.ShloMosaic Idealize.ShloMosaic.TcCoe Idealize.SL.Sem Idealize.ShloMosaic.StableHlo Cert.RefLine

section Run

variable {F : FTy → Type} [FloatOps F]

abbrev ops : List (HloOp τ sig (Elt F)) := ops0 ++ ops1 ++ ops2 ++ ops3 ++ ops4 ++ ops5a ++ ops5b
noncomputable abbrev ops_W : List (Ref sig .tc) := ops0_W ++ ops1_W ++ ops2_W ++ ops3_W ++ ops4_W ++ ops5a_W ++ ops5b_W

theorem main_eq (d : Dev nD) : main (F := F) d = seq ops := by chain_rfl

theorem ops_ok : Line ops_W (ops : List (HloOp τ sig (Elt F))) :=
  (((((ops0_ok.append ops1_ok).append ops2_ok).append ops3_ok).append ops4_ok).append ops5a_ok).append ops5b_ok

theorem scopedRefs_eq : (Finset.univ.filter fun b : Ref sig .tc => b.isScoped) = ∅ := by decide
theorem scopedSems_eq : (Finset.univ.filter fun sm : SemLoc sig => sm.isScoped .tc) = ∅ := by decide

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_ok.sub) m ρ (fun _ => ops_ok.fresh)

end Run

/-- Window by window, each taking what the live buffers hold at its start to what they hold at its end. -/
theorem value_of {V : Valuation τ sig (Elt Ideal)} {I : Inputs} (hA : Args V I) :
    after ops V (Proc.devRef .tc main_v303) = rStack I.TA I.TB ∧ Args (after ops V) I := by
  rw [after_append, after_append, after_append, after_append, after_append, after_append]
  have a1 := args1 hA
  have g1 := graph1 hA
  have a2 := args2 a1
  have g2 := graph2 g1
  have s2 := st2 a1 g1 (st1 hA)
  have a3 := args3 a2
  have g3 := graph3 g2
  have s3 := st3 a2 g2 s2
  have a4 := args4 a3
  have g4 := graph4 g3
  have s4 := st4 a3 g3 s3
  have a5 := args5 a4
  exact ⟨st6 a5 (graph5 g4) (st5 a4 g4 s4), args6 a5⟩

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v303)
        = rStack
        (rTower (m ((c.tc : Thread nD τ).loc main_arg0)) (rMatA (m ((c.tc : Thread nD τ).loc main_arg2))) (rRowA (m ((c.tc : Thread nD τ).loc main_arg3))) (rRowA (m ((c.tc : Thread nD τ).loc main_arg4))) (rRowA (m ((c.tc : Thread nD τ).loc main_arg5)))
          (rMatA (m ((c.tc : Thread nD τ).loc main_arg6))) (rRowA (m ((c.tc : Thread nD τ).loc main_arg7))) (rRowA (m ((c.tc : Thread nD τ).loc main_arg8))) (rRowA (m ((c.tc : Thread nD τ).loc main_arg9)))
          (rMat40A (m ((c.tc : Thread nD τ).loc main_arg10))) (rRow40A (m ((c.tc : Thread nD τ).loc main_arg11)))
          (rSrc (m ((c.tc : Thread nD τ).loc main_arg12))) (rDst (m ((c.tc : Thread nD τ).loc main_arg12)))
          (rWn (m ((c.tc : Thread nD τ).loc main_arg1)) (rSrc (m ((c.tc : Thread nD τ).loc main_arg12))) (rDst (m ((c.tc : Thread nD τ).loc main_arg12))))
          (rSn (m ((c.tc : Thread nD τ).loc main_arg1)) (rDst (m ((c.tc : Thread nD τ).loc main_arg12)))))
        (rTower (m ((c.tc : Thread nD τ).loc main_arg0)) (rMatB (m ((c.tc : Thread nD τ).loc main_arg2))) (rRowB (m ((c.tc : Thread nD τ).loc main_arg3))) (rRowB (m ((c.tc : Thread nD τ).loc main_arg4))) (rRowB (m ((c.tc : Thread nD τ).loc main_arg5)))
          (rMatB (m ((c.tc : Thread nD τ).loc main_arg6))) (rRowB (m ((c.tc : Thread nD τ).loc main_arg7))) (rRowB (m ((c.tc : Thread nD τ).loc main_arg8))) (rRowB (m ((c.tc : Thread nD τ).loc main_arg9)))
          (rMat40B (m ((c.tc : Thread nD τ).loc main_arg10))) (rRow40B (m ((c.tc : Thread nD τ).loc main_arg11)))
          (rSrc (m ((c.tc : Thread nD τ).loc main_arg12))) (rDst (m ((c.tc : Thread nD τ).loc main_arg12)))
          (rWn (m ((c.tc : Thread nD τ).loc main_arg1)) (rSrc (m ((c.tc : Thread nD τ).loc main_arg12))) (rDst (m ((c.tc : Thread nD τ).loc main_arg12))))
          (rSn (m ((c.tc : Thread nD τ).loc main_arg1)) (rDst (m ((c.tc : Thread nD τ).loc main_arg12)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have ⟨v, A⟩ := value_of (Args.of (launchContents m c))
    ⟨(h c _).trans v, (h c _).trans A.arg0, (h c _).trans A.arg1, (h c _).trans A.arg2, (h c _).trans A.arg3, (h c _).trans A.arg4, (h c _).trans A.arg5, (h c _).trans A.arg6, (h c _).trans A.arg7, (h c _).trans A.arg8, (h c _).trans A.arg9, (h c _).trans A.arg10, (h c _).trans A.arg11, (h c _).trans A.arg12⟩)
    (run_after m ρ)

end Cert.ReferenceIdeal.GcnValue

end
-- ==== Proof.lean ====
/-
  The three frames, the empty ledger of the idealization, and the equivalence over the reals: both programs compute
  two three-layer graph-convolution towers (dense layer, aggregation along the edges with a self-loop term, batch
  normalisation between layers) and stack them; on real inputs with positive node degrees the two spellings of a
  tower are one function.
-/
import proofs.«156818_j43868795961418_1_alg».proof.Defs
import proofs.«156818_j43868795961418_1_alg».proof.Proof.Gen.Kernel
import proofs.«156818_j43868795961418_1_alg».proof.Proof.Gen.Kernel.Frame
import proofs.«156818_j43868795961418_1_alg».proof.Proof.Gen.KernelIdeal
import proofs.«156818_j43868795961418_1_alg».proof.Proof.Gen.KernelIdeal.Frame
import proofs.«156818_j43868795961418_1_alg».proof.Proof.Gen.ReferenceIdeal
import proofs.«156818_j43868795961418_1_alg».proof.Proof.Gen.Pre_finite_inputs
import proofs.«156818_j43868795961418_1_alg».proof.Proof.KernelRun
import proofs.«156818_j43868795961418_1_alg».proof.Proof.KWalk
import proofs.«156818_j43868795961418_1_alg».proof.Proof.RefRun
import proofs.«156818_j43868795961418_1_alg».proof.Proof.Net
import Idealize.ShloMosaic.Adequacy
import Idealize.ShloMosaic.Init

noncomputable section

namespace Cert.Proof

open Idealize.ShloMosaic Idealize.SL.Sem Cert.Tower

theorem algebraic : Cert.algebraic_KernelIdeal_ReferenceIdeal := by
  intro m ρ m' ρ' hpre hagree
  refine ⟨fun c => Cert.KernelIdeal.GcnValue.kOut m c, ?_, ?_⟩
  · exact (θ_run Cert.KernelIdeal.defs _ _).mono
      (fun r h c => ⟨(h c).1.trans (Cert.KernelIdeal.GcnValue.kernel_value m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.GcnValue.ref_run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1, (hagree c).2.2.2.2.2.2.2.2.2.2.2.2]
    exact net_eq _ _ _ _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.GcnValue.ref_run m ρ),
    trivial,
    algebraic⟩

end Cert.Proof

end
